-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v181)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v181) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v342) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S4x128x128 : Shape := ⟨3, ![4, 128, 128]⟩
abbrev S4x128 : Shape := ⟨2, ![4, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg6 : FVec F S4x128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  main_v23

def fn {F : FTy → Type} [FloatOps F] (main_arg0 : FVec F S50000x128 .f32) (main_arg1 : IVec S2x600000 32) (main_arg2 : IVec S50000 32) (main_arg3 : FVec F S4x128x128 .f32) (main_arg4 : FVec F S4x128 .f32) (main_arg5 : FVec F S4x128 .f32) (main_arg6 : FVec F S4x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg6 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S4x128x128 : Shape := ⟨3, ![4, 128, 128]⟩
abbrev S4x128 : Shape := ⟨2, ![4, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128x128 : Shape := ⟨3, ![1, 128, 128]⟩
abbrev S128x128 : Shape := ⟨2, ![128, 128]⟩
abbrev S5000x128 : Shape := ⟨2, ![5000, 128]⟩
abbrev S600000x128 : Shape := ⟨2, ![600000, 128]⟩
abbrev S50000x1 : Shape := ⟨2, ![50000, 1]⟩
abbrev S1x128 : Shape := ⟨2, ![1, 128]⟩
abbrev S128 : Shape := ⟨1, ![128]⟩
abbrev S5000 : Shape := ⟨1, ![5000]⟩
abbrev S5000x1 : Shape := ⟨2, ![5000, 1]⟩
abbrev S128x1 : Shape := ⟨2, ![128, 1]⟩

abbrev nBuf : Space → Nat
  | .hbm => 223
  | .vmem => 62
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S4x128x128, .f32⟩
  | 4 => ⟨S4x128, .f32⟩
  | 5 => ⟨S4x128, .f32⟩
  | 6 => ⟨S4x128, .f32⟩
  | 7 => ⟨S1x600000, .i32⟩
  | 8 => ⟨S600000, .i32⟩
  | 9 => ⟨S1x600000, .i32⟩
  | 10 => ⟨S600000, .i32⟩
  | 11 => ⟨S_, .f32⟩
  | 12 => ⟨S50000, .f32⟩
  | 13 => ⟨S_, .i32⟩
  | 14 => ⟨S600000, .i32⟩
  | 15 => ⟨S600000, .i1⟩
  | 16 => ⟨S_, .i32⟩
  | 17 => ⟨S600000, .i32⟩
  | 18 => ⟨S600000, .i32⟩
  | 19 => ⟨S600000, .i32⟩
  | 20 => ⟨S600000x1, .i32⟩
  | 21 => ⟨S_, .f32⟩
  | 22 => ⟨S600000, .f32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000, .f32⟩
  | 46 => ⟨S600000, .f32⟩
  | 47 => ⟨S50000, .f32⟩
  | 48 => ⟨S1x128x128, .f32⟩
  | 49 => ⟨S128x128, .f32⟩
  | 50 => ⟨S50000x128, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .f32⟩
  | 60 => ⟨S600000x1, .f32⟩
  | 61 => ⟨S600000x128, .f32⟩
  | 62 => ⟨S600000x128, .f32⟩
  | 63 => ⟨S_, .f32⟩
  | 64 => ⟨S50000x128, .f32⟩
  | 65 => ⟨S_, .i32⟩
  | 66 => ⟨S600000, .i32⟩
  | 67 => ⟨S600000, .i1⟩
  | 68 => ⟨S_, .i32⟩
  | 69 => ⟨S600000, .i32⟩
  | 70 => ⟨S600000, .i32⟩
  | 71 => ⟨S600000, .i32⟩
  | 72 => ⟨S600000x1, .i32⟩
  | 73 => ⟨S50000x128, .f32⟩
  | 74 => ⟨S50000x1, .f32⟩
  | 75 => ⟨S50000x128, .f32⟩
  | 76 => ⟨S50000x128, .f32⟩
  | 77 => ⟨S50000x128, .f32⟩
  | 78 => ⟨S1x128, .f32⟩
  | 79 => ⟨S128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S1x128, .f32⟩
  | 86 => ⟨S1x128, .f32⟩
  | 87 => ⟨S50000x128, .f32⟩
  | 88 => ⟨S1x128x128, .f32⟩
  | 89 => ⟨S128x128, .f32⟩
  | 90 => ⟨S50000x128, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000x128, .f32⟩
  | 100 => ⟨S600000x1, .f32⟩
  | 101 => ⟨S600000x128, .f32⟩
  | 102 => ⟨S600000x128, .f32⟩
  | 103 => ⟨S_, .f32⟩
  | 104 => ⟨S50000x128, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S50000x128, .f32⟩
  | 114 => ⟨S50000x1, .f32⟩
  | 115 => ⟨S50000x128, .f32⟩
  | 116 => ⟨S50000x128, .f32⟩
  | 117 => ⟨S50000x128, .f32⟩
  | 118 => ⟨S1x128, .f32⟩
  | 119 => ⟨S128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S1x128, .f32⟩
  | 126 => ⟨S1x128, .f32⟩
  | 127 => ⟨S50000x128, .f32⟩
  | _ => ⟨S50000x128, .f32⟩

abbrev hbmTy0_1 (i : Nat) : BufTy := match i % 128 with
  | 0 => ⟨S1x128x128, .f32⟩
  | 1 => ⟨S128x128, .f32⟩
  | 2 => ⟨S50000x128, .f32⟩
  | 3 => ⟨S_, .i32⟩
  | 4 => ⟨S600000, .i32⟩
  | 5 => ⟨S600000, .i1⟩
  | 6 => ⟨S_, .i32⟩
  | 7 => ⟨S600000, .i32⟩
  | 8 => ⟨S600000, .i32⟩
  | 9 => ⟨S600000, .i32⟩
  | 10 => ⟨S600000x1, .i32⟩
  | 11 => ⟨S600000x128, .f32⟩
  | 12 => ⟨S600000x1, .f32⟩
  | 13 => ⟨S600000x128, .f32⟩
  | 14 => ⟨S600000x128, .f32⟩
  | 15 => ⟨S_, .f32⟩
  | 16 => ⟨S50000x128, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S50000x128, .f32⟩
  | 26 => ⟨S50000x1, .f32⟩
  | 27 => ⟨S50000x128, .f32⟩
  | 28 => ⟨S50000x128, .f32⟩
  | 29 => ⟨S50000x128, .f32⟩
  | 30 => ⟨S1x128, .f32⟩
  | 31 => ⟨S128, .f32⟩
  | 32 => ⟨S1x128, .f32⟩
  | 33 => ⟨S128, .f32⟩
  | 34 => ⟨S1x128, .f32⟩
  | 35 => ⟨S128, .f32⟩
  | 36 => ⟨S1x128, .f32⟩
  | 37 => ⟨S1x128, .f32⟩
  | 38 => ⟨S1x128, .f32⟩
  | 39 => ⟨S50000x128, .f32⟩
  | 40 => ⟨S1x128x128, .f32⟩
  | 41 => ⟨S128x128, .f32⟩
  | 42 => ⟨S50000x128, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x128, .f32⟩
  | 52 => ⟨S600000x1, .f32⟩
  | 53 => ⟨S600000x128, .f32⟩
  | 54 => ⟨S600000x128, .f32⟩
  | 55 => ⟨S_, .f32⟩
  | 56 => ⟨S50000x128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S50000x128, .f32⟩
  | 66 => ⟨S50000x1, .f32⟩
  | 67 => ⟨S50000x128, .f32⟩
  | 68 => ⟨S50000x128, .f32⟩
  | 69 => ⟨S50000x128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S1x128, .f32⟩
  | 78 => ⟨S1x128, .f32⟩
  | 79 => ⟨S50000x128, .f32⟩
  | 80 => ⟨S_, .f32⟩
  | 81 => ⟨S50000, .f32⟩
  | 82 => ⟨S_, .f32⟩
  | 83 => ⟨S128, .f32⟩
  | 84 => ⟨S50000x1, .i32⟩
  | 85 => ⟨S128, .f32⟩
  | 86 => ⟨S50000x1, .i32⟩
  | 87 => ⟨S128x128, .f32⟩
  | 88 => ⟨S_, .f32⟩
  | 89 => ⟨S_, .f32⟩
  | 90 => ⟨S128, .f32⟩
  | 91 => ⟨S128, .f32⟩
  | 92 => ⟨S128x1, .f32⟩
  | 93 => ⟨S128x128, .f32⟩
  | 94 => ⟨S128x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x1, .i32⟩
  | .local _ .vmem, ⟨59, _⟩ => ⟨S5000x1, .i32⟩
  | .local _ .vmem, ⟨60, _⟩ => ⟨S128x128, .f32⟩
  | .local _ .vmem, ⟨61, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_c_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_12 : Ref sig .tc := ⟨.hbm, 91, rfl⟩
abbrev main_v70 : Ref sig .tc := ⟨.hbm, 92, rfl⟩
abbrev main_v71 : Ref sig .tc := ⟨.hbm, 93, rfl⟩
abbrev main_c_13 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_14 : Ref sig .tc := ⟨.hbm, 103, rfl⟩
abbrev main_v80 : Ref sig .tc := ⟨.hbm, 104, rfl⟩
abbrev main_c_15 : Ref sig .tc := ⟨.hbm, 105, rfl⟩
abbrev main_v81 : Ref sig .tc := ⟨.hbm, 106, rfl⟩
abbrev main_v82 : Ref sig .tc := ⟨.hbm, 107, rfl⟩
abbrev main_c_16 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_c_17 : Ref sig .tc := ⟨.hbm, 131, rfl⟩
abbrev main_v105 : Ref sig .tc := ⟨.hbm, 132, rfl⟩
abbrev main_v106 : Ref sig .tc := ⟨.hbm, 133, rfl⟩
abbrev main_c_18 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_19 : Ref sig .tc := ⟨.hbm, 143, rfl⟩
abbrev main_v115 : Ref sig .tc := ⟨.hbm, 144, rfl⟩
abbrev main_c_20 : Ref sig .tc := ⟨.hbm, 145, rfl⟩
abbrev main_v116 : Ref sig .tc := ⟨.hbm, 146, rfl⟩
abbrev main_v117 : Ref sig .tc := ⟨.hbm, 147, rfl⟩
abbrev main_c_21 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_c_22 : Ref sig .tc := ⟨.hbm, 171, rfl⟩
abbrev main_v140 : Ref sig .tc := ⟨.hbm, 172, rfl⟩
abbrev main_v141 : Ref sig .tc := ⟨.hbm, 173, rfl⟩
abbrev main_c_23 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_cst_24 : Ref sig .tc := ⟨.hbm, 183, rfl⟩
abbrev main_v150 : Ref sig .tc := ⟨.hbm, 184, rfl⟩
abbrev main_c_25 : Ref sig .tc := ⟨.hbm, 185, rfl⟩
abbrev main_v151 : Ref sig .tc := ⟨.hbm, 186, rfl⟩
abbrev main_v152 : Ref sig .tc := ⟨.hbm, 187, rfl⟩
abbrev main_c_26 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_cst_27 : Ref sig .tc := ⟨.hbm, 208, rfl⟩
abbrev main_v172 : Ref sig .tc := ⟨.hbm, 209, rfl⟩
abbrev main_cst_28 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_cst_29 : Ref sig .tc := ⟨.hbm, 216, rfl⟩
abbrev main_call0_v0 : Ref sig .tc := ⟨.hbm, 217, rfl⟩
abbrev main_call0_v1 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg4_0 : Ref sig .tc := ⟨.vmem, 53, rfl⟩
abbrev cc7_stg5_0 : Ref sig .tc := ⟨.vmem, 54, rfl⟩
abbrev cc7_stg5_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_scratch0 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem3_0 : DmaSem sig := 52
abbrev cc7_sem4_0 : DmaSem sig := 53
abbrev cc7_sem5_0 : DmaSem sig := 54
abbrev cc7_sem5_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  slices_S4x128x128_S1x128x128_0_0_0 : S4x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S4x128_S1x128_0_0 : S4x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S128 : S_.BroadcastsInDim S128 (![] : Fin 0 → Fin S128.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  natLt_1_32 : 1 < 32
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S128_S50000x1_S50000_n_0_0_1_wf : ScatterDims.WF S128 S50000x1 S50000 [] [0] [0] 1
  dot_S5000x128_S5000x128_S128x128_0_0_1_1_n_n_wf : DotDims.WF S5000x128 S5000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S50000x1.size a
  hwx8_1 : ∀ i : grid8.Coords, EltTy.bits .i32 = 32 ∨ (Rect.block (s := S50000x1) S5000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v66) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v66) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v98) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v99) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v100) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v101) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v101) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v103) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v104) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v101) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v126) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v133) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v134) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v135) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v136) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v136) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v138) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v139) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v136) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v161) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v168) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v169) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v170) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v171) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v171) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v176) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v177) S128x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S4x128x128 : Shape := ⟨3, ![4, 128, 128]⟩
abbrev S4x128 : Shape := ⟨2, ![4, 128]⟩
abbrev S1x600000 : Shape := ⟨2, ![1, 600000]⟩
abbrev S600000 : Shape := ⟨1, ![600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S128x1 : Shape := ⟨2, ![128, 1]⟩

abbrev nBuf : Space → Nat
  | .hbm => 524
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S4x128x128, .f32⟩
  | 4 => ⟨S4x128, .f32⟩
  | 5 => ⟨S4x128, .f32⟩
  | 6 => ⟨S4x128, .f32⟩
  | 7 => ⟨S1x600000, .i32⟩
  | 8 => ⟨S600000, .i32⟩
  | 9 => ⟨S1x600000, .i32⟩
  | 10 => ⟨S600000, .i32⟩
  | 11 => ⟨S1x128x128, .f32⟩
  | 12 => ⟨S128x128, .f32⟩
  | 13 => ⟨S1x128, .f32⟩
  | 14 => ⟨S128, .f32⟩
  | 15 => ⟨S50000x128, .f32⟩
  | 16 => ⟨S_, .f32⟩
  | 17 => ⟨S50000, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S_, .f32⟩
  | 27 => ⟨S600000, .f32⟩
  | 28 => ⟨S50000, .f32⟩
  | 29 => ⟨S_, .f32⟩
  | 30 => ⟨S50000, .f32⟩
  | 31 => ⟨S50000, .f32⟩
  | 32 => ⟨S50000, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000, .f32⟩
  | 51 => ⟨S600000, .f32⟩
  | 52 => ⟨S_, .f32⟩
  | 53 => ⟨S50000x128, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S600000x1, .f32⟩
  | 64 => ⟨S600000x128, .f32⟩
  | 65 => ⟨S600000x128, .f32⟩
  | 66 => ⟨S_, .i32⟩
  | 67 => ⟨S600000, .i32⟩
  | 68 => ⟨S600000, .i1⟩
  | 69 => ⟨S_, .i32⟩
  | 70 => ⟨S600000, .i32⟩
  | 71 => ⟨S600000, .i32⟩
  | 72 => ⟨S600000, .i32⟩
  | 73 => ⟨S600000x1, .i32⟩
  | 74 => ⟨S50000x128, .f32⟩
  | 75 => ⟨S50000, .f32⟩
  | 76 => ⟨S50000x1, .f32⟩
  | 77 => ⟨S50000x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S50000x128, .f32⟩
  | 84 => ⟨S1x128, .f32⟩
  | 85 => ⟨S128, .f32⟩
  | 86 => ⟨S1x128, .f32⟩
  | 87 => ⟨S128, .f32⟩
  | 88 => ⟨S_, .f32⟩
  | 89 => ⟨S50000, .f32⟩
  | 90 => ⟨S50000x1, .f32⟩
  | 91 => ⟨S_, .f32⟩
  | 92 => ⟨S50000x1, .f32⟩
  | 93 => ⟨S50000x1, .f32⟩
  | 94 => ⟨S_, .i32⟩
  | 95 => ⟨S_, .f32⟩
  | 96 => ⟨S50000, .f32⟩
  | 97 => ⟨S50000x1, .f32⟩
  | 98 => ⟨S_, .f32⟩
  | 99 => ⟨S50000x1, .f32⟩
  | 100 => ⟨S50000x1, .f32⟩
  | 101 => ⟨S50000x128, .f32⟩
  | 102 => ⟨S50000x128, .f32⟩
  | 103 => ⟨S50000x128, .f32⟩
  | 104 => ⟨S_, .f32⟩
  | 105 => ⟨S_, .f32⟩
  | 106 => ⟨S_, .f32⟩
  | 107 => ⟨S_, .f32⟩
  | 108 => ⟨S50000, .f32⟩
  | 109 => ⟨S50000x1, .f32⟩
  | 110 => ⟨S50000x1, .f32⟩
  | 111 => ⟨S50000x1, .f32⟩
  | 112 => ⟨S_, .f32⟩
  | 113 => ⟨S_, .i1⟩
  | 114 => ⟨S_, .f32⟩
  | 115 => ⟨S_, .f32⟩
  | 116 => ⟨S50000x1, .f32⟩
  | 117 => ⟨S50000x1, .f32⟩
  | 118 => ⟨S50000x128, .f32⟩
  | 119 => ⟨S50000x128, .f32⟩
  | 120 => ⟨S_, .f32⟩
  | 121 => ⟨S50000x1, .f32⟩
  | 122 => ⟨S50000x1, .f32⟩
  | 123 => ⟨S50000x1, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S1x128x128, .f32⟩
  | 8 => ⟨S128x128, .f32⟩
  | 9 => ⟨S1x128, .f32⟩
  | 10 => ⟨S128, .f32⟩
  | 11 => ⟨S50000x128, .f32⟩
  | 12 => ⟨S_, .f32⟩
  | 13 => ⟨S50000, .f32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S_, .f32⟩
  | 23 => ⟨S600000, .f32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S600000, .f32⟩
  | 48 => ⟨S_, .f32⟩
  | 49 => ⟨S50000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S600000x1, .f32⟩
  | 60 => ⟨S600000x128, .f32⟩
  | 61 => ⟨S600000x128, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S50000x128, .f32⟩
  | 71 => ⟨S50000, .f32⟩
  | 72 => ⟨S50000x1, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S50000x128, .f32⟩
  | 80 => ⟨S1x128, .f32⟩
  | 81 => ⟨S128, .f32⟩
  | 82 => ⟨S1x128, .f32⟩
  | 83 => ⟨S128, .f32⟩
  | 84 => ⟨S_, .f32⟩
  | 85 => ⟨S50000, .f32⟩
  | 86 => ⟨S50000x1, .f32⟩
  | 87 => ⟨S_, .f32⟩
  | 88 => ⟨S50000x1, .f32⟩
  | 89 => ⟨S50000x1, .f32⟩
  | 90 => ⟨S_, .i32⟩
  | 91 => ⟨S_, .f32⟩
  | 92 => ⟨S50000, .f32⟩
  | 93 => ⟨S50000x1, .f32⟩
  | 94 => ⟨S_, .f32⟩
  | 95 => ⟨S50000x1, .f32⟩
  | 96 => ⟨S50000x1, .f32⟩
  | 97 => ⟨S50000x128, .f32⟩
  | 98 => ⟨S50000x128, .f32⟩
  | 99 => ⟨S50000x128, .f32⟩
  | 100 => ⟨S_, .f32⟩
  | 101 => ⟨S_, .f32⟩
  | 102 => ⟨S_, .f32⟩
  | 103 => ⟨S_, .f32⟩
  | 104 => ⟨S50000, .f32⟩
  | 105 => ⟨S50000x1, .f32⟩
  | 106 => ⟨S50000x1, .f32⟩
  | 107 => ⟨S50000x1, .f32⟩
  | 108 => ⟨S_, .f32⟩
  | 109 => ⟨S_, .i1⟩
  | 110 => ⟨S_, .f32⟩
  | 111 => ⟨S_, .f32⟩
  | 112 => ⟨S50000x1, .f32⟩
  | 113 => ⟨S50000x1, .f32⟩
  | 114 => ⟨S50000x128, .f32⟩
  | 115 => ⟨S50000x128, .f32⟩
  | 116 => ⟨S_, .f32⟩
  | 117 => ⟨S50000x1, .f32⟩
  | 118 => ⟨S50000x1, .f32⟩
  | 119 => ⟨S50000x1, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_2 (i : Nat) : BufTy := match i % 128 with
  | 0 => ⟨S_, .f32⟩
  | 1 => ⟨S50000x128, .f32⟩
  | 2 => ⟨S50000x128, .f32⟩
  | 3 => ⟨S1x128x128, .f32⟩
  | 4 => ⟨S128x128, .f32⟩
  | 5 => ⟨S1x128, .f32⟩
  | 6 => ⟨S128, .f32⟩
  | 7 => ⟨S50000x128, .f32⟩
  | 8 => ⟨S_, .f32⟩
  | 9 => ⟨S50000, .f32⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S_, .f32⟩
  | 19 => ⟨S600000, .f32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000, .f32⟩
  | 43 => ⟨S600000, .f32⟩
  | 44 => ⟨S_, .f32⟩
  | 45 => ⟨S50000x128, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x128, .f32⟩
  | 55 => ⟨S600000x1, .f32⟩
  | 56 => ⟨S600000x128, .f32⟩
  | 57 => ⟨S600000x128, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S50000x128, .f32⟩
  | 76 => ⟨S1x128, .f32⟩
  | 77 => ⟨S128, .f32⟩
  | 78 => ⟨S1x128, .f32⟩
  | 79 => ⟨S128, .f32⟩
  | 80 => ⟨S_, .f32⟩
  | 81 => ⟨S50000, .f32⟩
  | 82 => ⟨S50000x1, .f32⟩
  | 83 => ⟨S_, .f32⟩
  | 84 => ⟨S50000x1, .f32⟩
  | 85 => ⟨S50000x1, .f32⟩
  | 86 => ⟨S_, .i32⟩
  | 87 => ⟨S_, .f32⟩
  | 88 => ⟨S50000, .f32⟩
  | 89 => ⟨S50000x1, .f32⟩
  | 90 => ⟨S_, .f32⟩
  | 91 => ⟨S50000x1, .f32⟩
  | 92 => ⟨S50000x1, .f32⟩
  | 93 => ⟨S50000x128, .f32⟩
  | 94 => ⟨S50000x128, .f32⟩
  | 95 => ⟨S50000x128, .f32⟩
  | 96 => ⟨S_, .f32⟩
  | 97 => ⟨S_, .f32⟩
  | 98 => ⟨S_, .f32⟩
  | 99 => ⟨S_, .f32⟩
  | 100 => ⟨S50000, .f32⟩
  | 101 => ⟨S50000x1, .f32⟩
  | 102 => ⟨S50000x1, .f32⟩
  | 103 => ⟨S50000x1, .f32⟩
  | 104 => ⟨S_, .f32⟩
  | 105 => ⟨S_, .i1⟩
  | 106 => ⟨S_, .f32⟩
  | 107 => ⟨S_, .f32⟩
  | 108 => ⟨S50000x1, .f32⟩
  | 109 => ⟨S50000x1, .f32⟩
  | 110 => ⟨S50000x128, .f32⟩
  | 111 => ⟨S50000x128, .f32⟩
  | 112 => ⟨S_, .f32⟩
  | 113 => ⟨S50000x1, .f32⟩
  | 114 => ⟨S50000x1, .f32⟩
  | 115 => ⟨S50000x1, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S1x128x128, .f32⟩
  | _ => ⟨S50000x128, .f32⟩

abbrev hbmTy0_3 (i : Nat) : BufTy := match i % 128 with
  | 0 => ⟨S128x128, .f32⟩
  | 1 => ⟨S1x128, .f32⟩
  | 2 => ⟨S128, .f32⟩
  | 3 => ⟨S50000x128, .f32⟩
  | 4 => ⟨S_, .f32⟩
  | 5 => ⟨S50000, .f32⟩
  | 6 => ⟨S_, .i32⟩
  | 7 => ⟨S600000, .i32⟩
  | 8 => ⟨S600000, .i1⟩
  | 9 => ⟨S_, .i32⟩
  | 10 => ⟨S600000, .i32⟩
  | 11 => ⟨S600000, .i32⟩
  | 12 => ⟨S600000, .i32⟩
  | 13 => ⟨S600000x1, .i32⟩
  | 14 => ⟨S_, .f32⟩
  | 15 => ⟨S600000, .f32⟩
  | 16 => ⟨S50000, .f32⟩
  | 17 => ⟨S_, .f32⟩
  | 18 => ⟨S50000, .f32⟩
  | 19 => ⟨S50000, .f32⟩
  | 20 => ⟨S50000, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000, .f32⟩
  | 39 => ⟨S600000, .f32⟩
  | 40 => ⟨S_, .f32⟩
  | 41 => ⟨S50000x128, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S600000x1, .f32⟩
  | 52 => ⟨S600000x128, .f32⟩
  | 53 => ⟨S600000x128, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S50000x128, .f32⟩
  | 72 => ⟨S1x128, .f32⟩
  | 73 => ⟨S128, .f32⟩
  | 74 => ⟨S1x128, .f32⟩
  | 75 => ⟨S128, .f32⟩
  | 76 => ⟨S_, .f32⟩
  | 77 => ⟨S50000, .f32⟩
  | 78 => ⟨S50000x1, .f32⟩
  | 79 => ⟨S_, .f32⟩
  | 80 => ⟨S50000x1, .f32⟩
  | 81 => ⟨S50000x1, .f32⟩
  | 82 => ⟨S_, .i32⟩
  | 83 => ⟨S_, .f32⟩
  | 84 => ⟨S50000, .f32⟩
  | 85 => ⟨S50000x1, .f32⟩
  | 86 => ⟨S_, .f32⟩
  | 87 => ⟨S50000x1, .f32⟩
  | 88 => ⟨S50000x1, .f32⟩
  | 89 => ⟨S50000x128, .f32⟩
  | 90 => ⟨S50000x128, .f32⟩
  | 91 => ⟨S50000x128, .f32⟩
  | 92 => ⟨S_, .f32⟩
  | 93 => ⟨S_, .f32⟩
  | 94 => ⟨S_, .f32⟩
  | 95 => ⟨S_, .f32⟩
  | 96 => ⟨S50000, .f32⟩
  | 97 => ⟨S50000x1, .f32⟩
  | 98 => ⟨S50000x1, .f32⟩
  | 99 => ⟨S50000x1, .f32⟩
  | 100 => ⟨S_, .f32⟩
  | 101 => ⟨S_, .i1⟩
  | 102 => ⟨S_, .f32⟩
  | 103 => ⟨S_, .f32⟩
  | 104 => ⟨S50000x1, .f32⟩
  | 105 => ⟨S50000x1, .f32⟩
  | 106 => ⟨S50000x128, .f32⟩
  | 107 => ⟨S50000x128, .f32⟩
  | 108 => ⟨S_, .f32⟩
  | 109 => ⟨S50000x1, .f32⟩
  | 110 => ⟨S50000x1, .f32⟩
  | 111 => ⟨S50000x1, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .f32⟩
  | 124 => ⟨S128x128, .f32⟩
  | 125 => ⟨S50000x1, .i32⟩
  | 126 => ⟨S128x128, .f32⟩
  | 127 => ⟨S_, .f32⟩
  | _ => ⟨S50000x128, .f32⟩

abbrev hbmTy0_4 (i : Nat) : BufTy := match i % 128 with
  | 0 => ⟨S50000, .f32⟩
  | 1 => ⟨S_, .f32⟩
  | 2 => ⟨S128, .f32⟩
  | 3 => ⟨S50000x1, .i32⟩
  | 4 => ⟨S128, .f32⟩
  | 5 => ⟨S_, .f32⟩
  | 6 => ⟨S_, .f32⟩
  | 7 => ⟨S128, .f32⟩
  | 8 => ⟨S128, .f32⟩
  | 9 => ⟨S128x1, .f32⟩
  | 10 => ⟨S128x128, .f32⟩
  | 11 => ⟨S128x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_12 : Ref sig .tc := ⟨.hbm, 88, rfl⟩
abbrev main_v67 : Ref sig .tc := ⟨.hbm, 89, rfl⟩
abbrev main_v68 : Ref sig .tc := ⟨.hbm, 90, rfl⟩
abbrev main_cst_13 : Ref sig .tc := ⟨.hbm, 91, rfl⟩
abbrev main_v69 : Ref sig .tc := ⟨.hbm, 92, rfl⟩
abbrev main_v70 : Ref sig .tc := ⟨.hbm, 93, rfl⟩
abbrev main_c_14 : Ref sig .tc := ⟨.hbm, 94, rfl⟩
abbrev main_call0_cst : Ref sig .tc := ⟨.hbm, 95, rfl⟩
abbrev main_call0_v0 : Ref sig .tc := ⟨.hbm, 96, rfl⟩
abbrev main_call0_v1 : Ref sig .tc := ⟨.hbm, 97, rfl⟩
abbrev main_call0_cst_0 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_v5 : Ref sig .tc := ⟨.hbm, 102, rfl⟩
abbrev main_call0_v6 : Ref sig .tc := ⟨.hbm, 103, rfl⟩
abbrev main_call0_v7 : Ref sig .tc := ⟨.hbm, 104, rfl⟩
abbrev main_call0_cst_1 : Ref sig .tc := ⟨.hbm, 105, rfl⟩
abbrev main_call0_v8 : Ref sig .tc := ⟨.hbm, 106, rfl⟩
abbrev main_call0_cst_2 : Ref sig .tc := ⟨.hbm, 107, rfl⟩
abbrev main_call0_v9 : Ref sig .tc := ⟨.hbm, 108, rfl⟩
abbrev main_call0_v10 : Ref sig .tc := ⟨.hbm, 109, rfl⟩
abbrev main_call0_v11 : Ref sig .tc := ⟨.hbm, 110, rfl⟩
abbrev main_call0_v12 : Ref sig .tc := ⟨.hbm, 111, rfl⟩
abbrev main_call0_cst_3 : Ref sig .tc := ⟨.hbm, 112, rfl⟩
abbrev main_call0_v13 : Ref sig .tc := ⟨.hbm, 113, rfl⟩
abbrev main_call0_cst_4 : Ref sig .tc := ⟨.hbm, 114, rfl⟩
abbrev main_call0_call0_v0 : Ref sig .tc := ⟨.hbm, 115, rfl⟩
abbrev main_call0_call0_v1 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_15 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_call1_cst : Ref sig .tc := ⟨.hbm, 132, rfl⟩
abbrev main_call1_v0 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_16 : Ref sig .tc := ⟨.hbm, 140, rfl⟩
abbrev main_v91 : Ref sig .tc := ⟨.hbm, 141, rfl⟩
abbrev main_c_17 : Ref sig .tc := ⟨.hbm, 142, rfl⟩
abbrev main_v92 : Ref sig .tc := ⟨.hbm, 143, rfl⟩
abbrev main_v93 : Ref sig .tc := ⟨.hbm, 144, rfl⟩
abbrev main_c_18 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_19 : Ref sig .tc := ⟨.hbm, 150, rfl⟩
abbrev main_v98 : Ref sig .tc := ⟨.hbm, 151, rfl⟩
abbrev main_v99 : Ref sig .tc := ⟨.hbm, 152, rfl⟩
abbrev main_cst_20 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_c_21 : Ref sig .tc := ⟨.hbm, 157, rfl⟩
abbrev main_v103 : Ref sig .tc := ⟨.hbm, 158, rfl⟩
abbrev main_v104 : Ref sig .tc := ⟨.hbm, 159, rfl⟩
abbrev main_c_22 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_c_23 : Ref sig .tc := ⟨.hbm, 166, rfl⟩
abbrev main_v110 : Ref sig .tc := ⟨.hbm, 167, rfl⟩
abbrev main_v111 : Ref sig .tc := ⟨.hbm, 168, rfl⟩
abbrev main_c_24 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_cst_25 : Ref sig .tc := ⟨.hbm, 176, rfl⟩
abbrev main_v118 : Ref sig .tc := ⟨.hbm, 177, rfl⟩
abbrev main_c_26 : Ref sig .tc := ⟨.hbm, 178, rfl⟩
abbrev main_v119 : Ref sig .tc := ⟨.hbm, 179, rfl⟩
abbrev main_v120 : Ref sig .tc := ⟨.hbm, 180, rfl⟩
abbrev main_c_27 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_c_28 : Ref sig .tc := ⟨.hbm, 190, rfl⟩
abbrev main_v129 : Ref sig .tc := ⟨.hbm, 191, rfl⟩
abbrev main_v130 : Ref sig .tc := ⟨.hbm, 192, rfl⟩
abbrev main_c_29 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_cst_30 : Ref sig .tc := ⟨.hbm, 212, rfl⟩
abbrev main_v149 : Ref sig .tc := ⟨.hbm, 213, rfl⟩
abbrev main_v150 : Ref sig .tc := ⟨.hbm, 214, rfl⟩
abbrev main_cst_31 : Ref sig .tc := ⟨.hbm, 215, rfl⟩
abbrev main_v151 : Ref sig .tc := ⟨.hbm, 216, rfl⟩
abbrev main_v152 : Ref sig .tc := ⟨.hbm, 217, rfl⟩
abbrev main_c_32 : Ref sig .tc := ⟨.hbm, 218, rfl⟩
abbrev main_call2_cst : Ref sig .tc := ⟨.hbm, 219, rfl⟩
abbrev main_call2_v0 : Ref sig .tc := ⟨.hbm, 220, rfl⟩
abbrev main_call2_v1 : Ref sig .tc := ⟨.hbm, 221, rfl⟩
abbrev main_call2_cst_0 : Ref sig .tc := ⟨.hbm, 222, rfl⟩
abbrev main_call2_v2 : Ref sig .tc := ⟨.hbm, 223, rfl⟩
abbrev main_call2_v3 : Ref sig .tc := ⟨.hbm, 224, rfl⟩
abbrev main_call2_v4 : Ref sig .tc := ⟨.hbm, 225, rfl⟩
abbrev main_call2_v5 : Ref sig .tc := ⟨.hbm, 226, rfl⟩
abbrev main_call2_v6 : Ref sig .tc := ⟨.hbm, 227, rfl⟩
abbrev main_call2_v7 : Ref sig .tc := ⟨.hbm, 228, rfl⟩
abbrev main_call2_cst_1 : Ref sig .tc := ⟨.hbm, 229, rfl⟩
abbrev main_call2_v8 : Ref sig .tc := ⟨.hbm, 230, rfl⟩
abbrev main_call2_cst_2 : Ref sig .tc := ⟨.hbm, 231, rfl⟩
abbrev main_call2_v9 : Ref sig .tc := ⟨.hbm, 232, rfl⟩
abbrev main_call2_v10 : Ref sig .tc := ⟨.hbm, 233, rfl⟩
abbrev main_call2_v11 : Ref sig .tc := ⟨.hbm, 234, rfl⟩
abbrev main_call2_v12 : Ref sig .tc := ⟨.hbm, 235, rfl⟩
abbrev main_call2_cst_3 : Ref sig .tc := ⟨.hbm, 236, rfl⟩
abbrev main_call2_v13 : Ref sig .tc := ⟨.hbm, 237, rfl⟩
abbrev main_call2_cst_4 : Ref sig .tc := ⟨.hbm, 238, rfl⟩
abbrev main_call2_call0_v0 : Ref sig .tc := ⟨.hbm, 239, rfl⟩
abbrev main_call2_call0_v1 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_cst_33 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_call3_cst : Ref sig .tc := ⟨.hbm, 256, rfl⟩
abbrev main_call3_v0 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_cst_34 : Ref sig .tc := ⟨.hbm, 264, rfl⟩
abbrev main_v173 : Ref sig .tc := ⟨.hbm, 265, rfl⟩
abbrev main_c_35 : Ref sig .tc := ⟨.hbm, 266, rfl⟩
abbrev main_v174 : Ref sig .tc := ⟨.hbm, 267, rfl⟩
abbrev main_v175 : Ref sig .tc := ⟨.hbm, 268, rfl⟩
abbrev main_c_36 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_cst_37 : Ref sig .tc := ⟨.hbm, 274, rfl⟩
abbrev main_v180 : Ref sig .tc := ⟨.hbm, 275, rfl⟩
abbrev main_v181 : Ref sig .tc := ⟨.hbm, 276, rfl⟩
abbrev main_cst_38 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_c_39 : Ref sig .tc := ⟨.hbm, 281, rfl⟩
abbrev main_v185 : Ref sig .tc := ⟨.hbm, 282, rfl⟩
abbrev main_v186 : Ref sig .tc := ⟨.hbm, 283, rfl⟩
abbrev main_c_40 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_c_41 : Ref sig .tc := ⟨.hbm, 290, rfl⟩
abbrev main_v192 : Ref sig .tc := ⟨.hbm, 291, rfl⟩
abbrev main_v193 : Ref sig .tc := ⟨.hbm, 292, rfl⟩
abbrev main_c_42 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_v198 : Ref sig .tc := ⟨.hbm, 298, rfl⟩
abbrev main_v199 : Ref sig .tc := ⟨.hbm, 299, rfl⟩
abbrev main_cst_43 : Ref sig .tc := ⟨.hbm, 300, rfl⟩
abbrev main_v200 : Ref sig .tc := ⟨.hbm, 301, rfl⟩
abbrev main_c_44 : Ref sig .tc := ⟨.hbm, 302, rfl⟩
abbrev main_v201 : Ref sig .tc := ⟨.hbm, 303, rfl⟩
abbrev main_v202 : Ref sig .tc := ⟨.hbm, 304, rfl⟩
abbrev main_c_45 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_c_46 : Ref sig .tc := ⟨.hbm, 314, rfl⟩
abbrev main_v211 : Ref sig .tc := ⟨.hbm, 315, rfl⟩
abbrev main_v212 : Ref sig .tc := ⟨.hbm, 316, rfl⟩
abbrev main_c_47 : Ref sig .tc := ⟨.hbm, 317, rfl⟩
abbrev main_v213 : Ref sig .tc := ⟨.hbm, 318, rfl⟩
abbrev main_v214 : Ref sig .tc := ⟨.hbm, 319, rfl⟩
abbrev main_v215 : Ref sig .tc := ⟨.hbm, 320, rfl⟩
abbrev main_v216 : Ref sig .tc := ⟨.hbm, 321, rfl⟩
abbrev main_v217 : Ref sig .tc := ⟨.hbm, 322, rfl⟩
abbrev main_v218 : Ref sig .tc := ⟨.hbm, 323, rfl⟩
abbrev main_v219 : Ref sig .tc := ⟨.hbm, 324, rfl⟩
abbrev main_v220 : Ref sig .tc := ⟨.hbm, 325, rfl⟩
abbrev main_v221 : Ref sig .tc := ⟨.hbm, 326, rfl⟩
abbrev main_v222 : Ref sig .tc := ⟨.hbm, 327, rfl⟩
abbrev main_v223 : Ref sig .tc := ⟨.hbm, 328, rfl⟩
abbrev main_v224 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_v228 : Ref sig .tc := ⟨.hbm, 333, rfl⟩
abbrev main_v229 : Ref sig .tc := ⟨.hbm, 334, rfl⟩
abbrev main_v230 : Ref sig .tc := ⟨.hbm, 335, rfl⟩
abbrev main_cst_48 : Ref sig .tc := ⟨.hbm, 336, rfl⟩
abbrev main_v231 : Ref sig .tc := ⟨.hbm, 337, rfl⟩
abbrev main_v232 : Ref sig .tc := ⟨.hbm, 338, rfl⟩
abbrev main_cst_49 : Ref sig .tc := ⟨.hbm, 339, rfl⟩
abbrev main_v233 : Ref sig .tc := ⟨.hbm, 340, rfl⟩
abbrev main_v234 : Ref sig .tc := ⟨.hbm, 341, rfl⟩
abbrev main_c_50 : Ref sig .tc := ⟨.hbm, 342, rfl⟩
abbrev main_call4_cst : Ref sig .tc := ⟨.hbm, 343, rfl⟩
abbrev main_call4_v0 : Ref sig .tc := ⟨.hbm, 344, rfl⟩
abbrev main_call4_v1 : Ref sig .tc := ⟨.hbm, 345, rfl⟩
abbrev main_call4_cst_0 : Ref sig .tc := ⟨.hbm, 346, rfl⟩
abbrev main_call4_v2 : Ref sig .tc := ⟨.hbm, 347, rfl⟩
abbrev main_call4_v3 : Ref sig .tc := ⟨.hbm, 348, rfl⟩
abbrev main_call4_v4 : Ref sig .tc := ⟨.hbm, 349, rfl⟩
abbrev main_call4_v5 : Ref sig .tc := ⟨.hbm, 350, rfl⟩
abbrev main_call4_v6 : Ref sig .tc := ⟨.hbm, 351, rfl⟩
abbrev main_call4_v7 : Ref sig .tc := ⟨.hbm, 352, rfl⟩
abbrev main_call4_cst_1 : Ref sig .tc := ⟨.hbm, 353, rfl⟩
abbrev main_call4_v8 : Ref sig .tc := ⟨.hbm, 354, rfl⟩
abbrev main_call4_cst_2 : Ref sig .tc := ⟨.hbm, 355, rfl⟩
abbrev main_call4_v9 : Ref sig .tc := ⟨.hbm, 356, rfl⟩
abbrev main_call4_v10 : Ref sig .tc := ⟨.hbm, 357, rfl⟩
abbrev main_call4_v11 : Ref sig .tc := ⟨.hbm, 358, rfl⟩
abbrev main_call4_v12 : Ref sig .tc := ⟨.hbm, 359, rfl⟩
abbrev main_call4_cst_3 : Ref sig .tc := ⟨.hbm, 360, rfl⟩
abbrev main_call4_v13 : Ref sig .tc := ⟨.hbm, 361, rfl⟩
abbrev main_call4_cst_4 : Ref sig .tc := ⟨.hbm, 362, rfl⟩
abbrev main_call4_call0_v0 : Ref sig .tc := ⟨.hbm, 363, rfl⟩
abbrev main_call4_call0_v1 : Ref sig .tc := ⟨.hbm, 364, rfl⟩
abbrev main_v235 : Ref sig .tc := ⟨.hbm, 365, rfl⟩
abbrev main_v236 : Ref sig .tc := ⟨.hbm, 366, rfl⟩
abbrev main_v237 : Ref sig .tc := ⟨.hbm, 367, rfl⟩
abbrev main_cst_51 : Ref sig .tc := ⟨.hbm, 368, rfl⟩
abbrev main_v238 : Ref sig .tc := ⟨.hbm, 369, rfl⟩
abbrev main_v239 : Ref sig .tc := ⟨.hbm, 370, rfl⟩
abbrev main_v240 : Ref sig .tc := ⟨.hbm, 371, rfl⟩
abbrev main_v241 : Ref sig .tc := ⟨.hbm, 372, rfl⟩
abbrev main_v242 : Ref sig .tc := ⟨.hbm, 373, rfl⟩
abbrev main_v243 : Ref sig .tc := ⟨.hbm, 374, rfl⟩
abbrev main_v244 : Ref sig .tc := ⟨.hbm, 375, rfl⟩
abbrev main_v245 : Ref sig .tc := ⟨.hbm, 376, rfl⟩
abbrev main_v246 : Ref sig .tc := ⟨.hbm, 377, rfl⟩
abbrev main_v247 : Ref sig .tc := ⟨.hbm, 378, rfl⟩
abbrev main_v248 : Ref sig .tc := ⟨.hbm, 379, rfl⟩
abbrev main_call5_cst : Ref sig .tc := ⟨.hbm, 380, rfl⟩
abbrev main_call5_v0 : Ref sig .tc := ⟨.hbm, 381, rfl⟩
abbrev main_v249 : Ref sig .tc := ⟨.hbm, 382, rfl⟩
abbrev main_v250 : Ref sig .tc := ⟨.hbm, 383, rfl⟩
abbrev main_v251 : Ref sig .tc := ⟨.hbm, 384, rfl⟩
abbrev main_v252 : Ref sig .tc := ⟨.hbm, 385, rfl⟩
abbrev main_v253 : Ref sig .tc := ⟨.hbm, 386, rfl⟩
abbrev main_v254 : Ref sig .tc := ⟨.hbm, 387, rfl⟩
abbrev main_cst_52 : Ref sig .tc := ⟨.hbm, 388, rfl⟩
abbrev main_v255 : Ref sig .tc := ⟨.hbm, 389, rfl⟩
abbrev main_c_53 : Ref sig .tc := ⟨.hbm, 390, rfl⟩
abbrev main_v256 : Ref sig .tc := ⟨.hbm, 391, rfl⟩
abbrev main_v257 : Ref sig .tc := ⟨.hbm, 392, rfl⟩
abbrev main_c_54 : Ref sig .tc := ⟨.hbm, 393, rfl⟩
abbrev main_v258 : Ref sig .tc := ⟨.hbm, 394, rfl⟩
abbrev main_v259 : Ref sig .tc := ⟨.hbm, 395, rfl⟩
abbrev main_v260 : Ref sig .tc := ⟨.hbm, 396, rfl⟩
abbrev main_v261 : Ref sig .tc := ⟨.hbm, 397, rfl⟩
abbrev main_cst_55 : Ref sig .tc := ⟨.hbm, 398, rfl⟩
abbrev main_v262 : Ref sig .tc := ⟨.hbm, 399, rfl⟩
abbrev main_v263 : Ref sig .tc := ⟨.hbm, 400, rfl⟩
abbrev main_cst_56 : Ref sig .tc := ⟨.hbm, 401, rfl⟩
abbrev main_v264 : Ref sig .tc := ⟨.hbm, 402, rfl⟩
abbrev main_v265 : Ref sig .tc := ⟨.hbm, 403, rfl⟩
abbrev main_v266 : Ref sig .tc := ⟨.hbm, 404, rfl⟩
abbrev main_c_57 : Ref sig .tc := ⟨.hbm, 405, rfl⟩
abbrev main_v267 : Ref sig .tc := ⟨.hbm, 406, rfl⟩
abbrev main_v268 : Ref sig .tc := ⟨.hbm, 407, rfl⟩
abbrev main_c_58 : Ref sig .tc := ⟨.hbm, 408, rfl⟩
abbrev main_v269 : Ref sig .tc := ⟨.hbm, 409, rfl⟩
abbrev main_v270 : Ref sig .tc := ⟨.hbm, 410, rfl⟩
abbrev main_v271 : Ref sig .tc := ⟨.hbm, 411, rfl⟩
abbrev main_v272 : Ref sig .tc := ⟨.hbm, 412, rfl⟩
abbrev main_v273 : Ref sig .tc := ⟨.hbm, 413, rfl⟩
abbrev main_c_59 : Ref sig .tc := ⟨.hbm, 414, rfl⟩
abbrev main_v274 : Ref sig .tc := ⟨.hbm, 415, rfl⟩
abbrev main_v275 : Ref sig .tc := ⟨.hbm, 416, rfl⟩
abbrev main_c_60 : Ref sig .tc := ⟨.hbm, 417, rfl⟩
abbrev main_v276 : Ref sig .tc := ⟨.hbm, 418, rfl⟩
abbrev main_v277 : Ref sig .tc := ⟨.hbm, 419, rfl⟩
abbrev main_v278 : Ref sig .tc := ⟨.hbm, 420, rfl⟩
abbrev main_v279 : Ref sig .tc := ⟨.hbm, 421, rfl⟩
abbrev main_v280 : Ref sig .tc := ⟨.hbm, 422, rfl⟩
abbrev main_v281 : Ref sig .tc := ⟨.hbm, 423, rfl⟩
abbrev main_cst_61 : Ref sig .tc := ⟨.hbm, 424, rfl⟩
abbrev main_v282 : Ref sig .tc := ⟨.hbm, 425, rfl⟩
abbrev main_c_62 : Ref sig .tc := ⟨.hbm, 426, rfl⟩
abbrev main_v283 : Ref sig .tc := ⟨.hbm, 427, rfl⟩
abbrev main_v284 : Ref sig .tc := ⟨.hbm, 428, rfl⟩
abbrev main_c_63 : Ref sig .tc := ⟨.hbm, 429, rfl⟩
abbrev main_v285 : Ref sig .tc := ⟨.hbm, 430, rfl⟩
abbrev main_v286 : Ref sig .tc := ⟨.hbm, 431, rfl⟩
abbrev main_v287 : Ref sig .tc := ⟨.hbm, 432, rfl⟩
abbrev main_v288 : Ref sig .tc := ⟨.hbm, 433, rfl⟩
abbrev main_v289 : Ref sig .tc := ⟨.hbm, 434, rfl⟩
abbrev main_v290 : Ref sig .tc := ⟨.hbm, 435, rfl⟩
abbrev main_v291 : Ref sig .tc := ⟨.hbm, 436, rfl⟩
abbrev main_v292 : Ref sig .tc := ⟨.hbm, 437, rfl⟩
abbrev main_c_64 : Ref sig .tc := ⟨.hbm, 438, rfl⟩
abbrev main_v293 : Ref sig .tc := ⟨.hbm, 439, rfl⟩
abbrev main_v294 : Ref sig .tc := ⟨.hbm, 440, rfl⟩
abbrev main_c_65 : Ref sig .tc := ⟨.hbm, 441, rfl⟩
abbrev main_v295 : Ref sig .tc := ⟨.hbm, 442, rfl⟩
abbrev main_v296 : Ref sig .tc := ⟨.hbm, 443, rfl⟩
abbrev main_v297 : Ref sig .tc := ⟨.hbm, 444, rfl⟩
abbrev main_v298 : Ref sig .tc := ⟨.hbm, 445, rfl⟩
abbrev main_v299 : Ref sig .tc := ⟨.hbm, 446, rfl⟩
abbrev main_v300 : Ref sig .tc := ⟨.hbm, 447, rfl⟩
abbrev main_v301 : Ref sig .tc := ⟨.hbm, 448, rfl⟩
abbrev main_v302 : Ref sig .tc := ⟨.hbm, 449, rfl⟩
abbrev main_v303 : Ref sig .tc := ⟨.hbm, 450, rfl⟩
abbrev main_v304 : Ref sig .tc := ⟨.hbm, 451, rfl⟩
abbrev main_v305 : Ref sig .tc := ⟨.hbm, 452, rfl⟩
abbrev main_v306 : Ref sig .tc := ⟨.hbm, 453, rfl⟩
abbrev main_v307 : Ref sig .tc := ⟨.hbm, 454, rfl⟩
abbrev main_v308 : Ref sig .tc := ⟨.hbm, 455, rfl⟩
abbrev main_v309 : Ref sig .tc := ⟨.hbm, 456, rfl⟩
abbrev main_v310 : Ref sig .tc := ⟨.hbm, 457, rfl⟩
abbrev main_v311 : Ref sig .tc := ⟨.hbm, 458, rfl⟩
abbrev main_v312 : Ref sig .tc := ⟨.hbm, 459, rfl⟩
abbrev main_cst_66 : Ref sig .tc := ⟨.hbm, 460, rfl⟩
abbrev main_v313 : Ref sig .tc := ⟨.hbm, 461, rfl⟩
abbrev main_v314 : Ref sig .tc := ⟨.hbm, 462, rfl⟩
abbrev main_cst_67 : Ref sig .tc := ⟨.hbm, 463, rfl⟩
abbrev main_v315 : Ref sig .tc := ⟨.hbm, 464, rfl⟩
abbrev main_v316 : Ref sig .tc := ⟨.hbm, 465, rfl⟩
abbrev main_c_68 : Ref sig .tc := ⟨.hbm, 466, rfl⟩
abbrev main_call6_cst : Ref sig .tc := ⟨.hbm, 467, rfl⟩
abbrev main_call6_v0 : Ref sig .tc := ⟨.hbm, 468, rfl⟩
abbrev main_call6_v1 : Ref sig .tc := ⟨.hbm, 469, rfl⟩
abbrev main_call6_cst_0 : Ref sig .tc := ⟨.hbm, 470, rfl⟩
abbrev main_call6_v2 : Ref sig .tc := ⟨.hbm, 471, rfl⟩
abbrev main_call6_v3 : Ref sig .tc := ⟨.hbm, 472, rfl⟩
abbrev main_call6_v4 : Ref sig .tc := ⟨.hbm, 473, rfl⟩
abbrev main_call6_v5 : Ref sig .tc := ⟨.hbm, 474, rfl⟩
abbrev main_call6_v6 : Ref sig .tc := ⟨.hbm, 475, rfl⟩
abbrev main_call6_v7 : Ref sig .tc := ⟨.hbm, 476, rfl⟩
abbrev main_call6_cst_1 : Ref sig .tc := ⟨.hbm, 477, rfl⟩
abbrev main_call6_v8 : Ref sig .tc := ⟨.hbm, 478, rfl⟩
abbrev main_call6_cst_2 : Ref sig .tc := ⟨.hbm, 479, rfl⟩
abbrev main_call6_v9 : Ref sig .tc := ⟨.hbm, 480, rfl⟩
abbrev main_call6_v10 : Ref sig .tc := ⟨.hbm, 481, rfl⟩
abbrev main_call6_v11 : Ref sig .tc := ⟨.hbm, 482, rfl⟩
abbrev main_call6_v12 : Ref sig .tc := ⟨.hbm, 483, rfl⟩
abbrev main_call6_cst_3 : Ref sig .tc := ⟨.hbm, 484, rfl⟩
abbrev main_call6_v13 : Ref sig .tc := ⟨.hbm, 485, rfl⟩
abbrev main_call6_cst_4 : Ref sig .tc := ⟨.hbm, 486, rfl⟩
abbrev main_call6_call0_v0 : Ref sig .tc := ⟨.hbm, 487, rfl⟩
abbrev main_call6_call0_v1 : Ref sig .tc := ⟨.hbm, 488, rfl⟩
abbrev main_v317 : Ref sig .tc := ⟨.hbm, 489, rfl⟩
abbrev main_v318 : Ref sig .tc := ⟨.hbm, 490, rfl⟩
abbrev main_v319 : Ref sig .tc := ⟨.hbm, 491, rfl⟩
abbrev main_cst_69 : Ref sig .tc := ⟨.hbm, 492, rfl⟩
abbrev main_v320 : Ref sig .tc := ⟨.hbm, 493, rfl⟩
abbrev main_v321 : Ref sig .tc := ⟨.hbm, 494, rfl⟩
abbrev main_v322 : Ref sig .tc := ⟨.hbm, 495, rfl⟩
abbrev main_v323 : Ref sig .tc := ⟨.hbm, 496, rfl⟩
abbrev main_v324 : Ref sig .tc := ⟨.hbm, 497, rfl⟩
abbrev main_v325 : Ref sig .tc := ⟨.hbm, 498, rfl⟩
abbrev main_v326 : Ref sig .tc := ⟨.hbm, 499, rfl⟩
abbrev main_v327 : Ref sig .tc := ⟨.hbm, 500, rfl⟩
abbrev main_v328 : Ref sig .tc := ⟨.hbm, 501, rfl⟩
abbrev main_v329 : Ref sig .tc := ⟨.hbm, 502, rfl⟩
abbrev main_v330 : Ref sig .tc := ⟨.hbm, 503, rfl⟩
abbrev main_call7_cst : Ref sig .tc := ⟨.hbm, 504, rfl⟩
abbrev main_call7_v0 : Ref sig .tc := ⟨.hbm, 505, rfl⟩
abbrev main_v331 : Ref sig .tc := ⟨.hbm, 506, rfl⟩
abbrev main_cst_70 : Ref sig .tc := ⟨.hbm, 507, rfl⟩
abbrev main_v332 : Ref sig .tc := ⟨.hbm, 508, rfl⟩
abbrev main_v333 : Ref sig .tc := ⟨.hbm, 509, rfl⟩
abbrev main_v334 : Ref sig .tc := ⟨.hbm, 510, rfl⟩
abbrev main_cst_71 : Ref sig .tc := ⟨.hbm, 511, rfl⟩
abbrev main_v335 : Ref sig .tc := ⟨.hbm, 512, rfl⟩
abbrev main_cst_72 : Ref sig .tc := ⟨.hbm, 513, rfl⟩
abbrev main_v336 : Ref sig .tc := ⟨.hbm, 514, rfl⟩
abbrev main_v337 : Ref sig .tc := ⟨.hbm, 515, rfl⟩
abbrev main_v338 : Ref sig .tc := ⟨.hbm, 516, rfl⟩
abbrev main_cst_73 : Ref sig .tc := ⟨.hbm, 517, rfl⟩
abbrev main_call8_v0 : Ref sig .tc := ⟨.hbm, 518, rfl⟩
abbrev main_call8_v1 : Ref sig .tc := ⟨.hbm, 519, rfl⟩
abbrev main_v339 : Ref sig .tc := ⟨.hbm, 520, rfl⟩
abbrev main_v340 : Ref sig .tc := ⟨.hbm, 521, rfl⟩
abbrev main_v341 : Ref sig .tc := ⟨.hbm, 522, rfl⟩
abbrev main_v342 : Ref sig .tc := ⟨.hbm, 523, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S600000x1_S600000x128_0_1 : S600000x1.BroadcastsInDim S600000x128 (![0, 1] : Fin 2 → Fin S600000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf

class Facts : Prop extends Facts₀ where

variable [Facts]
-- ==== Proof.Reg0Defs.lean ====
import proofs.«428520_j76347338654282_1_alg».proof.Proof.Gen.KernelIdeal.Launch
import proofs.«428520_j76347338654282_1_alg».proof.Proof.Gen.KernelIdeal.Skeleton
import proofs.«428520_j76347338654282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0

abbrev r0_1 : Rect S128x128 := Rect.unit (s := S128x128) ![0, 0] S128x128.size inb_S128x128_S128x128_0_0

def out0_2 (x0 : Vec F S5000x128 .f32) (x1 : Vec F S128x128 .f32) : Vec F S5000x128 .f32 :=
  View.canon [⟨r0_0, k0_pay1 (View.ld x0 r0_0) (View.ld x1 r0_1)⟩]

theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

end Cert.KernelIdeal.Hand
-- ==== Proof.Reg1Defs.lean ====
import proofs.«428520_j76347338654282_1_alg».proof.Proof.Gen.KernelIdeal.Launch
import proofs.«428520_j76347338654282_1_alg».proof.Proof.Gen.KernelIdeal.Skeleton
import proofs.«428520_j76347338654282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0

abbrev r1_1 : Rect S1x128 := Rect.unit (s := S1x128) ![0, 0] S1x128.size inb_S1x128_S1x128_0_0

def out1_5 (x0 x1 : Vec F S5000x128 .f32) (x2 x3 x4 : Vec F S1x128 .f32) : Vec F S5000x128 .f32 :=
  View.canon [⟨r1_0, k1_pay1 (View.ld x0 r1_0) (View.ld x1 r1_0) (View.ld x2 r1_1) (View.ld x3 r1_1) (View.ld x4 r1_1)⟩]

theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

end Cert.KernelIdeal.Hand
-- ==== Proof.Reg2Defs.lean ====
import proofs.«428520_j76347338654282_1_alg».proof.Proof.Gen.KernelIdeal.Launch
import proofs.«428520_j76347338654282_1_alg».proof.Proof.Gen.KernelIdeal.Skeleton
import proofs.«428520_j76347338654282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0

abbrev r2_1 : Rect S128x128 := Rect.unit (s := S128x128) ![0, 0] S128x128.size inb_S128x128_S128x128_0_0

def out2_2 (x0 : Vec F S5000x128 .f32) (x1 : Vec F S128x128 .f32) : Vec F S5000x128 .f32 :=
  View.canon [⟨r2_0, k2_pay1 (View.ld x0 r2_0) (View.ld x1 r2_1)⟩]

theorem cover2_2 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

end Cert.KernelIdeal.Hand
-- ==== Proof.Reg3Defs.lean ====
import proofs.«428520_j76347338654282_1_alg».proof.Proof.Gen.KernelIdeal.Launch
import proofs.«428520_j76347338654282_1_alg».proof.Proof.Gen.KernelIdeal.Skeleton
import proofs.«428520_j76347338654282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0

abbrev r3_1 : Rect S1x128 := Rect.unit (s := S1x128) ![0, 0] S1x128.size inb_S1x128_S1x128_0_0

def out3_5 (x0 x1 : Vec F S5000x128 .f32) (x2 x3 x4 : Vec F S1x128 .f32) : Vec F S5000x128 .f32 :=
  View.canon [⟨r3_0, k3_pay1 (View.ld x0 r3_0) (View.ld x1 r3_0) (View.ld x2 r3_1) (View.ld x3 r3_1) (View.ld x4 r3_1)⟩]

theorem cover3_5 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

end Cert.KernelIdeal.Hand
-- ==== Proof.Reg4Defs.lean ====
import proofs.«428520_j76347338654282_1_alg».proof.Proof.Gen.KernelIdeal.Launch
import proofs.«428520_j76347338654282_1_alg».proof.Proof.Gen.KernelIdeal.Skeleton
import proofs.«428520_j76347338654282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0

abbrev r4_1 : Rect S128x128 := Rect.unit (s := S128x128) ![0, 0] S128x128.size inb_S128x128_S128x128_0_0

def out4_2 (x0 : Vec F S5000x128 .f32) (x1 : Vec F S128x128 .f32) : Vec F S5000x128 .f32 :=
  View.canon [⟨r4_0, k4_pay1 (View.ld x0 r4_0) (View.ld x1 r4_1)⟩]

theorem cover4_2 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

end Cert.KernelIdeal.Hand
-- ==== Proof.Reg5Defs.lean ====
import proofs.«428520_j76347338654282_1_alg».proof.Proof.Gen.KernelIdeal.Launch
import proofs.«428520_j76347338654282_1_alg».proof.Proof.Gen.KernelIdeal.Skeleton
import proofs.«428520_j76347338654282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x128 := Rect.unit (s := S5000x128) ![0, 0] S5000x128.size inb_S5000x128_S5000x128_0_0

abbrev r5_1 : Rect S1x128 := Rect.unit (s := S1x128) ![0, 0] S1x128.size inb_S1x128_S1x128_0_0

def out5_5 (x0 x1 : Vec F S5000x128 .f32) (x2 x3 x4 : Vec F S1x128 .f32) : Vec F S5000x128 .f32 :=
  View.canon [⟨r5_0, k5_pay1 (View.ld x0 r5_0) (View.ld x1 r5_0) (View.ld x2 r5_1) (View.ld x3 r5_1) (View.ld x4 r5_1)⟩]

theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

end Cert.KernelIdeal.Hand
-- ==== Proof.Reg6Defs.lean ====
import proofs.«428520_j76347338654282_1_alg».proof.Proof.Gen.KernelIdeal.Launch
import proofs.«428520_j76347338654282_1_alg».proof.Proof.Gen.KernelIdeal.Skeleton
import proofs.«428520_j76347338654282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x128 := Rect.unit (s := S5000x128) ![0, 0] S5000x128.size inb_S5000x128_S5000x128_0_0

abbrev r6_1 : Rect S128x128 := Rect.unit (s := S128x128) ![0, 0] S128x128.size inb_S128x128_S128x128_0_0

def out6_2 (x0 : Vec F S5000x128 .f32) (x1 : Vec F S128x128 .f32) : Vec F S5000x128 .f32 :=
  View.canon [⟨r6_0, k6_pay1 (View.ld x0 r6_0) (View.ld x1 r6_1)⟩]

theorem cover6_2 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) :
    (dat6 V c).after 2 t = out6_2 (iblk6 V c 0 t) (iblk6 V c 1 t) := by dsimp only [dat6]

end Cert.KernelIdeal.Hand
-- ==== Proof.Reg7Defs.lean ====
import proofs.«428520_j76347338654282_1_alg».proof.Proof.Gen.KernelIdeal.Launch
import proofs.«428520_j76347338654282_1_alg».proof.Proof.Gen.KernelIdeal.Skeleton
import proofs.«428520_j76347338654282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S5000x128 := Rect.unit (s := S5000x128) ![0, 0] S5000x128.size inb_S5000x128_S5000x128_0_0

abbrev r7_1 : Rect S1x128 := Rect.unit (s := S1x128) ![0, 0] S1x128.size inb_S1x128_S1x128_0_0

def out7_5 (x0 x1 : Vec F S5000x128 .f32) (x2 x3 x4 : Vec F S1x128 .f32) : Vec F S5000x128 .f32 :=
  View.canon [⟨r7_0, k7_pay1 (View.ld x0 r7_0) (View.ld x1 r7_0) (View.ld x2 r7_1) (View.ld x3 r7_1) (View.ld x4 r7_1)⟩]

theorem cover7_5 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

end Cert.KernelIdeal.Hand
-- ==== Proof.Reg8Defs.lean ====
import proofs.«428520_j76347338654282_1_alg».proof.Proof.Gen.KernelIdeal.Launch
import proofs.«428520_j76347338654282_1_alg».proof.Proof.Gen.KernelIdeal.Skeleton
import proofs.«428520_j76347338654282_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev scM8 : Memref sig .tc .vmem S128x128 .f32 := Memref.whole cc8_scratch0

def acc8 (c : Dev nD) : (n : ℕ) → n < cfg8.N → Vec F S128x128 .f32
  | 0, hn => k8_pay2 (iblk8 V c 1 ⟨0, hn⟩) (iblk8 V c 0 ⟨0, hn⟩) (k8_pay1 (F := F))
  | n + 1, hn => k8_pay2 (iblk8 V c 1 ⟨n + 1, hn⟩) (iblk8 V c 0 ⟨n + 1, hn⟩) (acc8 c n (Nat.lt_of_succ_lt hn))

theorem acc8_zero (c : Dev nD) (t : Fin cfg8.N) (hz : t.val = 0) :
    acc8 V c t.val t.isLt = k8_pay2 (iblk8 V c 1 t) (iblk8 V c 0 t) (k8_pay1 (F := F)) := by
  obtain ⟨n, hn⟩ := t
  cases n with
  | zero => rfl
  | succ n => exact absurd hz (Nat.succ_ne_zero n)

theorem acc8_pos (c : Dev nD) (t : Fin cfg8.N) (hz : t.val ≠ 0) :
    acc8 V c t.val t.isLt
      = k8_pay2 (iblk8 V c 1 t) (iblk8 V c 0 t) (acc8 V c (t.val - 1) (Nat.lt_of_le_of_lt (Nat.sub_le _ _) t.isLt)) := by
  obtain ⟨n, hn⟩ := t
  cases n with
  | zero => exact absurd rfl hz
  | succ n => rfl

def Phi8 (c : Dev nD) : (n : ℕ) → n ≤ cfg8.N → sProp 𝕄
  | 0, _ => Pipeline.ΦA spec8 c
  | n + 1, hn => iprop(owns (c : Thread nD τ) scM8 fullShare (acc8 V c n hn)
      ∗ Pipeline.scopedRestBut (Ix := Unit) (Name := ℕ) (U := UR sig nD τ) (Lvl := ℕ) (Val := Elt F) spec8 c [cc8_scratch0]
      ∗ (∃ r, prngReg c r))

theorem Phi8_zero (c : Dev nD) (n : ℕ) (h : n ≤ cfg8.N) (hz : n = 0) : Phi8 V c n h = Pipeline.ΦA spec8 c := by
  subst hz; rfl

theorem Phi8_succ (c : Dev nD) (n : ℕ) (hn : n < cfg8.N) :
    Phi8 V c (n + 1) hn = iprop(owns (c : Thread nD τ) scM8 fullShare (acc8 V c n hn)
      ∗ Pipeline.scopedRestBut (Ix := Unit) (Name := ℕ) (U := UR sig nD τ) (Lvl := ℕ) (Val := Elt F) spec8 c [cc8_scratch0]
      ∗ (∃ r, prngReg c r)) := rfl

theorem Phi8_pos (c : Dev nD) (n : ℕ) (h : n ≤ cfg8.N) (hz : n ≠ 0) :
    Phi8 V c n h = iprop(owns (c : Thread nD τ) scM8 fullShare (acc8 V c (n - 1) (by omega))
      ∗ Pipeline.scopedRestBut (Ix := Unit) (Name := ℕ) (U := UR sig nD τ) (Lvl := ℕ) (Val := Elt F) spec8 c [cc8_scratch0]
      ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => acc8 V c t.val t.isLt
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = acc8 V c t.val t.isLt := by dsimp only [dat8]

theorem Phi8_castSucc (c : Dev nD) (t : Fin cfg8.N) :
    (dat8 V c).Φ t.castSucc = Phi8 V c t.val (Nat.le_of_lt t.isLt) := by
  dsimp only [dat8]; simp only [Fin.coe_castSucc]

theorem Phi8_at_succ (c : Dev nD) (t : Fin cfg8.N) :
    (dat8 V c).Φ t.succ = Phi8 V c (t.val + 1) t.isLt := rfl

end Cert.KernelIdeal.Hand
-- ==== Proof.Chain.lean ====
import proofs.«428520_j76347338654282_1_alg».proof.Proof.Gen.KernelIdeal.Regions
import proofs.«428520_j76347338654282_1_alg».proof.Proof.Reg0Defs
import proofs.«428520_j76347338654282_1_alg».proof.Proof.Reg1Defs
import proofs.«428520_j76347338654282_1_alg».proof.Proof.Reg2Defs
import proofs.«428520_j76347338654282_1_alg».proof.Proof.Reg3Defs
import proofs.«428520_j76347338654282_1_alg».proof.Proof.Reg4Defs
import proofs.«428520_j76347338654282_1_alg».proof.Proof.Reg5Defs
import proofs.«428520_j76347338654282_1_alg».proof.Proof.Reg6Defs
import proofs.«428520_j76347338654282_1_alg».proof.Proof.Reg7Defs
import proofs.«428520_j76347338654282_1_alg».proof.Proof.Reg8Defs

noncomputable section

namespace Cert.KernelIdeal.Hand

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat)
open Cert.KernelIdeal Cert.KernelIdeal.Gen

variable {F : FTy → Type} [FloatOps F]
local notation "𝕄" => MT nD τ sig Unit (Elt F) ℕ (UR sig nD τ) ℕ
variable (m : (ℓ : Loc nD τ sig) → Buf (Elt F) ℓ)
variable (c : Dev nD)

theorem upd_of_ne {W : Valuation τ sig (Elt F)} {r b : Ref sig .tc} {x} (h : b ≠ r) : Function.update W r x b = W b :=
  Function.update_of_ne (StableHlo.devRef_ne_of_ne h) _ _

abbrev U1 : Valuation τ sig (Elt F) := StableHlo.after hostOps0 (fun b => m (c, b))

def o2 : Buf (Elt F) ((c : Thread nD τ).loc main_v34) :=
  (dat0 (fun c b => U1 m c b) c).arrAt 2 cfg0.N

def U2 : Valuation τ sig (Elt F) := Function.update (U1 m c) main_v34 (o2 m c)
theorem U2_out : U2 m c main_v34 = o2 m c := Function.update_self _ _ _
theorem U2_of_ne (b : Ref sig .tc) (h : b ≠ main_v34) : U2 m c b = U1 m c b := upd_of_ne h

abbrev U3 : Valuation τ sig (Elt F) := StableHlo.after hostOps1 (U2 m c)

def o4 : Buf (Elt F) ((c : Thread nD τ).loc main_v66) :=
  (dat1 (fun c b => U3 m c b) c).arrAt 5 cfg1.N

def U4 : Valuation τ sig (Elt F) := Function.update (U3 m c) main_v66 (o4 m c)
theorem U4_out : U4 m c main_v66 = o4 m c := Function.update_self _ _ _
theorem U4_of_ne (b : Ref sig .tc) (h : b ≠ main_v66) : U4 m c b = U3 m c b := upd_of_ne h

abbrev U5 : Valuation τ sig (Elt F) := StableHlo.after hostOps2 (U4 m c)

def o6 : Buf (Elt F) ((c : Thread nD τ).loc main_v69) :=
  (dat2 (fun c b => U5 m c b) c).arrAt 2 cfg2.N

def U6 : Valuation τ sig (Elt F) := Function.update (U5 m c) main_v69 (o6 m c)
theorem U6_out : U6 m c main_v69 = o6 m c := Function.update_self _ _ _
theorem U6_of_ne (b : Ref sig .tc) (h : b ≠ main_v69) : U6 m c b = U5 m c b := upd_of_ne h

abbrev U7 : Valuation τ sig (Elt F) := StableHlo.after hostOps3 (U6 m c)

def o8 : Buf (Elt F) ((c : Thread nD τ).loc main_v101) :=
  (dat3 (fun c b => U7 m c b) c).arrAt 5 cfg3.N

def U8 : Valuation τ sig (Elt F) := Function.update (U7 m c) main_v101 (o8 m c)
theorem U8_out : U8 m c main_v101 = o8 m c := Function.update_self _ _ _
theorem U8_of_ne (b : Ref sig .tc) (h : b ≠ main_v101) : U8 m c b = U7 m c b := upd_of_ne h

abbrev U9 : Valuation τ sig (Elt F) := StableHlo.after hostOps4 (U8 m c)

def o10 : Buf (Elt F) ((c : Thread nD τ).loc main_v104) :=
  (dat4 (fun c b => U9 m c b) c).arrAt 2 cfg4.N

def U10 : Valuation τ sig (Elt F) := Function.update (U9 m c) main_v104 (o10 m c)
theorem U10_out : U10 m c main_v104 = o10 m c := Function.update_self _ _ _
theorem U10_of_ne (b : Ref sig .tc) (h : b ≠ main_v104) : U10 m c b = U9 m c b := upd_of_ne h

abbrev U11 : Valuation τ sig (Elt F) := StableHlo.after hostOps5 (U10 m c)

def o12 : Buf (Elt F) ((c : Thread nD τ).loc main_v136) :=
  (dat5 (fun c b => U11 m c b) c).arrAt 5 cfg5.N

def U12 : Valuation τ sig (Elt F) := Function.update (U11 m c) main_v136 (o12 m c)
theorem U12_out : U12 m c main_v136 = o12 m c := Function.update_self _ _ _
theorem U12_of_ne (b : Ref sig .tc) (h : b ≠ main_v136) : U12 m c b = U11 m c b := upd_of_ne h

abbrev U13 : Valuation τ sig (Elt F) := StableHlo.after hostOps6 (U12 m c)

def o14 : Buf (Elt F) ((c : Thread nD τ).loc main_v139) :=
  (dat6 (fun c b => U13 m c b) c).arrAt 2 cfg6.N

def U14 : Valuation τ sig (Elt F) := Function.update (U13 m c) main_v139 (o14 m c)
theorem U14_out : U14 m c main_v139 = o14 m c := Function.update_self _ _ _
theorem U14_of_ne (b : Ref sig .tc) (h : b ≠ main_v139) : U14 m c b = U13 m c b := upd_of_ne h

abbrev U15 : Valuation τ sig (Elt F) := StableHlo.after hostOps7 (U14 m c)

def o16 : Buf (Elt F) ((c : Thread nD τ).loc main_v171) :=
  (dat7 (fun c b => U15 m c b) c).arrAt 5 cfg7.N

def U16 : Valuation τ sig (Elt F) := Function.update (U15 m c) main_v171 (o16 m c)
theorem U16_out : U16 m c main_v171 = o16 m c := Function.update_self _ _ _
theorem U16_of_ne (b : Ref sig .tc) (h : b ≠ main_v171) : U16 m c b = U15 m c b := upd_of_ne h

abbrev U17 : Valuation τ sig (Elt F) := StableHlo.after hostOps8 (U16 m c)

def o18 : Buf (Elt F) ((c : Thread nD τ).loc main_v177) :=
  (dat8 (fun c b => U17 m c b) c).arrAt 2 cfg8.N

def U18 : Valuation τ sig (Elt F) := Function.update (U17 m c) main_v177 (o18 m c)
theorem U18_out : U18 m c main_v177 = o18 m c := Function.update_self _ _ _
theorem U18_of_ne (b : Ref sig .tc) (h : b ≠ main_v177) : U18 m c b = U17 m c b := upd_of_ne h

abbrev U19 : Valuation τ sig (Elt F) := StableHlo.after hostOps9 (U18 m c)
abbrev U20 : Valuation τ sig (Elt F) := StableHlo.after hostOps9_1 (U19 m c)
abbrev U21 : Valuation τ sig (Elt F) := StableHlo.after hostOps9_2 (U20 m c)

def outs : Outs (F := F) := fun J r c => match J with
  | 2 => U2 m c r
  | 4 => U4 m c r
  | 6 => U6 m c r
  | 8 => U8 m c r
  | 10 => U10 m c r
  | 12 => U12 m c r
  | 14 => U14 m c r
  | 16 => U16 m c r
  | 18 => U18 m c r
  | _ => m (c, r)

theorem upd_eq {W W' : Valuation τ sig (Elt F)} {r : Ref sig .tc} {x} (h : W = W') :
    Function.update W r (Function.update W' r x r) = Function.update W' r x := by rw [h, Function.update_self]

theorem V1_eq : V1 m c = U1 m c := rfl
theorem V2_eq : V2 m (outs m) c = U2 m c := upd_eq (V1_eq m c)
theorem V3_eq : V3 m (outs m) c = U3 m c := congrArg (StableHlo.after hostOps1) (V2_eq m c)
theorem V4_eq : V4 m (outs m) c = U4 m c := upd_eq (V3_eq m c)
theorem V5_eq : V5 m (outs m) c = U5 m c := congrArg (StableHlo.after hostOps2) (V4_eq m c)
theorem V6_eq : V6 m (outs m) c = U6 m c := upd_eq (V5_eq m c)
theorem V7_eq : V7 m (outs m) c = U7 m c := congrArg (StableHlo.after hostOps3) (V6_eq m c)
theorem V8_eq : V8 m (outs m) c = U8 m c := upd_eq (V7_eq m c)
theorem V9_eq : V9 m (outs m) c = U9 m c := congrArg (StableHlo.after hostOps4) (V8_eq m c)
theorem V10_eq : V10 m (outs m) c = U10 m c := upd_eq (V9_eq m c)
theorem V11_eq : V11 m (outs m) c = U11 m c := congrArg (StableHlo.after hostOps5) (V10_eq m c)
theorem V12_eq : V12 m (outs m) c = U12 m c := upd_eq (V11_eq m c)
theorem V13_eq : V13 m (outs m) c = U13 m c := congrArg (StableHlo.after hostOps6) (V12_eq m c)
theorem V14_eq : V14 m (outs m) c = U14 m c := upd_eq (V13_eq m c)
theorem V15_eq : V15 m (outs m) c = U15 m c := congrArg (StableHlo.after hostOps7) (V14_eq m c)
theorem V16_eq : V16 m (outs m) c = U16 m c := upd_eq (V15_eq m c)
theorem V17_eq : V17 m (outs m) c = U17 m c := congrArg (StableHlo.after hostOps8) (V16_eq m c)
theorem V18_eq : V18 m (outs m) c = U18 m c := upd_eq (V17_eq m c)
theorem V19_eq : V19 m (outs m) c = U19 m c := congrArg (StableHlo.after hostOps9) (V18_eq m c)
theorem V20_eq : V20 m (outs m) c = U20 m c := congrArg (StableHlo.after hostOps9_1) (V19_eq m c)
theorem V21_eq : V21 m (outs m) c = U21 m c := congrArg (StableHlo.after hostOps9_2) (V20_eq m c)

def pdats : (p : Fin 9) → (c : Dev nD) → Dat τ (Elt F) Unit ℕ (UR sig nD τ) ℕ (cfgs p) c
  | ⟨0, _⟩ => fun c => dat0 (fun c b => U1 m c b) c
  | ⟨1, _⟩ => fun c => dat1 (fun c b => U3 m c b) c
  | ⟨2, _⟩ => fun c => dat2 (fun c b => U5 m c b) c
  | ⟨3, _⟩ => fun c => dat3 (fun c b => U7 m c b) c
  | ⟨4, _⟩ => fun c => dat4 (fun c b => U9 m c b) c
  | ⟨5, _⟩ => fun c => dat5 (fun c b => U11 m c b) c
  | ⟨6, _⟩ => fun c => dat6 (fun c b => U13 m c b) c
  | ⟨7, _⟩ => fun c => dat7 (fun c b => U15 m c b) c
  | ⟨8, _⟩ => fun c => dat8 (fun c b => U17 m c b) c

abbrev noVar : Variants := Variants.none
abbrev noL : GSem nD τ sig → Finset Unit := fun _ => ∅
abbrev noLv : GSem nD τ sig → Unit → ℕ := fun _ _ => 0

abbrev Rst : sProp 𝕄 := iprop((∃ r, prngReg c r) ∗ ∃ W, owes (c : Thread nD τ) (0 : CellTallies nD τ sig Unit) W)

end Cert.KernelIdeal.Hand

end
-- ==== Proof.Reg0Body.lean ====
import proofs.«428520_j76347338654282_1_alg».proof.Proof.Reg0Defs
import Idealize.ShloMosaic.Lib.Pipeline.TableIdle

noncomputable section

namespace Cert.KernelIdeal.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0 (c : Dev nD) (t : Fin cfg0.N) : ∀ w : Fin cfg0.W, (cfg0.win w).isOut = false → ∀ d,
    (dat0 V c).before w t d = (dat0 V c).after w t
  | ⟨0, _⟩, _ | ⟨1, _⟩, _ =>
    (dat0 V c).before_in_eq_fetched _ rfl (fun _ => rfl) (fun _ _ _ => rfl) (fun _ => rfl) t
  | ⟨2, _⟩, h => nomatch h

theorem sound_kernel0 (c : Dev nD) (i : grid0.Coords) {m0 m2 : Memref sig .tc .vmem S5000x128 .f32}
    {m1 : Memref sig .tc .vmem S128x128 .f32} (h0 : m0.IsWhole) (h1 : m1.IsWhole) (h2 : m2.IsWhole)
    (x0 d : Vec F S5000x128 .f32) (x1 : Vec F S128x128 .f32) (K : PUnit → sProp 𝕄) :
    iprop(owns c.tc m0 fullShare x0 ∗ owns c.tc m1 fullShare x1 ∗ owns c.tc m2 fullShare d
        ∗ (iprop(owns c.tc m0 fullShare x0 ∗ owns c.tc m1 fullShare x1 ∗ owns c.tc m2 fullShare (out0_2 x0 x1)) -∗ K ⟨⟩))
      ⊢ wp frame (wpE (defs₀ (F := F)) Variants.none c none) Set.univ (cc0__linear_kernel i m0 h0 m1 h1 m2 h2) K := by
  simp only [cc0__linear_kernel_eq_skeleton, owns_eq_rep]; unfold cc0__linear_kernel_skel
  iintro ⟨H0, H1, H2, Hk⟩
  sl_exec
  sl_step
  iapply Hk
  iframe H0 H1
  rw [← owns_eq_rep]; unfold owns
  iexists _; isplitr; swap; · iexact H2
  ipureintro
  simp only [View.readAt_rep]
  exact View.read_writes_eq_canon _ _ _ (cover0_2 _)

theorem body_obligation0 (c : Dev nD) : BodyObligation (dat0 (F := F) V c) (defs₀ (F := F)) Variants.none () Set.univ := fun t => by
  rw [bigSep_W0, bigSep_W0]
  simp (disch := exact rfl) only [before0]
  dsimp only [dat0, Dat.owesAt, Dat.bound]
  iintro ⟨HΦ, Ho, ⟨%d0, H0⟩, ⟨%d1, H1⟩, ⟨%d2, H2⟩⟩
  iapply (sound_kernel0 c (grid0.coords t) (hstage0_0 _) (hstage0_1 _) (hstage0_2 _))
  iframe H0 H1 H2
  iintro H
  iframe

end Cert.KernelIdeal.Hand
-- ==== Proof.RecLib.lean ====
import proofs.«428520_j76347338654282_1_alg».proof.Proof.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hentry_of {p : Fin 9} (L : Pipeline.LaunchFacts (nD := nD) (τ := τ) cfgs p) (c : Dev nD) (V : Valuation τ sig (Elt F))
    (hq : ∀ w, (pdats m p c).q w = fullShare) (hA : ∀ w, (pdats m p c).A w = V (Pipeline.arrRef (cfgs p).spec w))
    (howed : ∀ t, (pdats m p c).owed t = 0) (hrec : ∀ x, x ∈ (pdats m p c).recorded 0) :
    iprop(iprop(StableHlo.held (c : Thread nD τ) (Pipeline.ucRefs τ sig) V ∗ Rst c) ∗ Pipeline.ownSems0 (fun k : PEmpty => k.elim) c ∗ levAts noL noLv)
      ⊢ |={Set.univ}=> (iprop((pdats m p c).arrays ((pdats m p c).arrAt · 0) ∗ Pipeline.prefHeld (pcfgs (F := F) p).pre c (fun _ => fullShare) (adm p).1
        ∗ (pdats m p c).owesAt () 0 ∗ (∃ r, prngReg c r) ∗ Pipeline.unscopedRest (cfgs p).spec c (fun b => V b)) : sProp 𝕄) := by
  rw [Pipeline.ownSems0_none]
  have hsplit := Pipeline.arrays_of_unscopedBufs (p := p) (pcfgs (F := F)) adm (pdats m) L.win L.arr_whole c
    ((pdats m p c).share_full hq) (fun b => V b) hA
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    rw [howed]
    icases HO with ⟨%W, HO⟩; iexists W; isplitr; · ipureintro; exact fun x _ => Or.inl (hrec x)
    iexact HO
  isplitl [Hp]; · iexact Hp
  iexact Hrest

theorem hexit_of {p : Fin 9} (L : Pipeline.LaunchFacts (nD := nD) (τ := τ) cfgs p) (c : Dev nD) (V V' : Valuation τ sig (Elt F))
    (o : Fin (cfgs p).W) (hq : ∀ w, (pdats m p c).q w = fullShare) (hA : ∀ w, (pdats m p c).A w = V (Pipeline.arrRef (cfgs p).spec w))
    (howed : ∀ t, (pdats m p c).owed t = 0) (hin : ∀ w, w ≠ o → ((cfgs p).win w).isOut = false)
    (hne : ∀ b : Ref sig .tc, b ≠ Pipeline.arrRef (cfgs p).spec o → V' b = V b)
    (ho : (pdats m p c).arrAt o (cfgs p).N = V' (Pipeline.arrRef (cfgs p).spec o)) :
    (iprop((pdats m p c).arrays ((pdats m p c).arrAt · (cfgs p).N) ∗ (pdats m p c).owesAt () (Fin.last (cfgs p).N) ∗ (∃ r, prngReg c r)
        ∗ Pipeline.unscopedRest (cfgs p).spec c (fun b => V b)) : sProp 𝕄)
      ⊢ |={Set.univ}=> iprop(StableHlo.held (c : Thread nD τ) (Pipeline.ucRefs τ sig) V' ∗ Rst c) := by
  have hF : ∀ w, (pdats m p c).arrAt w (cfgs p).N = V' (Pipeline.arrRef (cfgs p).spec w) := fun w => by
    by_cases h : w = o
    · rw [h]; exact ho
    · rw [(pdats m p c).arrAt_in w (hin w h), hA, hne _ fun e => h (L.win.arr_inj e)]
  have hjoin := Pipeline.unscopedBufs_of_arrays (p := p) (pcfgs (F := F)) adm (Ix := Unit) (Name := ℕ) (U := UR sig nD τ) (Lvl := ℕ)
    L.win L.arr_whole c (pdats m) ((pdats m p c).share_full hq)
    (fun b => V b) (fun b => V' b) ((pdats m p c).arrAt · (cfgs p).N) hF
    fun b hb => hne b fun e => hb (Finset.mem_image.mpr ⟨o, Finset.mem_univ _, e.symm⟩)
  rw [Pipeline.unscopedBufs_held] at hjoin
  iintro ⟨Ha, HO, HY, Hrest⟩
  imodintro
  isplitl [Ha Hrest]
  · iapply hjoin; isplitl [Ha] <;> iassumption
  isplitl [HY]; · iexact HY
  unfold Pipeline.Dat.owesAt Pipeline.owesWithin
  rw [howed]
  icases HO with ⟨%W, -, HO⟩; iexists W; iexact HO

theorem hin_of {p : Fin 9} (c : Dev nD) (hΦ : (pdats m p c).Φ 0 = Pipeline.ΦA (cfgs p).spec c) :
    (iprop((∃ r, prngReg c r) ∗ Pipeline.prefHeld (pcfgs (F := F) p).pre c (fun _ => fullShare) (adm p).1
        ∗ Pipeline.scopedRest (cfgs p).spec c) : sProp 𝕄) ⊢ (pdats m p c).Φ 0 := by
  rw [hΦ]; unfold Pipeline.ΦA
  iintro ⟨Hp, -, Hr⟩
  isplitl [Hr]; · iexact Hr
  iexact Hp

theorem hout_of {p : Fin 9} (c : Dev nD) (hΦ : (pdats m p c).Φ (Fin.last _) = Pipeline.ΦA (cfgs p).spec c) :
    (pdats m p c).Φ (Fin.last (cfgs p).N)
      ⊢ (iprop((∃ r, prngReg c r) ∗ Pipeline.ownSems0 (fun k : PEmpty => k.elim) c ∗ Pipeline.scopedRest (cfgs p).spec c) : sProp 𝕄) := by
  rw [Pipeline.ownSems0_none, hΦ]; unfold Pipeline.ΦA
  iintro ⟨Hr, Hp⟩
  isplitl [Hp]; · iexact Hp
  isplitr; · iempintro
  iexact Hr

end Cert.KernelIdeal.Hand

end
-- ==== Proof.Rec0.lean ====
import proofs.«428520_j76347338654282_1_alg».proof.Proof.Reg0Body
import proofs.«428520_j76347338654282_1_alg».proof.Proof.RecLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg0 : Pipeline.RegionSeg (pcfgs (F := F)) adm (pdats m) () defs₀ noVar noL noLv 0 where
  win := launch0.win.to₀
  block_pos := launch0.block_pos
  stage_whole := launch0.stage_whole
  K := PEmpty
  osem k := k.elim
  ho := Pipeline.OwnSemFacts.none _
  hbody c := (body_obligation0 (fun c b => U1 m c b) c).loose
  hwaits := Pipeline.hwaits_of_owed_zero _ _ _ _ noL noLv 0 fun _ _ => rfl
  pre c := iprop(StableHlo.held (c : Thread nD τ) (Pipeline.ucRefs τ sig) (U1 m c) ∗ Rst c)
  post c := iprop(StableHlo.held (c : Thread nD τ) (Pipeline.ucRefs τ sig) (U2 m c) ∗ Rst c)
  X c := iprop(∃ r, prngReg c r)
  Y c := iprop(∃ r, prngReg c r)
  Z c := Pipeline.unscopedRest (Ix := Unit) (Name := ℕ) (U := UR sig nD τ) (Lvl := ℕ) spec0 c (fun b => U1 m c b)
  hentry c := hentry_of m launch0 c (U1 m c) (fun _ => rfl) (fun _ => rfl) (fun _ => rfl) fun _ => trivial
  hin c := hin_of m c rfl
  hout c := hout_of m c rfl
  hexit c := hexit_of m launch0 c (U1 m c) (U2 m c) 2 (fun _ => rfl) (fun _ => rfl) (fun _ => rfl) (by decide) (U2_of_ne m c) (U2_out m c).symm

end Cert.KernelIdeal.Hand

end
-- ==== Proof.Reg1Body.lean ====
import proofs.«428520_j76347338654282_1_alg».proof.Proof.Reg1Defs
import Idealize.ShloMosaic.Lib.Pipeline.TableIdle

noncomputable section

namespace Cert.KernelIdeal.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1 (c : Dev nD) (t : Fin cfg1.N) : ∀ w : Fin cfg1.W, (cfg1.win w).isOut = false → ∀ d,
    (dat1 V c).before w t d = (dat1 V c).after w t
  | ⟨0, _⟩, _ | ⟨1, _⟩, _ | ⟨2, _⟩, _ | ⟨3, _⟩, _ | ⟨4, _⟩, _ =>
    (dat1 V c).before_in_eq_fetched _ rfl (fun _ => rfl) (fun _ _ _ => rfl) (fun _ => rfl) t
  | ⟨5, _⟩, h => nomatch h

theorem sound_kernel1 (c : Dev nD) (i : grid1.Coords) {m0 m1 m5 : Memref sig .tc .vmem S5000x128 .f32}
    {m2 m3 m4 : Memref sig .tc .vmem S1x128 .f32} (h0 : m0.IsWhole) (h1 : m1.IsWhole) (h2 : m2.IsWhole) (h3 : m3.IsWhole)
    (h4 : m4.IsWhole) (h5 : m5.IsWhole) (x0 x1 d : Vec F S5000x128 .f32) (x2 x3 x4 : Vec F S1x128 .f32) (K : PUnit → sProp 𝕄) :
    iprop(owns c.tc m0 fullShare x0 ∗ owns c.tc m1 fullShare x1 ∗ owns c.tc m2 fullShare x2 ∗ owns c.tc m3 fullShare x3
        ∗ owns c.tc m4 fullShare x4 ∗ owns c.tc m5 fullShare d
        ∗ (iprop(owns c.tc m0 fullShare x0 ∗ owns c.tc m1 fullShare x1 ∗ owns c.tc m2 fullShare x2 ∗ owns c.tc m3 fullShare x3
            ∗ owns c.tc m4 fullShare x4 ∗ owns c.tc m5 fullShare (out1_5 x0 x1 x2 x3 x4)) -∗ K ⟨⟩))
      ⊢ wp frame (wpE (defs₀ (F := F)) Variants.none c none) Set.univ (cc1__ln_relu_kernel i m0 h0 m1 h1 m2 h2 m3 h3 m4 h4 m5 h5) K := by
  simp only [cc1__ln_relu_kernel_eq_skeleton, owns_eq_rep]; unfold cc1__ln_relu_kernel_skel
  iintro ⟨H0, H1, H2, H3, H4, H5, Hk⟩
  sl_exec
  sl_step
  iapply Hk
  iframe H0 H1 H2 H3 H4
  rw [← owns_eq_rep]; unfold owns
  iexists _; isplitr; swap; · iexact H5
  ipureintro
  simp only [View.readAt_rep]
  exact View.read_writes_eq_canon _ _ _ (cover1_5 _)

theorem body_obligation1 (c : Dev nD) : BodyObligation (dat1 (F := F) V c) (defs₀ (F := F)) Variants.none () Set.univ := fun t => by
  rw [bigSep_W1, bigSep_W1]
  simp (disch := exact rfl) only [before1]
  dsimp only [dat1, Dat.owesAt, Dat.bound]
  iintro ⟨HΦ, Ho, ⟨%d0, H0⟩, ⟨%d1, H1⟩, ⟨%d2, H2⟩, ⟨%d3, H3⟩, ⟨%d4, H4⟩, ⟨%d5, H5⟩⟩
  iapply (sound_kernel1 c (grid1.coords t) (hstage1_0 _) (hstage1_1 _) (hstage1_2 _) (hstage1_3 _) (hstage1_4 _) (hstage1_5 _))
  iframe H0 H1 H2 H3 H4 H5
  iintro H
  iframe

end Cert.KernelIdeal.Hand
-- ==== Proof.Rec1.lean ====
import proofs.«428520_j76347338654282_1_alg».proof.Proof.Reg1Body
import proofs.«428520_j76347338654282_1_alg».proof.Proof.RecLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg1 : Pipeline.RegionSeg (pcfgs (F := F)) adm (pdats m) () defs₀ noVar noL noLv 1 where
  win := launch1.win.to₀
  block_pos := launch1.block_pos
  stage_whole := launch1.stage_whole
  K := PEmpty
  osem k := k.elim
  ho := Pipeline.OwnSemFacts.none _
  hbody c := (body_obligation1 (fun c b => U3 m c b) c).loose
  hwaits := Pipeline.hwaits_of_owed_zero _ _ _ _ noL noLv 1 fun _ _ => rfl
  pre c := iprop(StableHlo.held (c : Thread nD τ) (Pipeline.ucRefs τ sig) (U3 m c) ∗ Rst c)
  post c := iprop(StableHlo.held (c : Thread nD τ) (Pipeline.ucRefs τ sig) (U4 m c) ∗ Rst c)
  X c := iprop(∃ r, prngReg c r)
  Y c := iprop(∃ r, prngReg c r)
  Z c := Pipeline.unscopedRest (Ix := Unit) (Name := ℕ) (U := UR sig nD τ) (Lvl := ℕ) spec1 c (fun b => U3 m c b)
  hentry c := hentry_of m launch1 c (U3 m c) (fun _ => rfl) (fun _ => rfl) (fun _ => rfl) fun _ => trivial
  hin c := hin_of m c rfl
  hout c := hout_of m c rfl
  hexit c := hexit_of m launch1 c (U3 m c) (U4 m c) 5 (fun _ => rfl) (fun _ => rfl) (fun _ => rfl) (by decide) (U4_of_ne m c) (U4_out m c).symm

end Cert.KernelIdeal.Hand

end
-- ==== Proof.Reg2Body.lean ====
import proofs.«428520_j76347338654282_1_alg».proof.Proof.Reg2Defs
import Idealize.ShloMosaic.Lib.Pipeline.TableIdle

noncomputable section

namespace Cert.KernelIdeal.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before2 (c : Dev nD) (t : Fin cfg2.N) : ∀ w : Fin cfg2.W, (cfg2.win w).isOut = false → ∀ d,
    (dat2 V c).before w t d = (dat2 V c).after w t
  | ⟨0, _⟩, _ | ⟨1, _⟩, _ =>
    (dat2 V c).before_in_eq_fetched _ rfl (fun _ => rfl) (fun _ _ _ => rfl) (fun _ => rfl) t
  | ⟨2, _⟩, h => nomatch h

theorem sound_kernel2 (c : Dev nD) (i : grid2.Coords) {m0 m2 : Memref sig .tc .vmem S5000x128 .f32}
    {m1 : Memref sig .tc .vmem S128x128 .f32} (h0 : m0.IsWhole) (h1 : m1.IsWhole) (h2 : m2.IsWhole)
    (x0 d : Vec F S5000x128 .f32) (x1 : Vec F S128x128 .f32) (K : PUnit → sProp 𝕄) :
    iprop(owns c.tc m0 fullShare x0 ∗ owns c.tc m1 fullShare x1 ∗ owns c.tc m2 fullShare d
        ∗ (iprop(owns c.tc m0 fullShare x0 ∗ owns c.tc m1 fullShare x1 ∗ owns c.tc m2 fullShare (out2_2 x0 x1)) -∗ K ⟨⟩))
      ⊢ wp frame (wpE (defs₀ (F := F)) Variants.none c none) Set.univ (cc2__linear_kernel i m0 h0 m1 h1 m2 h2) K := by
  simp only [cc2__linear_kernel_eq_skeleton, owns_eq_rep]; unfold cc2__linear_kernel_skel
  iintro ⟨H0, H1, H2, Hk⟩
  sl_exec
  sl_step
  iapply Hk
  iframe H0 H1
  rw [← owns_eq_rep]; unfold owns
  iexists _; isplitr; swap; · iexact H2
  ipureintro
  simp only [View.readAt_rep]
  exact View.read_writes_eq_canon _ _ _ (cover2_2 _)

theorem body_obligation2 (c : Dev nD) : BodyObligation (dat2 (F := F) V c) (defs₀ (F := F)) Variants.none () Set.univ := fun t => by
  rw [bigSep_W2, bigSep_W2]
  simp (disch := exact rfl) only [before2]
  dsimp only [dat2, Dat.owesAt, Dat.bound]
  iintro ⟨HΦ, Ho, ⟨%d0, H0⟩, ⟨%d1, H1⟩, ⟨%d2, H2⟩⟩
  iapply (sound_kernel2 c (grid2.coords t) (hstage2_0 _) (hstage2_1 _) (hstage2_2 _))
  iframe H0 H1 H2
  iintro H
  iframe

end Cert.KernelIdeal.Hand
-- ==== Proof.Rec2.lean ====
import proofs.«428520_j76347338654282_1_alg».proof.Proof.Reg2Body
import proofs.«428520_j76347338654282_1_alg».proof.Proof.RecLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg2 : Pipeline.RegionSeg (pcfgs (F := F)) adm (pdats m) () defs₀ noVar noL noLv 2 where
  win := launch2.win.to₀
  block_pos := launch2.block_pos
  stage_whole := launch2.stage_whole
  K := PEmpty
  osem k := k.elim
  ho := Pipeline.OwnSemFacts.none _
  hbody c := (body_obligation2 (fun c b => U5 m c b) c).loose
  hwaits := Pipeline.hwaits_of_owed_zero _ _ _ _ noL noLv 2 fun _ _ => rfl
  pre c := iprop(StableHlo.held (c : Thread nD τ) (Pipeline.ucRefs τ sig) (U5 m c) ∗ Rst c)
  post c := iprop(StableHlo.held (c : Thread nD τ) (Pipeline.ucRefs τ sig) (U6 m c) ∗ Rst c)
  X c := iprop(∃ r, prngReg c r)
  Y c := iprop(∃ r, prngReg c r)
  Z c := Pipeline.unscopedRest (Ix := Unit) (Name := ℕ) (U := UR sig nD τ) (Lvl := ℕ) spec2 c (fun b => U5 m c b)
  hentry c := hentry_of m launch2 c (U5 m c) (fun _ => rfl) (fun _ => rfl) (fun _ => rfl) fun _ => trivial
  hin c := hin_of m c rfl
  hout c := hout_of m c rfl
  hexit c := hexit_of m launch2 c (U5 m c) (U6 m c) 2 (fun _ => rfl) (fun _ => rfl) (fun _ => rfl) (by decide) (U6_of_ne m c) (U6_out m c).symm

end Cert.KernelIdeal.Hand

end
-- ==== Proof.Reg3Body.lean ====
import proofs.«428520_j76347338654282_1_alg».proof.Proof.Reg3Defs
import Idealize.ShloMosaic.Lib.Pipeline.TableIdle

noncomputable section

namespace Cert.KernelIdeal.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3 (c : Dev nD) (t : Fin cfg3.N) : ∀ w : Fin cfg3.W, (cfg3.win w).isOut = false → ∀ d,
    (dat3 V c).before w t d = (dat3 V c).after w t
  | ⟨0, _⟩, _ | ⟨1, _⟩, _ | ⟨2, _⟩, _ | ⟨3, _⟩, _ | ⟨4, _⟩, _ =>
    (dat3 V c).before_in_eq_fetched _ rfl (fun _ => rfl) (fun _ _ _ => rfl) (fun _ => rfl) t
  | ⟨5, _⟩, h => nomatch h

theorem sound_kernel3 (c : Dev nD) (i : grid3.Coords) {m0 m1 m5 : Memref sig .tc .vmem S5000x128 .f32}
    {m2 m3 m4 : Memref sig .tc .vmem S1x128 .f32} (h0 : m0.IsWhole) (h1 : m1.IsWhole) (h2 : m2.IsWhole) (h3 : m3.IsWhole)
    (h4 : m4.IsWhole) (h5 : m5.IsWhole) (x0 x1 d : Vec F S5000x128 .f32) (x2 x3 x4 : Vec F S1x128 .f32) (K : PUnit → sProp 𝕄) :
    iprop(owns c.tc m0 fullShare x0 ∗ owns c.tc m1 fullShare x1 ∗ owns c.tc m2 fullShare x2 ∗ owns c.tc m3 fullShare x3
        ∗ owns c.tc m4 fullShare x4 ∗ owns c.tc m5 fullShare d
        ∗ (iprop(owns c.tc m0 fullShare x0 ∗ owns c.tc m1 fullShare x1 ∗ owns c.tc m2 fullShare x2 ∗ owns c.tc m3 fullShare x3
            ∗ owns c.tc m4 fullShare x4 ∗ owns c.tc m5 fullShare (out3_5 x0 x1 x2 x3 x4)) -∗ K ⟨⟩))
      ⊢ wp frame (wpE (defs₀ (F := F)) Variants.none c none) Set.univ (cc3__ln_relu_kernel i m0 h0 m1 h1 m2 h2 m3 h3 m4 h4 m5 h5) K := by
  simp only [cc3__ln_relu_kernel_eq_skeleton, owns_eq_rep]; unfold cc3__ln_relu_kernel_skel
  iintro ⟨H0, H1, H2, H3, H4, H5, Hk⟩
  sl_exec
  sl_step
  iapply Hk
  iframe H0 H1 H2 H3 H4
  rw [← owns_eq_rep]; unfold owns
  iexists _; isplitr; swap; · iexact H5
  ipureintro
  simp only [View.readAt_rep]
  exact View.read_writes_eq_canon _ _ _ (cover3_5 _)

theorem body_obligation3 (c : Dev nD) : BodyObligation (dat3 (F := F) V c) (defs₀ (F := F)) Variants.none () Set.univ := fun t => by
  rw [bigSep_W3, bigSep_W3]
  simp (disch := exact rfl) only [before3]
  dsimp only [dat3, Dat.owesAt, Dat.bound]
  iintro ⟨HΦ, Ho, ⟨%d0, H0⟩, ⟨%d1, H1⟩, ⟨%d2, H2⟩, ⟨%d3, H3⟩, ⟨%d4, H4⟩, ⟨%d5, H5⟩⟩
  iapply (sound_kernel3 c (grid3.coords t) (hstage3_0 _) (hstage3_1 _) (hstage3_2 _) (hstage3_3 _) (hstage3_4 _) (hstage3_5 _))
  iframe H0 H1 H2 H3 H4 H5
  iintro H
  iframe

end Cert.KernelIdeal.Hand
-- ==== Proof.Rec3.lean ====
import proofs.«428520_j76347338654282_1_alg».proof.Proof.Reg3Body
import proofs.«428520_j76347338654282_1_alg».proof.Proof.RecLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg3 : Pipeline.RegionSeg (pcfgs (F := F)) adm (pdats m) () defs₀ noVar noL noLv 3 where
  win := launch3.win.to₀
  block_pos := launch3.block_pos
  stage_whole := launch3.stage_whole
  K := PEmpty
  osem k := k.elim
  ho := Pipeline.OwnSemFacts.none _
  hbody c := (body_obligation3 (fun c b => U7 m c b) c).loose
  hwaits := Pipeline.hwaits_of_owed_zero _ _ _ _ noL noLv 3 fun _ _ => rfl
  pre c := iprop(StableHlo.held (c : Thread nD τ) (Pipeline.ucRefs τ sig) (U7 m c) ∗ Rst c)
  post c := iprop(StableHlo.held (c : Thread nD τ) (Pipeline.ucRefs τ sig) (U8 m c) ∗ Rst c)
  X c := iprop(∃ r, prngReg c r)
  Y c := iprop(∃ r, prngReg c r)
  Z c := Pipeline.unscopedRest (Ix := Unit) (Name := ℕ) (U := UR sig nD τ) (Lvl := ℕ) spec3 c (fun b => U7 m c b)
  hentry c := hentry_of m launch3 c (U7 m c) (fun _ => rfl) (fun _ => rfl) (fun _ => rfl) fun _ => trivial
  hin c := hin_of m c rfl
  hout c := hout_of m c rfl
  hexit c := hexit_of m launch3 c (U7 m c) (U8 m c) 5 (fun _ => rfl) (fun _ => rfl) (fun _ => rfl) (by decide) (U8_of_ne m c) (U8_out m c).symm

end Cert.KernelIdeal.Hand

end
-- ==== Proof.Reg4Body.lean ====
import proofs.«428520_j76347338654282_1_alg».proof.Proof.Reg4Defs
import Idealize.ShloMosaic.Lib.Pipeline.TableIdle

noncomputable section

namespace Cert.KernelIdeal.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before4 (c : Dev nD) (t : Fin cfg4.N) : ∀ w : Fin cfg4.W, (cfg4.win w).isOut = false → ∀ d,
    (dat4 V c).before w t d = (dat4 V c).after w t
  | ⟨0, _⟩, _ | ⟨1, _⟩, _ =>
    (dat4 V c).before_in_eq_fetched _ rfl (fun _ => rfl) (fun _ _ _ => rfl) (fun _ => rfl) t
  | ⟨2, _⟩, h => nomatch h

theorem sound_kernel4 (c : Dev nD) (i : grid4.Coords) {m0 m2 : Memref sig .tc .vmem S5000x128 .f32}
    {m1 : Memref sig .tc .vmem S128x128 .f32} (h0 : m0.IsWhole) (h1 : m1.IsWhole) (h2 : m2.IsWhole)
    (x0 d : Vec F S5000x128 .f32) (x1 : Vec F S128x128 .f32) (K : PUnit → sProp 𝕄) :
    iprop(owns c.tc m0 fullShare x0 ∗ owns c.tc m1 fullShare x1 ∗ owns c.tc m2 fullShare d
        ∗ (iprop(owns c.tc m0 fullShare x0 ∗ owns c.tc m1 fullShare x1 ∗ owns c.tc m2 fullShare (out4_2 x0 x1)) -∗ K ⟨⟩))
      ⊢ wp frame (wpE (defs₀ (F := F)) Variants.none c none) Set.univ (cc4__linear_kernel i m0 h0 m1 h1 m2 h2) K := by
  simp only [cc4__linear_kernel_eq_skeleton, owns_eq_rep]; unfold cc4__linear_kernel_skel
  iintro ⟨H0, H1, H2, Hk⟩
  sl_exec
  sl_step
  iapply Hk
  iframe H0 H1
  rw [← owns_eq_rep]; unfold owns
  iexists _; isplitr; swap; · iexact H2
  ipureintro
  simp only [View.readAt_rep]
  exact View.read_writes_eq_canon _ _ _ (cover4_2 _)

theorem body_obligation4 (c : Dev nD) : BodyObligation (dat4 (F := F) V c) (defs₀ (F := F)) Variants.none () Set.univ := fun t => by
  rw [bigSep_W4, bigSep_W4]
  simp (disch := exact rfl) only [before4]
  dsimp only [dat4, Dat.owesAt, Dat.bound]
  iintro ⟨HΦ, Ho, ⟨%d0, H0⟩, ⟨%d1, H1⟩, ⟨%d2, H2⟩⟩
  iapply (sound_kernel4 c (grid4.coords t) (hstage4_0 _) (hstage4_1 _) (hstage4_2 _))
  iframe H0 H1 H2
  iintro H
  iframe

end Cert.KernelIdeal.Hand
-- ==== Proof.Rec4.lean ====
import proofs.«428520_j76347338654282_1_alg».proof.Proof.Reg4Body
import proofs.«428520_j76347338654282_1_alg».proof.Proof.RecLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg4 : Pipeline.RegionSeg (pcfgs (F := F)) adm (pdats m) () defs₀ noVar noL noLv 4 where
  win := launch4.win.to₀
  block_pos := launch4.block_pos
  stage_whole := launch4.stage_whole
  K := PEmpty
  osem k := k.elim
  ho := Pipeline.OwnSemFacts.none _
  hbody c := (body_obligation4 (fun c b => U9 m c b) c).loose
  hwaits := Pipeline.hwaits_of_owed_zero _ _ _ _ noL noLv 4 fun _ _ => rfl
  pre c := iprop(StableHlo.held (c : Thread nD τ) (Pipeline.ucRefs τ sig) (U9 m c) ∗ Rst c)
  post c := iprop(StableHlo.held (c : Thread nD τ) (Pipeline.ucRefs τ sig) (U10 m c) ∗ Rst c)
  X c := iprop(∃ r, prngReg c r)
  Y c := iprop(∃ r, prngReg c r)
  Z c := Pipeline.unscopedRest (Ix := Unit) (Name := ℕ) (U := UR sig nD τ) (Lvl := ℕ) spec4 c (fun b => U9 m c b)
  hentry c := hentry_of m launch4 c (U9 m c) (fun _ => rfl) (fun _ => rfl) (fun _ => rfl) fun _ => trivial
  hin c := hin_of m c rfl
  hout c := hout_of m c rfl
  hexit c := hexit_of m launch4 c (U9 m c) (U10 m c) 2 (fun _ => rfl) (fun _ => rfl) (fun _ => rfl) (by decide) (U10_of_ne m c) (U10_out m c).symm

end Cert.KernelIdeal.Hand

end
-- ==== Proof.Reg5Body.lean ====
import proofs.«428520_j76347338654282_1_alg».proof.Proof.Reg5Defs
import Idealize.ShloMosaic.Lib.Pipeline.TableIdle

noncomputable section

namespace Cert.KernelIdeal.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before5 (c : Dev nD) (t : Fin cfg5.N) : ∀ w : Fin cfg5.W, (cfg5.win w).isOut = false → ∀ d,
    (dat5 V c).before w t d = (dat5 V c).after w t
  | ⟨0, _⟩, _ | ⟨1, _⟩, _ | ⟨2, _⟩, _ | ⟨3, _⟩, _ | ⟨4, _⟩, _ =>
    (dat5 V c).before_in_eq_fetched _ rfl (fun _ => rfl) (fun _ _ _ => rfl) (fun _ => rfl) t
  | ⟨5, _⟩, h => nomatch h

theorem sound_kernel5 (c : Dev nD) (i : grid5.Coords) {m0 m1 m5 : Memref sig .tc .vmem S5000x128 .f32}
    {m2 m3 m4 : Memref sig .tc .vmem S1x128 .f32} (h0 : m0.IsWhole) (h1 : m1.IsWhole) (h2 : m2.IsWhole) (h3 : m3.IsWhole)
    (h4 : m4.IsWhole) (h5 : m5.IsWhole) (x0 x1 d : Vec F S5000x128 .f32) (x2 x3 x4 : Vec F S1x128 .f32) (K : PUnit → sProp 𝕄) :
    iprop(owns c.tc m0 fullShare x0 ∗ owns c.tc m1 fullShare x1 ∗ owns c.tc m2 fullShare x2 ∗ owns c.tc m3 fullShare x3
        ∗ owns c.tc m4 fullShare x4 ∗ owns c.tc m5 fullShare d
        ∗ (iprop(owns c.tc m0 fullShare x0 ∗ owns c.tc m1 fullShare x1 ∗ owns c.tc m2 fullShare x2 ∗ owns c.tc m3 fullShare x3
            ∗ owns c.tc m4 fullShare x4 ∗ owns c.tc m5 fullShare (out5_5 x0 x1 x2 x3 x4)) -∗ K ⟨⟩))
      ⊢ wp frame (wpE (defs₀ (F := F)) Variants.none c none) Set.univ (cc5__ln_relu_kernel i m0 h0 m1 h1 m2 h2 m3 h3 m4 h4 m5 h5) K := by
  simp only [cc5__ln_relu_kernel_eq_skeleton, owns_eq_rep]; unfold cc5__ln_relu_kernel_skel
  iintro ⟨H0, H1, H2, H3, H4, H5, Hk⟩
  sl_exec
  sl_step
  iapply Hk
  iframe H0 H1 H2 H3 H4
  rw [← owns_eq_rep]; unfold owns
  iexists _; isplitr; swap; · iexact H5
  ipureintro
  simp only [View.readAt_rep]
  exact View.read_writes_eq_canon _ _ _ (cover5_5 _)

theorem body_obligation5 (c : Dev nD) : BodyObligation (dat5 (F := F) V c) (defs₀ (F := F)) Variants.none () Set.univ := fun t => by
  rw [bigSep_W5, bigSep_W5]
  simp (disch := exact rfl) only [before5]
  dsimp only [dat5, Dat.owesAt, Dat.bound]
  iintro ⟨HΦ, Ho, ⟨%d0, H0⟩, ⟨%d1, H1⟩, ⟨%d2, H2⟩, ⟨%d3, H3⟩, ⟨%d4, H4⟩, ⟨%d5, H5⟩⟩
  iapply (sound_kernel5 c (grid5.coords t) (hstage5_0 _) (hstage5_1 _) (hstage5_2 _) (hstage5_3 _) (hstage5_4 _) (hstage5_5 _))
  iframe H0 H1 H2 H3 H4 H5
  iintro H
  iframe

end Cert.KernelIdeal.Hand
-- ==== Proof.Rec5.lean ====
import proofs.«428520_j76347338654282_1_alg».proof.Proof.Reg5Body
import proofs.«428520_j76347338654282_1_alg».proof.Proof.RecLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg5 : Pipeline.RegionSeg (pcfgs (F := F)) adm (pdats m) () defs₀ noVar noL noLv 5 where
  win := launch5.win.to₀
  block_pos := launch5.block_pos
  stage_whole := launch5.stage_whole
  K := PEmpty
  osem k := k.elim
  ho := Pipeline.OwnSemFacts.none _
  hbody c := (body_obligation5 (fun c b => U11 m c b) c).loose
  hwaits := Pipeline.hwaits_of_owed_zero _ _ _ _ noL noLv 5 fun _ _ => rfl
  pre c := iprop(StableHlo.held (c : Thread nD τ) (Pipeline.ucRefs τ sig) (U11 m c) ∗ Rst c)
  post c := iprop(StableHlo.held (c : Thread nD τ) (Pipeline.ucRefs τ sig) (U12 m c) ∗ Rst c)
  X c := iprop(∃ r, prngReg c r)
  Y c := iprop(∃ r, prngReg c r)
  Z c := Pipeline.unscopedRest (Ix := Unit) (Name := ℕ) (U := UR sig nD τ) (Lvl := ℕ) spec5 c (fun b => U11 m c b)
  hentry c := hentry_of m launch5 c (U11 m c) (fun _ => rfl) (fun _ => rfl) (fun _ => rfl) fun _ => trivial
  hin c := hin_of m c rfl
  hout c := hout_of m c rfl
  hexit c := hexit_of m launch5 c (U11 m c) (U12 m c) 5 (fun _ => rfl) (fun _ => rfl) (fun _ => rfl) (by decide) (U12_of_ne m c) (U12_out m c).symm

end Cert.KernelIdeal.Hand

end
-- ==== Proof.Reg6Body.lean ====
import proofs.«428520_j76347338654282_1_alg».proof.Proof.Reg6Defs
import Idealize.ShloMosaic.Lib.Pipeline.TableIdle

noncomputable section

namespace Cert.KernelIdeal.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before6 (c : Dev nD) (t : Fin cfg6.N) : ∀ w : Fin cfg6.W, (cfg6.win w).isOut = false → ∀ d,
    (dat6 V c).before w t d = (dat6 V c).after w t
  | ⟨0, _⟩, _ | ⟨1, _⟩, _ =>
    (dat6 V c).before_in_eq_fetched _ rfl (fun _ => rfl) (fun _ _ _ => rfl) (fun _ => rfl) t
  | ⟨2, _⟩, h => nomatch h

theorem sound_kernel6 (c : Dev nD) (i : grid6.Coords) {m0 m2 : Memref sig .tc .vmem S5000x128 .f32}
    {m1 : Memref sig .tc .vmem S128x128 .f32} (h0 : m0.IsWhole) (h1 : m1.IsWhole) (h2 : m2.IsWhole)
    (x0 d : Vec F S5000x128 .f32) (x1 : Vec F S128x128 .f32) (K : PUnit → sProp 𝕄) :
    iprop(owns c.tc m0 fullShare x0 ∗ owns c.tc m1 fullShare x1 ∗ owns c.tc m2 fullShare d
        ∗ (iprop(owns c.tc m0 fullShare x0 ∗ owns c.tc m1 fullShare x1 ∗ owns c.tc m2 fullShare (out6_2 x0 x1)) -∗ K ⟨⟩))
      ⊢ wp frame (wpE (defs₀ (F := F)) Variants.none c none) Set.univ (cc6__linear_kernel i m0 h0 m1 h1 m2 h2) K := by
  simp only [cc6__linear_kernel_eq_skeleton, owns_eq_rep]; unfold cc6__linear_kernel_skel
  iintro ⟨H0, H1, H2, Hk⟩
  sl_exec
  sl_step
  iapply Hk
  iframe H0 H1
  rw [← owns_eq_rep]; unfold owns
  iexists _; isplitr; swap; · iexact H2
  ipureintro
  simp only [View.readAt_rep]
  exact View.read_writes_eq_canon _ _ _ (cover6_2 _)

theorem body_obligation6 (c : Dev nD) : BodyObligation (dat6 (F := F) V c) (defs₀ (F := F)) Variants.none () Set.univ := fun t => by
  rw [bigSep_W6, bigSep_W6]
  simp (disch := exact rfl) only [before6]
  dsimp only [dat6, Dat.owesAt, Dat.bound]
  iintro ⟨HΦ, Ho, ⟨%d0, H0⟩, ⟨%d1, H1⟩, ⟨%d2, H2⟩⟩
  iapply (sound_kernel6 c (grid6.coords t) (hstage6_0 _) (hstage6_1 _) (hstage6_2 _))
  iframe H0 H1 H2
  iintro H
  iframe

end Cert.KernelIdeal.Hand
-- ==== Proof.Rec6.lean ====
import proofs.«428520_j76347338654282_1_alg».proof.Proof.Reg6Body
import proofs.«428520_j76347338654282_1_alg».proof.Proof.RecLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg6 : Pipeline.RegionSeg (pcfgs (F := F)) adm (pdats m) () defs₀ noVar noL noLv 6 where
  win := launch6.win.to₀
  block_pos := launch6.block_pos
  stage_whole := launch6.stage_whole
  K := PEmpty
  osem k := k.elim
  ho := Pipeline.OwnSemFacts.none _
  hbody c := (body_obligation6 (fun c b => U13 m c b) c).loose
  hwaits := Pipeline.hwaits_of_owed_zero _ _ _ _ noL noLv 6 fun _ _ => rfl
  pre c := iprop(StableHlo.held (c : Thread nD τ) (Pipeline.ucRefs τ sig) (U13 m c) ∗ Rst c)
  post c := iprop(StableHlo.held (c : Thread nD τ) (Pipeline.ucRefs τ sig) (U14 m c) ∗ Rst c)
  X c := iprop(∃ r, prngReg c r)
  Y c := iprop(∃ r, prngReg c r)
  Z c := Pipeline.unscopedRest (Ix := Unit) (Name := ℕ) (U := UR sig nD τ) (Lvl := ℕ) spec6 c (fun b => U13 m c b)
  hentry c := hentry_of m launch6 c (U13 m c) (fun _ => rfl) (fun _ => rfl) (fun _ => rfl) fun _ => trivial
  hin c := hin_of m c rfl
  hout c := hout_of m c rfl
  hexit c := hexit_of m launch6 c (U13 m c) (U14 m c) 2 (fun _ => rfl) (fun _ => rfl) (fun _ => rfl) (by decide) (U14_of_ne m c) (U14_out m c).symm

end Cert.KernelIdeal.Hand

end
-- ==== Proof.Reg7Body.lean ====
import proofs.«428520_j76347338654282_1_alg».proof.Proof.Reg7Defs
import Idealize.ShloMosaic.Lib.Pipeline.TableIdle

noncomputable section

namespace Cert.KernelIdeal.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before7 (c : Dev nD) (t : Fin cfg7.N) : ∀ w : Fin cfg7.W, (cfg7.win w).isOut = false → ∀ d,
    (dat7 V c).before w t d = (dat7 V c).after w t
  | ⟨0, _⟩, _ | ⟨1, _⟩, _ | ⟨2, _⟩, _ | ⟨3, _⟩, _ | ⟨4, _⟩, _ =>
    (dat7 V c).before_in_eq_fetched _ rfl (fun _ => rfl) (fun _ _ _ => rfl) (fun _ => rfl) t
  | ⟨5, _⟩, h => nomatch h

theorem sound_kernel7 (c : Dev nD) (i : grid7.Coords) {m0 m1 m5 : Memref sig .tc .vmem S5000x128 .f32}
    {m2 m3 m4 : Memref sig .tc .vmem S1x128 .f32} (h0 : m0.IsWhole) (h1 : m1.IsWhole) (h2 : m2.IsWhole) (h3 : m3.IsWhole)
    (h4 : m4.IsWhole) (h5 : m5.IsWhole) (x0 x1 d : Vec F S5000x128 .f32) (x2 x3 x4 : Vec F S1x128 .f32) (K : PUnit → sProp 𝕄) :
    iprop(owns c.tc m0 fullShare x0 ∗ owns c.tc m1 fullShare x1 ∗ owns c.tc m2 fullShare x2 ∗ owns c.tc m3 fullShare x3
        ∗ owns c.tc m4 fullShare x4 ∗ owns c.tc m5 fullShare d
        ∗ (iprop(owns c.tc m0 fullShare x0 ∗ owns c.tc m1 fullShare x1 ∗ owns c.tc m2 fullShare x2 ∗ owns c.tc m3 fullShare x3
            ∗ owns c.tc m4 fullShare x4 ∗ owns c.tc m5 fullShare (out7_5 x0 x1 x2 x3 x4)) -∗ K ⟨⟩))
      ⊢ wp frame (wpE (defs₀ (F := F)) Variants.none c none) Set.univ (cc7__ln_relu_kernel i m0 h0 m1 h1 m2 h2 m3 h3 m4 h4 m5 h5) K := by
  simp only [cc7__ln_relu_kernel_eq_skeleton, owns_eq_rep]; unfold cc7__ln_relu_kernel_skel
  iintro ⟨H0, H1, H2, H3, H4, H5, Hk⟩
  sl_exec
  sl_step
  iapply Hk
  iframe H0 H1 H2 H3 H4
  rw [← owns_eq_rep]; unfold owns
  iexists _; isplitr; swap; · iexact H5
  ipureintro
  simp only [View.readAt_rep]
  exact View.read_writes_eq_canon _ _ _ (cover7_5 _)

theorem body_obligation7 (c : Dev nD) : BodyObligation (dat7 (F := F) V c) (defs₀ (F := F)) Variants.none () Set.univ := fun t => by
  rw [bigSep_W7, bigSep_W7]
  simp (disch := exact rfl) only [before7]
  dsimp only [dat7, Dat.owesAt, Dat.bound]
  iintro ⟨HΦ, Ho, ⟨%d0, H0⟩, ⟨%d1, H1⟩, ⟨%d2, H2⟩, ⟨%d3, H3⟩, ⟨%d4, H4⟩, ⟨%d5, H5⟩⟩
  iapply (sound_kernel7 c (grid7.coords t) (hstage7_0 _) (hstage7_1 _) (hstage7_2 _) (hstage7_3 _) (hstage7_4 _) (hstage7_5 _))
  iframe H0 H1 H2 H3 H4 H5
  iintro H
  iframe

end Cert.KernelIdeal.Hand
-- ==== Proof.Rec7.lean ====
import proofs.«428520_j76347338654282_1_alg».proof.Proof.Reg7Body
import proofs.«428520_j76347338654282_1_alg».proof.Proof.RecLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg7 : Pipeline.RegionSeg (pcfgs (F := F)) adm (pdats m) () defs₀ noVar noL noLv 7 where
  win := launch7.win.to₀
  block_pos := launch7.block_pos
  stage_whole := launch7.stage_whole
  K := PEmpty
  osem k := k.elim
  ho := Pipeline.OwnSemFacts.none _
  hbody c := (body_obligation7 (fun c b => U15 m c b) c).loose
  hwaits := Pipeline.hwaits_of_owed_zero _ _ _ _ noL noLv 7 fun _ _ => rfl
  pre c := iprop(StableHlo.held (c : Thread nD τ) (Pipeline.ucRefs τ sig) (U15 m c) ∗ Rst c)
  post c := iprop(StableHlo.held (c : Thread nD τ) (Pipeline.ucRefs τ sig) (U16 m c) ∗ Rst c)
  X c := iprop(∃ r, prngReg c r)
  Y c := iprop(∃ r, prngReg c r)
  Z c := Pipeline.unscopedRest (Ix := Unit) (Name := ℕ) (U := UR sig nD τ) (Lvl := ℕ) spec7 c (fun b => U15 m c b)
  hentry c := hentry_of m launch7 c (U15 m c) (fun _ => rfl) (fun _ => rfl) (fun _ => rfl) fun _ => trivial
  hin c := hin_of m c rfl
  hout c := hout_of m c rfl
  hexit c := hexit_of m launch7 c (U15 m c) (U16 m c) 5 (fun _ => rfl) (fun _ => rfl) (fun _ => rfl) (by decide) (U16_of_ne m c) (U16_out m c).symm

end Cert.KernelIdeal.Hand

end
-- ==== Proof.Reg8Body.lean ====
import proofs.«428520_j76347338654282_1_alg».proof.Proof.Reg8Defs
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond8_0 (i : grid8.Coords) : Prop :=
  (Scalar.cmpi .ne (Scalar.extui (Scalar.cmpi .eq (BitVec.ofNat 32 (i 0).val) 0#32)) 0#32) = 1#1

abbrev cond8_1 (i : grid8.Coords) : Prop := k8_cond2 i = 1#1

theorem hcond8_0 : ∀ t : Fin cfg8.N, cond8_0 (grid8.coords t) ↔ t.val = 0 :=
  (by decide +kernel : ∀ t : Fin grid8.N, cond8_0 (grid8.coords t) ↔ t.val = 0)

theorem hcond8_1 : ∀ t : Fin cfg8.N, cond8_1 (grid8.coords t) ↔ t.val = 9 :=
  (by decide +kernel : ∀ t : Fin grid8.N, cond8_1 (grid8.coords t) ↔ t.val = 9)

theorem zero_off8 : (![0, 0] : Fin 2 → ℕ) = fun _ => 0 := by
  funext a; fin_cases a <;> rfl

theorem cover8 (p : Vec F S128x128 .f32) (L : List (View.Piece (Elt F) S128x128 .f32)) (y : S128x128.Idx) :
    ∃ pc ∈ ((⟨Rect.unit (s := S128x128) ![0, 0] S128x128.size inb_S128x128_S128x128_0_0, p⟩ : View.Piece (Elt F) S128x128 .f32) :: L),
      y ∈ pc.1.set :=
  ⟨⟨Rect.unit (s := S128x128) ![0, 0] S128x128.size inb_S128x128_S128x128_0_0, p⟩, List.mem_cons_self,
    View.mem_set_unit_zero zero_off8 inb_S128x128_S128x128_0_0 y⟩

set_option maxHeartbeats 1000000 in

theorem run8 {c : Dev nD} {E : Set ℕ} (i : grid8.Coords)
    {arg1 : Memref sig .tc .vmem S5000x128 .f32} {harg1 : arg1.IsWhole}
    {arg2 : Memref sig .tc .vmem S5000x1 .i32} {harg2 : arg2.IsWhole}
    {arg3 : Memref sig .tc .vmem S128x128 .f32} {harg3 : arg3.IsWhole}
    {arg4 : Memref sig .tc .vmem S128x128 .f32} {harg4 : arg4.IsWhole}
    (x0 : Vec F S5000x128 .f32) (x1 : Vec F S5000x1 .i32) {xo xs s o' : Vec F S128x128 .f32}
    (hs₁ : cond8_0 i → s = k8_pay1 (F := F)) (hs₀ : ¬cond8_0 i → s = xs)
    (ho₁ : cond8_1 i → o' = k8_pay2 x1 x0 s) (ho₀ : ¬cond8_1 i → o' = xo)
    {K : PUnit → sProp 𝕄} :
    iprop(owns (c : Thread nD τ) arg1 fullShare x0 ∗ owns (c : Thread nD τ) arg2 fullShare x1
        ∗ owns (c : Thread nD τ) arg3 fullShare xo ∗ owns (c : Thread nD τ) arg4 fullShare xs
        ∗ (iprop(owns (c : Thread nD τ) arg1 fullShare x0 ∗ owns (c : Thread nD τ) arg2 fullShare x1
              ∗ owns (c : Thread nD τ) arg3 fullShare o'
              ∗ owns (c : Thread nD τ) arg4 fullShare (k8_pay2 x1 x0 s)) -∗ K ⟨⟩))
      ⊢ wp frame (wpE (defs₀ (F := F)) Variants.none c none) E
          (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  by_cases hc0 : cond8_0 i <;> by_cases hc1 : cond8_1 i <;>
  · first | (have eo := ho₁ hc1; subst eo) | (have eo := ho₀ hc1; subst eo)
    first | (have es := hs₁ hc0; subst es) | (have es := hs₀ hc0; subst es)
    sl_exec (disch := first | exact hc0 | exact hc1)
    sl_step
    iapply Hk
    isplitl [H0]; swap; isplitl [H1]; swap; isplitl [H2]
    all_goals
      iexists _; isplitr
      swap; · first | iexact H0 | iexact H1 | iexact H2 | iexact H3
      ipureintro
      first
        | (try sl_unfold_words
           rw [View.read_writes_eq_canon _ _ _ (cover8 _ _)]
           first | rw [View.canon_cons_unit_zero zero_off8] | rw [View.canon_unit_zero zero_off8]
           simp only [View.readAt_eq_ld, View.ld_unit_zero (S := S5000x1) zero_off8, View.ld_unit_zero (S := S5000x128) zero_off8,
             View.ld_unit_zero (S := S128x128) zero_off8, View.readCov_unit_zero (S := S128x128) _ zero_off8]
             <;> exact View.readCov_cons_toLoadRect _ _ _ _)
        | rfl

theorem before8_0 (c : Dev nD) (t : Fin cfg8.N) (d) : (dat8 V c).before 0 t d = iblk8 V c 0 t :=
  ((dat8 V c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)

theorem before8_1 (c : Dev nD) (t : Fin cfg8.N) (d) : (dat8 V c).before 1 t d = iblk8 V c 1 t :=
  ((dat8 V c).before_in_eq_fetched 1 rfl (fun _ => rfl) (fun _ _ _ => rfl)
      (fun t => by rw [after8_1]; unfold Dat.blockOf iblk8; rw [A_eq8]; try rfl) t d).trans
    (by unfold Dat.fetched Dat.blockOf iblk8; rw [A_eq8]; try rfl)

theorem liveAt8_0 : ∀ t : Fin cfg8.N, cfg8.idle 0 (grid8.coords t) = false := fun _ => rfl
theorem liveAt8_1 : ∀ t : Fin cfg8.N, cfg8.idle 1 (grid8.coords t) = false := fun _ => rfl

theorem idleAt8_2 : ∀ t : Fin cfg8.N, ¬cond8_1 (grid8.coords t) → cfg8.idle 2 (grid8.coords t) = true := by decide +kernel

theorem noFlush8_2 : ∀ t : Fin cfg8.N, ¬cond8_1 (grid8.coords t) → (cfg8.win 2).flush t = false := by decide +kernel

theorem liveAt8_2 : ∀ t : Fin cfg8.N, cond8_1 (grid8.coords t) → cfg8.idle 2 (grid8.coords t) = false := by decide +kernel

theorem PhiA8_eq (c : Dev nD) :
    (Pipeline.ΦA spec8 c : sProp 𝕄)
      = iprop(((∃ d, owns (c : Thread nD τ) scM8 fullShare d)
          ∗ Pipeline.scopedRestBut (Ix := Unit) (Name := ℕ) (U := UR sig nD τ) (Lvl := ℕ) (Val := Elt F) spec8 c [cc8_scratch0])
          ∗ (∃ r, prngReg c r)) := by
  unfold Pipeline.ΦA; rw [scopedRest8_split]; simp only [scM8, owns_whole]; try rfl

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [Phi8_at_succ, Phi8_succ, Phi8_castSucc]
  rw [show (dat8 V c).leavesExact 0 t = owns (c : Thread nD τ) (st8_0 t) fullShare ((dat8 V c).after 0 t) from by
      unfold Dat.leavesExact; rw [liveAt8_0 t], after8_0]
  rw [show (dat8 V c).leavesExact 1 t = owns (c : Thread nD τ) (st8_1 t) fullShare ((dat8 V c).after 1 t) from by
      unfold Dat.leavesExact; rw [liveAt8_1 t], after8_1]
  have c0 := hcond8_0 t
  have c1 := hcond8_1 t
  by_cases h1 : t.val = 9
  · have h0 : ¬t.val = 0 := by omega
    rw [show (dat8 V c).leavesExact 2 t = owns (c : Thread nD τ) (st8_2 t) fullShare ((dat8 V c).after 2 t) from by
        unfold Dat.leavesExact; rw [liveAt8_2 t (c1.mpr h1)], after8_2]
    rw [acc8_pos V c t h0, Phi8_pos V c _ _ h0]
    iintro ⟨⟨HS, Hrest, Hg⟩, Ho, ⟨%d0, H0⟩, ⟨%d1, H1⟩, ⟨%d2, H2⟩⟩
    iapply (run8 (grid8.coords t) (iblk8 V c 0 t) (iblk8 V c 1 t)
      (fun h => absurd (c0.mp h) h0) (fun _ => rfl) (fun _ => rfl) (fun h => absurd (c1.mpr h1) h))
    iframe H0 H1 H2 HS
    iintro ⟨H0, H1, H2, HS⟩
    iframe
  rw [Dat.leavesExact_idle (dat8 V c) 2 t (idleAt8_2 t (mt c1.mp h1)) (noFlush8_2 t (mt c1.mp h1))]
  by_cases h0 : t.val = 0
  · rw [acc8_zero V c t h0, Phi8_zero V c _ _ h0, PhiA8_eq]
    iintro ⟨⟨⟨⟨%ds, HS⟩, Hrest⟩, Hg⟩, Ho, ⟨%d0, H0⟩, ⟨%d1, H1⟩, ⟨%d2, H2⟩⟩
    iapply (run8 (grid8.coords t) (iblk8 V c 0 t) (iblk8 V c 1 t)
      (fun _ => rfl) (fun h => absurd (c0.mpr h0) h) (fun h => absurd (c1.mp h) h1) (fun _ => rfl))
    iframe H0 H1 H2 HS
    iintro ⟨H0, H1, H2, HS⟩
    iframe
    iexists _; iexact H2
  · rw [acc8_pos V c t h0, Phi8_pos V c _ _ h0]
    iintro ⟨⟨HS, Hrest, Hg⟩, Ho, ⟨%d0, H0⟩, ⟨%d1, H1⟩, ⟨%d2, H2⟩⟩
    iapply (run8 (grid8.coords t) (iblk8 V c 0 t) (iblk8 V c 1 t)
      (fun h => absurd (c0.mp h) h0) (fun _ => rfl) (fun h => absurd (c1.mp h) h1) (fun _ => rfl))
    iframe H0 H1 H2 HS
    iintro ⟨H0, H1, H2, HS⟩
    iframe
    iexists _; iexact H2

theorem body_obligation8 (c : Dev nD) : BodyObligation (dat8 (F := F) V c) (defs₀ (F := F)) Variants.none () Set.univ := fun t => by
  rw [bigSep_W8, bigSep_W8]
  exact sound_body8 V c t

theorem hout8 (c : Dev nD) :
    (dat8 V c).Φ (Fin.last cfg8.N)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec8 c) := by
  rw [Pipeline.ownSems0_none,
    show (dat8 V c).Φ (Fin.last cfg8.N) = Phi8 V c (Fin.last cfg8.N).val (Nat.le_of_lt_succ (Fin.last cfg8.N).isLt) from rfl,
    Phi8_pos V c _ _ (by rw [Fin.val_last]; have : cfg8.N = 10 := N_8; omega), scopedRest8_split]
  simp only [scM8, owns_whole]
  iintro ⟨HS, Hrest, Hg⟩
  iframe Hg Hrest
  isplitr; · iempintro
  iexists _; iexact HS

end Cert.KernelIdeal.Hand
-- ==== Proof.Rec8.lean ====
import proofs.«428520_j76347338654282_1_alg».proof.Proof.Reg8Body
import proofs.«428520_j76347338654282_1_alg».proof.Proof.RecLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg8 : Pipeline.RegionSeg (pcfgs (F := F)) adm (pdats m) () defs₀ noVar noL noLv 8 where
  win := launch8.win.to₀
  block_pos := launch8.block_pos
  stage_whole := launch8.stage_whole
  K := PEmpty
  osem k := k.elim
  ho := Pipeline.OwnSemFacts.none _
  hbody c := (body_obligation8 (fun c b => U17 m c b) c).loose
  hwaits := Pipeline.hwaits_of_owed_zero _ _ _ _ noL noLv 8 fun _ _ => rfl
  pre c := iprop(StableHlo.held (c : Thread nD τ) (Pipeline.ucRefs τ sig) (U17 m c) ∗ Rst c)
  post c := iprop(StableHlo.held (c : Thread nD τ) (Pipeline.ucRefs τ sig) (U18 m c) ∗ Rst c)
  X c := iprop(∃ r, prngReg c r)
  Y c := iprop(∃ r, prngReg c r)
  Z c := Pipeline.unscopedRest (Ix := Unit) (Name := ℕ) (U := UR sig nD τ) (Lvl := ℕ) spec8 c (fun b => U17 m c b)
  hentry c := hentry_of m launch8 c (U17 m c) (fun _ => rfl) (fun _ => rfl) (fun _ => rfl) fun _ => trivial
  hin c := hin_of m c rfl
  hout c := hout8 (fun c b => U17 m c b) c
  hexit c := hexit_of m launch8 c (U17 m c) (U18 m c) 2 (fun _ => rfl) (fun _ => rfl) (fun _ => rfl) (by decide) (U18_of_ne m c) (U18_out m c).symm

end Cert.KernelIdeal.Hand

end
-- ==== Proof.Run.lean ====
import proofs.«428520_j76347338654282_1_alg».proof.Proof.Chain
import proofs.«428520_j76347338654282_1_alg».proof.Proof.Rec0
import proofs.«428520_j76347338654282_1_alg».proof.Proof.Rec1
import proofs.«428520_j76347338654282_1_alg».proof.Proof.Rec2
import proofs.«428520_j76347338654282_1_alg».proof.Proof.Rec3
import proofs.«428520_j76347338654282_1_alg».proof.Proof.Rec4
import proofs.«428520_j76347338654282_1_alg».proof.Proof.Rec5
import proofs.«428520_j76347338654282_1_alg».proof.Proof.Rec6
import proofs.«428520_j76347338654282_1_alg».proof.Proof.Rec7
import proofs.«428520_j76347338654282_1_alg».proof.Proof.Rec8

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Erest : Fin 10 → Dev nD → sProp 𝕄 := fun _ c => Rst c

theorem held_eq (c : Dev nD) {A B : Valuation τ sig (Elt F)} (h : A = B) :
    iprop(StableHlo.held (c : Thread nD τ) (Pipeline.ucRefs τ sig) A ∗ Rst (F := F) c)
      ⊢ iprop(StableHlo.held (c : Thread nD τ) (Pipeline.ucRefs τ sig) B ∗ Rst c) := h ▸ .rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = U21 m c b) := by
  refine Pipeline.θ_run_regions_kit_dev (pcfgs (F := F)) adm (pdats m) () cellOf_inj emb₁ defs₀ noVar noL noLv m ρ main
    (segs m (outs m) noVar noL noLv (Erest (F := F)) () (pdats m) (reg0 m) (reg1 m) (reg2 m) (reg3 m) (reg4 m) (reg5 m) (reg6 m) (reg7 m) (reg8 m))
    (fun c Q => by
      rewrite [main_chain c, Seg.run_eq_chain,
        show (segs m (outs m) noVar noL noLv (Erest (F := F)) () (pdats m) (reg0 m) (reg1 m) (reg2 m) (reg3 m) (reg4 m) (reg5 m) (reg6 m) (reg7 m) (reg8 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Erest (F := F) 0 c))
    (Tₙ := fun c => StableHlo.held (c : Thread nD τ) (Pipeline.ucRefs τ sig) (V21 m (outs m) c))
    (hch := fun c => ⟨.rfl, held_eq c (V1_eq m c), held_eq c (V2_eq m c).symm, held_eq c (V3_eq m c), held_eq c (V4_eq m c).symm, held_eq c (V5_eq m c), held_eq c (V6_eq m c).symm, held_eq c (V7_eq m c), held_eq c (V8_eq m c).symm, held_eq c (V9_eq m c), held_eq c (V10_eq m c).symm, held_eq c (V11_eq m c), held_eq c (V12_eq m c).symm, held_eq c (V13_eq m c), held_eq c (V14_eq m c).symm, held_eq c (V15_eq m c), held_eq c (V16_eq m c).symm, held_eq c (V17_eq m c), held_eq c (V18_eq m c).symm, .rfl, .rfl,
      sep_mono .rfl (by iintro ⟨-, H⟩; iexact H)⟩)
    (hinit := ?_)
    (QY := fun c s => ∀ b ∈ Pipeline.ucRefs τ sig, s.mem (((c : Thread nD τ)).1, b) = U21 m c b)
    (hfin := fun c s' => ?_) (hQ := fun _ h => h)
  · refine Pipeline.initEach noL noLv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · rw [V21_eq]
    iintro ⟨Hh, HSI⟩
    unfold StableHlo.held
    imodintro
    iapply (pointsTo_read_all (Pipeline.ucRefs τ sig) (fun b => (((c : Thread nD τ)).1, b)) (U21 m c) s')
    isplitl [Hh] <;> iassumption

theorem arg_end (c : Dev nD) (b : Ref sig .tc) (h : V21 m (outs m) c b = m ((c : Thread nD τ).loc b)) :
    U21 m c b = m ((c : Thread nD τ).loc b) :=
  (congrFun (V21_eq m c) _).symm.trans h

theorem run_value : θ_run defs (onTc (τ := τ) (main (F := F))) ⟨m, fun _ => 0, ρ⟩ (fun r => ∀ c : Dev nD,
      r.2.mem ((c.tc : Thread nD τ).loc main_v181) = U21 m c main_v181
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v181 (by decide)),
     (h c _ (mem_uc main_arg0 (by decide))).trans (arg_end m c _ (V21_main_arg0 m (outs m) c)),
     (h c _ (mem_uc main_arg1 (by decide))).trans (arg_end m c _ (V21_main_arg1 m (outs m) c)),
     (h c _ (mem_uc main_arg2 (by decide))).trans (arg_end m c _ (V21_main_arg2 m (outs m) c)),
     (h c _ (mem_uc main_arg3 (by decide))).trans (arg_end m c _ (V21_main_arg3 m (outs m) c)),
     (h c _ (mem_uc main_arg4 (by decide))).trans (arg_end m c _ (V21_main_arg4 m (outs m) c)),
     (h c _ (mem_uc main_arg5 (by decide))).trans (arg_end m c _ (V21_main_arg5 m (outs m) c)),
     (h c _ (mem_uc main_arg6 (by decide))).trans (arg_end m c _ (V21_main_arg6 m (outs m) c))⟩) (run_all m ρ)

end Cert.KernelIdeal.Hand

end
-- ==== Proof.Bits.Reg0Defs.lean ====
import proofs.«428520_j76347338654282_1_alg».proof.Proof.Gen.Kernel.Launch
import proofs.«428520_j76347338654282_1_alg».proof.Proof.Gen.Kernel.Skeleton
import proofs.«428520_j76347338654282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0

abbrev r0_1 : Rect S128x128 := Rect.unit (s := S128x128) ![0, 0] S128x128.size inb_S128x128_S128x128_0_0

def out0_2 (x0 : Vec F S5000x128 .f32) (x1 : Vec F S128x128 .f32) : Vec F S5000x128 .f32 :=
  View.canon [⟨r0_0, k0_pay1 (View.ld x0 r0_0) (View.ld x1 r0_1)⟩]

theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

end Cert.Kernel.Hand
-- ==== Proof.Bits.Reg1Defs.lean ====
import proofs.«428520_j76347338654282_1_alg».proof.Proof.Gen.Kernel.Launch
import proofs.«428520_j76347338654282_1_alg».proof.Proof.Gen.Kernel.Skeleton
import proofs.«428520_j76347338654282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0

abbrev r1_1 : Rect S1x128 := Rect.unit (s := S1x128) ![0, 0] S1x128.size inb_S1x128_S1x128_0_0

def out1_5 (x0 x1 : Vec F S5000x128 .f32) (x2 x3 x4 : Vec F S1x128 .f32) : Vec F S5000x128 .f32 :=
  View.canon [⟨r1_0, k1_pay1 (View.ld x0 r1_0) (View.ld x1 r1_0) (View.ld x2 r1_1) (View.ld x3 r1_1) (View.ld x4 r1_1)⟩]

theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

end Cert.Kernel.Hand
-- ==== Proof.Bits.Reg2Defs.lean ====
import proofs.«428520_j76347338654282_1_alg».proof.Proof.Gen.Kernel.Launch
import proofs.«428520_j76347338654282_1_alg».proof.Proof.Gen.Kernel.Skeleton
import proofs.«428520_j76347338654282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0

abbrev r2_1 : Rect S128x128 := Rect.unit (s := S128x128) ![0, 0] S128x128.size inb_S128x128_S128x128_0_0

def out2_2 (x0 : Vec F S5000x128 .f32) (x1 : Vec F S128x128 .f32) : Vec F S5000x128 .f32 :=
  View.canon [⟨r2_0, k2_pay1 (View.ld x0 r2_0) (View.ld x1 r2_1)⟩]

theorem cover2_2 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

end Cert.Kernel.Hand
-- ==== Proof.Bits.Reg3Defs.lean ====
import proofs.«428520_j76347338654282_1_alg».proof.Proof.Gen.Kernel.Launch
import proofs.«428520_j76347338654282_1_alg».proof.Proof.Gen.Kernel.Skeleton
import proofs.«428520_j76347338654282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0

abbrev r3_1 : Rect S1x128 := Rect.unit (s := S1x128) ![0, 0] S1x128.size inb_S1x128_S1x128_0_0

def out3_5 (x0 x1 : Vec F S5000x128 .f32) (x2 x3 x4 : Vec F S1x128 .f32) : Vec F S5000x128 .f32 :=
  View.canon [⟨r3_0, k3_pay1 (View.ld x0 r3_0) (View.ld x1 r3_0) (View.ld x2 r3_1) (View.ld x3 r3_1) (View.ld x4 r3_1)⟩]

theorem cover3_5 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

end Cert.Kernel.Hand
-- ==== Proof.Bits.Reg4Defs.lean ====
import proofs.«428520_j76347338654282_1_alg».proof.Proof.Gen.Kernel.Launch
import proofs.«428520_j76347338654282_1_alg».proof.Proof.Gen.Kernel.Skeleton
import proofs.«428520_j76347338654282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0

abbrev r4_1 : Rect S128x128 := Rect.unit (s := S128x128) ![0, 0] S128x128.size inb_S128x128_S128x128_0_0

def out4_2 (x0 : Vec F S5000x128 .f32) (x1 : Vec F S128x128 .f32) : Vec F S5000x128 .f32 :=
  View.canon [⟨r4_0, k4_pay1 (View.ld x0 r4_0) (View.ld x1 r4_1)⟩]

theorem cover4_2 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

end Cert.Kernel.Hand
-- ==== Proof.Bits.Reg5Defs.lean ====
import proofs.«428520_j76347338654282_1_alg».proof.Proof.Gen.Kernel.Launch
import proofs.«428520_j76347338654282_1_alg».proof.Proof.Gen.Kernel.Skeleton
import proofs.«428520_j76347338654282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x128 := Rect.unit (s := S5000x128) ![0, 0] S5000x128.size inb_S5000x128_S5000x128_0_0

abbrev r5_1 : Rect S1x128 := Rect.unit (s := S1x128) ![0, 0] S1x128.size inb_S1x128_S1x128_0_0

def out5_5 (x0 x1 : Vec F S5000x128 .f32) (x2 x3 x4 : Vec F S1x128 .f32) : Vec F S5000x128 .f32 :=
  View.canon [⟨r5_0, k5_pay1 (View.ld x0 r5_0) (View.ld x1 r5_0) (View.ld x2 r5_1) (View.ld x3 r5_1) (View.ld x4 r5_1)⟩]

theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

end Cert.Kernel.Hand
-- ==== Proof.Bits.Reg6Defs.lean ====
import proofs.«428520_j76347338654282_1_alg».proof.Proof.Gen.Kernel.Launch
import proofs.«428520_j76347338654282_1_alg».proof.Proof.Gen.Kernel.Skeleton
import proofs.«428520_j76347338654282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x128 := Rect.unit (s := S5000x128) ![0, 0] S5000x128.size inb_S5000x128_S5000x128_0_0

abbrev r6_1 : Rect S128x128 := Rect.unit (s := S128x128) ![0, 0] S128x128.size inb_S128x128_S128x128_0_0

def out6_2 (x0 : Vec F S5000x128 .f32) (x1 : Vec F S128x128 .f32) : Vec F S5000x128 .f32 :=
  View.canon [⟨r6_0, k6_pay1 (View.ld x0 r6_0) (View.ld x1 r6_1)⟩]

theorem cover6_2 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) :
    (dat6 V c).after 2 t = out6_2 (iblk6 V c 0 t) (iblk6 V c 1 t) := by dsimp only [dat6]

end Cert.Kernel.Hand
-- ==== Proof.Bits.Reg7Defs.lean ====
import proofs.«428520_j76347338654282_1_alg».proof.Proof.Gen.Kernel.Launch
import proofs.«428520_j76347338654282_1_alg».proof.Proof.Gen.Kernel.Skeleton
import proofs.«428520_j76347338654282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S5000x128 := Rect.unit (s := S5000x128) ![0, 0] S5000x128.size inb_S5000x128_S5000x128_0_0

abbrev r7_1 : Rect S1x128 := Rect.unit (s := S1x128) ![0, 0] S1x128.size inb_S1x128_S1x128_0_0

def out7_5 (x0 x1 : Vec F S5000x128 .f32) (x2 x3 x4 : Vec F S1x128 .f32) : Vec F S5000x128 .f32 :=
  View.canon [⟨r7_0, k7_pay1 (View.ld x0 r7_0) (View.ld x1 r7_0) (View.ld x2 r7_1) (View.ld x3 r7_1) (View.ld x4 r7_1)⟩]

theorem cover7_5 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

end Cert.Kernel.Hand
-- ==== Proof.Bits.Reg8Defs.lean ====
import proofs.«428520_j76347338654282_1_alg».proof.Proof.Gen.Kernel.Launch
import proofs.«428520_j76347338654282_1_alg».proof.Proof.Gen.Kernel.Skeleton
import proofs.«428520_j76347338654282_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev scM8 : Memref sig .tc .vmem S128x128 .f32 := Memref.whole cc8_scratch0

def acc8 (c : Dev nD) : (n : ℕ) → n < cfg8.N → Vec F S128x128 .f32
  | 0, hn => k8_pay2 (iblk8 V c 1 ⟨0, hn⟩) (iblk8 V c 0 ⟨0, hn⟩) (k8_pay1 (F := F))
  | n + 1, hn => k8_pay2 (iblk8 V c 1 ⟨n + 1, hn⟩) (iblk8 V c 0 ⟨n + 1, hn⟩) (acc8 c n (Nat.lt_of_succ_lt hn))

theorem acc8_zero (c : Dev nD) (t : Fin cfg8.N) (hz : t.val = 0) :
    acc8 V c t.val t.isLt = k8_pay2 (iblk8 V c 1 t) (iblk8 V c 0 t) (k8_pay1 (F := F)) := by
  obtain ⟨n, hn⟩ := t
  cases n with
  | zero => rfl
  | succ n => exact absurd hz (Nat.succ_ne_zero n)

theorem acc8_pos (c : Dev nD) (t : Fin cfg8.N) (hz : t.val ≠ 0) :
    acc8 V c t.val t.isLt
      = k8_pay2 (iblk8 V c 1 t) (iblk8 V c 0 t) (acc8 V c (t.val - 1) (Nat.lt_of_le_of_lt (Nat.sub_le _ _) t.isLt)) := by
  obtain ⟨n, hn⟩ := t
  cases n with
  | zero => exact absurd rfl hz
  | succ n => rfl

def Phi8 (c : Dev nD) : (n : ℕ) → n ≤ cfg8.N → sProp 𝕄
  | 0, _ => Pipeline.ΦA spec8 c
  | n + 1, hn => iprop(owns (c : Thread nD τ) scM8 fullShare (acc8 V c n hn)
      ∗ Pipeline.scopedRestBut (Ix := Unit) (Name := ℕ) (U := UR sig nD τ) (Lvl := ℕ) (Val := Elt F) spec8 c [cc8_scratch0]
      ∗ (∃ r, prngReg c r))

theorem Phi8_zero (c : Dev nD) (n : ℕ) (h : n ≤ cfg8.N) (hz : n = 0) : Phi8 V c n h = Pipeline.ΦA spec8 c := by
  subst hz; rfl

theorem Phi8_succ (c : Dev nD) (n : ℕ) (hn : n < cfg8.N) :
    Phi8 V c (n + 1) hn = iprop(owns (c : Thread nD τ) scM8 fullShare (acc8 V c n hn)
      ∗ Pipeline.scopedRestBut (Ix := Unit) (Name := ℕ) (U := UR sig nD τ) (Lvl := ℕ) (Val := Elt F) spec8 c [cc8_scratch0]
      ∗ (∃ r, prngReg c r)) := rfl

theorem Phi8_pos (c : Dev nD) (n : ℕ) (h : n ≤ cfg8.N) (hz : n ≠ 0) :
    Phi8 V c n h = iprop(owns (c : Thread nD τ) scM8 fullShare (acc8 V c (n - 1) (by omega))
      ∗ Pipeline.scopedRestBut (Ix := Unit) (Name := ℕ) (U := UR sig nD τ) (Lvl := ℕ) (Val := Elt F) spec8 c [cc8_scratch0]
      ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => acc8 V c t.val t.isLt
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = acc8 V c t.val t.isLt := by dsimp only [dat8]

theorem Phi8_castSucc (c : Dev nD) (t : Fin cfg8.N) :
    (dat8 V c).Φ t.castSucc = Phi8 V c t.val (Nat.le_of_lt t.isLt) := by
  dsimp only [dat8]; simp only [Fin.coe_castSucc]

theorem Phi8_at_succ (c : Dev nD) (t : Fin cfg8.N) :
    (dat8 V c).Φ t.succ = Phi8 V c (t.val + 1) t.isLt := rfl

end Cert.Kernel.Hand
-- ==== Proof.Bits.Chain.lean ====
import proofs.«428520_j76347338654282_1_alg».proof.Proof.Gen.Kernel.Regions
import proofs.«428520_j76347338654282_1_alg».proof.Proof.Bits.Reg0Defs
import proofs.«428520_j76347338654282_1_alg».proof.Proof.Bits.Reg1Defs
import proofs.«428520_j76347338654282_1_alg».proof.Proof.Bits.Reg2Defs
import proofs.«428520_j76347338654282_1_alg».proof.Proof.Bits.Reg3Defs
import proofs.«428520_j76347338654282_1_alg».proof.Proof.Bits.Reg4Defs
import proofs.«428520_j76347338654282_1_alg».proof.Proof.Bits.Reg5Defs
import proofs.«428520_j76347338654282_1_alg».proof.Proof.Bits.Reg6Defs
import proofs.«428520_j76347338654282_1_alg».proof.Proof.Bits.Reg7Defs
import proofs.«428520_j76347338654282_1_alg».proof.Proof.Bits.Reg8Defs

noncomputable section

namespace Cert.Kernel.Hand

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat)
open Cert.Kernel Cert.Kernel.Gen

variable {F : FTy → Type} [FloatOps F]
local notation "𝕄" => MT nD τ sig Unit (Elt F) ℕ (UR sig nD τ) ℕ
variable (m : (ℓ : Loc nD τ sig) → Buf (Elt F) ℓ)
variable (c : Dev nD)

theorem upd_of_ne {W : Valuation τ sig (Elt F)} {r b : Ref sig .tc} {x} (h : b ≠ r) : Function.update W r x b = W b :=
  Function.update_of_ne (StableHlo.devRef_ne_of_ne h) _ _

abbrev U1 : Valuation τ sig (Elt F) := StableHlo.after hostOps0 (fun b => m (c, b))

def o2 : Buf (Elt F) ((c : Thread nD τ).loc main_v34) :=
  (dat0 (fun c b => U1 m c b) c).arrAt 2 cfg0.N

def U2 : Valuation τ sig (Elt F) := Function.update (U1 m c) main_v34 (o2 m c)
theorem U2_out : U2 m c main_v34 = o2 m c := Function.update_self _ _ _
theorem U2_of_ne (b : Ref sig .tc) (h : b ≠ main_v34) : U2 m c b = U1 m c b := upd_of_ne h

abbrev U3 : Valuation τ sig (Elt F) := StableHlo.after hostOps1 (U2 m c)

def o4 : Buf (Elt F) ((c : Thread nD τ).loc main_v66) :=
  (dat1 (fun c b => U3 m c b) c).arrAt 5 cfg1.N

def U4 : Valuation τ sig (Elt F) := Function.update (U3 m c) main_v66 (o4 m c)
theorem U4_out : U4 m c main_v66 = o4 m c := Function.update_self _ _ _
theorem U4_of_ne (b : Ref sig .tc) (h : b ≠ main_v66) : U4 m c b = U3 m c b := upd_of_ne h

abbrev U5 : Valuation τ sig (Elt F) := StableHlo.after hostOps2 (U4 m c)

def o6 : Buf (Elt F) ((c : Thread nD τ).loc main_v69) :=
  (dat2 (fun c b => U5 m c b) c).arrAt 2 cfg2.N

def U6 : Valuation τ sig (Elt F) := Function.update (U5 m c) main_v69 (o6 m c)
theorem U6_out : U6 m c main_v69 = o6 m c := Function.update_self _ _ _
theorem U6_of_ne (b : Ref sig .tc) (h : b ≠ main_v69) : U6 m c b = U5 m c b := upd_of_ne h

abbrev U7 : Valuation τ sig (Elt F) := StableHlo.after hostOps3 (U6 m c)

def o8 : Buf (Elt F) ((c : Thread nD τ).loc main_v101) :=
  (dat3 (fun c b => U7 m c b) c).arrAt 5 cfg3.N

def U8 : Valuation τ sig (Elt F) := Function.update (U7 m c) main_v101 (o8 m c)
theorem U8_out : U8 m c main_v101 = o8 m c := Function.update_self _ _ _
theorem U8_of_ne (b : Ref sig .tc) (h : b ≠ main_v101) : U8 m c b = U7 m c b := upd_of_ne h

abbrev U9 : Valuation τ sig (Elt F) := StableHlo.after hostOps4 (U8 m c)

def o10 : Buf (Elt F) ((c : Thread nD τ).loc main_v104) :=
  (dat4 (fun c b => U9 m c b) c).arrAt 2 cfg4.N

def U10 : Valuation τ sig (Elt F) := Function.update (U9 m c) main_v104 (o10 m c)
theorem U10_out : U10 m c main_v104 = o10 m c := Function.update_self _ _ _
theorem U10_of_ne (b : Ref sig .tc) (h : b ≠ main_v104) : U10 m c b = U9 m c b := upd_of_ne h

abbrev U11 : Valuation τ sig (Elt F) := StableHlo.after hostOps5 (U10 m c)

def o12 : Buf (Elt F) ((c : Thread nD τ).loc main_v136) :=
  (dat5 (fun c b => U11 m c b) c).arrAt 5 cfg5.N

def U12 : Valuation τ sig (Elt F) := Function.update (U11 m c) main_v136 (o12 m c)
theorem U12_out : U12 m c main_v136 = o12 m c := Function.update_self _ _ _
theorem U12_of_ne (b : Ref sig .tc) (h : b ≠ main_v136) : U12 m c b = U11 m c b := upd_of_ne h

abbrev U13 : Valuation τ sig (Elt F) := StableHlo.after hostOps6 (U12 m c)

def o14 : Buf (Elt F) ((c : Thread nD τ).loc main_v139) :=
  (dat6 (fun c b => U13 m c b) c).arrAt 2 cfg6.N

def U14 : Valuation τ sig (Elt F) := Function.update (U13 m c) main_v139 (o14 m c)
theorem U14_out : U14 m c main_v139 = o14 m c := Function.update_self _ _ _
theorem U14_of_ne (b : Ref sig .tc) (h : b ≠ main_v139) : U14 m c b = U13 m c b := upd_of_ne h

abbrev U15 : Valuation τ sig (Elt F) := StableHlo.after hostOps7 (U14 m c)

def o16 : Buf (Elt F) ((c : Thread nD τ).loc main_v171) :=
  (dat7 (fun c b => U15 m c b) c).arrAt 5 cfg7.N

def U16 : Valuation τ sig (Elt F) := Function.update (U15 m c) main_v171 (o16 m c)
theorem U16_out : U16 m c main_v171 = o16 m c := Function.update_self _ _ _
theorem U16_of_ne (b : Ref sig .tc) (h : b ≠ main_v171) : U16 m c b = U15 m c b := upd_of_ne h

abbrev U17 : Valuation τ sig (Elt F) := StableHlo.after hostOps8 (U16 m c)

def o18 : Buf (Elt F) ((c : Thread nD τ).loc main_v177) :=
  (dat8 (fun c b => U17 m c b) c).arrAt 2 cfg8.N

def U18 : Valuation τ sig (Elt F) := Function.update (U17 m c) main_v177 (o18 m c)
theorem U18_out : U18 m c main_v177 = o18 m c := Function.update_self _ _ _
theorem U18_of_ne (b : Ref sig .tc) (h : b ≠ main_v177) : U18 m c b = U17 m c b := upd_of_ne h

abbrev U19 : Valuation τ sig (Elt F) := StableHlo.after hostOps9 (U18 m c)
abbrev U20 : Valuation τ sig (Elt F) := StableHlo.after hostOps9_1 (U19 m c)
abbrev U21 : Valuation τ sig (Elt F) := StableHlo.after hostOps9_2 (U20 m c)

def outs : Outs (F := F) := fun J r c => match J with
  | 2 => U2 m c r
  | 4 => U4 m c r
  | 6 => U6 m c r
  | 8 => U8 m c r
  | 10 => U10 m c r
  | 12 => U12 m c r
  | 14 => U14 m c r
  | 16 => U16 m c r
  | 18 => U18 m c r
  | _ => m (c, r)

theorem upd_eq {W W' : Valuation τ sig (Elt F)} {r : Ref sig .tc} {x} (h : W = W') :
    Function.update W r (Function.update W' r x r) = Function.update W' r x := by rw [h, Function.update_self]

theorem V1_eq : V1 m c = U1 m c := rfl
theorem V2_eq : V2 m (outs m) c = U2 m c := upd_eq (V1_eq m c)
theorem V3_eq : V3 m (outs m) c = U3 m c := congrArg (StableHlo.after hostOps1) (V2_eq m c)
theorem V4_eq : V4 m (outs m) c = U4 m c := upd_eq (V3_eq m c)
theorem V5_eq : V5 m (outs m) c = U5 m c := congrArg (StableHlo.after hostOps2) (V4_eq m c)
theorem V6_eq : V6 m (outs m) c = U6 m c := upd_eq (V5_eq m c)
theorem V7_eq : V7 m (outs m) c = U7 m c := congrArg (StableHlo.after hostOps3) (V6_eq m c)
theorem V8_eq : V8 m (outs m) c = U8 m c := upd_eq (V7_eq m c)
theorem V9_eq : V9 m (outs m) c = U9 m c := congrArg (StableHlo.after hostOps4) (V8_eq m c)
theorem V10_eq : V10 m (outs m) c = U10 m c := upd_eq (V9_eq m c)
theorem V11_eq : V11 m (outs m) c = U11 m c := congrArg (StableHlo.after hostOps5) (V10_eq m c)
theorem V12_eq : V12 m (outs m) c = U12 m c := upd_eq (V11_eq m c)
theorem V13_eq : V13 m (outs m) c = U13 m c := congrArg (StableHlo.after hostOps6) (V12_eq m c)
theorem V14_eq : V14 m (outs m) c = U14 m c := upd_eq (V13_eq m c)
theorem V15_eq : V15 m (outs m) c = U15 m c := congrArg (StableHlo.after hostOps7) (V14_eq m c)
theorem V16_eq : V16 m (outs m) c = U16 m c := upd_eq (V15_eq m c)
theorem V17_eq : V17 m (outs m) c = U17 m c := congrArg (StableHlo.after hostOps8) (V16_eq m c)
theorem V18_eq : V18 m (outs m) c = U18 m c := upd_eq (V17_eq m c)
theorem V19_eq : V19 m (outs m) c = U19 m c := congrArg (StableHlo.after hostOps9) (V18_eq m c)
theorem V20_eq : V20 m (outs m) c = U20 m c := congrArg (StableHlo.after hostOps9_1) (V19_eq m c)
theorem V21_eq : V21 m (outs m) c = U21 m c := congrArg (StableHlo.after hostOps9_2) (V20_eq m c)

def pdats : (p : Fin 9) → (c : Dev nD) → Dat τ (Elt F) Unit ℕ (UR sig nD τ) ℕ (cfgs p) c
  | ⟨0, _⟩ => fun c => dat0 (fun c b => U1 m c b) c
  | ⟨1, _⟩ => fun c => dat1 (fun c b => U3 m c b) c
  | ⟨2, _⟩ => fun c => dat2 (fun c b => U5 m c b) c
  | ⟨3, _⟩ => fun c => dat3 (fun c b => U7 m c b) c
  | ⟨4, _⟩ => fun c => dat4 (fun c b => U9 m c b) c
  | ⟨5, _⟩ => fun c => dat5 (fun c b => U11 m c b) c
  | ⟨6, _⟩ => fun c => dat6 (fun c b => U13 m c b) c
  | ⟨7, _⟩ => fun c => dat7 (fun c b => U15 m c b) c
  | ⟨8, _⟩ => fun c => dat8 (fun c b => U17 m c b) c

abbrev noVar : Variants := Variants.none
abbrev noL : GSem nD τ sig → Finset Unit := fun _ => ∅
abbrev noLv : GSem nD τ sig → Unit → ℕ := fun _ _ => 0

abbrev Rst : sProp 𝕄 := iprop((∃ r, prngReg c r) ∗ ∃ W, owes (c : Thread nD τ) (0 : CellTallies nD τ sig Unit) W)

end Cert.Kernel.Hand

end
-- ==== Proof.Bits.Reg0Body.lean ====
import proofs.«428520_j76347338654282_1_alg».proof.Proof.Bits.Reg0Defs
import Idealize.ShloMosaic.Lib.Pipeline.TableIdle

noncomputable section

namespace Cert.Kernel.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0 (c : Dev nD) (t : Fin cfg0.N) : ∀ w : Fin cfg0.W, (cfg0.win w).isOut = false → ∀ d,
    (dat0 V c).before w t d = (dat0 V c).after w t
  | ⟨0, _⟩, _ | ⟨1, _⟩, _ =>
    (dat0 V c).before_in_eq_fetched _ rfl (fun _ => rfl) (fun _ _ _ => rfl) (fun _ => rfl) t
  | ⟨2, _⟩, h => nomatch h

theorem sound_kernel0 (c : Dev nD) (i : grid0.Coords) {m0 m2 : Memref sig .tc .vmem S5000x128 .f32}
    {m1 : Memref sig .tc .vmem S128x128 .f32} (h0 : m0.IsWhole) (h1 : m1.IsWhole) (h2 : m2.IsWhole)
    (x0 d : Vec F S5000x128 .f32) (x1 : Vec F S128x128 .f32) (K : PUnit → sProp 𝕄) :
    iprop(owns c.tc m0 fullShare x0 ∗ owns c.tc m1 fullShare x1 ∗ owns c.tc m2 fullShare d
        ∗ (iprop(owns c.tc m0 fullShare x0 ∗ owns c.tc m1 fullShare x1 ∗ owns c.tc m2 fullShare (out0_2 x0 x1)) -∗ K ⟨⟩))
      ⊢ wp frame (wpE (defs₀ (F := F)) Variants.none c none) Set.univ (cc0__linear_kernel i m0 h0 m1 h1 m2 h2) K := by
  simp only [cc0__linear_kernel_eq_skeleton, owns_eq_rep]; unfold cc0__linear_kernel_skel
  iintro ⟨H0, H1, H2, Hk⟩
  sl_exec
  sl_step
  iapply Hk
  iframe H0 H1
  rw [← owns_eq_rep]; unfold owns
  iexists _; isplitr; swap; · iexact H2
  ipureintro
  simp only [View.readAt_rep]
  exact View.read_writes_eq_canon _ _ _ (cover0_2 _)

theorem body_obligation0 (c : Dev nD) : BodyObligation (dat0 (F := F) V c) (defs₀ (F := F)) Variants.none () Set.univ := fun t => by
  rw [bigSep_W0, bigSep_W0]
  simp (disch := exact rfl) only [before0]
  dsimp only [dat0, Dat.owesAt, Dat.bound]
  iintro ⟨HΦ, Ho, ⟨%d0, H0⟩, ⟨%d1, H1⟩, ⟨%d2, H2⟩⟩
  iapply (sound_kernel0 c (grid0.coords t) (hstage0_0 _) (hstage0_1 _) (hstage0_2 _))
  iframe H0 H1 H2
  iintro H
  iframe

end Cert.Kernel.Hand
-- ==== Proof.Bits.RecLib.lean ====
import proofs.«428520_j76347338654282_1_alg».proof.Proof.Bits.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hentry_of {p : Fin 9} (L : Pipeline.LaunchFacts (nD := nD) (τ := τ) cfgs p) (c : Dev nD) (V : Valuation τ sig (Elt F))
    (hq : ∀ w, (pdats m p c).q w = fullShare) (hA : ∀ w, (pdats m p c).A w = V (Pipeline.arrRef (cfgs p).spec w))
    (howed : ∀ t, (pdats m p c).owed t = 0) (hrec : ∀ x, x ∈ (pdats m p c).recorded 0) :
    iprop(iprop(StableHlo.held (c : Thread nD τ) (Pipeline.ucRefs τ sig) V ∗ Rst c) ∗ Pipeline.ownSems0 (fun k : PEmpty => k.elim) c ∗ levAts noL noLv)
      ⊢ |={Set.univ}=> (iprop((pdats m p c).arrays ((pdats m p c).arrAt · 0) ∗ Pipeline.prefHeld (pcfgs (F := F) p).pre c (fun _ => fullShare) (adm p).1
        ∗ (pdats m p c).owesAt () 0 ∗ (∃ r, prngReg c r) ∗ Pipeline.unscopedRest (cfgs p).spec c (fun b => V b)) : sProp 𝕄) := by
  rw [Pipeline.ownSems0_none]
  have hsplit := Pipeline.arrays_of_unscopedBufs (p := p) (pcfgs (F := F)) adm (pdats m) L.win L.arr_whole c
    ((pdats m p c).share_full hq) (fun b => V b) hA
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    rw [howed]
    icases HO with ⟨%W, HO⟩; iexists W; isplitr; · ipureintro; exact fun x _ => Or.inl (hrec x)
    iexact HO
  isplitl [Hp]; · iexact Hp
  iexact Hrest

theorem hexit_of {p : Fin 9} (L : Pipeline.LaunchFacts (nD := nD) (τ := τ) cfgs p) (c : Dev nD) (V V' : Valuation τ sig (Elt F))
    (o : Fin (cfgs p).W) (hq : ∀ w, (pdats m p c).q w = fullShare) (hA : ∀ w, (pdats m p c).A w = V (Pipeline.arrRef (cfgs p).spec w))
    (howed : ∀ t, (pdats m p c).owed t = 0) (hin : ∀ w, w ≠ o → ((cfgs p).win w).isOut = false)
    (hne : ∀ b : Ref sig .tc, b ≠ Pipeline.arrRef (cfgs p).spec o → V' b = V b)
    (ho : (pdats m p c).arrAt o (cfgs p).N = V' (Pipeline.arrRef (cfgs p).spec o)) :
    (iprop((pdats m p c).arrays ((pdats m p c).arrAt · (cfgs p).N) ∗ (pdats m p c).owesAt () (Fin.last (cfgs p).N) ∗ (∃ r, prngReg c r)
        ∗ Pipeline.unscopedRest (cfgs p).spec c (fun b => V b)) : sProp 𝕄)
      ⊢ |={Set.univ}=> iprop(StableHlo.held (c : Thread nD τ) (Pipeline.ucRefs τ sig) V' ∗ Rst c) := by
  have hF : ∀ w, (pdats m p c).arrAt w (cfgs p).N = V' (Pipeline.arrRef (cfgs p).spec w) := fun w => by
    by_cases h : w = o
    · rw [h]; exact ho
    · rw [(pdats m p c).arrAt_in w (hin w h), hA, hne _ fun e => h (L.win.arr_inj e)]
  have hjoin := Pipeline.unscopedBufs_of_arrays (p := p) (pcfgs (F := F)) adm (Ix := Unit) (Name := ℕ) (U := UR sig nD τ) (Lvl := ℕ)
    L.win L.arr_whole c (pdats m) ((pdats m p c).share_full hq)
    (fun b => V b) (fun b => V' b) ((pdats m p c).arrAt · (cfgs p).N) hF
    fun b hb => hne b fun e => hb (Finset.mem_image.mpr ⟨o, Finset.mem_univ _, e.symm⟩)
  rw [Pipeline.unscopedBufs_held] at hjoin
  iintro ⟨Ha, HO, HY, Hrest⟩
  imodintro
  isplitl [Ha Hrest]
  · iapply hjoin; isplitl [Ha] <;> iassumption
  isplitl [HY]; · iexact HY
  unfold Pipeline.Dat.owesAt Pipeline.owesWithin
  rw [howed]
  icases HO with ⟨%W, -, HO⟩; iexists W; iexact HO

theorem hin_of {p : Fin 9} (c : Dev nD) (hΦ : (pdats m p c).Φ 0 = Pipeline.ΦA (cfgs p).spec c) :
    (iprop((∃ r, prngReg c r) ∗ Pipeline.prefHeld (pcfgs (F := F) p).pre c (fun _ => fullShare) (adm p).1
        ∗ Pipeline.scopedRest (cfgs p).spec c) : sProp 𝕄) ⊢ (pdats m p c).Φ 0 := by
  rw [hΦ]; unfold Pipeline.ΦA
  iintro ⟨Hp, -, Hr⟩
  isplitl [Hr]; · iexact Hr
  iexact Hp

theorem hout_of {p : Fin 9} (c : Dev nD) (hΦ : (pdats m p c).Φ (Fin.last _) = Pipeline.ΦA (cfgs p).spec c) :
    (pdats m p c).Φ (Fin.last (cfgs p).N)
      ⊢ (iprop((∃ r, prngReg c r) ∗ Pipeline.ownSems0 (fun k : PEmpty => k.elim) c ∗ Pipeline.scopedRest (cfgs p).spec c) : sProp 𝕄) := by
  rw [Pipeline.ownSems0_none, hΦ]; unfold Pipeline.ΦA
  iintro ⟨Hr, Hp⟩
  isplitl [Hp]; · iexact Hp
  isplitr; · iempintro
  iexact Hr

end Cert.Kernel.Hand

end
-- ==== Proof.Bits.Rec0.lean ====
import proofs.«428520_j76347338654282_1_alg».proof.Proof.Bits.Reg0Body
import proofs.«428520_j76347338654282_1_alg».proof.Proof.Bits.RecLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg0 : Pipeline.RegionSeg (pcfgs (F := F)) adm (pdats m) () defs₀ noVar noL noLv 0 where
  win := launch0.win.to₀
  block_pos := launch0.block_pos
  stage_whole := launch0.stage_whole
  K := PEmpty
  osem k := k.elim
  ho := Pipeline.OwnSemFacts.none _
  hbody c := (body_obligation0 (fun c b => U1 m c b) c).loose
  hwaits := Pipeline.hwaits_of_owed_zero _ _ _ _ noL noLv 0 fun _ _ => rfl
  pre c := iprop(StableHlo.held (c : Thread nD τ) (Pipeline.ucRefs τ sig) (U1 m c) ∗ Rst c)
  post c := iprop(StableHlo.held (c : Thread nD τ) (Pipeline.ucRefs τ sig) (U2 m c) ∗ Rst c)
  X c := iprop(∃ r, prngReg c r)
  Y c := iprop(∃ r, prngReg c r)
  Z c := Pipeline.unscopedRest (Ix := Unit) (Name := ℕ) (U := UR sig nD τ) (Lvl := ℕ) spec0 c (fun b => U1 m c b)
  hentry c := hentry_of m launch0 c (U1 m c) (fun _ => rfl) (fun _ => rfl) (fun _ => rfl) fun _ => trivial
  hin c := hin_of m c rfl
  hout c := hout_of m c rfl
  hexit c := hexit_of m launch0 c (U1 m c) (U2 m c) 2 (fun _ => rfl) (fun _ => rfl) (fun _ => rfl) (by decide) (U2_of_ne m c) (U2_out m c).symm

end Cert.Kernel.Hand

end
-- ==== Proof.Bits.Reg1Body.lean ====
import proofs.«428520_j76347338654282_1_alg».proof.Proof.Bits.Reg1Defs
import Idealize.ShloMosaic.Lib.Pipeline.TableIdle

noncomputable section

namespace Cert.Kernel.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1 (c : Dev nD) (t : Fin cfg1.N) : ∀ w : Fin cfg1.W, (cfg1.win w).isOut = false → ∀ d,
    (dat1 V c).before w t d = (dat1 V c).after w t
  | ⟨0, _⟩, _ | ⟨1, _⟩, _ | ⟨2, _⟩, _ | ⟨3, _⟩, _ | ⟨4, _⟩, _ =>
    (dat1 V c).before_in_eq_fetched _ rfl (fun _ => rfl) (fun _ _ _ => rfl) (fun _ => rfl) t
  | ⟨5, _⟩, h => nomatch h

theorem sound_kernel1 (c : Dev nD) (i : grid1.Coords) {m0 m1 m5 : Memref sig .tc .vmem S5000x128 .f32}
    {m2 m3 m4 : Memref sig .tc .vmem S1x128 .f32} (h0 : m0.IsWhole) (h1 : m1.IsWhole) (h2 : m2.IsWhole) (h3 : m3.IsWhole)
    (h4 : m4.IsWhole) (h5 : m5.IsWhole) (x0 x1 d : Vec F S5000x128 .f32) (x2 x3 x4 : Vec F S1x128 .f32) (K : PUnit → sProp 𝕄) :
    iprop(owns c.tc m0 fullShare x0 ∗ owns c.tc m1 fullShare x1 ∗ owns c.tc m2 fullShare x2 ∗ owns c.tc m3 fullShare x3
        ∗ owns c.tc m4 fullShare x4 ∗ owns c.tc m5 fullShare d
        ∗ (iprop(owns c.tc m0 fullShare x0 ∗ owns c.tc m1 fullShare x1 ∗ owns c.tc m2 fullShare x2 ∗ owns c.tc m3 fullShare x3
            ∗ owns c.tc m4 fullShare x4 ∗ owns c.tc m5 fullShare (out1_5 x0 x1 x2 x3 x4)) -∗ K ⟨⟩))
      ⊢ wp frame (wpE (defs₀ (F := F)) Variants.none c none) Set.univ (cc1__ln_relu_kernel i m0 h0 m1 h1 m2 h2 m3 h3 m4 h4 m5 h5) K := by
  simp only [cc1__ln_relu_kernel_eq_skeleton, owns_eq_rep]; unfold cc1__ln_relu_kernel_skel
  iintro ⟨H0, H1, H2, H3, H4, H5, Hk⟩
  sl_exec
  sl_step
  iapply Hk
  iframe H0 H1 H2 H3 H4
  rw [← owns_eq_rep]; unfold owns
  iexists _; isplitr; swap; · iexact H5
  ipureintro
  simp only [View.readAt_rep]
  exact View.read_writes_eq_canon _ _ _ (cover1_5 _)

theorem body_obligation1 (c : Dev nD) : BodyObligation (dat1 (F := F) V c) (defs₀ (F := F)) Variants.none () Set.univ := fun t => by
  rw [bigSep_W1, bigSep_W1]
  simp (disch := exact rfl) only [before1]
  dsimp only [dat1, Dat.owesAt, Dat.bound]
  iintro ⟨HΦ, Ho, ⟨%d0, H0⟩, ⟨%d1, H1⟩, ⟨%d2, H2⟩, ⟨%d3, H3⟩, ⟨%d4, H4⟩, ⟨%d5, H5⟩⟩
  iapply (sound_kernel1 c (grid1.coords t) (hstage1_0 _) (hstage1_1 _) (hstage1_2 _) (hstage1_3 _) (hstage1_4 _) (hstage1_5 _))
  iframe H0 H1 H2 H3 H4 H5
  iintro H
  iframe

end Cert.Kernel.Hand
-- ==== Proof.Bits.Rec1.lean ====
import proofs.«428520_j76347338654282_1_alg».proof.Proof.Bits.Reg1Body
import proofs.«428520_j76347338654282_1_alg».proof.Proof.Bits.RecLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg1 : Pipeline.RegionSeg (pcfgs (F := F)) adm (pdats m) () defs₀ noVar noL noLv 1 where
  win := launch1.win.to₀
  block_pos := launch1.block_pos
  stage_whole := launch1.stage_whole
  K := PEmpty
  osem k := k.elim
  ho := Pipeline.OwnSemFacts.none _
  hbody c := (body_obligation1 (fun c b => U3 m c b) c).loose
  hwaits := Pipeline.hwaits_of_owed_zero _ _ _ _ noL noLv 1 fun _ _ => rfl
  pre c := iprop(StableHlo.held (c : Thread nD τ) (Pipeline.ucRefs τ sig) (U3 m c) ∗ Rst c)
  post c := iprop(StableHlo.held (c : Thread nD τ) (Pipeline.ucRefs τ sig) (U4 m c) ∗ Rst c)
  X c := iprop(∃ r, prngReg c r)
  Y c := iprop(∃ r, prngReg c r)
  Z c := Pipeline.unscopedRest (Ix := Unit) (Name := ℕ) (U := UR sig nD τ) (Lvl := ℕ) spec1 c (fun b => U3 m c b)
  hentry c := hentry_of m launch1 c (U3 m c) (fun _ => rfl) (fun _ => rfl) (fun _ => rfl) fun _ => trivial
  hin c := hin_of m c rfl
  hout c := hout_of m c rfl
  hexit c := hexit_of m launch1 c (U3 m c) (U4 m c) 5 (fun _ => rfl) (fun _ => rfl) (fun _ => rfl) (by decide) (U4_of_ne m c) (U4_out m c).symm

end Cert.Kernel.Hand

end
-- ==== Proof.Bits.Reg2Body.lean ====
import proofs.«428520_j76347338654282_1_alg».proof.Proof.Bits.Reg2Defs
import Idealize.ShloMosaic.Lib.Pipeline.TableIdle

noncomputable section

namespace Cert.Kernel.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before2 (c : Dev nD) (t : Fin cfg2.N) : ∀ w : Fin cfg2.W, (cfg2.win w).isOut = false → ∀ d,
    (dat2 V c).before w t d = (dat2 V c).after w t
  | ⟨0, _⟩, _ | ⟨1, _⟩, _ =>
    (dat2 V c).before_in_eq_fetched _ rfl (fun _ => rfl) (fun _ _ _ => rfl) (fun _ => rfl) t
  | ⟨2, _⟩, h => nomatch h

theorem sound_kernel2 (c : Dev nD) (i : grid2.Coords) {m0 m2 : Memref sig .tc .vmem S5000x128 .f32}
    {m1 : Memref sig .tc .vmem S128x128 .f32} (h0 : m0.IsWhole) (h1 : m1.IsWhole) (h2 : m2.IsWhole)
    (x0 d : Vec F S5000x128 .f32) (x1 : Vec F S128x128 .f32) (K : PUnit → sProp 𝕄) :
    iprop(owns c.tc m0 fullShare x0 ∗ owns c.tc m1 fullShare x1 ∗ owns c.tc m2 fullShare d
        ∗ (iprop(owns c.tc m0 fullShare x0 ∗ owns c.tc m1 fullShare x1 ∗ owns c.tc m2 fullShare (out2_2 x0 x1)) -∗ K ⟨⟩))
      ⊢ wp frame (wpE (defs₀ (F := F)) Variants.none c none) Set.univ (cc2__linear_kernel i m0 h0 m1 h1 m2 h2) K := by
  simp only [cc2__linear_kernel_eq_skeleton, owns_eq_rep]; unfold cc2__linear_kernel_skel
  iintro ⟨H0, H1, H2, Hk⟩
  sl_exec
  sl_step
  iapply Hk
  iframe H0 H1
  rw [← owns_eq_rep]; unfold owns
  iexists _; isplitr; swap; · iexact H2
  ipureintro
  simp only [View.readAt_rep]
  exact View.read_writes_eq_canon _ _ _ (cover2_2 _)

theorem body_obligation2 (c : Dev nD) : BodyObligation (dat2 (F := F) V c) (defs₀ (F := F)) Variants.none () Set.univ := fun t => by
  rw [bigSep_W2, bigSep_W2]
  simp (disch := exact rfl) only [before2]
  dsimp only [dat2, Dat.owesAt, Dat.bound]
  iintro ⟨HΦ, Ho, ⟨%d0, H0⟩, ⟨%d1, H1⟩, ⟨%d2, H2⟩⟩
  iapply (sound_kernel2 c (grid2.coords t) (hstage2_0 _) (hstage2_1 _) (hstage2_2 _))
  iframe H0 H1 H2
  iintro H
  iframe

end Cert.Kernel.Hand
-- ==== Proof.Bits.Rec2.lean ====
import proofs.«428520_j76347338654282_1_alg».proof.Proof.Bits.Reg2Body
import proofs.«428520_j76347338654282_1_alg».proof.Proof.Bits.RecLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg2 : Pipeline.RegionSeg (pcfgs (F := F)) adm (pdats m) () defs₀ noVar noL noLv 2 where
  win := launch2.win.to₀
  block_pos := launch2.block_pos
  stage_whole := launch2.stage_whole
  K := PEmpty
  osem k := k.elim
  ho := Pipeline.OwnSemFacts.none _
  hbody c := (body_obligation2 (fun c b => U5 m c b) c).loose
  hwaits := Pipeline.hwaits_of_owed_zero _ _ _ _ noL noLv 2 fun _ _ => rfl
  pre c := iprop(StableHlo.held (c : Thread nD τ) (Pipeline.ucRefs τ sig) (U5 m c) ∗ Rst c)
  post c := iprop(StableHlo.held (c : Thread nD τ) (Pipeline.ucRefs τ sig) (U6 m c) ∗ Rst c)
  X c := iprop(∃ r, prngReg c r)
  Y c := iprop(∃ r, prngReg c r)
  Z c := Pipeline.unscopedRest (Ix := Unit) (Name := ℕ) (U := UR sig nD τ) (Lvl := ℕ) spec2 c (fun b => U5 m c b)
  hentry c := hentry_of m launch2 c (U5 m c) (fun _ => rfl) (fun _ => rfl) (fun _ => rfl) fun _ => trivial
  hin c := hin_of m c rfl
  hout c := hout_of m c rfl
  hexit c := hexit_of m launch2 c (U5 m c) (U6 m c) 2 (fun _ => rfl) (fun _ => rfl) (fun _ => rfl) (by decide) (U6_of_ne m c) (U6_out m c).symm

end Cert.Kernel.Hand

end
-- ==== Proof.Bits.Reg3Body.lean ====
import proofs.«428520_j76347338654282_1_alg».proof.Proof.Bits.Reg3Defs
import Idealize.ShloMosaic.Lib.Pipeline.TableIdle

noncomputable section

namespace Cert.Kernel.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3 (c : Dev nD) (t : Fin cfg3.N) : ∀ w : Fin cfg3.W, (cfg3.win w).isOut = false → ∀ d,
    (dat3 V c).before w t d = (dat3 V c).after w t
  | ⟨0, _⟩, _ | ⟨1, _⟩, _ | ⟨2, _⟩, _ | ⟨3, _⟩, _ | ⟨4, _⟩, _ =>
    (dat3 V c).before_in_eq_fetched _ rfl (fun _ => rfl) (fun _ _ _ => rfl) (fun _ => rfl) t
  | ⟨5, _⟩, h => nomatch h

theorem sound_kernel3 (c : Dev nD) (i : grid3.Coords) {m0 m1 m5 : Memref sig .tc .vmem S5000x128 .f32}
    {m2 m3 m4 : Memref sig .tc .vmem S1x128 .f32} (h0 : m0.IsWhole) (h1 : m1.IsWhole) (h2 : m2.IsWhole) (h3 : m3.IsWhole)
    (h4 : m4.IsWhole) (h5 : m5.IsWhole) (x0 x1 d : Vec F S5000x128 .f32) (x2 x3 x4 : Vec F S1x128 .f32) (K : PUnit → sProp 𝕄) :
    iprop(owns c.tc m0 fullShare x0 ∗ owns c.tc m1 fullShare x1 ∗ owns c.tc m2 fullShare x2 ∗ owns c.tc m3 fullShare x3
        ∗ owns c.tc m4 fullShare x4 ∗ owns c.tc m5 fullShare d
        ∗ (iprop(owns c.tc m0 fullShare x0 ∗ owns c.tc m1 fullShare x1 ∗ owns c.tc m2 fullShare x2 ∗ owns c.tc m3 fullShare x3
            ∗ owns c.tc m4 fullShare x4 ∗ owns c.tc m5 fullShare (out3_5 x0 x1 x2 x3 x4)) -∗ K ⟨⟩))
      ⊢ wp frame (wpE (defs₀ (F := F)) Variants.none c none) Set.univ (cc3__ln_relu_kernel i m0 h0 m1 h1 m2 h2 m3 h3 m4 h4 m5 h5) K := by
  simp only [cc3__ln_relu_kernel_eq_skeleton, owns_eq_rep]; unfold cc3__ln_relu_kernel_skel
  iintro ⟨H0, H1, H2, H3, H4, H5, Hk⟩
  sl_exec
  sl_step
  iapply Hk
  iframe H0 H1 H2 H3 H4
  rw [← owns_eq_rep]; unfold owns
  iexists _; isplitr; swap; · iexact H5
  ipureintro
  simp only [View.readAt_rep]
  exact View.read_writes_eq_canon _ _ _ (cover3_5 _)

theorem body_obligation3 (c : Dev nD) : BodyObligation (dat3 (F := F) V c) (defs₀ (F := F)) Variants.none () Set.univ := fun t => by
  rw [bigSep_W3, bigSep_W3]
  simp (disch := exact rfl) only [before3]
  dsimp only [dat3, Dat.owesAt, Dat.bound]
  iintro ⟨HΦ, Ho, ⟨%d0, H0⟩, ⟨%d1, H1⟩, ⟨%d2, H2⟩, ⟨%d3, H3⟩, ⟨%d4, H4⟩, ⟨%d5, H5⟩⟩
  iapply (sound_kernel3 c (grid3.coords t) (hstage3_0 _) (hstage3_1 _) (hstage3_2 _) (hstage3_3 _) (hstage3_4 _) (hstage3_5 _))
  iframe H0 H1 H2 H3 H4 H5
  iintro H
  iframe

end Cert.Kernel.Hand
-- ==== Proof.Bits.Rec3.lean ====
import proofs.«428520_j76347338654282_1_alg».proof.Proof.Bits.Reg3Body
import proofs.«428520_j76347338654282_1_alg».proof.Proof.Bits.RecLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg3 : Pipeline.RegionSeg (pcfgs (F := F)) adm (pdats m) () defs₀ noVar noL noLv 3 where
  win := launch3.win.to₀
  block_pos := launch3.block_pos
  stage_whole := launch3.stage_whole
  K := PEmpty
  osem k := k.elim
  ho := Pipeline.OwnSemFacts.none _
  hbody c := (body_obligation3 (fun c b => U7 m c b) c).loose
  hwaits := Pipeline.hwaits_of_owed_zero _ _ _ _ noL noLv 3 fun _ _ => rfl
  pre c := iprop(StableHlo.held (c : Thread nD τ) (Pipeline.ucRefs τ sig) (U7 m c) ∗ Rst c)
  post c := iprop(StableHlo.held (c : Thread nD τ) (Pipeline.ucRefs τ sig) (U8 m c) ∗ Rst c)
  X c := iprop(∃ r, prngReg c r)
  Y c := iprop(∃ r, prngReg c r)
  Z c := Pipeline.unscopedRest (Ix := Unit) (Name := ℕ) (U := UR sig nD τ) (Lvl := ℕ) spec3 c (fun b => U7 m c b)
  hentry c := hentry_of m launch3 c (U7 m c) (fun _ => rfl) (fun _ => rfl) (fun _ => rfl) fun _ => trivial
  hin c := hin_of m c rfl
  hout c := hout_of m c rfl
  hexit c := hexit_of m launch3 c (U7 m c) (U8 m c) 5 (fun _ => rfl) (fun _ => rfl) (fun _ => rfl) (by decide) (U8_of_ne m c) (U8_out m c).symm

end Cert.Kernel.Hand

end
-- ==== Proof.Bits.Reg4Body.lean ====
import proofs.«428520_j76347338654282_1_alg».proof.Proof.Bits.Reg4Defs
import Idealize.ShloMosaic.Lib.Pipeline.TableIdle

noncomputable section

namespace Cert.Kernel.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before4 (c : Dev nD) (t : Fin cfg4.N) : ∀ w : Fin cfg4.W, (cfg4.win w).isOut = false → ∀ d,
    (dat4 V c).before w t d = (dat4 V c).after w t
  | ⟨0, _⟩, _ | ⟨1, _⟩, _ =>
    (dat4 V c).before_in_eq_fetched _ rfl (fun _ => rfl) (fun _ _ _ => rfl) (fun _ => rfl) t
  | ⟨2, _⟩, h => nomatch h

theorem sound_kernel4 (c : Dev nD) (i : grid4.Coords) {m0 m2 : Memref sig .tc .vmem S5000x128 .f32}
    {m1 : Memref sig .tc .vmem S128x128 .f32} (h0 : m0.IsWhole) (h1 : m1.IsWhole) (h2 : m2.IsWhole)
    (x0 d : Vec F S5000x128 .f32) (x1 : Vec F S128x128 .f32) (K : PUnit → sProp 𝕄) :
    iprop(owns c.tc m0 fullShare x0 ∗ owns c.tc m1 fullShare x1 ∗ owns c.tc m2 fullShare d
        ∗ (iprop(owns c.tc m0 fullShare x0 ∗ owns c.tc m1 fullShare x1 ∗ owns c.tc m2 fullShare (out4_2 x0 x1)) -∗ K ⟨⟩))
      ⊢ wp frame (wpE (defs₀ (F := F)) Variants.none c none) Set.univ (cc4__linear_kernel i m0 h0 m1 h1 m2 h2) K := by
  simp only [cc4__linear_kernel_eq_skeleton, owns_eq_rep]; unfold cc4__linear_kernel_skel
  iintro ⟨H0, H1, H2, Hk⟩
  sl_exec
  sl_step
  iapply Hk
  iframe H0 H1
  rw [← owns_eq_rep]; unfold owns
  iexists _; isplitr; swap; · iexact H2
  ipureintro
  simp only [View.readAt_rep]
  exact View.read_writes_eq_canon _ _ _ (cover4_2 _)

theorem body_obligation4 (c : Dev nD) : BodyObligation (dat4 (F := F) V c) (defs₀ (F := F)) Variants.none () Set.univ := fun t => by
  rw [bigSep_W4, bigSep_W4]
  simp (disch := exact rfl) only [before4]
  dsimp only [dat4, Dat.owesAt, Dat.bound]
  iintro ⟨HΦ, Ho, ⟨%d0, H0⟩, ⟨%d1, H1⟩, ⟨%d2, H2⟩⟩
  iapply (sound_kernel4 c (grid4.coords t) (hstage4_0 _) (hstage4_1 _) (hstage4_2 _))
  iframe H0 H1 H2
  iintro H
  iframe

end Cert.Kernel.Hand
-- ==== Proof.Bits.Rec4.lean ====
import proofs.«428520_j76347338654282_1_alg».proof.Proof.Bits.Reg4Body
import proofs.«428520_j76347338654282_1_alg».proof.Proof.Bits.RecLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg4 : Pipeline.RegionSeg (pcfgs (F := F)) adm (pdats m) () defs₀ noVar noL noLv 4 where
  win := launch4.win.to₀
  block_pos := launch4.block_pos
  stage_whole := launch4.stage_whole
  K := PEmpty
  osem k := k.elim
  ho := Pipeline.OwnSemFacts.none _
  hbody c := (body_obligation4 (fun c b => U9 m c b) c).loose
  hwaits := Pipeline.hwaits_of_owed_zero _ _ _ _ noL noLv 4 fun _ _ => rfl
  pre c := iprop(StableHlo.held (c : Thread nD τ) (Pipeline.ucRefs τ sig) (U9 m c) ∗ Rst c)
  post c := iprop(StableHlo.held (c : Thread nD τ) (Pipeline.ucRefs τ sig) (U10 m c) ∗ Rst c)
  X c := iprop(∃ r, prngReg c r)
  Y c := iprop(∃ r, prngReg c r)
  Z c := Pipeline.unscopedRest (Ix := Unit) (Name := ℕ) (U := UR sig nD τ) (Lvl := ℕ) spec4 c (fun b => U9 m c b)
  hentry c := hentry_of m launch4 c (U9 m c) (fun _ => rfl) (fun _ => rfl) (fun _ => rfl) fun _ => trivial
  hin c := hin_of m c rfl
  hout c := hout_of m c rfl
  hexit c := hexit_of m launch4 c (U9 m c) (U10 m c) 2 (fun _ => rfl) (fun _ => rfl) (fun _ => rfl) (by decide) (U10_of_ne m c) (U10_out m c).symm

end Cert.Kernel.Hand

end
-- ==== Proof.Bits.Reg5Body.lean ====
import proofs.«428520_j76347338654282_1_alg».proof.Proof.Bits.Reg5Defs
import Idealize.ShloMosaic.Lib.Pipeline.TableIdle

noncomputable section

namespace Cert.Kernel.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before5 (c : Dev nD) (t : Fin cfg5.N) : ∀ w : Fin cfg5.W, (cfg5.win w).isOut = false → ∀ d,
    (dat5 V c).before w t d = (dat5 V c).after w t
  | ⟨0, _⟩, _ | ⟨1, _⟩, _ | ⟨2, _⟩, _ | ⟨3, _⟩, _ | ⟨4, _⟩, _ =>
    (dat5 V c).before_in_eq_fetched _ rfl (fun _ => rfl) (fun _ _ _ => rfl) (fun _ => rfl) t
  | ⟨5, _⟩, h => nomatch h

theorem sound_kernel5 (c : Dev nD) (i : grid5.Coords) {m0 m1 m5 : Memref sig .tc .vmem S5000x128 .f32}
    {m2 m3 m4 : Memref sig .tc .vmem S1x128 .f32} (h0 : m0.IsWhole) (h1 : m1.IsWhole) (h2 : m2.IsWhole) (h3 : m3.IsWhole)
    (h4 : m4.IsWhole) (h5 : m5.IsWhole) (x0 x1 d : Vec F S5000x128 .f32) (x2 x3 x4 : Vec F S1x128 .f32) (K : PUnit → sProp 𝕄) :
    iprop(owns c.tc m0 fullShare x0 ∗ owns c.tc m1 fullShare x1 ∗ owns c.tc m2 fullShare x2 ∗ owns c.tc m3 fullShare x3
        ∗ owns c.tc m4 fullShare x4 ∗ owns c.tc m5 fullShare d
        ∗ (iprop(owns c.tc m0 fullShare x0 ∗ owns c.tc m1 fullShare x1 ∗ owns c.tc m2 fullShare x2 ∗ owns c.tc m3 fullShare x3
            ∗ owns c.tc m4 fullShare x4 ∗ owns c.tc m5 fullShare (out5_5 x0 x1 x2 x3 x4)) -∗ K ⟨⟩))
      ⊢ wp frame (wpE (defs₀ (F := F)) Variants.none c none) Set.univ (cc5__ln_relu_kernel i m0 h0 m1 h1 m2 h2 m3 h3 m4 h4 m5 h5) K := by
  simp only [cc5__ln_relu_kernel_eq_skeleton, owns_eq_rep]; unfold cc5__ln_relu_kernel_skel
  iintro ⟨H0, H1, H2, H3, H4, H5, Hk⟩
  sl_exec
  sl_step
  iapply Hk
  iframe H0 H1 H2 H3 H4
  rw [← owns_eq_rep]; unfold owns
  iexists _; isplitr; swap; · iexact H5
  ipureintro
  simp only [View.readAt_rep]
  exact View.read_writes_eq_canon _ _ _ (cover5_5 _)

theorem body_obligation5 (c : Dev nD) : BodyObligation (dat5 (F := F) V c) (defs₀ (F := F)) Variants.none () Set.univ := fun t => by
  rw [bigSep_W5, bigSep_W5]
  simp (disch := exact rfl) only [before5]
  dsimp only [dat5, Dat.owesAt, Dat.bound]
  iintro ⟨HΦ, Ho, ⟨%d0, H0⟩, ⟨%d1, H1⟩, ⟨%d2, H2⟩, ⟨%d3, H3⟩, ⟨%d4, H4⟩, ⟨%d5, H5⟩⟩
  iapply (sound_kernel5 c (grid5.coords t) (hstage5_0 _) (hstage5_1 _) (hstage5_2 _) (hstage5_3 _) (hstage5_4 _) (hstage5_5 _))
  iframe H0 H1 H2 H3 H4 H5
  iintro H
  iframe

end Cert.Kernel.Hand
-- ==== Proof.Bits.Rec5.lean ====
import proofs.«428520_j76347338654282_1_alg».proof.Proof.Bits.Reg5Body
import proofs.«428520_j76347338654282_1_alg».proof.Proof.Bits.RecLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg5 : Pipeline.RegionSeg (pcfgs (F := F)) adm (pdats m) () defs₀ noVar noL noLv 5 where
  win := launch5.win.to₀
  block_pos := launch5.block_pos
  stage_whole := launch5.stage_whole
  K := PEmpty
  osem k := k.elim
  ho := Pipeline.OwnSemFacts.none _
  hbody c := (body_obligation5 (fun c b => U11 m c b) c).loose
  hwaits := Pipeline.hwaits_of_owed_zero _ _ _ _ noL noLv 5 fun _ _ => rfl
  pre c := iprop(StableHlo.held (c : Thread nD τ) (Pipeline.ucRefs τ sig) (U11 m c) ∗ Rst c)
  post c := iprop(StableHlo.held (c : Thread nD τ) (Pipeline.ucRefs τ sig) (U12 m c) ∗ Rst c)
  X c := iprop(∃ r, prngReg c r)
  Y c := iprop(∃ r, prngReg c r)
  Z c := Pipeline.unscopedRest (Ix := Unit) (Name := ℕ) (U := UR sig nD τ) (Lvl := ℕ) spec5 c (fun b => U11 m c b)
  hentry c := hentry_of m launch5 c (U11 m c) (fun _ => rfl) (fun _ => rfl) (fun _ => rfl) fun _ => trivial
  hin c := hin_of m c rfl
  hout c := hout_of m c rfl
  hexit c := hexit_of m launch5 c (U11 m c) (U12 m c) 5 (fun _ => rfl) (fun _ => rfl) (fun _ => rfl) (by decide) (U12_of_ne m c) (U12_out m c).symm

end Cert.Kernel.Hand

end
-- ==== Proof.Bits.Reg6Body.lean ====
import proofs.«428520_j76347338654282_1_alg».proof.Proof.Bits.Reg6Defs
import Idealize.ShloMosaic.Lib.Pipeline.TableIdle

noncomputable section

namespace Cert.Kernel.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before6 (c : Dev nD) (t : Fin cfg6.N) : ∀ w : Fin cfg6.W, (cfg6.win w).isOut = false → ∀ d,
    (dat6 V c).before w t d = (dat6 V c).after w t
  | ⟨0, _⟩, _ | ⟨1, _⟩, _ =>
    (dat6 V c).before_in_eq_fetched _ rfl (fun _ => rfl) (fun _ _ _ => rfl) (fun _ => rfl) t
  | ⟨2, _⟩, h => nomatch h

theorem sound_kernel6 (c : Dev nD) (i : grid6.Coords) {m0 m2 : Memref sig .tc .vmem S5000x128 .f32}
    {m1 : Memref sig .tc .vmem S128x128 .f32} (h0 : m0.IsWhole) (h1 : m1.IsWhole) (h2 : m2.IsWhole)
    (x0 d : Vec F S5000x128 .f32) (x1 : Vec F S128x128 .f32) (K : PUnit → sProp 𝕄) :
    iprop(owns c.tc m0 fullShare x0 ∗ owns c.tc m1 fullShare x1 ∗ owns c.tc m2 fullShare d
        ∗ (iprop(owns c.tc m0 fullShare x0 ∗ owns c.tc m1 fullShare x1 ∗ owns c.tc m2 fullShare (out6_2 x0 x1)) -∗ K ⟨⟩))
      ⊢ wp frame (wpE (defs₀ (F := F)) Variants.none c none) Set.univ (cc6__linear_kernel i m0 h0 m1 h1 m2 h2) K := by
  simp only [cc6__linear_kernel_eq_skeleton, owns_eq_rep]; unfold cc6__linear_kernel_skel
  iintro ⟨H0, H1, H2, Hk⟩
  sl_exec
  sl_step
  iapply Hk
  iframe H0 H1
  rw [← owns_eq_rep]; unfold owns
  iexists _; isplitr; swap; · iexact H2
  ipureintro
  simp only [View.readAt_rep]
  exact View.read_writes_eq_canon _ _ _ (cover6_2 _)

theorem body_obligation6 (c : Dev nD) : BodyObligation (dat6 (F := F) V c) (defs₀ (F := F)) Variants.none () Set.univ := fun t => by
  rw [bigSep_W6, bigSep_W6]
  simp (disch := exact rfl) only [before6]
  dsimp only [dat6, Dat.owesAt, Dat.bound]
  iintro ⟨HΦ, Ho, ⟨%d0, H0⟩, ⟨%d1, H1⟩, ⟨%d2, H2⟩⟩
  iapply (sound_kernel6 c (grid6.coords t) (hstage6_0 _) (hstage6_1 _) (hstage6_2 _))
  iframe H0 H1 H2
  iintro H
  iframe

end Cert.Kernel.Hand
-- ==== Proof.Bits.Rec6.lean ====
import proofs.«428520_j76347338654282_1_alg».proof.Proof.Bits.Reg6Body
import proofs.«428520_j76347338654282_1_alg».proof.Proof.Bits.RecLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg6 : Pipeline.RegionSeg (pcfgs (F := F)) adm (pdats m) () defs₀ noVar noL noLv 6 where
  win := launch6.win.to₀
  block_pos := launch6.block_pos
  stage_whole := launch6.stage_whole
  K := PEmpty
  osem k := k.elim
  ho := Pipeline.OwnSemFacts.none _
  hbody c := (body_obligation6 (fun c b => U13 m c b) c).loose
  hwaits := Pipeline.hwaits_of_owed_zero _ _ _ _ noL noLv 6 fun _ _ => rfl
  pre c := iprop(StableHlo.held (c : Thread nD τ) (Pipeline.ucRefs τ sig) (U13 m c) ∗ Rst c)
  post c := iprop(StableHlo.held (c : Thread nD τ) (Pipeline.ucRefs τ sig) (U14 m c) ∗ Rst c)
  X c := iprop(∃ r, prngReg c r)
  Y c := iprop(∃ r, prngReg c r)
  Z c := Pipeline.unscopedRest (Ix := Unit) (Name := ℕ) (U := UR sig nD τ) (Lvl := ℕ) spec6 c (fun b => U13 m c b)
  hentry c := hentry_of m launch6 c (U13 m c) (fun _ => rfl) (fun _ => rfl) (fun _ => rfl) fun _ => trivial
  hin c := hin_of m c rfl
  hout c := hout_of m c rfl
  hexit c := hexit_of m launch6 c (U13 m c) (U14 m c) 2 (fun _ => rfl) (fun _ => rfl) (fun _ => rfl) (by decide) (U14_of_ne m c) (U14_out m c).symm

end Cert.Kernel.Hand

end
-- ==== Proof.Bits.Reg7Body.lean ====
import proofs.«428520_j76347338654282_1_alg».proof.Proof.Bits.Reg7Defs
import Idealize.ShloMosaic.Lib.Pipeline.TableIdle

noncomputable section

namespace Cert.Kernel.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before7 (c : Dev nD) (t : Fin cfg7.N) : ∀ w : Fin cfg7.W, (cfg7.win w).isOut = false → ∀ d,
    (dat7 V c).before w t d = (dat7 V c).after w t
  | ⟨0, _⟩, _ | ⟨1, _⟩, _ | ⟨2, _⟩, _ | ⟨3, _⟩, _ | ⟨4, _⟩, _ =>
    (dat7 V c).before_in_eq_fetched _ rfl (fun _ => rfl) (fun _ _ _ => rfl) (fun _ => rfl) t
  | ⟨5, _⟩, h => nomatch h

theorem sound_kernel7 (c : Dev nD) (i : grid7.Coords) {m0 m1 m5 : Memref sig .tc .vmem S5000x128 .f32}
    {m2 m3 m4 : Memref sig .tc .vmem S1x128 .f32} (h0 : m0.IsWhole) (h1 : m1.IsWhole) (h2 : m2.IsWhole) (h3 : m3.IsWhole)
    (h4 : m4.IsWhole) (h5 : m5.IsWhole) (x0 x1 d : Vec F S5000x128 .f32) (x2 x3 x4 : Vec F S1x128 .f32) (K : PUnit → sProp 𝕄) :
    iprop(owns c.tc m0 fullShare x0 ∗ owns c.tc m1 fullShare x1 ∗ owns c.tc m2 fullShare x2 ∗ owns c.tc m3 fullShare x3
        ∗ owns c.tc m4 fullShare x4 ∗ owns c.tc m5 fullShare d
        ∗ (iprop(owns c.tc m0 fullShare x0 ∗ owns c.tc m1 fullShare x1 ∗ owns c.tc m2 fullShare x2 ∗ owns c.tc m3 fullShare x3
            ∗ owns c.tc m4 fullShare x4 ∗ owns c.tc m5 fullShare (out7_5 x0 x1 x2 x3 x4)) -∗ K ⟨⟩))
      ⊢ wp frame (wpE (defs₀ (F := F)) Variants.none c none) Set.univ (cc7__ln_relu_kernel i m0 h0 m1 h1 m2 h2 m3 h3 m4 h4 m5 h5) K := by
  simp only [cc7__ln_relu_kernel_eq_skeleton, owns_eq_rep]; unfold cc7__ln_relu_kernel_skel
  iintro ⟨H0, H1, H2, H3, H4, H5, Hk⟩
  sl_exec
  sl_step
  iapply Hk
  iframe H0 H1 H2 H3 H4
  rw [← owns_eq_rep]; unfold owns
  iexists _; isplitr; swap; · iexact H5
  ipureintro
  simp only [View.readAt_rep]
  exact View.read_writes_eq_canon _ _ _ (cover7_5 _)

theorem body_obligation7 (c : Dev nD) : BodyObligation (dat7 (F := F) V c) (defs₀ (F := F)) Variants.none () Set.univ := fun t => by
  rw [bigSep_W7, bigSep_W7]
  simp (disch := exact rfl) only [before7]
  dsimp only [dat7, Dat.owesAt, Dat.bound]
  iintro ⟨HΦ, Ho, ⟨%d0, H0⟩, ⟨%d1, H1⟩, ⟨%d2, H2⟩, ⟨%d3, H3⟩, ⟨%d4, H4⟩, ⟨%d5, H5⟩⟩
  iapply (sound_kernel7 c (grid7.coords t) (hstage7_0 _) (hstage7_1 _) (hstage7_2 _) (hstage7_3 _) (hstage7_4 _) (hstage7_5 _))
  iframe H0 H1 H2 H3 H4 H5
  iintro H
  iframe

end Cert.Kernel.Hand
-- ==== Proof.Bits.Rec7.lean ====
import proofs.«428520_j76347338654282_1_alg».proof.Proof.Bits.Reg7Body
import proofs.«428520_j76347338654282_1_alg».proof.Proof.Bits.RecLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg7 : Pipeline.RegionSeg (pcfgs (F := F)) adm (pdats m) () defs₀ noVar noL noLv 7 where
  win := launch7.win.to₀
  block_pos := launch7.block_pos
  stage_whole := launch7.stage_whole
  K := PEmpty
  osem k := k.elim
  ho := Pipeline.OwnSemFacts.none _
  hbody c := (body_obligation7 (fun c b => U15 m c b) c).loose
  hwaits := Pipeline.hwaits_of_owed_zero _ _ _ _ noL noLv 7 fun _ _ => rfl
  pre c := iprop(StableHlo.held (c : Thread nD τ) (Pipeline.ucRefs τ sig) (U15 m c) ∗ Rst c)
  post c := iprop(StableHlo.held (c : Thread nD τ) (Pipeline.ucRefs τ sig) (U16 m c) ∗ Rst c)
  X c := iprop(∃ r, prngReg c r)
  Y c := iprop(∃ r, prngReg c r)
  Z c := Pipeline.unscopedRest (Ix := Unit) (Name := ℕ) (U := UR sig nD τ) (Lvl := ℕ) spec7 c (fun b => U15 m c b)
  hentry c := hentry_of m launch7 c (U15 m c) (fun _ => rfl) (fun _ => rfl) (fun _ => rfl) fun _ => trivial
  hin c := hin_of m c rfl
  hout c := hout_of m c rfl
  hexit c := hexit_of m launch7 c (U15 m c) (U16 m c) 5 (fun _ => rfl) (fun _ => rfl) (fun _ => rfl) (by decide) (U16_of_ne m c) (U16_out m c).symm

end Cert.Kernel.Hand

end
-- ==== Proof.Bits.Reg8Body.lean ====
import proofs.«428520_j76347338654282_1_alg».proof.Proof.Bits.Reg8Defs
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond8_0 (i : grid8.Coords) : Prop :=
  (Scalar.cmpi .ne (Scalar.extui (Scalar.cmpi .eq (BitVec.ofNat 32 (i 0).val) 0#32)) 0#32) = 1#1

abbrev cond8_1 (i : grid8.Coords) : Prop := k8_cond2 i = 1#1

theorem hcond8_0 : ∀ t : Fin cfg8.N, cond8_0 (grid8.coords t) ↔ t.val = 0 :=
  (by decide +kernel : ∀ t : Fin grid8.N, cond8_0 (grid8.coords t) ↔ t.val = 0)

theorem hcond8_1 : ∀ t : Fin cfg8.N, cond8_1 (grid8.coords t) ↔ t.val = 9 :=
  (by decide +kernel : ∀ t : Fin grid8.N, cond8_1 (grid8.coords t) ↔ t.val = 9)

theorem zero_off8 : (![0, 0] : Fin 2 → ℕ) = fun _ => 0 := by
  funext a; fin_cases a <;> rfl

theorem cover8 (p : Vec F S128x128 .f32) (L : List (View.Piece (Elt F) S128x128 .f32)) (y : S128x128.Idx) :
    ∃ pc ∈ ((⟨Rect.unit (s := S128x128) ![0, 0] S128x128.size inb_S128x128_S128x128_0_0, p⟩ : View.Piece (Elt F) S128x128 .f32) :: L),
      y ∈ pc.1.set :=
  ⟨⟨Rect.unit (s := S128x128) ![0, 0] S128x128.size inb_S128x128_S128x128_0_0, p⟩, List.mem_cons_self,
    View.mem_set_unit_zero zero_off8 inb_S128x128_S128x128_0_0 y⟩

set_option maxHeartbeats 1000000 in

theorem run8 {c : Dev nD} {E : Set ℕ} (i : grid8.Coords)
    {arg1 : Memref sig .tc .vmem S5000x128 .f32} {harg1 : arg1.IsWhole}
    {arg2 : Memref sig .tc .vmem S5000x1 .i32} {harg2 : arg2.IsWhole}
    {arg3 : Memref sig .tc .vmem S128x128 .f32} {harg3 : arg3.IsWhole}
    {arg4 : Memref sig .tc .vmem S128x128 .f32} {harg4 : arg4.IsWhole}
    (x0 : Vec F S5000x128 .f32) (x1 : Vec F S5000x1 .i32) {xo xs s o' : Vec F S128x128 .f32}
    (hs₁ : cond8_0 i → s = k8_pay1 (F := F)) (hs₀ : ¬cond8_0 i → s = xs)
    (ho₁ : cond8_1 i → o' = k8_pay2 x1 x0 s) (ho₀ : ¬cond8_1 i → o' = xo)
    {K : PUnit → sProp 𝕄} :
    iprop(owns (c : Thread nD τ) arg1 fullShare x0 ∗ owns (c : Thread nD τ) arg2 fullShare x1
        ∗ owns (c : Thread nD τ) arg3 fullShare xo ∗ owns (c : Thread nD τ) arg4 fullShare xs
        ∗ (iprop(owns (c : Thread nD τ) arg1 fullShare x0 ∗ owns (c : Thread nD τ) arg2 fullShare x1
              ∗ owns (c : Thread nD τ) arg3 fullShare o'
              ∗ owns (c : Thread nD τ) arg4 fullShare (k8_pay2 x1 x0 s)) -∗ K ⟨⟩))
      ⊢ wp frame (wpE (defs₀ (F := F)) Variants.none c none) E
          (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  by_cases hc0 : cond8_0 i <;> by_cases hc1 : cond8_1 i <;>
  · first | (have eo := ho₁ hc1; subst eo) | (have eo := ho₀ hc1; subst eo)
    first | (have es := hs₁ hc0; subst es) | (have es := hs₀ hc0; subst es)
    sl_exec (disch := first | exact hc0 | exact hc1)
    sl_step
    iapply Hk
    isplitl [H0]; swap; isplitl [H1]; swap; isplitl [H2]
    all_goals
      iexists _; isplitr
      swap; · first | iexact H0 | iexact H1 | iexact H2 | iexact H3
      ipureintro
      first
        | (try sl_unfold_words
           rw [View.read_writes_eq_canon _ _ _ (cover8 _ _)]
           first | rw [View.canon_cons_unit_zero zero_off8] | rw [View.canon_unit_zero zero_off8]
           simp only [View.readAt_eq_ld, View.ld_unit_zero (S := S5000x1) zero_off8, View.ld_unit_zero (S := S5000x128) zero_off8,
             View.ld_unit_zero (S := S128x128) zero_off8, View.readCov_unit_zero (S := S128x128) _ zero_off8]
             <;> exact View.readCov_cons_toLoadRect _ _ _ _)
        | rfl

theorem before8_0 (c : Dev nD) (t : Fin cfg8.N) (d) : (dat8 V c).before 0 t d = iblk8 V c 0 t :=
  ((dat8 V c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)

theorem before8_1 (c : Dev nD) (t : Fin cfg8.N) (d) : (dat8 V c).before 1 t d = iblk8 V c 1 t :=
  ((dat8 V c).before_in_eq_fetched 1 rfl (fun _ => rfl) (fun _ _ _ => rfl)
      (fun t => by rw [after8_1]; unfold Dat.blockOf iblk8; rw [A_eq8]; try rfl) t d).trans
    (by unfold Dat.fetched Dat.blockOf iblk8; rw [A_eq8]; try rfl)

theorem liveAt8_0 : ∀ t : Fin cfg8.N, cfg8.idle 0 (grid8.coords t) = false := fun _ => rfl
theorem liveAt8_1 : ∀ t : Fin cfg8.N, cfg8.idle 1 (grid8.coords t) = false := fun _ => rfl

theorem idleAt8_2 : ∀ t : Fin cfg8.N, ¬cond8_1 (grid8.coords t) → cfg8.idle 2 (grid8.coords t) = true := by decide +kernel

theorem noFlush8_2 : ∀ t : Fin cfg8.N, ¬cond8_1 (grid8.coords t) → (cfg8.win 2).flush t = false := by decide +kernel

theorem liveAt8_2 : ∀ t : Fin cfg8.N, cond8_1 (grid8.coords t) → cfg8.idle 2 (grid8.coords t) = false := by decide +kernel

theorem PhiA8_eq (c : Dev nD) :
    (Pipeline.ΦA spec8 c : sProp 𝕄)
      = iprop(((∃ d, owns (c : Thread nD τ) scM8 fullShare d)
          ∗ Pipeline.scopedRestBut (Ix := Unit) (Name := ℕ) (U := UR sig nD τ) (Lvl := ℕ) (Val := Elt F) spec8 c [cc8_scratch0])
          ∗ (∃ r, prngReg c r)) := by
  unfold Pipeline.ΦA; rw [scopedRest8_split]; simp only [scM8, owns_whole]; try rfl

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [Phi8_at_succ, Phi8_succ, Phi8_castSucc]
  rw [show (dat8 V c).leavesExact 0 t = owns (c : Thread nD τ) (st8_0 t) fullShare ((dat8 V c).after 0 t) from by
      unfold Dat.leavesExact; rw [liveAt8_0 t], after8_0]
  rw [show (dat8 V c).leavesExact 1 t = owns (c : Thread nD τ) (st8_1 t) fullShare ((dat8 V c).after 1 t) from by
      unfold Dat.leavesExact; rw [liveAt8_1 t], after8_1]
  have c0 := hcond8_0 t
  have c1 := hcond8_1 t
  by_cases h1 : t.val = 9
  · have h0 : ¬t.val = 0 := by omega
    rw [show (dat8 V c).leavesExact 2 t = owns (c : Thread nD τ) (st8_2 t) fullShare ((dat8 V c).after 2 t) from by
        unfold Dat.leavesExact; rw [liveAt8_2 t (c1.mpr h1)], after8_2]
    rw [acc8_pos V c t h0, Phi8_pos V c _ _ h0]
    iintro ⟨⟨HS, Hrest, Hg⟩, Ho, ⟨%d0, H0⟩, ⟨%d1, H1⟩, ⟨%d2, H2⟩⟩
    iapply (run8 (grid8.coords t) (iblk8 V c 0 t) (iblk8 V c 1 t)
      (fun h => absurd (c0.mp h) h0) (fun _ => rfl) (fun _ => rfl) (fun h => absurd (c1.mpr h1) h))
    iframe H0 H1 H2 HS
    iintro ⟨H0, H1, H2, HS⟩
    iframe
  rw [Dat.leavesExact_idle (dat8 V c) 2 t (idleAt8_2 t (mt c1.mp h1)) (noFlush8_2 t (mt c1.mp h1))]
  by_cases h0 : t.val = 0
  · rw [acc8_zero V c t h0, Phi8_zero V c _ _ h0, PhiA8_eq]
    iintro ⟨⟨⟨⟨%ds, HS⟩, Hrest⟩, Hg⟩, Ho, ⟨%d0, H0⟩, ⟨%d1, H1⟩, ⟨%d2, H2⟩⟩
    iapply (run8 (grid8.coords t) (iblk8 V c 0 t) (iblk8 V c 1 t)
      (fun _ => rfl) (fun h => absurd (c0.mpr h0) h) (fun h => absurd (c1.mp h) h1) (fun _ => rfl))
    iframe H0 H1 H2 HS
    iintro ⟨H0, H1, H2, HS⟩
    iframe
    iexists _; iexact H2
  · rw [acc8_pos V c t h0, Phi8_pos V c _ _ h0]
    iintro ⟨⟨HS, Hrest, Hg⟩, Ho, ⟨%d0, H0⟩, ⟨%d1, H1⟩, ⟨%d2, H2⟩⟩
    iapply (run8 (grid8.coords t) (iblk8 V c 0 t) (iblk8 V c 1 t)
      (fun h => absurd (c0.mp h) h0) (fun _ => rfl) (fun h => absurd (c1.mp h) h1) (fun _ => rfl))
    iframe H0 H1 H2 HS
    iintro ⟨H0, H1, H2, HS⟩
    iframe
    iexists _; iexact H2

theorem body_obligation8 (c : Dev nD) : BodyObligation (dat8 (F := F) V c) (defs₀ (F := F)) Variants.none () Set.univ := fun t => by
  rw [bigSep_W8, bigSep_W8]
  exact sound_body8 V c t

theorem hout8 (c : Dev nD) :
    (dat8 V c).Φ (Fin.last cfg8.N)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec8 c) := by
  rw [Pipeline.ownSems0_none,
    show (dat8 V c).Φ (Fin.last cfg8.N) = Phi8 V c (Fin.last cfg8.N).val (Nat.le_of_lt_succ (Fin.last cfg8.N).isLt) from rfl,
    Phi8_pos V c _ _ (by rw [Fin.val_last]; have : cfg8.N = 10 := N_8; omega), scopedRest8_split]
  simp only [scM8, owns_whole]
  iintro ⟨HS, Hrest, Hg⟩
  iframe Hg Hrest
  isplitr; · iempintro
  iexists _; iexact HS

end Cert.Kernel.Hand
-- ==== Proof.Bits.Rec8.lean ====
import proofs.«428520_j76347338654282_1_alg».proof.Proof.Bits.Reg8Body
import proofs.«428520_j76347338654282_1_alg».proof.Proof.Bits.RecLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option backward.isDefEq.respectTransparency.types false in

def reg8 : Pipeline.RegionSeg (pcfgs (F := F)) adm (pdats m) () defs₀ noVar noL noLv 8 where
  win := launch8.win.to₀
  block_pos := launch8.block_pos
  stage_whole := launch8.stage_whole
  K := PEmpty
  osem k := k.elim
  ho := Pipeline.OwnSemFacts.none _
  hbody c := (body_obligation8 (fun c b => U17 m c b) c).loose
  hwaits := Pipeline.hwaits_of_owed_zero _ _ _ _ noL noLv 8 fun _ _ => rfl
  pre c := iprop(StableHlo.held (c : Thread nD τ) (Pipeline.ucRefs τ sig) (U17 m c) ∗ Rst c)
  post c := iprop(StableHlo.held (c : Thread nD τ) (Pipeline.ucRefs τ sig) (U18 m c) ∗ Rst c)
  X c := iprop(∃ r, prngReg c r)
  Y c := iprop(∃ r, prngReg c r)
  Z c := Pipeline.unscopedRest (Ix := Unit) (Name := ℕ) (U := UR sig nD τ) (Lvl := ℕ) spec8 c (fun b => U17 m c b)
  hentry c := hentry_of m launch8 c (U17 m c) (fun _ => rfl) (fun _ => rfl) (fun _ => rfl) fun _ => trivial
  hin c := hin_of m c rfl
  hout c := hout8 (fun c b => U17 m c b) c
  hexit c := hexit_of m launch8 c (U17 m c) (U18 m c) 2 (fun _ => rfl) (fun _ => rfl) (fun _ => rfl) (by decide) (U18_of_ne m c) (U18_out m c).symm

end Cert.Kernel.Hand

end
-- ==== Proof.Bits.Run.lean ====
import proofs.«428520_j76347338654282_1_alg».proof.Proof.Bits.Chain
import proofs.«428520_j76347338654282_1_alg».proof.Proof.Bits.Rec0
import proofs.«428520_j76347338654282_1_alg».proof.Proof.Bits.Rec1
import proofs.«428520_j76347338654282_1_alg».proof.Proof.Bits.Rec2
import proofs.«428520_j76347338654282_1_alg».proof.Proof.Bits.Rec3
import proofs.«428520_j76347338654282_1_alg».proof.Proof.Bits.Rec4
import proofs.«428520_j76347338654282_1_alg».proof.Proof.Bits.Rec5
import proofs.«428520_j76347338654282_1_alg».proof.Proof.Bits.Rec6
import proofs.«428520_j76347338654282_1_alg».proof.Proof.Bits.Rec7
import proofs.«428520_j76347338654282_1_alg».proof.Proof.Bits.Rec8

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Erest : Fin 10 → Dev nD → sProp 𝕄 := fun _ c => Rst c

theorem held_eq (c : Dev nD) {A B : Valuation τ sig (Elt F)} (h : A = B) :
    iprop(StableHlo.held (c : Thread nD τ) (Pipeline.ucRefs τ sig) A ∗ Rst (F := F) c)
      ⊢ iprop(StableHlo.held (c : Thread nD τ) (Pipeline.ucRefs τ sig) B ∗ Rst c) := h ▸ .rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = U21 m c b) := by
  refine Pipeline.θ_run_regions_kit_dev (pcfgs (F := F)) adm (pdats m) () cellOf_inj emb₁ defs₀ noVar noL noLv m ρ main
    (segs m (outs m) noVar noL noLv (Erest (F := F)) () (pdats m) (reg0 m) (reg1 m) (reg2 m) (reg3 m) (reg4 m) (reg5 m) (reg6 m) (reg7 m) (reg8 m))
    (fun c Q => by
      rewrite [main_chain c, Seg.run_eq_chain,
        show (segs m (outs m) noVar noL noLv (Erest (F := F)) () (pdats m) (reg0 m) (reg1 m) (reg2 m) (reg3 m) (reg4 m) (reg5 m) (reg6 m) (reg7 m) (reg8 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Erest (F := F) 0 c))
    (Tₙ := fun c => StableHlo.held (c : Thread nD τ) (Pipeline.ucRefs τ sig) (V21 m (outs m) c))
    (hch := fun c => ⟨.rfl, held_eq c (V1_eq m c), held_eq c (V2_eq m c).symm, held_eq c (V3_eq m c), held_eq c (V4_eq m c).symm, held_eq c (V5_eq m c), held_eq c (V6_eq m c).symm, held_eq c (V7_eq m c), held_eq c (V8_eq m c).symm, held_eq c (V9_eq m c), held_eq c (V10_eq m c).symm, held_eq c (V11_eq m c), held_eq c (V12_eq m c).symm, held_eq c (V13_eq m c), held_eq c (V14_eq m c).symm, held_eq c (V15_eq m c), held_eq c (V16_eq m c).symm, held_eq c (V17_eq m c), held_eq c (V18_eq m c).symm, .rfl, .rfl,
      sep_mono .rfl (by iintro ⟨-, H⟩; iexact H)⟩)
    (hinit := ?_)
    (QY := fun c s => ∀ b ∈ Pipeline.ucRefs τ sig, s.mem (((c : Thread nD τ)).1, b) = U21 m c b)
    (hfin := fun c s' => ?_) (hQ := fun _ h => h)
  · refine Pipeline.initEach noL noLv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · rw [V21_eq]
    iintro ⟨Hh, HSI⟩
    unfold StableHlo.held
    imodintro
    iapply (pointsTo_read_all (Pipeline.ucRefs τ sig) (fun b => (((c : Thread nD τ)).1, b)) (U21 m c) s')
    isplitl [Hh] <;> iassumption

theorem arg_end (c : Dev nD) (b : Ref sig .tc) (h : V21 m (outs m) c b = m ((c : Thread nD τ).loc b)) :
    U21 m c b = m ((c : Thread nD τ).loc b) :=
  (congrFun (V21_eq m c) _).symm.trans h

theorem run_value : θ_run defs (onTc (τ := τ) (main (F := F))) ⟨m, fun _ => 0, ρ⟩ (fun r => ∀ c : Dev nD,
      r.2.mem ((c.tc : Thread nD τ).loc main_v181) = U21 m c main_v181
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v181 (by decide)),
     (h c _ (mem_uc main_arg0 (by decide))).trans (arg_end m c _ (V21_main_arg0 m (outs m) c)),
     (h c _ (mem_uc main_arg1 (by decide))).trans (arg_end m c _ (V21_main_arg1 m (outs m) c)),
     (h c _ (mem_uc main_arg2 (by decide))).trans (arg_end m c _ (V21_main_arg2 m (outs m) c)),
     (h c _ (mem_uc main_arg3 (by decide))).trans (arg_end m c _ (V21_main_arg3 m (outs m) c)),
     (h c _ (mem_uc main_arg4 (by decide))).trans (arg_end m c _ (V21_main_arg4 m (outs m) c)),
     (h c _ (mem_uc main_arg5 (by decide))).trans (arg_end m c _ (V21_main_arg5 m (outs m) c)),
     (h c _ (mem_uc main_arg6 (by decide))).trans (arg_end m c _ (V21_main_arg6 m (outs m) c))⟩) (run_all m ρ)

end Cert.Kernel.Hand

end
-- ==== Proof.LibSsa.lean ====
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable {ops : List (HloOp τ sig Val)} {W : List (Ref sig .tc)} (hW : WritesOnly ops W) (V : Valuation τ sig Val)
include hW

theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

theorem after_arg (x : Ref sig .tc) (hx : x ∉ W := by decide) : after ops V (Proc.devRef .tc x) = V (Proc.devRef .tc x) :=
  after_of_not_written ops W V x hW hx

theorem ssa_nullary (k : Nat) {y : Ref sig .tc} {v : y.ty.Contents Val} {hy}
    (hop : ops.drop k = nullary y v hy :: ops.drop (k + 1)) (hy' : y ∉ W.drop (k + 1) := by decide) :
    after ops V (Proc.devRef .tc y) = v := by
  rw [after_at hW V k _ y hop hy']; exact nullary_result y v hy _

theorem ssa_unary (k : Nat) {x y : Ref sig .tc} {f : x.ty.Contents Val → y.ty.Contents Val} {hx hy}
    (hop : ops.drop k = unary x y f hx hy :: ops.drop (k + 1)) (hy' : y ∉ W.drop (k + 1) := by decide)
    (hx' : x ∉ W.drop k := by decide) :
    after ops V (Proc.devRef .tc y) = f (after ops V (Proc.devRef .tc x)) := by
  rw [after_at hW V k _ y hop hy', ← after_take hW V k x hx']; exact unary_result x y f hx hy _

theorem ssa_binary (k : Nat) {a b y : Ref sig .tc} {f : a.ty.Contents Val → b.ty.Contents Val → y.ty.Contents Val} {ha hb hy}
    (hop : ops.drop k = binary a b y f ha hb hy :: ops.drop (k + 1)) (hy' : y ∉ W.drop (k + 1) := by decide)
    (ha' : a ∉ W.drop k := by decide) (hb' : b ∉ W.drop k := by decide) :
    after ops V (Proc.devRef .tc y) = f (after ops V (Proc.devRef .tc a)) (after ops V (Proc.devRef .tc b)) := by
  rw [after_at hW V k _ y hop hy', ← after_take hW V k a ha', ← after_take hW V k b hb']
  exact binary_result a b y f ha hb hy _

theorem ssa_ternary (k : Nat) {c a b y : Ref sig .tc}
    {f : c.ty.Contents Val → a.ty.Contents Val → b.ty.Contents Val → y.ty.Contents Val} {hc ha hb hy}
    (hop : ops.drop k = ternary c a b y f hc ha hb hy :: ops.drop (k + 1)) (hy' : y ∉ W.drop (k + 1) := by decide)
    (hc' : c ∉ W.drop k := by decide) (ha' : a ∉ W.drop k := by decide) (hb' : b ∉ W.drop k := by decide) :
    after ops V (Proc.devRef .tc y)
      = f (after ops V (Proc.devRef .tc c)) (after ops V (Proc.devRef .tc a)) (after ops V (Proc.devRef .tc b)) := by
  rw [after_at hW V k _ y hop hy', ← after_take hW V k c hc', ← after_take hW V k a ha', ← after_take hW V k b hb']
  exact ternary_result c a b y f hc ha hb hy _

theorem ssa_reshape (k : Nat) {x y : Ref sig .tc} {he : x.ty.elt = y.ty.elt} {hn : x.ty.shape.ShapeCasts y.ty.shape} {hx hy}
    (hop : ops.drop k = reshape (Val := Val) x y he hn hx hy :: ops.drop (k + 1)) (hy' : y ∉ W.drop (k + 1) := by decide)
    (hx' : x ∉ W.drop k := by decide) :
    after ops V (Proc.devRef .tc y) = fun i => he ▸ shapeCast y.ty.shape (after ops V (Proc.devRef .tc x)) hn i := by
  rw [after_at hW V k _ y hop hy', ← after_take hW V k x hx']; exact reshape_result x y he hn hx hy _

end Idealize.ShloMosaic.StableHlo.Ssa

end
-- ==== Proof.RefOps.lean ====
import proofs.«428520_j76347338654282_1_alg».proof.Proof.Gen.ReferenceIdeal
import proofs.«428520_j76347338654282_1_alg».proof.Proof.LibSsa
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.unary main_arg1 main_v0 ((extractStridedSlice S1x600000 ![0, 0] · slices_S2x600000_S1x600000_0_0) : Vec F S2x600000 .i32 → Vec F S1x600000 .i32),
    StableHlo.reshape main_v0 main_v1 rfl shapeCasts_S1x600000_S600000,
    StableHlo.unary main_arg1 main_v2 ((extractStridedSlice S1x600000 ![1, 0] · slices_S2x600000_S1x600000_1_0) : Vec F S2x600000 .i32 → Vec F S1x600000 .i32),
    StableHlo.reshape main_v2 main_v3 rfl shapeCasts_S1x600000_S600000,
    StableHlo.unary main_arg3 main_v4 ((extractStridedSlice S1x128x128 ![0, 0, 0] · slices_S4x128x128_S1x128x128_0_0_0) : Vec F S4x128x128 .f32 → Vec F S1x128x128 .f32),
    StableHlo.reshape main_v4 main_v5 rfl shapeCasts_S1x128x128_S128x128,
    StableHlo.unary main_arg4 main_v6 ((extractStridedSlice S1x128 ![0, 0] · slices_S4x128_S1x128_0_0) : Vec F S4x128 .f32 → Vec F S1x128 .f32),
    StableHlo.reshape main_v6 main_v7 rfl shapeCasts_S1x128_S128,
    StableHlo.binary main_arg0 main_v5 main_v8 ((fun l r => Host.dotGeneral dot_S50000x128_S128x128_S50000x128_1_0_0_1_n_n none l r) : Vec F S50000x128 .f32 → Vec F S128x128 .f32 → Vec F S50000x128 .f32),
    StableHlo.nullary main_cst (constant S_ .f32 0x00000000#32),
    StableHlo.unary main_cst main_v9 (broadcastInDim S50000 ![] bcast_S_S50000 : Vec F S_ .f32 → Vec F S50000 .f32),
    StableHlo.nullary main_c (constantI S_ 32 0#32),
    StableHlo.unary main_c main_v10 (broadcastInDim S600000 ![] bcast_S_S600000 : Vec F S_ .i32 → Vec F S600000 .i32),
    StableHlo.binary main_v3 main_v10 main_v11 (cmpi .slt : Vec F S600000 .i32 → Vec F S600000 .i32 → Vec F S600000 .i1),
    StableHlo.nullary main_c_0 (constantI S_ 32 50000#32),
    StableHlo.unary main_c_0 main_v12 (broadcastInDim S600000 ![] bcast_S_S600000 : Vec F S_ .i32 → Vec F S600000 .i32),
    StableHlo.binary main_v3 main_v12 main_v13 (addi : Vec F S600000 .i32 → Vec F S600000 .i32 → Vec F S600000 .i32),
    StableHlo.ternary main_v11 main_v13 main_v3 main_v14 (select : Vec F S600000 .i1 → Vec F S600000 .i32 → Vec F S600000 .i32 → Vec F S600000 .i32),
    StableHlo.unary main_v14 main_v15 (broadcastInDim S600000x1 ![0] bcast_S600000_S600000x1_0 : Vec F S600000 .i32 → Vec F S600000x1 .i32),
    StableHlo.nullary main_cst_1 (constant S_ .f32 0x3F800000#32),
    StableHlo.unary main_cst_1 main_v16 (broadcastInDim S600000 ![] bcast_S_S600000 : Vec F S_ .f32 → Vec F S600000 .f32),
    StableHlo.ternary main_v9 main_v15 main_v16 main_v17 ((fun x i u => Host.scatterAdd scatter_S50000_S600000x1_S600000_n_0_0_1 x i u) : Vec F S50000 .f32 → Vec F S600000x1 .i32 → Vec F S600000 .f32 → Vec F S50000 .f32),
    StableHlo.nullary main_cst_2 (constant S_ .f32 0x3F800000#32),
    StableHlo.unary main_cst_2 main_v18 (broadcastInDim S50000 ![] bcast_S_S50000 : Vec F S_ .f32 → Vec F S50000 .f32),
    StableHlo.binary main_v17 main_v18 main_v19 (addf : Vec F S50000 .f32 → Vec F S50000 .f32 → Vec F S50000 .f32),
    StableHlo.unary main_v19 main_v20 (Host.rsqrt : Vec F S50000 .f32 → Vec F S50000 .f32),
    StableHlo.nullary main_c_3 (constantI S_ 32 0#32),
    StableHlo.unary main_c_3 main_v21 (broadcastInDim S600000 ![] bcast_S_S600000 : Vec F S_ .i32 → Vec F S600000 .i32),
    StableHlo.binary main_v1 main_v21 main_v22 (cmpi .slt : Vec F S600000 .i32 → Vec F S600000 .i32 → Vec F S600000 .i1),
    StableHlo.nullary main_c_4 (constantI S_ 32 50000#32),
    StableHlo.unary main_c_4 main_v23 (broadcastInDim S600000 ![] bcast_S_S600000 : Vec F S_ .i32 → Vec F S600000 .i32),
    StableHlo.binary main_v1 main_v23 main_v24 (addi : Vec F S600000 .i32 → Vec F S600000 .i32 → Vec F S600000 .i32),
    StableHlo.ternary main_v22 main_v24 main_v1 main_v25 (select : Vec F S600000 .i1 → Vec F S600000 .i32 → Vec F S600000 .i32 → Vec F S600000 .i32),
    StableHlo.unary main_v25 main_v26 (broadcastInDim S600000x1 ![0] bcast_S600000_S600000x1_0 : Vec F S600000 .i32 → Vec F S600000x1 .i32),
    StableHlo.binary main_v20 main_v26 main_v27 ((fun x i => Host.gather gather_S50000_S600000x1_S600000_n_0_n_n_0_1_1 x i) : Vec F S50000 .f32 → Vec F S600000x1 .i32 → Vec F S600000 .f32),
    StableHlo.nullary main_c_5 (constantI S_ 32 0#32),
    StableHlo.unary main_c_5 main_v28 (broadcastInDim S600000 ![] bcast_S_S600000 : Vec F S_ .i32 → Vec F S600000 .i32),
    StableHlo.binary main_v3 main_v28 main_v29 (cmpi .slt : Vec F S600000 .i32 → Vec F S600000 .i32 → Vec F S600000 .i1),
    StableHlo.nullary main_c_6 (constantI S_ 32 50000#32),
    StableHlo.unary main_c_6 main_v30 (broadcastInDim S600000 ![] bcast_S_S600000 : Vec F S_ .i32 → Vec F S600000 .i32),
    StableHlo.binary main_v3 main_v30 main_v31 (addi : Vec F S600000 .i32 → Vec F S600000 .i32 → Vec F S600000 .i32),
    StableHlo.ternary main_v29 main_v31 main_v3 main_v32 (select : Vec F S600000 .i1 → Vec F S600000 .i32 → Vec F S600000 .i32 → Vec F S600000 .i32),
    StableHlo.unary main_v32 main_v33 (broadcastInDim S600000x1 ![0] bcast_S600000_S600000x1_0 : Vec F S600000 .i32 → Vec F S600000x1 .i32),
    StableHlo.binary main_v20 main_v33 main_v34 ((fun x i => Host.gather gather_S50000_S600000x1_S600000_n_0_n_n_0_1_1 x i) : Vec F S50000 .f32 → Vec F S600000x1 .i32 → Vec F S600000 .f32),
    StableHlo.binary main_v27 main_v34 main_v35 (mulf : Vec F S600000 .f32 → Vec F S600000 .f32 → Vec F S600000 .f32),
    StableHlo.nullary main_cst_7 (constant S_ .f32 0x00000000#32),
    StableHlo.unary main_cst_7 main_v36 (broadcastInDim S50000x128 ![] bcast_S_S50000x128 : Vec F S_ .f32 → Vec F S50000x128 .f32),
    StableHlo.nullary main_c_8 (constantI S_ 32 0#32),
    StableHlo.unary main_c_8 main_v37 (broadcastInDim S600000 ![] bcast_S_S600000 : Vec F S_ .i32 → Vec F S600000 .i32),
    StableHlo.binary main_v1 main_v37 main_v38 (cmpi .slt : Vec F S600000 .i32 → Vec F S600000 .i32 → Vec F S600000 .i1),
    StableHlo.nullary main_c_9 (constantI S_ 32 50000#32),
    StableHlo.unary main_c_9 main_v39 (broadcastInDim S600000 ![] bcast_S_S600000 : Vec F S_ .i32 → Vec F S600000 .i32),
    StableHlo.binary main_v1 main_v39 main_v40 (addi : Vec F S600000 .i32 → Vec F S600000 .i32 → Vec F S600000 .i32),
    StableHlo.ternary main_v38 main_v40 main_v1 main_v41 (select : Vec F S600000 .i1 → Vec F S600000 .i32 → Vec F S600000 .i32 → Vec F S600000 .i32),
    StableHlo.unary main_v41 main_v42 (broadcastInDim S600000x1 ![0] bcast_S600000_S600000x1_0 : Vec F S600000 .i32 → Vec F S600000x1 .i32),
    StableHlo.binary main_v8 main_v42 main_v43 ((fun x i => Host.gather gather_S50000x128_S600000x1_S600000x128_1_0_n_n_0_1_1128 x i) : Vec F S50000x128 .f32 → Vec F S600000x1 .i32 → Vec F S600000x128 .f32),
    StableHlo.unary main_v35 main_v44 (broadcastInDim S600000x1 ![0] bcast_S600000_S600000x1_0 : Vec F S600000 .f32 → Vec F S600000x1 .f32),
    StableHlo.unary main_v44 main_v45 (broadcastInDim S600000x128 ![0, 1] bcast_S600000x1_S600000x128_0_1 : Vec F S600000x1 .f32 → Vec F S600000x128 .f32),
    StableHlo.binary main_v43 main_v45 main_v46 (mulf : Vec F S600000x128 .f32 → Vec F S600000x128 .f32 → Vec F S600000x128 .f32),
    StableHlo.nullary main_c_10 (constantI S_ 32 0#32) ]

abbrev opsW0 : List (Ref sig .tc) :=
  [ main_v0, main_v1, main_v2, main_v3, main_v4, main_v5, main_v6, main_v7,
    main_v8, main_cst, main_v9, main_c, main_v10, main_v11, main_c_0, main_v12,
    main_v13, main_v14, main_v15, main_cst_1, main_v16, main_v17, main_cst_2, main_v18,
    main_v19, main_v20, main_c_3, main_v21, main_v22, main_c_4, main_v23, main_v24,
    main_v25, main_v26, main_v27, main_c_5, main_v28, main_v29, main_c_6, main_v30,
    main_v31, main_v32, main_v33, main_v34, main_v35, main_cst_7, main_v36, main_c_8,
    main_v37, main_v38, main_c_9, main_v39, main_v40, main_v41, main_v42, main_v43,
    main_v44, main_v45, main_v46, main_c_10 ]

abbrev ops1 : List (HloOp τ sig (Elt F)) :=
  [ StableHlo.unary main_c_10 main_v47 (broadcastInDim S600000 ![] bcast_S_S600000 : Vec F S_ .i32 → Vec F S600000 .i32),
    StableHlo.binary main_v3 main_v47 main_v48 (cmpi .slt : Vec F S600000 .i32 → Vec F S600000 .i32 → Vec F S600000 .i1),
    StableHlo.nullary main_c_11 (constantI S_ 32 50000#32),
    StableHlo.unary main_c_11 main_v49 (broadcastInDim S600000 ![] bcast_S_S600000 : Vec F S_ .i32 → Vec F S600000 .i32),
    StableHlo.binary main_v3 main_v49 main_v50 (addi : Vec F S600000 .i32 → Vec F S600000 .i32 → Vec F S600000 .i32),
    StableHlo.ternary main_v48 main_v50 main_v3 main_v51 (select : Vec F S600000 .i1 → Vec F S600000 .i32 → Vec F S600000 .i32 → Vec F S600000 .i32),
    StableHlo.unary main_v51 main_v52 (broadcastInDim S600000x1 ![0] bcast_S600000_S600000x1_0 : Vec F S600000 .i32 → Vec F S600000x1 .i32),
    StableHlo.ternary main_v36 main_v52 main_v46 main_v53 ((fun x i u => Host.scatterAdd scatter_S50000x128_S600000x1_S600000x128_1_0_0_1 x i u) : Vec F S50000x128 .f32 → Vec F S600000x1 .i32 → Vec F S600000x128 .f32 → Vec F S50000x128 .f32),
    StableHlo.binary main_v20 main_v20 main_v54 (mulf : Vec F S50000 .f32 → Vec F S50000 .f32 → Vec F S50000 .f32),
    StableHlo.unary main_v54 main_v55 (broadcastInDim S50000x1 ![0] bcast_S50000_S50000x1_0 : Vec F S50000 .f32 → Vec F S50000x1 .f32),
    StableHlo.unary main_v55 main_v56 (broadcastInDim S50000x128 ![0, 1] bcast_S50000x1_S50000x128_0_1 : Vec F S50000x1 .f32 → Vec F S50000x128 .f32),
    StableHlo.binary main_v8 main_v56 main_v57 (mulf : Vec F S50000x128 .f32 → Vec F S50000x128 .f32 → Vec F S50000x128 .f32),
    StableHlo.binary main_v53 main_v57 main_v58 (addf : Vec F S50000x128 .f32 → Vec F S50000x128 .f32 → Vec F S50000x128 .f32),
    StableHlo.unary main_v7 main_v59 (broadcastInDim S1x128 ![1] bcast_S128_S1x128_1 : Vec F S128 .f32 → Vec F S1x128 .f32),
    StableHlo.unary main_v59 main_v60 (broadcastInDim S50000x128 ![0, 1] bcast_S1x128_S50000x128_0_1 : Vec F S1x128 .f32 → Vec F S50000x128 .f32),
    StableHlo.binary main_v58 main_v60 main_v61 (addf : Vec F S50000x128 .f32 → Vec F S50000x128 .f32 → Vec F S50000x128 .f32),
    StableHlo.binary main_arg0 main_v61 main_v62 (addf : Vec F S50000x128 .f32 → Vec F S50000x128 .f32 → Vec F S50000x128 .f32),
    StableHlo.unary main_arg5 main_v63 ((extractStridedSlice S1x128 ![0, 0] · slices_S4x128_S1x128_0_0) : Vec F S4x128 .f32 → Vec F S1x128 .f32),
    StableHlo.reshape main_v63 main_v64 rfl shapeCasts_S1x128_S128,
    StableHlo.unary main_arg6 main_v65 ((extractStridedSlice S1x128 ![0, 0] · slices_S4x128_S1x128_0_0) : Vec F S4x128 .f32 → Vec F S1x128 .f32),
    StableHlo.reshape main_v65 main_v66 rfl shapeCasts_S1x128_S128,
    StableHlo.nullary main_cst_12 (constant S_ .f32 0x00000000#32),
    StableHlo.binary main_v62 main_cst_12 main_v67 ((fun x v => Host.reduceAdd x v reducesTo_S50000x128_S50000_d1 h_S_) : Vec F S50000x128 .f32 → Vec F S_ .f32 → Vec F S50000 .f32),
    StableHlo.unary main_v67 main_v68 (broadcastInDim S50000x1 ![0] bcast_S50000_S50000x1_0 : Vec F S50000 .f32 → Vec F S50000x1 .f32),
    StableHlo.nullary main_cst_13 (constant S_ .f32 0x43000000#32),
    StableHlo.unary main_cst_13 main_v69 (broadcastInDim S50000x1 ![] bcast_S_S50000x1 : Vec F S_ .f32 → Vec F S50000x1 .f32),
    StableHlo.binary main_v68 main_v69 main_v70 (Host.divf : Vec F S50000x1 .f32 → Vec F S50000x1 .f32 → Vec F S50000x1 .f32),
    StableHlo.nullary main_c_14 (constantI S_ 32 0#32),
    StableHlo.TRef.nullary main_call0.cst (constant S_ .f32 0x00000000#32),
    StableHlo.TRef.binary (.of main_v62 : StableHlo.TRef sig ⟨S50000x128, .f32⟩) main_call0.cst main_call0.v0 (fun x v => Host.reduceAdd x v reducesTo_S50000x128_S50000_d1 h_S_),
    StableHlo.TRef.unary main_call0.v0 main_call0.v1 (broadcastInDim S50000x1 ![0] bcast_S50000_S50000x1_0),
    StableHlo.TRef.nullary main_call0.cst_0 (constant S_ .f32 0x43000000#32),
    StableHlo.TRef.unary main_call0.cst_0 main_call0.v2 (broadcastInDim S50000x1 ![] bcast_S_S50000x1),
    StableHlo.TRef.binary main_call0.v1 main_call0.v2 main_call0.v3 Host.divf,
    StableHlo.TRef.unary main_call0.v3 main_call0.v4 (broadcastInDim S50000x128 ![0, 1] bcast_S50000x1_S50000x128_0_1),
    StableHlo.TRef.binary (.of main_v62 : StableHlo.TRef sig ⟨S50000x128, .f32⟩) main_call0.v4 main_call0.v5 subf,
    StableHlo.TRef.binary main_call0.v5 main_call0.v5 main_call0.v6 mulf,
    StableHlo.TRef.unary (.of main_c_14 : StableHlo.TRef sig ⟨S_, .i32⟩) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S50000_d1 h_S_),
    StableHlo.TRef.unary main_call0.v9 main_call0.v10 (broadcastInDim S50000x1 ![0] bcast_S50000_S50000x1_0),
    StableHlo.TRef.unary main_call0.v8 main_call0.v11 (broadcastInDim S50000x1 ![] bcast_S_S50000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S50000x1 ![] bcast_S_S50000x1),
    StableHlo.TRef.ternary main_call0.v13 main_call0.v12 main_call0.call0.v1 main_call0.call0.v2 (fun p a b => select (broadcastInDim S50000x1 ![] bcast_S_S50000x1 p) a b),
    StableHlo.unary main_v70 main_v72 (broadcastInDim S50000x128 ![0, 1] bcast_S50000x1_S50000x128_0_1 : Vec F S50000x1 .f32 → Vec F S50000x128 .f32),
    StableHlo.binary main_v62 main_v72 main_v73 (subf : Vec F S50000x128 .f32 → Vec F S50000x128 .f32 → Vec F S50000x128 .f32),
    StableHlo.nullary main_cst_15 (constant S_ .f32 0x3727C5AC#32),
    StableHlo.unary main_cst_15 main_v74 (broadcastInDim S50000x1 ![] bcast_S_S50000x1 : Vec F S_ .f32 → Vec F S50000x1 .f32),
    StableHlo.binary main_v71 main_v74 main_v75 (addf : Vec F S50000x1 .f32 → Vec F S50000x1 .f32 → Vec F S50000x1 .f32),
    StableHlo.unary main_v75 main_v76 (Host.rsqrt : Vec F S50000x1 .f32 → Vec F S50000x1 .f32),
    StableHlo.unary main_v76 main_v77 (broadcastInDim S50000x128 ![0, 1] bcast_S50000x1_S50000x128_0_1 : Vec F S50000x1 .f32 → Vec F S50000x128 .f32),
    StableHlo.binary main_v73 main_v77 main_v78 (mulf : Vec F S50000x128 .f32 → Vec F S50000x128 .f32 → Vec F S50000x128 .f32),
    StableHlo.unary main_v64 main_v79 (broadcastInDim S1x128 ![1] bcast_S128_S1x128_1 : Vec F S128 .f32 → Vec F S1x128 .f32),
    StableHlo.unary main_v79 main_v80 (broadcastInDim S50000x128 ![0, 1] bcast_S1x128_S50000x128_0_1 : Vec F S1x128 .f32 → Vec F S50000x128 .f32),
    StableHlo.binary main_v78 main_v80 main_v81 (mulf : Vec F S50000x128 .f32 → Vec F S50000x128 .f32 → Vec F S50000x128 .f32),
    StableHlo.unary main_v66 main_v82 (broadcastInDim S1x128 ![1] bcast_S128_S1x128_1 : Vec F S128 .f32 → Vec F S1x128 .f32),
    StableHlo.unary main_v82 main_v83 (broadcastInDim S50000x128 ![0, 1] bcast_S1x128_S50000x128_0_1 : Vec F S1x128 .f32 → Vec F S50000x128 .f32),
    StableHlo.binary main_v81 main_v83 main_v84 (addf : Vec F S50000x128 .f32 → Vec F S50000x128 .f32 → Vec F S50000x128 .f32),
    StableHlo.TRef.nullary main_call1.cst (constant S_ .f32 0x00000000#32),
    StableHlo.TRef.unary main_call1.cst main_call1.v0 (broadcastInDim S50000x128 ![] bcast_S_S50000x128),
    StableHlo.TRef.binary (.of main_v84 : StableHlo.TRef sig ⟨S50000x128, .f32⟩) main_call1.v0 main_call1.v1 maximumf,
    StableHlo.unary main_arg3 main_v86 ((extractStridedSlice S1x128x128 ![1, 0, 0] · slices_S4x128x128_S1x128x128_1_0_0) : Vec F S4x128x128 .f32 → Vec F S1x128x128 .f32),
    StableHlo.reshape main_v86 main_v87 rfl shapeCasts_S1x128x128_S128x128,
    StableHlo.unary main_arg4 main_v88 ((extractStridedSlice S1x128 ![1, 0] · slices_S4x128_S1x128_1_0) : Vec F S4x128 .f32 → Vec F S1x128 .f32),
    StableHlo.reshape main_v88 main_v89 rfl shapeCasts_S1x128_S128,
    StableHlo.binary main_v85 main_v87 main_v90 ((fun l r => Host.dotGeneral dot_S50000x128_S128x128_S50000x128_1_0_0_1_n_n none l r) : Vec F S50000x128 .f32 → Vec F S128x128 .f32 → Vec F S50000x128 .f32),
    StableHlo.nullary main_cst_16 (constant S_ .f32 0x00000000#32),
    StableHlo.unary main_cst_16 main_v91 (broadcastInDim S50000 ![] bcast_S_S50000 : Vec F S_ .f32 → Vec F S50000 .f32),
    StableHlo.nullary main_c_17 (constantI S_ 32 0#32),
    StableHlo.unary main_c_17 main_v92 (broadcastInDim S600000 ![] bcast_S_S600000 : Vec F S_ .i32 → Vec F S600000 .i32),
    StableHlo.binary main_v3 main_v92 main_v93 (cmpi .slt : Vec F S600000 .i32 → Vec F S600000 .i32 → Vec F S600000 .i1),
    StableHlo.nullary main_c_18 (constantI S_ 32 50000#32),
    StableHlo.unary main_c_18 main_v94 (broadcastInDim S600000 ![] bcast_S_S600000 : Vec F S_ .i32 → Vec F S600000 .i32),
    StableHlo.binary main_v3 main_v94 main_v95 (addi : Vec F S600000 .i32 → Vec F S600000 .i32 → Vec F S600000 .i32),
    StableHlo.ternary main_v93 main_v95 main_v3 main_v96 (select : Vec F S600000 .i1 → Vec F S600000 .i32 → Vec F S600000 .i32 → Vec F S600000 .i32),
    StableHlo.unary main_v96 main_v97 (broadcastInDim S600000x1 ![0] bcast_S600000_S600000x1_0 : Vec F S600000 .i32 → Vec F S600000x1 .i32),
    StableHlo.nullary main_cst_19 (constant S_ .f32 0x3F800000#32) ]

abbrev opsW1 : List (Ref sig .tc) :=
  [ main_v47, main_v48, main_c_11, main_v49, main_v50, main_v51, main_v52, main_v53,
    main_v54, main_v55, main_v56, main_v57, main_v58, main_v59, main_v60, main_v61,
    main_v62, main_v63, main_v64, main_v65, main_v66, main_cst_12, main_v67, main_v68,
    main_cst_13, main_v69, main_v70, main_c_14, main_call0_cst, main_call0_v0, main_call0_v1, main_call0_cst_0,
    main_call0_v2, main_call0_v3, main_call0_v4, main_call0_v5, main_call0_v6, main_call0_v7, main_call0_cst_1, main_call0_v8,
    main_call0_cst_2, main_call0_v9, main_call0_v10, main_call0_v11, main_call0_v12, main_call0_cst_3, main_call0_v13, main_call0_cst_4,
    main_call0_call0_v0, main_call0_call0_v1, main_v71, main_v72, main_v73, main_cst_15, main_v74, main_v75,
    main_v76, main_v77, main_v78, main_v79, main_v80, main_v81, main_v82, main_v83,
    main_v84, main_call1_cst, main_call1_v0, main_v85, main_v86, main_v87, main_v88, main_v89,
    main_v90, main_cst_16, main_v91, main_c_17, main_v92, main_v93, main_c_18, main_v94,
    main_v95, main_v96, main_v97, main_cst_19 ]

abbrev ops2 : List (HloOp τ sig (Elt F)) :=
  [ StableHlo.unary main_cst_19 main_v98 (broadcastInDim S600000 ![] bcast_S_S600000 : Vec F S_ .f32 → Vec F S600000 .f32),
    StableHlo.ternary main_v91 main_v97 main_v98 main_v99 ((fun x i u => Host.scatterAdd scatter_S50000_S600000x1_S600000_n_0_0_1 x i u) : Vec F S50000 .f32 → Vec F S600000x1 .i32 → Vec F S600000 .f32 → Vec F S50000 .f32),
    StableHlo.nullary main_cst_20 (constant S_ .f32 0x3F800000#32),
    StableHlo.unary main_cst_20 main_v100 (broadcastInDim S50000 ![] bcast_S_S50000 : Vec F S_ .f32 → Vec F S50000 .f32),
    StableHlo.binary main_v99 main_v100 main_v101 (addf : Vec F S50000 .f32 → Vec F S50000 .f32 → Vec F S50000 .f32),
    StableHlo.unary main_v101 main_v102 (Host.rsqrt : Vec F S50000 .f32 → Vec F S50000 .f32),
    StableHlo.nullary main_c_21 (constantI S_ 32 0#32),
    StableHlo.unary main_c_21 main_v103 (broadcastInDim S600000 ![] bcast_S_S600000 : Vec F S_ .i32 → Vec F S600000 .i32),
    StableHlo.binary main_v1 main_v103 main_v104 (cmpi .slt : Vec F S600000 .i32 → Vec F S600000 .i32 → Vec F S600000 .i1),
    StableHlo.nullary main_c_22 (constantI S_ 32 50000#32),
    StableHlo.unary main_c_22 main_v105 (broadcastInDim S600000 ![] bcast_S_S600000 : Vec F S_ .i32 → Vec F S600000 .i32),
    StableHlo.binary main_v1 main_v105 main_v106 (addi : Vec F S600000 .i32 → Vec F S600000 .i32 → Vec F S600000 .i32),
    StableHlo.ternary main_v104 main_v106 main_v1 main_v107 (select : Vec F S600000 .i1 → Vec F S600000 .i32 → Vec F S600000 .i32 → Vec F S600000 .i32),
    StableHlo.unary main_v107 main_v108 (broadcastInDim S600000x1 ![0] bcast_S600000_S600000x1_0 : Vec F S600000 .i32 → Vec F S600000x1 .i32),
    StableHlo.binary main_v102 main_v108 main_v109 ((fun x i => Host.gather gather_S50000_S600000x1_S600000_n_0_n_n_0_1_1 x i) : Vec F S50000 .f32 → Vec F S600000x1 .i32 → Vec F S600000 .f32),
    StableHlo.nullary main_c_23 (constantI S_ 32 0#32),
    StableHlo.unary main_c_23 main_v110 (broadcastInDim S600000 ![] bcast_S_S600000 : Vec F S_ .i32 → Vec F S600000 .i32),
    StableHlo.binary main_v3 main_v110 main_v111 (cmpi .slt : Vec F S600000 .i32 → Vec F S600000 .i32 → Vec F S600000 .i1),
    StableHlo.nullary main_c_24 (constantI S_ 32 50000#32),
    StableHlo.unary main_c_24 main_v112 (broadcastInDim S600000 ![] bcast_S_S600000 : Vec F S_ .i32 → Vec F S600000 .i32),
    StableHlo.binary main_v3 main_v112 main_v113 (addi : Vec F S600000 .i32 → Vec F S600000 .i32 → Vec F S600000 .i32),
    StableHlo.ternary main_v111 main_v113 main_v3 main_v114 (select : Vec F S600000 .i1 → Vec F S600000 .i32 → Vec F S600000 .i32 → Vec F S600000 .i32),
    StableHlo.unary main_v114 main_v115 (broadcastInDim S600000x1 ![0] bcast_S600000_S600000x1_0 : Vec F S600000 .i32 → Vec F S600000x1 .i32),
    StableHlo.binary main_v102 main_v115 main_v116 ((fun x i => Host.gather gather_S50000_S600000x1_S600000_n_0_n_n_0_1_1 x i) : Vec F S50000 .f32 → Vec F S600000x1 .i32 → Vec F S600000 .f32),
    StableHlo.binary main_v109 main_v116 main_v117 (mulf : Vec F S600000 .f32 → Vec F S600000 .f32 → Vec F S600000 .f32),
    StableHlo.nullary main_cst_25 (constant S_ .f32 0x00000000#32),
    StableHlo.unary main_cst_25 main_v118 (broadcastInDim S50000x128 ![] bcast_S_S50000x128 : Vec F S_ .f32 → Vec F S50000x128 .f32),
    StableHlo.nullary main_c_26 (constantI S_ 32 0#32),
    StableHlo.unary main_c_26 main_v119 (broadcastInDim S600000 ![] bcast_S_S600000 : Vec F S_ .i32 → Vec F S600000 .i32),
    StableHlo.binary main_v1 main_v119 main_v120 (cmpi .slt : Vec F S600000 .i32 → Vec F S600000 .i32 → Vec F S600000 .i1),
    StableHlo.nullary main_c_27 (constantI S_ 32 50000#32),
    StableHlo.unary main_c_27 main_v121 (broadcastInDim S600000 ![] bcast_S_S600000 : Vec F S_ .i32 → Vec F S600000 .i32),
    StableHlo.binary main_v1 main_v121 main_v122 (addi : Vec F S600000 .i32 → Vec F S600000 .i32 → Vec F S600000 .i32),
    StableHlo.ternary main_v120 main_v122 main_v1 main_v123 (select : Vec F S600000 .i1 → Vec F S600000 .i32 → Vec F S600000 .i32 → Vec F S600000 .i32),
    StableHlo.unary main_v123 main_v124 (broadcastInDim S600000x1 ![0] bcast_S600000_S600000x1_0 : Vec F S600000 .i32 → Vec F S600000x1 .i32),
    StableHlo.binary main_v90 main_v124 main_v125 ((fun x i => Host.gather gather_S50000x128_S600000x1_S600000x128_1_0_n_n_0_1_1128 x i) : Vec F S50000x128 .f32 → Vec F S600000x1 .i32 → Vec F S600000x128 .f32),
    StableHlo.unary main_v117 main_v126 (broadcastInDim S600000x1 ![0] bcast_S600000_S600000x1_0 : Vec F S600000 .f32 → Vec F S600000x1 .f32),
    StableHlo.unary main_v126 main_v127 (broadcastInDim S600000x128 ![0, 1] bcast_S600000x1_S600000x128_0_1 : Vec F S600000x1 .f32 → Vec F S600000x128 .f32),
    StableHlo.binary main_v125 main_v127 main_v128 (mulf : Vec F S600000x128 .f32 → Vec F S600000x128 .f32 → Vec F S600000x128 .f32),
    StableHlo.nullary main_c_28 (constantI S_ 32 0#32),
    StableHlo.unary main_c_28 main_v129 (broadcastInDim S600000 ![] bcast_S_S600000 : Vec F S_ .i32 → Vec F S600000 .i32),
    StableHlo.binary main_v3 main_v129 main_v130 (cmpi .slt : Vec F S600000 .i32 → Vec F S600000 .i32 → Vec F S600000 .i1),
    StableHlo.nullary main_c_29 (constantI S_ 32 50000#32),
    StableHlo.unary main_c_29 main_v131 (broadcastInDim S600000 ![] bcast_S_S600000 : Vec F S_ .i32 → Vec F S600000 .i32),
    StableHlo.binary main_v3 main_v131 main_v132 (addi : Vec F S600000 .i32 → Vec F S600000 .i32 → Vec F S600000 .i32),
    StableHlo.ternary main_v130 main_v132 main_v3 main_v133 (select : Vec F S600000 .i1 → Vec F S600000 .i32 → Vec F S600000 .i32 → Vec F S600000 .i32),
    StableHlo.unary main_v133 main_v134 (broadcastInDim S600000x1 ![0] bcast_S600000_S600000x1_0 : Vec F S600000 .i32 → Vec F S600000x1 .i32),
    StableHlo.ternary main_v118 main_v134 main_v128 main_v135 ((fun x i u => Host.scatterAdd scatter_S50000x128_S600000x1_S600000x128_1_0_0_1 x i u) : Vec F S50000x128 .f32 → Vec F S600000x1 .i32 → Vec F S600000x128 .f32 → Vec F S50000x128 .f32),
    StableHlo.binary main_v102 main_v102 main_v136 (mulf : Vec F S50000 .f32 → Vec F S50000 .f32 → Vec F S50000 .f32),
    StableHlo.unary main_v136 main_v137 (broadcastInDim S50000x1 ![0] bcast_S50000_S50000x1_0 : Vec F S50000 .f32 → Vec F S50000x1 .f32),
    StableHlo.unary main_v137 main_v138 (broadcastInDim S50000x128 ![0, 1] bcast_S50000x1_S50000x128_0_1 : Vec F S50000x1 .f32 → Vec F S50000x128 .f32),
    StableHlo.binary main_v90 main_v138 main_v139 (mulf : Vec F S50000x128 .f32 → Vec F S50000x128 .f32 → Vec F S50000x128 .f32),
    StableHlo.binary main_v135 main_v139 main_v140 (addf : Vec F S50000x128 .f32 → Vec F S50000x128 .f32 → Vec F S50000x128 .f32),
    StableHlo.unary main_v89 main_v141 (broadcastInDim S1x128 ![1] bcast_S128_S1x128_1 : Vec F S128 .f32 → Vec F S1x128 .f32),
    StableHlo.unary main_v141 main_v142 (broadcastInDim S50000x128 ![0, 1] bcast_S1x128_S50000x128_0_1 : Vec F S1x128 .f32 → Vec F S50000x128 .f32),
    StableHlo.binary main_v140 main_v142 main_v143 (addf : Vec F S50000x128 .f32 → Vec F S50000x128 .f32 → Vec F S50000x128 .f32),
    StableHlo.binary main_v85 main_v143 main_v144 (addf : Vec F S50000x128 .f32 → Vec F S50000x128 .f32 → Vec F S50000x128 .f32),
    StableHlo.unary main_arg5 main_v145 ((extractStridedSlice S1x128 ![1, 0] · slices_S4x128_S1x128_1_0) : Vec F S4x128 .f32 → Vec F S1x128 .f32),
    StableHlo.reshape main_v145 main_v146 rfl shapeCasts_S1x128_S128,
    StableHlo.unary main_arg6 main_v147 ((extractStridedSlice S1x128 ![1, 0] · slices_S4x128_S1x128_1_0) : Vec F S4x128 .f32 → Vec F S1x128 .f32) ]

abbrev opsW2 : List (Ref sig .tc) :=
  [ main_v98, main_v99, main_cst_20, main_v100, main_v101, main_v102, main_c_21, main_v103,
    main_v104, main_c_22, main_v105, main_v106, main_v107, main_v108, main_v109, main_c_23,
    main_v110, main_v111, main_c_24, main_v112, main_v113, main_v114, main_v115, main_v116,
    main_v117, main_cst_25, main_v118, main_c_26, main_v119, main_v120, main_c_27, main_v121,
    main_v122, main_v123, main_v124, main_v125, main_v126, main_v127, main_v128, main_c_28,
    main_v129, main_v130, main_c_29, main_v131, main_v132, main_v133, main_v134, main_v135,
    main_v136, main_v137, main_v138, main_v139, main_v140, main_v141, main_v142, main_v143,
    main_v144, main_v145, main_v146, main_v147 ]

abbrev ops3 : List (HloOp τ sig (Elt F)) :=
  [ StableHlo.reshape main_v147 main_v148 rfl shapeCasts_S1x128_S128,
    StableHlo.nullary main_cst_30 (constant S_ .f32 0x00000000#32),
    StableHlo.binary main_v144 main_cst_30 main_v149 ((fun x v => Host.reduceAdd x v reducesTo_S50000x128_S50000_d1 h_S_) : Vec F S50000x128 .f32 → Vec F S_ .f32 → Vec F S50000 .f32),
    StableHlo.unary main_v149 main_v150 (broadcastInDim S50000x1 ![0] bcast_S50000_S50000x1_0 : Vec F S50000 .f32 → Vec F S50000x1 .f32),
    StableHlo.nullary main_cst_31 (constant S_ .f32 0x43000000#32),
    StableHlo.unary main_cst_31 main_v151 (broadcastInDim S50000x1 ![] bcast_S_S50000x1 : Vec F S_ .f32 → Vec F S50000x1 .f32),
    StableHlo.binary main_v150 main_v151 main_v152 (Host.divf : Vec F S50000x1 .f32 → Vec F S50000x1 .f32 → Vec F S50000x1 .f32),
    StableHlo.nullary main_c_32 (constantI S_ 32 0#32),
    StableHlo.TRef.nullary main_call2.cst (constant S_ .f32 0x00000000#32),
    StableHlo.TRef.binary (.of main_v144 : StableHlo.TRef sig ⟨S50000x128, .f32⟩) main_call2.cst main_call2.v0 (fun x v => Host.reduceAdd x v reducesTo_S50000x128_S50000_d1 h_S_),
    StableHlo.TRef.unary main_call2.v0 main_call2.v1 (broadcastInDim S50000x1 ![0] bcast_S50000_S50000x1_0),
    StableHlo.TRef.nullary main_call2.cst_0 (constant S_ .f32 0x43000000#32),
    StableHlo.TRef.unary main_call2.cst_0 main_call2.v2 (broadcastInDim S50000x1 ![] bcast_S_S50000x1),
    StableHlo.TRef.binary main_call2.v1 main_call2.v2 main_call2.v3 Host.divf,
    StableHlo.TRef.unary main_call2.v3 main_call2.v4 (broadcastInDim S50000x128 ![0, 1] bcast_S50000x1_S50000x128_0_1),
    StableHlo.TRef.binary (.of main_v144 : StableHlo.TRef sig ⟨S50000x128, .f32⟩) main_call2.v4 main_call2.v5 subf,
    StableHlo.TRef.binary main_call2.v5 main_call2.v5 main_call2.v6 mulf,
    StableHlo.TRef.unary (.of main_c_32 : StableHlo.TRef sig ⟨S_, .i32⟩) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S50000_d1 h_S_),
    StableHlo.TRef.unary main_call2.v9 main_call2.v10 (broadcastInDim S50000x1 ![0] bcast_S50000_S50000x1_0),
    StableHlo.TRef.unary main_call2.v8 main_call2.v11 (broadcastInDim S50000x1 ![] bcast_S_S50000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S50000x1 ![] bcast_S_S50000x1),
    StableHlo.TRef.ternary main_call2.v13 main_call2.v12 main_call2.call0.v1 main_call2.call0.v2 (fun p a b => select (broadcastInDim S50000x1 ![] bcast_S_S50000x1 p) a b),
    StableHlo.unary main_v152 main_v154 (broadcastInDim S50000x128 ![0, 1] bcast_S50000x1_S50000x128_0_1 : Vec F S50000x1 .f32 → Vec F S50000x128 .f32),
    StableHlo.binary main_v144 main_v154 main_v155 (subf : Vec F S50000x128 .f32 → Vec F S50000x128 .f32 → Vec F S50000x128 .f32),
    StableHlo.nullary main_cst_33 (constant S_ .f32 0x3727C5AC#32),
    StableHlo.unary main_cst_33 main_v156 (broadcastInDim S50000x1 ![] bcast_S_S50000x1 : Vec F S_ .f32 → Vec F S50000x1 .f32),
    StableHlo.binary main_v153 main_v156 main_v157 (addf : Vec F S50000x1 .f32 → Vec F S50000x1 .f32 → Vec F S50000x1 .f32),
    StableHlo.unary main_v157 main_v158 (Host.rsqrt : Vec F S50000x1 .f32 → Vec F S50000x1 .f32),
    StableHlo.unary main_v158 main_v159 (broadcastInDim S50000x128 ![0, 1] bcast_S50000x1_S50000x128_0_1 : Vec F S50000x1 .f32 → Vec F S50000x128 .f32),
    StableHlo.binary main_v155 main_v159 main_v160 (mulf : Vec F S50000x128 .f32 → Vec F S50000x128 .f32 → Vec F S50000x128 .f32),
    StableHlo.unary main_v146 main_v161 (broadcastInDim S1x128 ![1] bcast_S128_S1x128_1 : Vec F S128 .f32 → Vec F S1x128 .f32),
    StableHlo.unary main_v161 main_v162 (broadcastInDim S50000x128 ![0, 1] bcast_S1x128_S50000x128_0_1 : Vec F S1x128 .f32 → Vec F S50000x128 .f32),
    StableHlo.binary main_v160 main_v162 main_v163 (mulf : Vec F S50000x128 .f32 → Vec F S50000x128 .f32 → Vec F S50000x128 .f32),
    StableHlo.unary main_v148 main_v164 (broadcastInDim S1x128 ![1] bcast_S128_S1x128_1 : Vec F S128 .f32 → Vec F S1x128 .f32),
    StableHlo.unary main_v164 main_v165 (broadcastInDim S50000x128 ![0, 1] bcast_S1x128_S50000x128_0_1 : Vec F S1x128 .f32 → Vec F S50000x128 .f32),
    StableHlo.binary main_v163 main_v165 main_v166 (addf : Vec F S50000x128 .f32 → Vec F S50000x128 .f32 → Vec F S50000x128 .f32),
    StableHlo.TRef.nullary main_call3.cst (constant S_ .f32 0x00000000#32),
    StableHlo.TRef.unary main_call3.cst main_call3.v0 (broadcastInDim S50000x128 ![] bcast_S_S50000x128),
    StableHlo.TRef.binary (.of main_v166 : StableHlo.TRef sig ⟨S50000x128, .f32⟩) main_call3.v0 main_call3.v1 maximumf,
    StableHlo.unary main_arg3 main_v168 ((extractStridedSlice S1x128x128 ![2, 0, 0] · slices_S4x128x128_S1x128x128_2_0_0) : Vec F S4x128x128 .f32 → Vec F S1x128x128 .f32),
    StableHlo.reshape main_v168 main_v169 rfl shapeCasts_S1x128x128_S128x128,
    StableHlo.unary main_arg4 main_v170 ((extractStridedSlice S1x128 ![2, 0] · slices_S4x128_S1x128_2_0) : Vec F S4x128 .f32 → Vec F S1x128 .f32),
    StableHlo.reshape main_v170 main_v171 rfl shapeCasts_S1x128_S128,
    StableHlo.binary main_v167 main_v169 main_v172 ((fun l r => Host.dotGeneral dot_S50000x128_S128x128_S50000x128_1_0_0_1_n_n none l r) : Vec F S50000x128 .f32 → Vec F S128x128 .f32 → Vec F S50000x128 .f32),
    StableHlo.nullary main_cst_34 (constant S_ .f32 0x00000000#32),
    StableHlo.unary main_cst_34 main_v173 (broadcastInDim S50000 ![] bcast_S_S50000 : Vec F S_ .f32 → Vec F S50000 .f32),
    StableHlo.nullary main_c_35 (constantI S_ 32 0#32),
    StableHlo.unary main_c_35 main_v174 (broadcastInDim S600000 ![] bcast_S_S600000 : Vec F S_ .i32 → Vec F S600000 .i32),
    StableHlo.binary main_v3 main_v174 main_v175 (cmpi .slt : Vec F S600000 .i32 → Vec F S600000 .i32 → Vec F S600000 .i1),
    StableHlo.nullary main_c_36 (constantI S_ 32 50000#32),
    StableHlo.unary main_c_36 main_v176 (broadcastInDim S600000 ![] bcast_S_S600000 : Vec F S_ .i32 → Vec F S600000 .i32),
    StableHlo.binary main_v3 main_v176 main_v177 (addi : Vec F S600000 .i32 → Vec F S600000 .i32 → Vec F S600000 .i32),
    StableHlo.ternary main_v175 main_v177 main_v3 main_v178 (select : Vec F S600000 .i1 → Vec F S600000 .i32 → Vec F S600000 .i32 → Vec F S600000 .i32),
    StableHlo.unary main_v178 main_v179 (broadcastInDim S600000x1 ![0] bcast_S600000_S600000x1_0 : Vec F S600000 .i32 → Vec F S600000x1 .i32),
    StableHlo.nullary main_cst_37 (constant S_ .f32 0x3F800000#32),
    StableHlo.unary main_cst_37 main_v180 (broadcastInDim S600000 ![] bcast_S_S600000 : Vec F S_ .f32 → Vec F S600000 .f32),
    StableHlo.ternary main_v173 main_v179 main_v180 main_v181 ((fun x i u => Host.scatterAdd scatter_S50000_S600000x1_S600000_n_0_0_1 x i u) : Vec F S50000 .f32 → Vec F S600000x1 .i32 → Vec F S600000 .f32 → Vec F S50000 .f32),
    StableHlo.nullary main_cst_38 (constant S_ .f32 0x3F800000#32),
    StableHlo.unary main_cst_38 main_v182 (broadcastInDim S50000 ![] bcast_S_S50000 : Vec F S_ .f32 → Vec F S50000 .f32),
    StableHlo.binary main_v181 main_v182 main_v183 (addf : Vec F S50000 .f32 → Vec F S50000 .f32 → Vec F S50000 .f32),
    StableHlo.unary main_v183 main_v184 (Host.rsqrt : Vec F S50000 .f32 → Vec F S50000 .f32),
    StableHlo.nullary main_c_39 (constantI S_ 32 0#32),
    StableHlo.unary main_c_39 main_v185 (broadcastInDim S600000 ![] bcast_S_S600000 : Vec F S_ .i32 → Vec F S600000 .i32),
    StableHlo.binary main_v1 main_v185 main_v186 (cmpi .slt : Vec F S600000 .i32 → Vec F S600000 .i32 → Vec F S600000 .i1),
    StableHlo.nullary main_c_40 (constantI S_ 32 50000#32),
    StableHlo.unary main_c_40 main_v187 (broadcastInDim S600000 ![] bcast_S_S600000 : Vec F S_ .i32 → Vec F S600000 .i32),
    StableHlo.binary main_v1 main_v187 main_v188 (addi : Vec F S600000 .i32 → Vec F S600000 .i32 → Vec F S600000 .i32),
    StableHlo.ternary main_v186 main_v188 main_v1 main_v189 (select : Vec F S600000 .i1 → Vec F S600000 .i32 → Vec F S600000 .i32 → Vec F S600000 .i32),
    StableHlo.unary main_v189 main_v190 (broadcastInDim S600000x1 ![0] bcast_S600000_S600000x1_0 : Vec F S600000 .i32 → Vec F S600000x1 .i32),
    StableHlo.binary main_v184 main_v190 main_v191 ((fun x i => Host.gather gather_S50000_S600000x1_S600000_n_0_n_n_0_1_1 x i) : Vec F S50000 .f32 → Vec F S600000x1 .i32 → Vec F S600000 .f32),
    StableHlo.nullary main_c_41 (constantI S_ 32 0#32),
    StableHlo.unary main_c_41 main_v192 (broadcastInDim S600000 ![] bcast_S_S600000 : Vec F S_ .i32 → Vec F S600000 .i32),
    StableHlo.binary main_v3 main_v192 main_v193 (cmpi .slt : Vec F S600000 .i32 → Vec F S600000 .i32 → Vec F S600000 .i1),
    StableHlo.nullary main_c_42 (constantI S_ 32 50000#32),
    StableHlo.unary main_c_42 main_v194 (broadcastInDim S600000 ![] bcast_S_S600000 : Vec F S_ .i32 → Vec F S600000 .i32) ]

abbrev opsW3 : List (Ref sig .tc) :=
  [ main_v148, main_cst_30, main_v149, main_v150, main_cst_31, main_v151, main_v152, main_c_32,
    main_call2_cst, main_call2_v0, main_call2_v1, main_call2_cst_0, main_call2_v2, main_call2_v3, main_call2_v4, main_call2_v5,
    main_call2_v6, main_call2_v7, main_call2_cst_1, main_call2_v8, main_call2_cst_2, main_call2_v9, main_call2_v10, main_call2_v11,
    main_call2_v12, main_call2_cst_3, main_call2_v13, main_call2_cst_4, main_call2_call0_v0, main_call2_call0_v1, main_v153, main_v154,
    main_v155, main_cst_33, main_v156, main_v157, main_v158, main_v159, main_v160, main_v161,
    main_v162, main_v163, main_v164, main_v165, main_v166, main_call3_cst, main_call3_v0, main_v167,
    main_v168, main_v169, main_v170, main_v171, main_v172, main_cst_34, main_v173, main_c_35,
    main_v174, main_v175, main_c_36, main_v176, main_v177, main_v178, main_v179, main_cst_37,
    main_v180, main_v181, main_cst_38, main_v182, main_v183, main_v184, main_c_39, main_v185,
    main_v186, main_c_40, main_v187, main_v188, main_v189, main_v190, main_v191, main_c_41,
    main_v192, main_v193, main_c_42, main_v194 ]

abbrev ops4 : List (HloOp τ sig (Elt F)) :=
  [ StableHlo.binary main_v3 main_v194 main_v195 (addi : Vec F S600000 .i32 → Vec F S600000 .i32 → Vec F S600000 .i32),
    StableHlo.ternary main_v193 main_v195 main_v3 main_v196 (select : Vec F S600000 .i1 → Vec F S600000 .i32 → Vec F S600000 .i32 → Vec F S600000 .i32),
    StableHlo.unary main_v196 main_v197 (broadcastInDim S600000x1 ![0] bcast_S600000_S600000x1_0 : Vec F S600000 .i32 → Vec F S600000x1 .i32),
    StableHlo.binary main_v184 main_v197 main_v198 ((fun x i => Host.gather gather_S50000_S600000x1_S600000_n_0_n_n_0_1_1 x i) : Vec F S50000 .f32 → Vec F S600000x1 .i32 → Vec F S600000 .f32),
    StableHlo.binary main_v191 main_v198 main_v199 (mulf : Vec F S600000 .f32 → Vec F S600000 .f32 → Vec F S600000 .f32),
    StableHlo.nullary main_cst_43 (constant S_ .f32 0x00000000#32),
    StableHlo.unary main_cst_43 main_v200 (broadcastInDim S50000x128 ![] bcast_S_S50000x128 : Vec F S_ .f32 → Vec F S50000x128 .f32),
    StableHlo.nullary main_c_44 (constantI S_ 32 0#32),
    StableHlo.unary main_c_44 main_v201 (broadcastInDim S600000 ![] bcast_S_S600000 : Vec F S_ .i32 → Vec F S600000 .i32),
    StableHlo.binary main_v1 main_v201 main_v202 (cmpi .slt : Vec F S600000 .i32 → Vec F S600000 .i32 → Vec F S600000 .i1),
    StableHlo.nullary main_c_45 (constantI S_ 32 50000#32),
    StableHlo.unary main_c_45 main_v203 (broadcastInDim S600000 ![] bcast_S_S600000 : Vec F S_ .i32 → Vec F S600000 .i32),
    StableHlo.binary main_v1 main_v203 main_v204 (addi : Vec F S600000 .i32 → Vec F S600000 .i32 → Vec F S600000 .i32),
    StableHlo.ternary main_v202 main_v204 main_v1 main_v205 (select : Vec F S600000 .i1 → Vec F S600000 .i32 → Vec F S600000 .i32 → Vec F S600000 .i32),
    StableHlo.unary main_v205 main_v206 (broadcastInDim S600000x1 ![0] bcast_S600000_S600000x1_0 : Vec F S600000 .i32 → Vec F S600000x1 .i32),
    StableHlo.binary main_v172 main_v206 main_v207 ((fun x i => Host.gather gather_S50000x128_S600000x1_S600000x128_1_0_n_n_0_1_1128 x i) : Vec F S50000x128 .f32 → Vec F S600000x1 .i32 → Vec F S600000x128 .f32),
    StableHlo.unary main_v199 main_v208 (broadcastInDim S600000x1 ![0] bcast_S600000_S600000x1_0 : Vec F S600000 .f32 → Vec F S600000x1 .f32),
    StableHlo.unary main_v208 main_v209 (broadcastInDim S600000x128 ![0, 1] bcast_S600000x1_S600000x128_0_1 : Vec F S600000x1 .f32 → Vec F S600000x128 .f32),
    StableHlo.binary main_v207 main_v209 main_v210 (mulf : Vec F S600000x128 .f32 → Vec F S600000x128 .f32 → Vec F S600000x128 .f32),
    StableHlo.nullary main_c_46 (constantI S_ 32 0#32),
    StableHlo.unary main_c_46 main_v211 (broadcastInDim S600000 ![] bcast_S_S600000 : Vec F S_ .i32 → Vec F S600000 .i32),
    StableHlo.binary main_v3 main_v211 main_v212 (cmpi .slt : Vec F S600000 .i32 → Vec F S600000 .i32 → Vec F S600000 .i1),
    StableHlo.nullary main_c_47 (constantI S_ 32 50000#32),
    StableHlo.unary main_c_47 main_v213 (broadcastInDim S600000 ![] bcast_S_S600000 : Vec F S_ .i32 → Vec F S600000 .i32),
    StableHlo.binary main_v3 main_v213 main_v214 (addi : Vec F S600000 .i32 → Vec F S600000 .i32 → Vec F S600000 .i32),
    StableHlo.ternary main_v212 main_v214 main_v3 main_v215 (select : Vec F S600000 .i1 → Vec F S600000 .i32 → Vec F S600000 .i32 → Vec F S600000 .i32),
    StableHlo.unary main_v215 main_v216 (broadcastInDim S600000x1 ![0] bcast_S600000_S600000x1_0 : Vec F S600000 .i32 → Vec F S600000x1 .i32),
    StableHlo.ternary main_v200 main_v216 main_v210 main_v217 ((fun x i u => Host.scatterAdd scatter_S50000x128_S600000x1_S600000x128_1_0_0_1 x i u) : Vec F S50000x128 .f32 → Vec F S600000x1 .i32 → Vec F S600000x128 .f32 → Vec F S50000x128 .f32),
    StableHlo.binary main_v184 main_v184 main_v218 (mulf : Vec F S50000 .f32 → Vec F S50000 .f32 → Vec F S50000 .f32),
    StableHlo.unary main_v218 main_v219 (broadcastInDim S50000x1 ![0] bcast_S50000_S50000x1_0 : Vec F S50000 .f32 → Vec F S50000x1 .f32),
    StableHlo.unary main_v219 main_v220 (broadcastInDim S50000x128 ![0, 1] bcast_S50000x1_S50000x128_0_1 : Vec F S50000x1 .f32 → Vec F S50000x128 .f32),
    StableHlo.binary main_v172 main_v220 main_v221 (mulf : Vec F S50000x128 .f32 → Vec F S50000x128 .f32 → Vec F S50000x128 .f32),
    StableHlo.binary main_v217 main_v221 main_v222 (addf : Vec F S50000x128 .f32 → Vec F S50000x128 .f32 → Vec F S50000x128 .f32),
    StableHlo.unary main_v171 main_v223 (broadcastInDim S1x128 ![1] bcast_S128_S1x128_1 : Vec F S128 .f32 → Vec F S1x128 .f32),
    StableHlo.unary main_v223 main_v224 (broadcastInDim S50000x128 ![0, 1] bcast_S1x128_S50000x128_0_1 : Vec F S1x128 .f32 → Vec F S50000x128 .f32),
    StableHlo.binary main_v222 main_v224 main_v225 (addf : Vec F S50000x128 .f32 → Vec F S50000x128 .f32 → Vec F S50000x128 .f32),
    StableHlo.binary main_v167 main_v225 main_v226 (addf : Vec F S50000x128 .f32 → Vec F S50000x128 .f32 → Vec F S50000x128 .f32),
    StableHlo.unary main_arg5 main_v227 ((extractStridedSlice S1x128 ![2, 0] · slices_S4x128_S1x128_2_0) : Vec F S4x128 .f32 → Vec F S1x128 .f32),
    StableHlo.reshape main_v227 main_v228 rfl shapeCasts_S1x128_S128,
    StableHlo.unary main_arg6 main_v229 ((extractStridedSlice S1x128 ![2, 0] · slices_S4x128_S1x128_2_0) : Vec F S4x128 .f32 → Vec F S1x128 .f32),
    StableHlo.reshape main_v229 main_v230 rfl shapeCasts_S1x128_S128,
    StableHlo.nullary main_cst_48 (constant S_ .f32 0x00000000#32),
    StableHlo.binary main_v226 main_cst_48 main_v231 ((fun x v => Host.reduceAdd x v reducesTo_S50000x128_S50000_d1 h_S_) : Vec F S50000x128 .f32 → Vec F S_ .f32 → Vec F S50000 .f32),
    StableHlo.unary main_v231 main_v232 (broadcastInDim S50000x1 ![0] bcast_S50000_S50000x1_0 : Vec F S50000 .f32 → Vec F S50000x1 .f32),
    StableHlo.nullary main_cst_49 (constant S_ .f32 0x43000000#32),
    StableHlo.unary main_cst_49 main_v233 (broadcastInDim S50000x1 ![] bcast_S_S50000x1 : Vec F S_ .f32 → Vec F S50000x1 .f32),
    StableHlo.binary main_v232 main_v233 main_v234 (Host.divf : Vec F S50000x1 .f32 → Vec F S50000x1 .f32 → Vec F S50000x1 .f32),
    StableHlo.nullary main_c_50 (constantI S_ 32 0#32),
    StableHlo.TRef.nullary main_call4.cst (constant S_ .f32 0x00000000#32),
    StableHlo.TRef.binary (.of main_v226 : StableHlo.TRef sig ⟨S50000x128, .f32⟩) main_call4.cst main_call4.v0 (fun x v => Host.reduceAdd x v reducesTo_S50000x128_S50000_d1 h_S_),
    StableHlo.TRef.unary main_call4.v0 main_call4.v1 (broadcastInDim S50000x1 ![0] bcast_S50000_S50000x1_0),
    StableHlo.TRef.nullary main_call4.cst_0 (constant S_ .f32 0x43000000#32),
    StableHlo.TRef.unary main_call4.cst_0 main_call4.v2 (broadcastInDim S50000x1 ![] bcast_S_S50000x1),
    StableHlo.TRef.binary main_call4.v1 main_call4.v2 main_call4.v3 Host.divf,
    StableHlo.TRef.unary main_call4.v3 main_call4.v4 (broadcastInDim S50000x128 ![0, 1] bcast_S50000x1_S50000x128_0_1),
    StableHlo.TRef.binary (.of main_v226 : StableHlo.TRef sig ⟨S50000x128, .f32⟩) main_call4.v4 main_call4.v5 subf,
    StableHlo.TRef.binary main_call4.v5 main_call4.v5 main_call4.v6 mulf,
    StableHlo.TRef.unary (.of main_c_50 : StableHlo.TRef sig ⟨S_, .i32⟩) main_call4.v7 (sitofp .f32),
    StableHlo.TRef.nullary main_call4.cst_1 (constant S_ .f32 0x43000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S50000_d1 h_S_),
    StableHlo.TRef.unary main_call4.v9 main_call4.v10 (broadcastInDim S50000x1 ![0] bcast_S50000_S50000x1_0),
    StableHlo.TRef.unary main_call4.v8 main_call4.v11 (broadcastInDim S50000x1 ![] bcast_S_S50000x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S50000x1 ![] bcast_S_S50000x1),
    StableHlo.TRef.ternary main_call4.v13 main_call4.v12 main_call4.call0.v1 main_call4.call0.v2 (fun p a b => select (broadcastInDim S50000x1 ![] bcast_S_S50000x1 p) a b),
    StableHlo.unary main_v234 main_v236 (broadcastInDim S50000x128 ![0, 1] bcast_S50000x1_S50000x128_0_1 : Vec F S50000x1 .f32 → Vec F S50000x128 .f32),
    StableHlo.binary main_v226 main_v236 main_v237 (subf : Vec F S50000x128 .f32 → Vec F S50000x128 .f32 → Vec F S50000x128 .f32),
    StableHlo.nullary main_cst_51 (constant S_ .f32 0x3727C5AC#32),
    StableHlo.unary main_cst_51 main_v238 (broadcastInDim S50000x1 ![] bcast_S_S50000x1 : Vec F S_ .f32 → Vec F S50000x1 .f32),
    StableHlo.binary main_v235 main_v238 main_v239 (addf : Vec F S50000x1 .f32 → Vec F S50000x1 .f32 → Vec F S50000x1 .f32),
    StableHlo.unary main_v239 main_v240 (Host.rsqrt : Vec F S50000x1 .f32 → Vec F S50000x1 .f32),
    StableHlo.unary main_v240 main_v241 (broadcastInDim S50000x128 ![0, 1] bcast_S50000x1_S50000x128_0_1 : Vec F S50000x1 .f32 → Vec F S50000x128 .f32),
    StableHlo.binary main_v237 main_v241 main_v242 (mulf : Vec F S50000x128 .f32 → Vec F S50000x128 .f32 → Vec F S50000x128 .f32),
    StableHlo.unary main_v228 main_v243 (broadcastInDim S1x128 ![1] bcast_S128_S1x128_1 : Vec F S128 .f32 → Vec F S1x128 .f32),
    StableHlo.unary main_v243 main_v244 (broadcastInDim S50000x128 ![0, 1] bcast_S1x128_S50000x128_0_1 : Vec F S1x128 .f32 → Vec F S50000x128 .f32),
    StableHlo.binary main_v242 main_v244 main_v245 (mulf : Vec F S50000x128 .f32 → Vec F S50000x128 .f32 → Vec F S50000x128 .f32) ]

abbrev opsW4 : List (Ref sig .tc) :=
  [ main_v195, main_v196, main_v197, main_v198, main_v199, main_cst_43, main_v200, main_c_44,
    main_v201, main_v202, main_c_45, main_v203, main_v204, main_v205, main_v206, main_v207,
    main_v208, main_v209, main_v210, main_c_46, main_v211, main_v212, main_c_47, main_v213,
    main_v214, main_v215, main_v216, main_v217, main_v218, main_v219, main_v220, main_v221,
    main_v222, main_v223, main_v224, main_v225, main_v226, main_v227, main_v228, main_v229,
    main_v230, main_cst_48, main_v231, main_v232, main_cst_49, main_v233, main_v234, main_c_50,
    main_call4_cst, main_call4_v0, main_call4_v1, main_call4_cst_0, main_call4_v2, main_call4_v3, main_call4_v4, main_call4_v5,
    main_call4_v6, main_call4_v7, main_call4_cst_1, main_call4_v8, main_call4_cst_2, main_call4_v9, main_call4_v10, main_call4_v11,
    main_call4_v12, main_call4_cst_3, main_call4_v13, main_call4_cst_4, main_call4_call0_v0, main_call4_call0_v1, main_v235, main_v236,
    main_v237, main_cst_51, main_v238, main_v239, main_v240, main_v241, main_v242, main_v243,
    main_v244, main_v245 ]

abbrev ops5 : List (HloOp τ sig (Elt F)) :=
  [ StableHlo.unary main_v230 main_v246 (broadcastInDim S1x128 ![1] bcast_S128_S1x128_1 : Vec F S128 .f32 → Vec F S1x128 .f32),
    StableHlo.unary main_v246 main_v247 (broadcastInDim S50000x128 ![0, 1] bcast_S1x128_S50000x128_0_1 : Vec F S1x128 .f32 → Vec F S50000x128 .f32),
    StableHlo.binary main_v245 main_v247 main_v248 (addf : Vec F S50000x128 .f32 → Vec F S50000x128 .f32 → Vec F S50000x128 .f32),
    StableHlo.TRef.nullary main_call5.cst (constant S_ .f32 0x00000000#32),
    StableHlo.TRef.unary main_call5.cst main_call5.v0 (broadcastInDim S50000x128 ![] bcast_S_S50000x128),
    StableHlo.TRef.binary (.of main_v248 : StableHlo.TRef sig ⟨S50000x128, .f32⟩) main_call5.v0 main_call5.v1 maximumf,
    StableHlo.unary main_arg3 main_v250 ((extractStridedSlice S1x128x128 ![3, 0, 0] · slices_S4x128x128_S1x128x128_3_0_0) : Vec F S4x128x128 .f32 → Vec F S1x128x128 .f32),
    StableHlo.reshape main_v250 main_v251 rfl shapeCasts_S1x128x128_S128x128,
    StableHlo.unary main_arg4 main_v252 ((extractStridedSlice S1x128 ![3, 0] · slices_S4x128_S1x128_3_0) : Vec F S4x128 .f32 → Vec F S1x128 .f32),
    StableHlo.reshape main_v252 main_v253 rfl shapeCasts_S1x128_S128,
    StableHlo.binary main_v249 main_v251 main_v254 ((fun l r => Host.dotGeneral dot_S50000x128_S128x128_S50000x128_1_0_0_1_n_n none l r) : Vec F S50000x128 .f32 → Vec F S128x128 .f32 → Vec F S50000x128 .f32),
    StableHlo.nullary main_cst_52 (constant S_ .f32 0x00000000#32),
    StableHlo.unary main_cst_52 main_v255 (broadcastInDim S50000 ![] bcast_S_S50000 : Vec F S_ .f32 → Vec F S50000 .f32),
    StableHlo.nullary main_c_53 (constantI S_ 32 0#32),
    StableHlo.unary main_c_53 main_v256 (broadcastInDim S600000 ![] bcast_S_S600000 : Vec F S_ .i32 → Vec F S600000 .i32),
    StableHlo.binary main_v3 main_v256 main_v257 (cmpi .slt : Vec F S600000 .i32 → Vec F S600000 .i32 → Vec F S600000 .i1),
    StableHlo.nullary main_c_54 (constantI S_ 32 50000#32),
    StableHlo.unary main_c_54 main_v258 (broadcastInDim S600000 ![] bcast_S_S600000 : Vec F S_ .i32 → Vec F S600000 .i32),
    StableHlo.binary main_v3 main_v258 main_v259 (addi : Vec F S600000 .i32 → Vec F S600000 .i32 → Vec F S600000 .i32),
    StableHlo.ternary main_v257 main_v259 main_v3 main_v260 (select : Vec F S600000 .i1 → Vec F S600000 .i32 → Vec F S600000 .i32 → Vec F S600000 .i32),
    StableHlo.unary main_v260 main_v261 (broadcastInDim S600000x1 ![0] bcast_S600000_S600000x1_0 : Vec F S600000 .i32 → Vec F S600000x1 .i32),
    StableHlo.nullary main_cst_55 (constant S_ .f32 0x3F800000#32),
    StableHlo.unary main_cst_55 main_v262 (broadcastInDim S600000 ![] bcast_S_S600000 : Vec F S_ .f32 → Vec F S600000 .f32),
    StableHlo.ternary main_v255 main_v261 main_v262 main_v263 ((fun x i u => Host.scatterAdd scatter_S50000_S600000x1_S600000_n_0_0_1 x i u) : Vec F S50000 .f32 → Vec F S600000x1 .i32 → Vec F S600000 .f32 → Vec F S50000 .f32),
    StableHlo.nullary main_cst_56 (constant S_ .f32 0x3F800000#32),
    StableHlo.unary main_cst_56 main_v264 (broadcastInDim S50000 ![] bcast_S_S50000 : Vec F S_ .f32 → Vec F S50000 .f32),
    StableHlo.binary main_v263 main_v264 main_v265 (addf : Vec F S50000 .f32 → Vec F S50000 .f32 → Vec F S50000 .f32),
    StableHlo.unary main_v265 main_v266 (Host.rsqrt : Vec F S50000 .f32 → Vec F S50000 .f32),
    StableHlo.nullary main_c_57 (constantI S_ 32 0#32),
    StableHlo.unary main_c_57 main_v267 (broadcastInDim S600000 ![] bcast_S_S600000 : Vec F S_ .i32 → Vec F S600000 .i32),
    StableHlo.binary main_v1 main_v267 main_v268 (cmpi .slt : Vec F S600000 .i32 → Vec F S600000 .i32 → Vec F S600000 .i1),
    StableHlo.nullary main_c_58 (constantI S_ 32 50000#32),
    StableHlo.unary main_c_58 main_v269 (broadcastInDim S600000 ![] bcast_S_S600000 : Vec F S_ .i32 → Vec F S600000 .i32),
    StableHlo.binary main_v1 main_v269 main_v270 (addi : Vec F S600000 .i32 → Vec F S600000 .i32 → Vec F S600000 .i32),
    StableHlo.ternary main_v268 main_v270 main_v1 main_v271 (select : Vec F S600000 .i1 → Vec F S600000 .i32 → Vec F S600000 .i32 → Vec F S600000 .i32),
    StableHlo.unary main_v271 main_v272 (broadcastInDim S600000x1 ![0] bcast_S600000_S600000x1_0 : Vec F S600000 .i32 → Vec F S600000x1 .i32),
    StableHlo.binary main_v266 main_v272 main_v273 ((fun x i => Host.gather gather_S50000_S600000x1_S600000_n_0_n_n_0_1_1 x i) : Vec F S50000 .f32 → Vec F S600000x1 .i32 → Vec F S600000 .f32),
    StableHlo.nullary main_c_59 (constantI S_ 32 0#32),
    StableHlo.unary main_c_59 main_v274 (broadcastInDim S600000 ![] bcast_S_S600000 : Vec F S_ .i32 → Vec F S600000 .i32),
    StableHlo.binary main_v3 main_v274 main_v275 (cmpi .slt : Vec F S600000 .i32 → Vec F S600000 .i32 → Vec F S600000 .i1),
    StableHlo.nullary main_c_60 (constantI S_ 32 50000#32),
    StableHlo.unary main_c_60 main_v276 (broadcastInDim S600000 ![] bcast_S_S600000 : Vec F S_ .i32 → Vec F S600000 .i32),
    StableHlo.binary main_v3 main_v276 main_v277 (addi : Vec F S600000 .i32 → Vec F S600000 .i32 → Vec F S600000 .i32),
    StableHlo.ternary main_v275 main_v277 main_v3 main_v278 (select : Vec F S600000 .i1 → Vec F S600000 .i32 → Vec F S600000 .i32 → Vec F S600000 .i32),
    StableHlo.unary main_v278 main_v279 (broadcastInDim S600000x1 ![0] bcast_S600000_S600000x1_0 : Vec F S600000 .i32 → Vec F S600000x1 .i32),
    StableHlo.binary main_v266 main_v279 main_v280 ((fun x i => Host.gather gather_S50000_S600000x1_S600000_n_0_n_n_0_1_1 x i) : Vec F S50000 .f32 → Vec F S600000x1 .i32 → Vec F S600000 .f32),
    StableHlo.binary main_v273 main_v280 main_v281 (mulf : Vec F S600000 .f32 → Vec F S600000 .f32 → Vec F S600000 .f32),
    StableHlo.nullary main_cst_61 (constant S_ .f32 0x00000000#32),
    StableHlo.unary main_cst_61 main_v282 (broadcastInDim S50000x128 ![] bcast_S_S50000x128 : Vec F S_ .f32 → Vec F S50000x128 .f32),
    StableHlo.nullary main_c_62 (constantI S_ 32 0#32),
    StableHlo.unary main_c_62 main_v283 (broadcastInDim S600000 ![] bcast_S_S600000 : Vec F S_ .i32 → Vec F S600000 .i32),
    StableHlo.binary main_v1 main_v283 main_v284 (cmpi .slt : Vec F S600000 .i32 → Vec F S600000 .i32 → Vec F S600000 .i1),
    StableHlo.nullary main_c_63 (constantI S_ 32 50000#32),
    StableHlo.unary main_c_63 main_v285 (broadcastInDim S600000 ![] bcast_S_S600000 : Vec F S_ .i32 → Vec F S600000 .i32),
    StableHlo.binary main_v1 main_v285 main_v286 (addi : Vec F S600000 .i32 → Vec F S600000 .i32 → Vec F S600000 .i32),
    StableHlo.ternary main_v284 main_v286 main_v1 main_v287 (select : Vec F S600000 .i1 → Vec F S600000 .i32 → Vec F S600000 .i32 → Vec F S600000 .i32),
    StableHlo.unary main_v287 main_v288 (broadcastInDim S600000x1 ![0] bcast_S600000_S600000x1_0 : Vec F S600000 .i32 → Vec F S600000x1 .i32),
    StableHlo.binary main_v254 main_v288 main_v289 ((fun x i => Host.gather gather_S50000x128_S600000x1_S600000x128_1_0_n_n_0_1_1128 x i) : Vec F S50000x128 .f32 → Vec F S600000x1 .i32 → Vec F S600000x128 .f32),
    StableHlo.unary main_v281 main_v290 (broadcastInDim S600000x1 ![0] bcast_S600000_S600000x1_0 : Vec F S600000 .f32 → Vec F S600000x1 .f32),
    StableHlo.unary main_v290 main_v291 (broadcastInDim S600000x128 ![0, 1] bcast_S600000x1_S600000x128_0_1 : Vec F S600000x1 .f32 → Vec F S600000x128 .f32),
    StableHlo.binary main_v289 main_v291 main_v292 (mulf : Vec F S600000x128 .f32 → Vec F S600000x128 .f32 → Vec F S600000x128 .f32),
    StableHlo.nullary main_c_64 (constantI S_ 32 0#32) ]

abbrev opsW5 : List (Ref sig .tc) :=
  [ main_v246, main_v247, main_v248, main_call5_cst, main_call5_v0, main_v249, main_v250, main_v251,
    main_v252, main_v253, main_v254, main_cst_52, main_v255, main_c_53, main_v256, main_v257,
    main_c_54, main_v258, main_v259, main_v260, main_v261, main_cst_55, main_v262, main_v263,
    main_cst_56, main_v264, main_v265, main_v266, main_c_57, main_v267, main_v268, main_c_58,
    main_v269, main_v270, main_v271, main_v272, main_v273, main_c_59, main_v274, main_v275,
    main_c_60, main_v276, main_v277, main_v278, main_v279, main_v280, main_v281, main_cst_61,
    main_v282, main_c_62, main_v283, main_v284, main_c_63, main_v285, main_v286, main_v287,
    main_v288, main_v289, main_v290, main_v291, main_v292, main_c_64 ]

abbrev ops6 : List (HloOp τ sig (Elt F)) :=
  [ StableHlo.unary main_c_64 main_v293 (broadcastInDim S600000 ![] bcast_S_S600000 : Vec F S_ .i32 → Vec F S600000 .i32),
    StableHlo.binary main_v3 main_v293 main_v294 (cmpi .slt : Vec F S600000 .i32 → Vec F S600000 .i32 → Vec F S600000 .i1),
    StableHlo.nullary main_c_65 (constantI S_ 32 50000#32),
    StableHlo.unary main_c_65 main_v295 (broadcastInDim S600000 ![] bcast_S_S600000 : Vec F S_ .i32 → Vec F S600000 .i32),
    StableHlo.binary main_v3 main_v295 main_v296 (addi : Vec F S600000 .i32 → Vec F S600000 .i32 → Vec F S600000 .i32),
    StableHlo.ternary main_v294 main_v296 main_v3 main_v297 (select : Vec F S600000 .i1 → Vec F S600000 .i32 → Vec F S600000 .i32 → Vec F S600000 .i32),
    StableHlo.unary main_v297 main_v298 (broadcastInDim S600000x1 ![0] bcast_S600000_S600000x1_0 : Vec F S600000 .i32 → Vec F S600000x1 .i32),
    StableHlo.ternary main_v282 main_v298 main_v292 main_v299 ((fun x i u => Host.scatterAdd scatter_S50000x128_S600000x1_S600000x128_1_0_0_1 x i u) : Vec F S50000x128 .f32 → Vec F S600000x1 .i32 → Vec F S600000x128 .f32 → Vec F S50000x128 .f32),
    StableHlo.binary main_v266 main_v266 main_v300 (mulf : Vec F S50000 .f32 → Vec F S50000 .f32 → Vec F S50000 .f32),
    StableHlo.unary main_v300 main_v301 (broadcastInDim S50000x1 ![0] bcast_S50000_S50000x1_0 : Vec F S50000 .f32 → Vec F S50000x1 .f32),
    StableHlo.unary main_v301 main_v302 (broadcastInDim S50000x128 ![0, 1] bcast_S50000x1_S50000x128_0_1 : Vec F S50000x1 .f32 → Vec F S50000x128 .f32),
    StableHlo.binary main_v254 main_v302 main_v303 (mulf : Vec F S50000x128 .f32 → Vec F S50000x128 .f32 → Vec F S50000x128 .f32),
    StableHlo.binary main_v299 main_v303 main_v304 (addf : Vec F S50000x128 .f32 → Vec F S50000x128 .f32 → Vec F S50000x128 .f32),
    StableHlo.unary main_v253 main_v305 (broadcastInDim S1x128 ![1] bcast_S128_S1x128_1 : Vec F S128 .f32 → Vec F S1x128 .f32),
    StableHlo.unary main_v305 main_v306 (broadcastInDim S50000x128 ![0, 1] bcast_S1x128_S50000x128_0_1 : Vec F S1x128 .f32 → Vec F S50000x128 .f32),
    StableHlo.binary main_v304 main_v306 main_v307 (addf : Vec F S50000x128 .f32 → Vec F S50000x128 .f32 → Vec F S50000x128 .f32),
    StableHlo.binary main_v249 main_v307 main_v308 (addf : Vec F S50000x128 .f32 → Vec F S50000x128 .f32 → Vec F S50000x128 .f32),
    StableHlo.unary main_arg5 main_v309 ((extractStridedSlice S1x128 ![3, 0] · slices_S4x128_S1x128_3_0) : Vec F S4x128 .f32 → Vec F S1x128 .f32),
    StableHlo.reshape main_v309 main_v310 rfl shapeCasts_S1x128_S128,
    StableHlo.unary main_arg6 main_v311 ((extractStridedSlice S1x128 ![3, 0] · slices_S4x128_S1x128_3_0) : Vec F S4x128 .f32 → Vec F S1x128 .f32),
    StableHlo.reshape main_v311 main_v312 rfl shapeCasts_S1x128_S128,
    StableHlo.nullary main_cst_66 (constant S_ .f32 0x00000000#32),
    StableHlo.binary main_v308 main_cst_66 main_v313 ((fun x v => Host.reduceAdd x v reducesTo_S50000x128_S50000_d1 h_S_) : Vec F S50000x128 .f32 → Vec F S_ .f32 → Vec F S50000 .f32),
    StableHlo.unary main_v313 main_v314 (broadcastInDim S50000x1 ![0] bcast_S50000_S50000x1_0 : Vec F S50000 .f32 → Vec F S50000x1 .f32),
    StableHlo.nullary main_cst_67 (constant S_ .f32 0x43000000#32),
    StableHlo.unary main_cst_67 main_v315 (broadcastInDim S50000x1 ![] bcast_S_S50000x1 : Vec F S_ .f32 → Vec F S50000x1 .f32),
    StableHlo.binary main_v314 main_v315 main_v316 (Host.divf : Vec F S50000x1 .f32 → Vec F S50000x1 .f32 → Vec F S50000x1 .f32),
    StableHlo.nullary main_c_68 (constantI S_ 32 0#32),
    StableHlo.TRef.nullary main_call6.cst (constant S_ .f32 0x00000000#32),
    StableHlo.TRef.binary (.of main_v308 : StableHlo.TRef sig ⟨S50000x128, .f32⟩) main_call6.cst main_call6.v0 (fun x v => Host.reduceAdd x v reducesTo_S50000x128_S50000_d1 h_S_),
    StableHlo.TRef.unary main_call6.v0 main_call6.v1 (broadcastInDim S50000x1 ![0] bcast_S50000_S50000x1_0),
    StableHlo.TRef.nullary main_call6.cst_0 (constant S_ .f32 0x43000000#32),
    StableHlo.TRef.unary main_call6.cst_0 main_call6.v2 (broadcastInDim S50000x1 ![] bcast_S_S50000x1),
    StableHlo.TRef.binary main_call6.v1 main_call6.v2 main_call6.v3 Host.divf,
    StableHlo.TRef.unary main_call6.v3 main_call6.v4 (broadcastInDim S50000x128 ![0, 1] bcast_S50000x1_S50000x128_0_1),
    StableHlo.TRef.binary (.of main_v308 : StableHlo.TRef sig ⟨S50000x128, .f32⟩) main_call6.v4 main_call6.v5 subf,
    StableHlo.TRef.binary main_call6.v5 main_call6.v5 main_call6.v6 mulf,
    StableHlo.TRef.unary (.of main_c_68 : StableHlo.TRef sig ⟨S_, .i32⟩) main_call6.v7 (sitofp .f32),
    StableHlo.TRef.nullary main_call6.cst_1 (constant S_ .f32 0x43000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S50000_d1 h_S_),
    StableHlo.TRef.unary main_call6.v9 main_call6.v10 (broadcastInDim S50000x1 ![0] bcast_S50000_S50000x1_0),
    StableHlo.TRef.unary main_call6.v8 main_call6.v11 (broadcastInDim S50000x1 ![] bcast_S_S50000x1),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S50000x1 ![] bcast_S_S50000x1),
    StableHlo.TRef.ternary main_call6.v13 main_call6.v12 main_call6.call0.v1 main_call6.call0.v2 (fun p a b => select (broadcastInDim S50000x1 ![] bcast_S_S50000x1 p) a b),
    StableHlo.unary main_v316 main_v318 (broadcastInDim S50000x128 ![0, 1] bcast_S50000x1_S50000x128_0_1 : Vec F S50000x1 .f32 → Vec F S50000x128 .f32),
    StableHlo.binary main_v308 main_v318 main_v319 (subf : Vec F S50000x128 .f32 → Vec F S50000x128 .f32 → Vec F S50000x128 .f32),
    StableHlo.nullary main_cst_69 (constant S_ .f32 0x3727C5AC#32),
    StableHlo.unary main_cst_69 main_v320 (broadcastInDim S50000x1 ![] bcast_S_S50000x1 : Vec F S_ .f32 → Vec F S50000x1 .f32),
    StableHlo.binary main_v317 main_v320 main_v321 (addf : Vec F S50000x1 .f32 → Vec F S50000x1 .f32 → Vec F S50000x1 .f32),
    StableHlo.unary main_v321 main_v322 (Host.rsqrt : Vec F S50000x1 .f32 → Vec F S50000x1 .f32),
    StableHlo.unary main_v322 main_v323 (broadcastInDim S50000x128 ![0, 1] bcast_S50000x1_S50000x128_0_1 : Vec F S50000x1 .f32 → Vec F S50000x128 .f32),
    StableHlo.binary main_v319 main_v323 main_v324 (mulf : Vec F S50000x128 .f32 → Vec F S50000x128 .f32 → Vec F S50000x128 .f32),
    StableHlo.unary main_v310 main_v325 (broadcastInDim S1x128 ![1] bcast_S128_S1x128_1 : Vec F S128 .f32 → Vec F S1x128 .f32),
    StableHlo.unary main_v325 main_v326 (broadcastInDim S50000x128 ![0, 1] bcast_S1x128_S50000x128_0_1 : Vec F S1x128 .f32 → Vec F S50000x128 .f32),
    StableHlo.binary main_v324 main_v326 main_v327 (mulf : Vec F S50000x128 .f32 → Vec F S50000x128 .f32 → Vec F S50000x128 .f32),
    StableHlo.unary main_v312 main_v328 (broadcastInDim S1x128 ![1] bcast_S128_S1x128_1 : Vec F S128 .f32 → Vec F S1x128 .f32),
    StableHlo.unary main_v328 main_v329 (broadcastInDim S50000x128 ![0, 1] bcast_S1x128_S50000x128_0_1 : Vec F S1x128 .f32 → Vec F S50000x128 .f32),
    StableHlo.binary main_v327 main_v329 main_v330 (addf : Vec F S50000x128 .f32 → Vec F S50000x128 .f32 → Vec F S50000x128 .f32),
    StableHlo.TRef.nullary main_call7.cst (constant S_ .f32 0x00000000#32),
    StableHlo.TRef.unary main_call7.cst main_call7.v0 (broadcastInDim S50000x128 ![] bcast_S_S50000x128),
    StableHlo.TRef.binary (.of main_v330 : StableHlo.TRef sig ⟨S50000x128, .f32⟩) main_call7.v0 main_call7.v1 maximumf,
    StableHlo.nullary main_cst_70 (constant S_ .f32 0x00000000#32),
    StableHlo.unary main_cst_70 main_v332 (broadcastInDim S128x128 ![] bcast_S_S128x128 : Vec F S_ .f32 → Vec F S128x128 .f32),
    StableHlo.unary main_arg2 main_v333 (broadcastInDim S50000x1 ![0] bcast_S50000_S50000x1_0 : Vec F S50000 .i32 → Vec F S50000x1 .i32),
    StableHlo.ternary main_v332 main_v333 main_v331 main_v334 ((fun x i u => Host.scatterAdd scatter_S128x128_S50000x1_S50000x128_1_0_0_1 x i u) : Vec F S128x128 .f32 → Vec F S50000x1 .i32 → Vec F S50000x128 .f32 → Vec F S128x128 .f32),
    StableHlo.nullary main_cst_71 (constant S_ .f32 0x3F800000#32),
    StableHlo.unary main_cst_71 main_v335 (broadcastInDim S50000 ![] bcast_S_S50000 : Vec F S_ .f32 → Vec F S50000 .f32),
    StableHlo.nullary main_cst_72 (constant S_ .f32 0x00000000#32),
    StableHlo.unary main_cst_72 main_v336 (broadcastInDim S128 ![] bcast_S_S128 : Vec F S_ .f32 → Vec F S128 .f32),
    StableHlo.unary main_arg2 main_v337 (broadcastInDim S50000x1 ![0] bcast_S50000_S50000x1_0 : Vec F S50000 .i32 → Vec F S50000x1 .i32),
    StableHlo.ternary main_v336 main_v337 main_v335 main_v338 ((fun x i u => Host.scatterAdd scatter_S128_S50000x1_S50000_n_0_0_1 x i u) : Vec F S128 .f32 → Vec F S50000x1 .i32 → Vec F S50000 .f32 → Vec F S128 .f32),
    StableHlo.nullary main_cst_73 (constant S_ .f32 0x3F800000#32),
    StableHlo.TRef.unary (.of main_cst_73 : StableHlo.TRef sig ⟨S_, .f32⟩) main_call8.v0 id,
    StableHlo.TRef.unary main_call8.v0 main_call8.v1 (broadcastInDim S128 ![] bcast_S_S128),
    StableHlo.TRef.binary main_call8.v1 (.of main_v338 : StableHlo.TRef sig ⟨S128, .f32⟩) main_call8.v2 maximumf,
    StableHlo.unary main_v339 main_v340 (broadcastInDim S128x1 ![0] bcast_S128_S128x1_0 : Vec F S128 .f32 → Vec F S128x1 .f32),
    StableHlo.unary main_v340 main_v341 (broadcastInDim S128x128 ![0, 1] bcast_S128x1_S128x128_0_1 : Vec F S128x1 .f32 → Vec F S128x128 .f32),
    StableHlo.binary main_v334 main_v341 main_v342 (Host.divf : Vec F S128x128 .f32 → Vec F S128x128 .f32 → Vec F S128x128 .f32) ]

abbrev opsW6 : List (Ref sig .tc) :=
  [ main_v293, main_v294, main_c_65, main_v295, main_v296, main_v297, main_v298, main_v299,
    main_v300, main_v301, main_v302, main_v303, main_v304, main_v305, main_v306, main_v307,
    main_v308, main_v309, main_v310, main_v311, main_v312, main_cst_66, main_v313, main_v314,
    main_cst_67, main_v315, main_v316, main_c_68, main_call6_cst, main_call6_v0, main_call6_v1, main_call6_cst_0,
    main_call6_v2, main_call6_v3, main_call6_v4, main_call6_v5, main_call6_v6, main_call6_v7, main_call6_cst_1, main_call6_v8,
    main_call6_cst_2, main_call6_v9, main_call6_v10, main_call6_v11, main_call6_v12, main_call6_cst_3, main_call6_v13, main_call6_cst_4,
    main_call6_call0_v0, main_call6_call0_v1, main_v317, main_v318, main_v319, main_cst_69, main_v320, main_v321,
    main_v322, main_v323, main_v324, main_v325, main_v326, main_v327, main_v328, main_v329,
    main_v330, main_call7_cst, main_call7_v0, main_v331, main_cst_70, main_v332, main_v333, main_v334,
    main_cst_71, main_v335, main_cst_72, main_v336, main_v337, main_v338, main_cst_73, main_call8_v0,
    main_call8_v1, main_v339, main_v340, main_v341, main_v342 ]

abbrev ops : List (HloOp τ sig (Elt F)) := ops0 ++ ops1 ++ ops2 ++ ops3 ++ ops4 ++ ops5 ++ ops6

abbrev opsW : List (Ref sig .tc) := opsW0 ++ opsW1 ++ opsW2 ++ opsW3 ++ opsW4 ++ opsW5 ++ opsW6

theorem writesOnly_cons {op : HloOp τ sig (Elt F)} {l : List (HloOp τ sig (Elt F))} {w : Ref sig .tc} {W : List (Ref sig .tc)}
    (h : op.writes = {Proc.devRef .tc w}) (t : Ssa.WritesOnly l W) : Ssa.WritesOnly (op :: l) (w :: W) := And.intro h t

theorem writesOnly_append : ∀ (l₁ l₂ : List (HloOp τ sig (Elt F))) (W₁ W₂ : List (Ref sig .tc)),
    Ssa.WritesOnly l₁ W₁ → Ssa.WritesOnly l₂ W₂ → Ssa.WritesOnly (l₁ ++ l₂) (W₁ ++ W₂)
  | [], _, [], _, _, h => h
  | _ :: l, l₂, _ :: W, W₂, h₁, h₂ => And.intro h₁.1 (writesOnly_append l l₂ W W₂ h₁.2 h₂)
  | [], _, _ :: _, _, h, _ => h.elim
  | _ :: _, _, [], _, h, _ => h.elim

theorem ops0_writes : Ssa.WritesOnly (ops0 (F := F)) opsW0 := by
  repeat (first | exact trivial | (refine writesOnly_cons ?_ ?_; rfl))

theorem ops1_writes : Ssa.WritesOnly (ops1 (F := F)) opsW1 := by
  repeat (first | exact trivial | (refine writesOnly_cons ?_ ?_; rfl))

theorem ops2_writes : Ssa.WritesOnly (ops2 (F := F)) opsW2 := by
  repeat (first | exact trivial | (refine writesOnly_cons ?_ ?_; rfl))

theorem ops3_writes : Ssa.WritesOnly (ops3 (F := F)) opsW3 := by
  repeat (first | exact trivial | (refine writesOnly_cons ?_ ?_; rfl))

theorem ops4_writes : Ssa.WritesOnly (ops4 (F := F)) opsW4 := by
  repeat (first | exact trivial | (refine writesOnly_cons ?_ ?_; rfl))

theorem ops5_writes : Ssa.WritesOnly (ops5 (F := F)) opsW5 := by
  repeat (first | exact trivial | (refine writesOnly_cons ?_ ?_; rfl))

theorem ops6_writes : Ssa.WritesOnly (ops6 (F := F)) opsW6 := by
  repeat (first | exact trivial | (refine writesOnly_cons ?_ ?_; rfl))

theorem ops_writes : Ssa.WritesOnly (ops (F := F)) opsW :=
  writesOnly_append _ _ _ _ (writesOnly_append _ _ _ _ (writesOnly_append _ _ _ _ (writesOnly_append _ _ _ _ (writesOnly_append _ _ _ _ (writesOnly_append _ _ _ _ (ops0_writes) ops1_writes) ops2_writes) ops3_writes) ops4_writes) ops5_writes) ops6_writes

end Cert.ReferenceIdeal.Hand

end
-- ==== Proof.RefRun.lean ====
import proofs.«428520_j76347338654282_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
theorem part0_eq (c : Dev nD) : main_part0 (F := F) c = seq ops0 := rfl

set_option maxRecDepth 16384 in
theorem part1_eq (c : Dev nD) : main_part1 (F := F) c = seq ops1 := by
  simp only [main_part1, fn_var.body, fn_where.body, fn_relu.body, seq, bind_assoc, pure_bind]
  rfl

set_option maxRecDepth 16384 in
theorem part2_eq (c : Dev nD) : main_part2 (F := F) c = seq ops2 := rfl

set_option maxRecDepth 16384 in
theorem part3_eq (c : Dev nD) : main_part3 (F := F) c = seq ops3 := by
  simp only [main_part3, fn_var.body, fn_where.body, fn_relu.body, seq, bind_assoc, pure_bind]
  rfl

set_option maxRecDepth 16384 in
theorem part4_eq (c : Dev nD) : main_part4 (F := F) c = seq ops4 := by
  simp only [main_part4, fn_var.body, fn_where.body, seq, bind_assoc, pure_bind]
  rfl

set_option maxRecDepth 16384 in
theorem part5_eq (c : Dev nD) : main_part5 (F := F) c = seq ops5 := by
  simp only [main_part5, fn_relu.body, seq, bind_assoc, pure_bind]
  rfl

set_option maxRecDepth 16384 in
theorem part6_eq (c : Dev nD) : main_part6 (F := F) c = seq ops6 := by
  simp only [main_part6, fn_var.body, fn_where.body, fn_relu.body, fn_clip.body, seq, bind_assoc, pure_bind]

theorem main_eq (c : Dev nD) : main (F := F) c = seq ops := by
  simp only [main, ops, seq_append, part0_eq, part1_eq, part2_eq, part3_eq, part4_eq, part5_eq, part6_eq, bind_assoc]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 (F := F)).Forall fun op => op.bufs ⊆ tcRefs τ sig := by
  simp only [List.Forall, nullary_bufs_sub, unary_bufs_sub, binary_bufs_sub, ternary_bufs_sub, reshape_bufs_sub, and_self]

theorem ops1_sub : (ops1 (F := F)).Forall fun op => op.bufs ⊆ tcRefs τ sig := by
  simp only [List.Forall, nullary_bufs_sub, unary_bufs_sub, binary_bufs_sub, ternary_bufs_sub, reshape_bufs_sub, and_self]

theorem ops2_sub : (ops2 (F := F)).Forall fun op => op.bufs ⊆ tcRefs τ sig := by
  simp only [List.Forall, nullary_bufs_sub, unary_bufs_sub, binary_bufs_sub, ternary_bufs_sub, reshape_bufs_sub, and_self]

theorem ops3_sub : (ops3 (F := F)).Forall fun op => op.bufs ⊆ tcRefs τ sig := by
  simp only [List.Forall, nullary_bufs_sub, unary_bufs_sub, binary_bufs_sub, ternary_bufs_sub, reshape_bufs_sub, and_self]

theorem ops4_sub : (ops4 (F := F)).Forall fun op => op.bufs ⊆ tcRefs τ sig := by
  simp only [List.Forall, nullary_bufs_sub, unary_bufs_sub, binary_bufs_sub, ternary_bufs_sub, reshape_bufs_sub, and_self]

theorem ops5_sub : (ops5 (F := F)).Forall fun op => op.bufs ⊆ tcRefs τ sig := by
  simp only [List.Forall, nullary_bufs_sub, unary_bufs_sub, binary_bufs_sub, ternary_bufs_sub, reshape_bufs_sub, and_self]

theorem ops6_sub : (ops6 (F := F)).Forall fun op => op.bufs ⊆ tcRefs τ sig := by
  simp only [List.Forall, nullary_bufs_sub, unary_bufs_sub, binary_bufs_sub, ternary_bufs_sub, reshape_bufs_sub, and_self]

theorem ops_sub : (ops (F := F)).Forall fun op => op.bufs ⊆ tcRefs τ sig := by
  simp only [ops, List.forall_append]
  exact ⟨⟨⟨⟨⟨⟨ops0_sub, ops1_sub⟩, ops2_sub⟩, ops3_sub⟩, ops4_sub⟩, ops5_sub⟩, ops6_sub⟩

theorem ops0_fresh : ∀ op ∈ (ops0 (F := F)), op.fresh = ∅ := by
  intro op h
  repeat (cases h with | head => rfl | tail _ h => ?_)
  exact nomatch h

theorem ops1_fresh : ∀ op ∈ (ops1 (F := F)), op.fresh = ∅ := by
  intro op h
  repeat (cases h with | head => rfl | tail _ h => ?_)
  exact nomatch h

theorem ops2_fresh : ∀ op ∈ (ops2 (F := F)), op.fresh = ∅ := by
  intro op h
  repeat (cases h with | head => rfl | tail _ h => ?_)
  exact nomatch h

theorem ops3_fresh : ∀ op ∈ (ops3 (F := F)), op.fresh = ∅ := by
  intro op h
  repeat (cases h with | head => rfl | tail _ h => ?_)
  exact nomatch h

theorem ops4_fresh : ∀ op ∈ (ops4 (F := F)), op.fresh = ∅ := by
  intro op h
  repeat (cases h with | head => rfl | tail _ h => ?_)
  exact nomatch h

theorem ops5_fresh : ∀ op ∈ (ops5 (F := F)), op.fresh = ∅ := by
  intro op h
  repeat (cases h with | head => rfl | tail _ h => ?_)
  exact nomatch h

theorem ops6_fresh : ∀ op ∈ (ops6 (F := F)), op.fresh = ∅ := by
  intro op h
  repeat (cases h with | head => rfl | tail _ h => ?_)
  exact nomatch h

theorem ops_fresh : ∀ op ∈ (ops (F := F)), op.fresh = ∅ := by
  intro op h
  simp only [ops, List.mem_append] at h
  rcases h with (((((h | h) | h) | h) | h) | h) | h
  exacts [ops0_fresh op h, ops1_fresh op h, ops2_fresh op h, ops3_fresh op h, ops4_fresh op h, ops5_fresh op h, ops6_fresh op h]

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

theorem arg0_eq (V : Valuation τ sig (Elt F)) :
    after ops V (Proc.devRef .tc main_arg0) = V (Proc.devRef .tc main_arg0) :=
  Ssa.after_arg ops_writes V main_arg0

theorem arg1_eq (V : Valuation τ sig (Elt F)) :
    after ops V (Proc.devRef .tc main_arg1) = V (Proc.devRef .tc main_arg1) :=
  Ssa.after_arg ops_writes V main_arg1

theorem arg2_eq (V : Valuation τ sig (Elt F)) :
    after ops V (Proc.devRef .tc main_arg2) = V (Proc.devRef .tc main_arg2) :=
  Ssa.after_arg ops_writes V main_arg2

theorem arg3_eq (V : Valuation τ sig (Elt F)) :
    after ops V (Proc.devRef .tc main_arg3) = V (Proc.devRef .tc main_arg3) :=
  Ssa.after_arg ops_writes V main_arg3

theorem arg4_eq (V : Valuation τ sig (Elt F)) :
    after ops V (Proc.devRef .tc main_arg4) = V (Proc.devRef .tc main_arg4) :=
  Ssa.after_arg ops_writes V main_arg4

theorem arg5_eq (V : Valuation τ sig (Elt F)) :
    after ops V (Proc.devRef .tc main_arg5) = V (Proc.devRef .tc main_arg5) :=
  Ssa.after_arg ops_writes V main_arg5

theorem arg6_eq (V : Valuation τ sig (Elt F)) :
    after ops V (Proc.devRef .tc main_arg6) = V (Proc.devRef .tc main_arg6) :=
  Ssa.after_arg ops_writes V main_arg6

theorem run_io (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v342) = after ops (launchContents m c) (Proc.devRef .tc main_v342)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v342,
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run m ρ)

end Cert.ReferenceIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def ofArr {a b : Nat} {α : Type} (v : (⟨2, ![a, b]⟩ : Shape).Idx → α) : Fin a → Fin b → α := fun p q => v (ix2 p q)

def toArr {a b : Nat} {α : Type} (f : Fin a → Fin b → α) : (⟨2, ![a, b]⟩ : Shape).Idx → α := fun i => f (i 0) (i 1)

theorem ofArr_toArr {a b : Nat} {α : Type} (f : Fin a → Fin b → α) : ofArr (toArr f) = f := rfl

theorem toArr_ofArr {a b : Nat} {α : Type} (v : (⟨2, ![a, b]⟩ : Shape).Idx → α) : toArr (ofArr v) = v := by
  funext i; unfold toArr ofArr; exact congrArg v (eq_ix2 i).symm

abbrev w128 : EReal := Ideal.ofBits .f32 0x43000000#32

abbrev wEps : EReal := Ideal.ofBits .f32 0x3727C5AC#32

abbrev wZero : EReal := Ideal.ofBits .f32 0x00000000#32

def linear (x : Fin 50000 → Fin 128 → EReal) (w : Fin 128 → Fin 128 → EReal) : Fin 50000 → Fin 128 → EReal :=
  fun n j => ∑ k : Fin 128, x n k * w k j

def resid (x agg : Fin 50000 → Fin 128 → EReal) (b : Fin 128 → EReal) : Fin 50000 → Fin 128 → EReal :=
  fun n j => (x n j + agg n j) + b j

def rowMean (y : Fin 50000 → Fin 128 → EReal) : Fin 50000 → EReal :=
  fun n => Ideal.div (∑ j : Fin 128, y n j) w128

def rowVar (y : Fin 50000 → Fin 128 → EReal) : Fin 50000 → EReal :=
  fun n => Ideal.div (∑ j : Fin 128, (y n j - rowMean y n) * (y n j - rowMean y n)) w128

def normRelu (y : Fin 50000 → Fin 128 → EReal) (g bt : Fin 128 → EReal) : Fin 50000 → Fin 128 → EReal :=
  fun n j => max ((((y n j - rowMean y n) * Ideal.rsqrt (rowVar y n + wEps)) * g j) + bt j) wZero

def layer (agg : (Fin 50000 → Fin 128 → EReal) → Fin 50000 → Fin 128 → EReal)
    (x : Fin 50000 → Fin 128 → EReal) (w : Fin 128 → Fin 128 → EReal) (b g bt : Fin 128 → EReal) :
    Fin 50000 → Fin 128 → EReal :=
  normRelu (resid x (agg (linear x w)) b) g bt

def pool (x : Fin 50000 → Fin 128 → EReal) (gid : Fin 50000 → BitVec 32) : Fin 128 → Fin 128 → EReal :=
  fun γ d => ∑ n : Fin 50000, if gid n = BitVec.ofNat 32 γ.val then x n d else 0

def result (agg : (Fin 50000 → Fin 128 → EReal) → Fin 50000 → Fin 128 → EReal)
    (tail : (Fin 128 → Fin 128 → EReal) → Fin 128 → Fin 128 → EReal)
    (x : Fin 50000 → Fin 128 → EReal) (w : Fin 4 → Fin 128 → Fin 128 → EReal) (b g bt : Fin 4 → Fin 128 → EReal)
    (gid : Fin 50000 → BitVec 32) : Fin 128 → Fin 128 → EReal :=
  tail (pool (layer agg (layer agg (layer agg (layer agg x (w 0) (b 0) (g 0) (bt 0)) (w 1) (b 1) (g 1) (bt 1))
    (w 2) (b 2) (g 2) (bt 2)) (w 3) (b 3) (g 3) (bt 3)) gid)

end Cert.Spec

end
-- ==== Proof.KDefs.lean ====
import proofs.«428520_j76347338654282_1_alg».proof.KernelIdeal
import proofs.«428520_j76347338654282_1_alg».proof.Proof.Spec

noncomputable section

namespace Cert.KernelIdeal.ValHand

open Idealize.ShloMosaic Cert.KernelIdeal

variable [Facts₀]
open Facts₀

def KSrc (ei : IVec S2x600000 32) : IVec S600000 32 :=
  shapeCast S600000 (extractStridedSlice S1x600000 ![0, 0] ei slices_S2x600000_S1x600000_0_0) shapeCasts_S1x600000_S600000

def KDst (ei : IVec S2x600000 32) : IVec S600000 32 :=
  shapeCast S600000 (extractStridedSlice S1x600000 ![1, 0] ei slices_S2x600000_S1x600000_1_0) shapeCasts_S1x600000_S600000

def KNorm (d : IVec S600000 32) : IVec S600000 32 :=
  select (cmpi .slt d (broadcastInDim S600000 ![] bcast_S_S600000 (constantI S_ 32 0#32)))
    (addi d (broadcastInDim S600000 ![] bcast_S_S600000 (constantI S_ 32 50000#32))) d

def KCol (d : IVec S600000 32) : IVec S600000x1 32 :=
  broadcastInDim S600000x1 ![0] bcast_S600000_S600000x1_0 (KNorm d)

def KDeg (ei : IVec S2x600000 32) : FVec Ideal S50000 .f32 :=
  addf
    (Host.scatterAdd scatter_S50000_S600000x1_S600000_n_0_0_1
      (broadcastInDim S50000 ![] bcast_S_S50000 (constant (F := Ideal) S_ .f32 0x00000000#32))
      (KCol (KDst ei))
      (broadcastInDim S600000 ![] bcast_S_S600000 (constant (F := Ideal) S_ .f32 0x3F800000#32)))
    (broadcastInDim S50000 ![] bcast_S_S50000 (constant (F := Ideal) S_ .f32 0x3F800000#32))

def KDinv (ei : IVec S2x600000 32) : FVec Ideal S50000 .f32 := Host.rsqrt (KDeg ei)

def KCoef (ei : IVec S2x600000 32) : FVec Ideal S600000 .f32 :=
  mulf (Host.gather gather_S50000_S600000x1_S600000_n_0_n_n_0_1_1 (KDinv ei) (KCol (KSrc ei)))
    (Host.gather gather_S50000_S600000x1_S600000_n_0_n_n_0_1_1 (KDinv ei) (KCol (KDst ei)))

def KSelf (ei : IVec S2x600000 32) : FVec Ideal S50000 .f32 := mulf (KDinv ei) (KDinv ei)

def KAggArr (ei : IVec S2x600000 32) (hh : FVec Ideal S50000x128 .f32) : FVec Ideal S50000x128 .f32 :=
  addf
    (Host.scatterAdd scatter_S50000x128_S600000x1_S600000x128_1_0_0_1
      (broadcastInDim S50000x128 ![] bcast_S_S50000x128 (constant (F := Ideal) S_ .f32 0x00000000#32))
      (KCol (KDst ei))
      (mulf (Host.gather gather_S50000x128_S600000x1_S600000x128_1_0_n_n_0_1_1128 hh (KCol (KSrc ei)))
        (broadcastInDim S600000x128 ![0, 1] bcast_S600000x1_S600000x128_0_1
          (broadcastInDim S600000x1 ![0] bcast_S600000_S600000x1_0 (KCoef ei)))))
    (mulf hh
      (broadcastInDim S50000x128 ![0, 1] bcast_S50000x1_S50000x128_0_1
        (broadcastInDim S50000x1 ![0] bcast_S50000_S50000x1_0 (KSelf ei))))

def KAgg (ei : S2x600000.Idx → BitVec 32) (h : Fin 50000 → Fin 128 → EReal) : Fin 50000 → Fin 128 → EReal :=
  Cert.Spec.ofArr (KAggArr ei (Cert.Spec.toArr h))

def KCnt (bt : IVec S50000 32) : FVec Ideal S128 .f32 :=
  Host.scatterAdd scatter_S128_S50000x1_S50000_n_0_0_1
    (broadcastInDim S128 ![] bcast_S_S128 (constant (F := Ideal) S_ .f32 0x00000000#32))
    (broadcastInDim S50000x1 ![0] bcast_S50000_S50000x1_0 bt)
    (broadcastInDim S50000 ![] bcast_S_S50000 (constant (F := Ideal) S_ .f32 0x3F800000#32))

def KClip (bt : IVec S50000 32) : FVec Ideal S128 .f32 :=
  maximumf (broadcastInDim S128 ![] bcast_S_S128 (id (constant (F := Ideal) S_ .f32 0x3F800000#32))) (KCnt bt)

def KTailArr (bt : IVec S50000 32) (ss : FVec Ideal S128x128 .f32) : FVec Ideal S128x128 .f32 :=
  Host.divf ss
    (broadcastInDim S128x128 ![0, 1] bcast_S128x1_S128x128_0_1
      (broadcastInDim S128x1 ![0] bcast_S128_S128x1_0 (KClip bt)))

def KTail (bt : S50000.Idx → BitVec 32) (s : Fin 128 → Fin 128 → EReal) : Fin 128 → Fin 128 → EReal :=
  Cert.Spec.ofArr (KTailArr bt (Cert.Spec.toArr s))

end Cert.KernelIdeal.ValHand

end
-- ==== Proof.RefDefs.lean ====
import proofs.«428520_j76347338654282_1_alg».proof.ReferenceIdeal
import proofs.«428520_j76347338654282_1_alg».proof.Proof.Spec

noncomputable section

namespace Cert.ReferenceIdeal.ValHand

open Idealize.ShloMosaic Idealize.SL.Sem
open Cert.ReferenceIdeal
open Cert.ReferenceIdeal.Facts₀ Cert.ReferenceIdeal.Facts

variable [Facts]

def edgeSrc (ei : IVec S2x600000 32) : IVec S600000 32 :=
  shapeCast S600000 (extractStridedSlice S1x600000 ![0, 0] ei slices_S2x600000_S1x600000_0_0) shapeCasts_S1x600000_S600000

def edgeDst (ei : IVec S2x600000 32) : IVec S600000 32 :=
  shapeCast S600000 (extractStridedSlice S1x600000 ![1, 0] ei slices_S2x600000_S1x600000_1_0) shapeCasts_S1x600000_S600000

def idxCol (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 50000#32))) v)

def degInv (dst : IVec S600000 32) : FVec Ideal S50000 .f32 :=
  Host.rsqrt
    (addf
      (Host.scatterAdd scatter_S50000_S600000x1_S600000_n_0_0_1
        (broadcastInDim S50000 ![] bcast_S_S50000 (constant S_ .f32 0x00000000#32))
        (idxCol dst)
        (broadcastInDim S600000 ![] bcast_S_S600000 (constant S_ .f32 0x3F800000#32)))
      (broadcastInDim S50000 ![] bcast_S_S50000 (constant S_ .f32 0x3F800000#32)))

def edgeCoef (src dst : IVec S600000 32) : FVec Ideal S600000 .f32 :=
  mulf (Host.gather gather_S50000_S600000x1_S600000_n_0_n_n_0_1_1 (degInv dst) (idxCol src))
    (Host.gather gather_S50000_S600000x1_S600000_n_0_n_n_0_1_1 (degInv dst) (idxCol dst))

def aggArr (src dst : IVec S600000 32) (h : FVec Ideal S50000x128 .f32) : FVec Ideal S50000x128 .f32 :=
  addf
    (Host.scatterAdd scatter_S50000x128_S600000x1_S600000x128_1_0_0_1
      (broadcastInDim S50000x128 ![] bcast_S_S50000x128 (constant S_ .f32 0x00000000#32))
      (idxCol dst)
      (mulf (Host.gather gather_S50000x128_S600000x1_S600000x128_1_0_n_n_0_1_1128 h (idxCol src))
        (broadcastInDim S600000x128 ![0, 1] bcast_S600000x1_S600000x128_0_1
          (broadcastInDim S600000x1 ![0] bcast_S600000_S600000x1_0 (edgeCoef src dst)))))
    (mulf h
      (broadcastInDim S50000x128 ![0, 1] bcast_S50000x1_S50000x128_0_1
        (broadcastInDim S50000x1 ![0] bcast_S50000_S50000x1_0 (mulf (degInv dst) (degInv dst)))))

def RAgg (ei : S2x600000.Idx → BitVec 32) (h : Fin 50000 → Fin 128 → EReal) : Fin 50000 → Fin 128 → EReal :=
  Cert.Spec.ofArr (aggArr (edgeSrc ei) (edgeDst ei) (Cert.Spec.toArr h))

def graphCnt (bt : IVec S50000 32) : FVec Ideal S128 .f32 :=
  Host.scatterAdd scatter_S128_S50000x1_S50000_n_0_0_1
    (broadcastInDim S128 ![] bcast_S_S128 (constant S_ .f32 0x00000000#32))
    (broadcastInDim S50000x1 ![0] bcast_S50000_S50000x1_0 bt)
    (broadcastInDim S50000 ![] bcast_S_S50000 (constant S_ .f32 0x3F800000#32))

def tailArr (bt : IVec S50000 32) (s : FVec Ideal S128x128 .f32) : FVec Ideal S128x128 .f32 :=
  Host.divf s
    (broadcastInDim S128x128 ![0, 1] bcast_S128x1_S128x128_0_1
      (broadcastInDim S128x1 ![0] bcast_S128_S128x1_0
        (maximumf (broadcastInDim S128 ![] bcast_S_S128 (id (constant S_ .f32 0x3F800000#32))) (graphCnt bt))))

def RTail (bt : S50000.Idx → BitVec 32) (s : Fin 128 → Fin 128 → EReal) : Fin 128 → Fin 128 → EReal :=
  Cert.Spec.ofArr (tailArr bt (Cert.Spec.toArr s))

end Cert.ReferenceIdeal.ValHand

end
-- ==== Proof.Bridge.lean ====
import proofs.«428520_j76347338654282_1_alg».proof.Proof.KDefs
import proofs.«428520_j76347338654282_1_alg».proof.Proof.RefDefs

noncomputable section

namespace Cert.Proof.Bridge

open Idealize.ShloMosaic
open Cert.KernelIdeal.ValHand Cert.ReferenceIdeal.ValHand

variable [Cert.KernelIdeal.Facts] [Cert.ReferenceIdeal.Facts]

theorem agg_eq (ei : Cert.KernelIdeal.S2x600000.Idx → BitVec 32) : KAgg ei = RAgg ei := by
  funext h
  unfold KAgg RAgg KAggArr aggArr KCoef edgeCoef KSelf KDinv KDeg degInv KCol KNorm idxCol KSrc KDst edgeSrc edgeDst
  rfl

theorem tail_eq (bt : Cert.KernelIdeal.S50000.Idx → BitVec 32) : KTail bt = RTail bt := by
  funext s
  unfold KTail RTail KTailArr tailArr KClip KCnt graphCnt
  rfl

end Cert.Proof.Bridge

end
-- ==== Proof.RefStages.lean ====
import proofs.«428520_j76347338654282_1_alg».proof.Proof.RefDefs

noncomputable section

namespace Cert.ReferenceIdeal.ValHand

open Idealize.ShloMosaic Idealize.SL.Sem
open Cert.ReferenceIdeal
open Cert.ReferenceIdeal.Facts₀ Cert.ReferenceIdeal.Facts

variable [Facts]

def wSlice (off : Fin 3 → Nat) (hs : S4x128x128.Slices off S1x128x128) (W : FVec Ideal S4x128x128 .f32) :
    FVec Ideal S128x128 .f32 :=
  shapeCast S128x128 (extractStridedSlice S1x128x128 off W hs) shapeCasts_S1x128x128_S128x128

def rowSlice (off : Fin 2 → Nat) (hs : S4x128.Slices off S1x128) (B : FVec Ideal S4x128 .f32) : FVec Ideal S128 .f32 :=
  shapeCast S128 (extractStridedSlice S1x128 off B hs) shapeCasts_S1x128_S128

def linArr (x : FVec Ideal S50000x128 .f32) (w : FVec Ideal S128x128 .f32) : FVec Ideal S50000x128 .f32 :=
  Host.dotGeneral dot_S50000x128_S128x128_S50000x128_1_0_0_1_n_n none x w

def rowBc (v : FVec Ideal S128 .f32) : FVec Ideal S50000x128 .f32 :=
  broadcastInDim S50000x128 ![0, 1] bcast_S1x128_S50000x128_0_1 (broadcastInDim S1x128 ![1] bcast_S128_S1x128_1 v)

def colBc (v : FVec Ideal S50000x1 .f32) : FVec Ideal S50000x128 .f32 :=
  broadcastInDim S50000x128 ![0, 1] bcast_S50000x1_S50000x128_0_1 v

def residArr (x agg : FVec Ideal S50000x128 .f32) (b : FVec Ideal S128 .f32) : FVec Ideal S50000x128 .f32 :=
  addf x (addf agg (rowBc b))

def meanCol (y : FVec Ideal S50000x128 .f32) : FVec Ideal S50000x1 .f32 :=
  Host.divf
    (broadcastInDim S50000x1 ![0] bcast_S50000_S50000x1_0
      (Host.reduceAdd y (constant S_ .f32 0x00000000#32) reducesTo_S50000x128_S50000_d1 h_S_))
    (broadcastInDim S50000x1 ![] bcast_S_S50000x1 (constant S_ .f32 0x43000000#32))

def varDen : FVec Ideal S_ .f32 :=
  subf (constant S_ .f32 0x43000000#32) (sitofp .f32 (constantI S_ 32 0#32))

def varCol (y : FVec Ideal S50000x128 .f32) : FVec Ideal S50000x1 .f32 :=
  select (broadcastInDim S50000x1 ![] bcast_S_S50000x1 (cmpf .ogt varDen (constant S_ .f32 0x00000000#32)))
    (Host.divf
      (broadcastInDim S50000x1 ![0] bcast_S50000_S50000x1_0
        (Host.reduceAdd (mulf (subf y (colBc (meanCol y))) (subf y (colBc (meanCol y))))
          (constant S_ .f32 0x00000000#32) reducesTo_S50000x128_S50000_d1 h_S_))
      (broadcastInDim S50000x1 ![] bcast_S_S50000x1 varDen))
    (broadcastInDim S50000x1 ![] bcast_S_S50000x1 (id (constant S_ .f32 0x7FC00000#32)))

def normArr (y : FVec Ideal S50000x128 .f32) (g bt : FVec Ideal S128 .f32) : FVec Ideal S50000x128 .f32 :=
  maximumf
    (addf
      (mulf
        (mulf (subf y (colBc (meanCol y)))
          (colBc (Host.rsqrt (addf (varCol y)
            (broadcastInDim S50000x1 ![] bcast_S_S50000x1 (constant S_ .f32 0x3727C5AC#32))))))
        (rowBc g))
      (rowBc bt))
    (broadcastInDim S50000x128 ![] bcast_S_S50000x128 (constant S_ .f32 0x00000000#32))

def layerArr (off3 : Fin 3 → Nat) (hs3 : S4x128x128.Slices off3 S1x128x128) (off2 : Fin 2 → Nat)
    (hs2 : S4x128.Slices off2 S1x128) (ei : IVec S2x600000 32) (x : FVec Ideal S50000x128 .f32)
    (W : FVec Ideal S4x128x128 .f32) (B G BT : FVec Ideal S4x128 .f32) : FVec Ideal S50000x128 .f32 :=
  normArr
    (residArr x (aggArr (edgeSrc ei) (edgeDst ei) (linArr x (wSlice off3 hs3 W))) (rowSlice off2 hs2 B))
    (rowSlice off2 hs2 G) (rowSlice off2 hs2 BT)

def poolArr (bt : IVec S50000 32) (x : FVec Ideal S50000x128 .f32) : FVec Ideal S128x128 .f32 :=
  Host.scatterAdd scatter_S128x128_S50000x1_S50000x128_1_0_0_1
    (broadcastInDim S128x128 ![] bcast_S_S128x128 (constant S_ .f32 0x00000000#32))
    (broadcastInDim S50000x1 ![0] bcast_S50000_S50000x1_0 bt) x

end Cert.ReferenceIdeal.ValHand

end
-- ==== Proof.RefWalk0.lean ====
import proofs.«428520_j76347338654282_1_alg».proof.Proof.RefOps
import proofs.«428520_j76347338654282_1_alg».proof.Proof.RefStages
import proofs.«428520_j76347338654282_1_alg».proof.Proof.LibSsa

set_option maxRecDepth 100000

noncomputable section

namespace Cert.ReferenceIdeal.ValHand

open Idealize.ShloMosaic Idealize.SL.Sem Idealize.ShloMosaic.StableHlo
open Cert.ReferenceIdeal
open Cert.ReferenceIdeal.Facts₀ Cert.ReferenceIdeal.Facts

set_option hygiene false in
local notation "𝔸 " x:max => StableHlo.after (Hand.ops (F := Ideal)) V (Proc.devRef .tc x)

private theorem hW : Ssa.WritesOnly (Hand.ops (F := Ideal)) Hand.opsW := Hand.ops_writes

theorem walk0_lin (V : Valuation τ sig (Elt Ideal)) :
    𝔸 main_v8 = linArr (V (Proc.devRef .tc main_arg0)) (wSlice ![0, 0, 0] slices_S4x128x128_S1x128x128_0_0_0 (V (Proc.devRef .tc main_arg3))) := by
  rw [Ssa.ssa_binary hW V 8 rfl, Ssa.ssa_reshape hW V 5 rfl, Ssa.ssa_unary hW V 4 rfl, Ssa.after_arg hW V main_arg0, Ssa.after_arg hW V main_arg3]
  rfl

theorem walk0_agg (V : Valuation τ sig (Elt Ideal)) :
    𝔸 main_v58 = aggArr (edgeSrc (V (Proc.devRef .tc main_arg1))) (edgeDst (V (Proc.devRef .tc main_arg1))) (𝔸 main_v8) := by
  rw [Ssa.ssa_binary hW V 72 rfl, Ssa.ssa_binary hW V 71 rfl, Ssa.ssa_unary hW V 70 rfl, Ssa.ssa_unary hW V 69 rfl, Ssa.ssa_binary hW V 68 rfl, Ssa.ssa_ternary hW V 67 rfl, Ssa.ssa_unary hW V 66 rfl, Ssa.ssa_ternary hW V 65 rfl, Ssa.ssa_binary hW V 64 rfl, Ssa.ssa_unary hW V 63 rfl,
    Ssa.ssa_nullary hW V 62 rfl, Ssa.ssa_binary hW V 61 rfl, Ssa.ssa_unary hW V 60 rfl, Ssa.ssa_nullary hW V 59 rfl, Ssa.ssa_binary hW V 58 rfl, Ssa.ssa_unary hW V 57 rfl, Ssa.ssa_unary hW V 56 rfl, Ssa.ssa_binary hW V 55 rfl, Ssa.ssa_unary hW V 54 rfl, Ssa.ssa_ternary hW V 53 rfl,
    Ssa.ssa_binary hW V 52 rfl, Ssa.ssa_unary hW V 51 rfl, Ssa.ssa_nullary hW V 50 rfl, Ssa.ssa_binary hW V 49 rfl, Ssa.ssa_unary hW V 48 rfl, Ssa.ssa_nullary hW V 47 rfl, Ssa.ssa_unary hW V 46 rfl, Ssa.ssa_nullary hW V 45 rfl, Ssa.ssa_binary hW V 44 rfl, Ssa.ssa_binary hW V 43 rfl,
    Ssa.ssa_unary hW V 42 rfl, Ssa.ssa_ternary hW V 41 rfl, Ssa.ssa_binary hW V 40 rfl, Ssa.ssa_unary hW V 39 rfl, Ssa.ssa_nullary hW V 38 rfl, Ssa.ssa_binary hW V 37 rfl, Ssa.ssa_unary hW V 36 rfl, Ssa.ssa_nullary hW V 35 rfl, Ssa.ssa_binary hW V 34 rfl, Ssa.ssa_unary hW V 33 rfl,
    Ssa.ssa_ternary hW V 32 rfl, Ssa.ssa_binary hW V 31 rfl, Ssa.ssa_unary hW V 30 rfl, Ssa.ssa_nullary hW V 29 rfl, Ssa.ssa_binary hW V 28 rfl, Ssa.ssa_unary hW V 27 rfl, Ssa.ssa_nullary hW V 26 rfl, Ssa.ssa_unary hW V 25 rfl, Ssa.ssa_binary hW V 24 rfl, Ssa.ssa_unary hW V 23 rfl,
    Ssa.ssa_nullary hW V 22 rfl, Ssa.ssa_ternary hW V 21 rfl, Ssa.ssa_unary hW V 20 rfl, Ssa.ssa_nullary hW V 19 rfl, Ssa.ssa_unary hW V 18 rfl, Ssa.ssa_ternary hW V 17 rfl, Ssa.ssa_binary hW V 16 rfl, Ssa.ssa_unary hW V 15 rfl, Ssa.ssa_nullary hW V 14 rfl, Ssa.ssa_binary hW V 13 rfl,
    Ssa.ssa_unary hW V 12 rfl, Ssa.ssa_nullary hW V 11 rfl, Ssa.ssa_unary hW V 10 rfl, Ssa.ssa_nullary hW V 9 rfl, Ssa.ssa_reshape hW V 3 rfl, Ssa.ssa_unary hW V 2 rfl, Ssa.ssa_reshape hW V 1 rfl, Ssa.ssa_unary hW V 0 rfl, Ssa.after_arg hW V main_arg1]
  rfl

theorem walk0_resid (V : Valuation τ sig (Elt Ideal)) :
    𝔸 main_v62 = residArr (V (Proc.devRef .tc main_arg0)) (𝔸 main_v58) (rowSlice ![0, 0] slices_S4x128_S1x128_0_0 (V (Proc.devRef .tc main_arg4))) := by
  rw [Ssa.ssa_binary hW V 76 rfl, Ssa.ssa_binary hW V 75 rfl, Ssa.ssa_unary hW V 74 rfl, Ssa.ssa_unary hW V 73 rfl, Ssa.ssa_reshape hW V 7 rfl, Ssa.ssa_unary hW V 6 rfl, Ssa.after_arg hW V main_arg0, Ssa.after_arg hW V main_arg4]
  rfl

theorem walk0_norm (V : Valuation τ sig (Elt Ideal)) :
    𝔸 main_v85 = normArr (𝔸 main_v62) (rowSlice ![0, 0] slices_S4x128_S1x128_0_0 (V (Proc.devRef .tc main_arg5))) (rowSlice ![0, 0] slices_S4x128_S1x128_0_0 (V (Proc.devRef .tc main_arg6))) := by
  rw [Ssa.ssa_binary hW V 127 rfl, Ssa.ssa_unary hW V 126 rfl, Ssa.ssa_nullary hW V 125 rfl, Ssa.ssa_binary hW V 124 rfl, Ssa.ssa_unary hW V 123 rfl, Ssa.ssa_unary hW V 122 rfl, Ssa.ssa_binary hW V 121 rfl, Ssa.ssa_unary hW V 120 rfl, Ssa.ssa_unary hW V 119 rfl, Ssa.ssa_binary hW V 118 rfl,
    Ssa.ssa_unary hW V 117 rfl, Ssa.ssa_unary hW V 116 rfl, Ssa.ssa_binary hW V 115 rfl, Ssa.ssa_unary hW V 114 rfl, Ssa.ssa_nullary hW V 113 rfl, Ssa.ssa_binary hW V 112 rfl, Ssa.ssa_unary hW V 111 rfl, Ssa.ssa_ternary hW V 110 rfl, Ssa.ssa_unary hW V 109 rfl, Ssa.ssa_unary hW V 108 rfl,
    Ssa.ssa_nullary hW V 107 rfl, Ssa.ssa_binary hW V 106 rfl, Ssa.ssa_nullary hW V 105 rfl, Ssa.ssa_binary hW V 104 rfl, Ssa.ssa_unary hW V 103 rfl, Ssa.ssa_unary hW V 102 rfl, Ssa.ssa_binary hW V 101 rfl, Ssa.ssa_nullary hW V 100 rfl, Ssa.ssa_binary hW V 99 rfl, Ssa.ssa_nullary hW V 98 rfl,
    Ssa.ssa_unary hW V 97 rfl, Ssa.ssa_binary hW V 96 rfl, Ssa.ssa_binary hW V 95 rfl, Ssa.ssa_unary hW V 94 rfl, Ssa.ssa_binary hW V 93 rfl, Ssa.ssa_unary hW V 92 rfl, Ssa.ssa_nullary hW V 91 rfl, Ssa.ssa_unary hW V 90 rfl, Ssa.ssa_binary hW V 89 rfl, Ssa.ssa_nullary hW V 88 rfl,
    Ssa.ssa_nullary hW V 87 rfl, Ssa.ssa_binary hW V 86 rfl, Ssa.ssa_unary hW V 85 rfl, Ssa.ssa_nullary hW V 84 rfl, Ssa.ssa_unary hW V 83 rfl, Ssa.ssa_binary hW V 82 rfl, Ssa.ssa_nullary hW V 81 rfl, Ssa.ssa_reshape hW V 80 rfl, Ssa.ssa_unary hW V 79 rfl, Ssa.ssa_reshape hW V 78 rfl,
    Ssa.ssa_unary hW V 77 rfl, Ssa.after_arg hW V main_arg5, Ssa.after_arg hW V main_arg6]
  rfl

theorem walk_layer0 (V : Valuation τ sig (Elt Ideal)) :
    𝔸 main_v85 = layerArr ![0, 0, 0] slices_S4x128x128_S1x128x128_0_0_0 ![0, 0] slices_S4x128_S1x128_0_0 (V (Proc.devRef .tc main_arg1)) (V (Proc.devRef .tc main_arg0)) (V (Proc.devRef .tc main_arg3)) (V (Proc.devRef .tc main_arg4)) (V (Proc.devRef .tc main_arg5)) (V (Proc.devRef .tc main_arg6)) := by
  rw [walk0_norm V, walk0_resid V, walk0_agg V, walk0_lin V]
  rfl

end Cert.ReferenceIdeal.ValHand

end
-- ==== Proof.RefWalk1.lean ====
import proofs.«428520_j76347338654282_1_alg».proof.Proof.RefOps
import proofs.«428520_j76347338654282_1_alg».proof.Proof.RefStages
import proofs.«428520_j76347338654282_1_alg».proof.Proof.LibSsa

set_option maxRecDepth 100000

noncomputable section

namespace Cert.ReferenceIdeal.ValHand

open Idealize.ShloMosaic Idealize.SL.Sem Idealize.ShloMosaic.StableHlo
open Cert.ReferenceIdeal
open Cert.ReferenceIdeal.Facts₀ Cert.ReferenceIdeal.Facts

set_option hygiene false in
local notation "𝔸 " x:max => StableHlo.after (Hand.ops (F := Ideal)) V (Proc.devRef .tc x)

private theorem hW : Ssa.WritesOnly (Hand.ops (F := Ideal)) Hand.opsW := Hand.ops_writes

theorem walk1_lin (V : Valuation τ sig (Elt Ideal)) :
    𝔸 main_v90 = linArr (𝔸 main_v85) (wSlice ![1, 0, 0] slices_S4x128x128_S1x128x128_1_0_0 (V (Proc.devRef .tc main_arg3))) := by
  rw [Ssa.ssa_binary hW V 132 rfl, Ssa.ssa_reshape hW V 129 rfl, Ssa.ssa_unary hW V 128 rfl, Ssa.after_arg hW V main_arg3]
  rfl

theorem walk1_agg (V : Valuation τ sig (Elt Ideal)) :
    𝔸 main_v140 = aggArr (edgeSrc (V (Proc.devRef .tc main_arg1))) (edgeDst (V (Proc.devRef .tc main_arg1))) (𝔸 main_v90) := by
  rw [Ssa.ssa_binary hW V 196 rfl, Ssa.ssa_binary hW V 195 rfl, Ssa.ssa_unary hW V 194 rfl, Ssa.ssa_unary hW V 193 rfl, Ssa.ssa_binary hW V 192 rfl, Ssa.ssa_ternary hW V 191 rfl, Ssa.ssa_unary hW V 190 rfl, Ssa.ssa_ternary hW V 189 rfl, Ssa.ssa_binary hW V 188 rfl, Ssa.ssa_unary hW V 187 rfl,
    Ssa.ssa_nullary hW V 186 rfl, Ssa.ssa_binary hW V 185 rfl, Ssa.ssa_unary hW V 184 rfl, Ssa.ssa_nullary hW V 183 rfl, Ssa.ssa_binary hW V 182 rfl, Ssa.ssa_unary hW V 181 rfl, Ssa.ssa_unary hW V 180 rfl, Ssa.ssa_binary hW V 179 rfl, Ssa.ssa_unary hW V 178 rfl, Ssa.ssa_ternary hW V 177 rfl,
    Ssa.ssa_binary hW V 176 rfl, Ssa.ssa_unary hW V 175 rfl, Ssa.ssa_nullary hW V 174 rfl, Ssa.ssa_binary hW V 173 rfl, Ssa.ssa_unary hW V 172 rfl, Ssa.ssa_nullary hW V 171 rfl, Ssa.ssa_unary hW V 170 rfl, Ssa.ssa_nullary hW V 169 rfl, Ssa.ssa_binary hW V 168 rfl, Ssa.ssa_binary hW V 167 rfl,
    Ssa.ssa_unary hW V 166 rfl, Ssa.ssa_ternary hW V 165 rfl, Ssa.ssa_binary hW V 164 rfl, Ssa.ssa_unary hW V 163 rfl, Ssa.ssa_nullary hW V 162 rfl, Ssa.ssa_binary hW V 161 rfl, Ssa.ssa_unary hW V 160 rfl, Ssa.ssa_nullary hW V 159 rfl, Ssa.ssa_binary hW V 158 rfl, Ssa.ssa_unary hW V 157 rfl,
    Ssa.ssa_ternary hW V 156 rfl, Ssa.ssa_binary hW V 155 rfl, Ssa.ssa_unary hW V 154 rfl, Ssa.ssa_nullary hW V 153 rfl, Ssa.ssa_binary hW V 152 rfl, Ssa.ssa_unary hW V 151 rfl, Ssa.ssa_nullary hW V 150 rfl, Ssa.ssa_unary hW V 149 rfl, Ssa.ssa_binary hW V 148 rfl, Ssa.ssa_unary hW V 147 rfl,
    Ssa.ssa_nullary hW V 146 rfl, Ssa.ssa_ternary hW V 145 rfl, Ssa.ssa_unary hW V 144 rfl, Ssa.ssa_nullary hW V 143 rfl, Ssa.ssa_unary hW V 142 rfl, Ssa.ssa_ternary hW V 141 rfl, Ssa.ssa_binary hW V 140 rfl, Ssa.ssa_unary hW V 139 rfl, Ssa.ssa_nullary hW V 138 rfl, Ssa.ssa_binary hW V 137 rfl,
    Ssa.ssa_unary hW V 136 rfl, Ssa.ssa_nullary hW V 135 rfl, Ssa.ssa_unary hW V 134 rfl, Ssa.ssa_nullary hW V 133 rfl, Ssa.ssa_reshape hW V 3 rfl, Ssa.ssa_unary hW V 2 rfl, Ssa.ssa_reshape hW V 1 rfl, Ssa.ssa_unary hW V 0 rfl, Ssa.after_arg hW V main_arg1]
  rfl

theorem walk1_resid (V : Valuation τ sig (Elt Ideal)) :
    𝔸 main_v144 = residArr (𝔸 main_v85) (𝔸 main_v140) (rowSlice ![1, 0] slices_S4x128_S1x128_1_0 (V (Proc.devRef .tc main_arg4))) := by
  rw [Ssa.ssa_binary hW V 200 rfl, Ssa.ssa_binary hW V 199 rfl, Ssa.ssa_unary hW V 198 rfl, Ssa.ssa_unary hW V 197 rfl, Ssa.ssa_reshape hW V 131 rfl, Ssa.ssa_unary hW V 130 rfl, Ssa.after_arg hW V main_arg4]
  rfl

theorem walk1_norm (V : Valuation τ sig (Elt Ideal)) :
    𝔸 main_v167 = normArr (𝔸 main_v144) (rowSlice ![1, 0] slices_S4x128_S1x128_1_0 (V (Proc.devRef .tc main_arg5))) (rowSlice ![1, 0] slices_S4x128_S1x128_1_0 (V (Proc.devRef .tc main_arg6))) := by
  rw [Ssa.ssa_binary hW V 251 rfl, Ssa.ssa_unary hW V 250 rfl, Ssa.ssa_nullary hW V 249 rfl, Ssa.ssa_binary hW V 248 rfl, Ssa.ssa_unary hW V 247 rfl, Ssa.ssa_unary hW V 246 rfl, Ssa.ssa_binary hW V 245 rfl, Ssa.ssa_unary hW V 244 rfl, Ssa.ssa_unary hW V 243 rfl, Ssa.ssa_binary hW V 242 rfl,
    Ssa.ssa_unary hW V 241 rfl, Ssa.ssa_unary hW V 240 rfl, Ssa.ssa_binary hW V 239 rfl, Ssa.ssa_unary hW V 238 rfl, Ssa.ssa_nullary hW V 237 rfl, Ssa.ssa_binary hW V 236 rfl, Ssa.ssa_unary hW V 235 rfl, Ssa.ssa_ternary hW V 234 rfl, Ssa.ssa_unary hW V 233 rfl, Ssa.ssa_unary hW V 232 rfl,
    Ssa.ssa_nullary hW V 231 rfl, Ssa.ssa_binary hW V 230 rfl, Ssa.ssa_nullary hW V 229 rfl, Ssa.ssa_binary hW V 228 rfl, Ssa.ssa_unary hW V 227 rfl, Ssa.ssa_unary hW V 226 rfl, Ssa.ssa_binary hW V 225 rfl, Ssa.ssa_nullary hW V 224 rfl, Ssa.ssa_binary hW V 223 rfl, Ssa.ssa_nullary hW V 222 rfl,
    Ssa.ssa_unary hW V 221 rfl, Ssa.ssa_binary hW V 220 rfl, Ssa.ssa_binary hW V 219 rfl, Ssa.ssa_unary hW V 218 rfl, Ssa.ssa_binary hW V 217 rfl, Ssa.ssa_unary hW V 216 rfl, Ssa.ssa_nullary hW V 215 rfl, Ssa.ssa_unary hW V 214 rfl, Ssa.ssa_binary hW V 213 rfl, Ssa.ssa_nullary hW V 212 rfl,
    Ssa.ssa_nullary hW V 211 rfl, Ssa.ssa_binary hW V 210 rfl, Ssa.ssa_unary hW V 209 rfl, Ssa.ssa_nullary hW V 208 rfl, Ssa.ssa_unary hW V 207 rfl, Ssa.ssa_binary hW V 206 rfl, Ssa.ssa_nullary hW V 205 rfl, Ssa.ssa_reshape hW V 204 rfl, Ssa.ssa_unary hW V 203 rfl, Ssa.ssa_reshape hW V 202 rfl,
    Ssa.ssa_unary hW V 201 rfl, Ssa.after_arg hW V main_arg5, Ssa.after_arg hW V main_arg6]
  rfl

theorem walk_layer1 (V : Valuation τ sig (Elt Ideal)) :
    𝔸 main_v167 = layerArr ![1, 0, 0] slices_S4x128x128_S1x128x128_1_0_0 ![1, 0] slices_S4x128_S1x128_1_0 (V (Proc.devRef .tc main_arg1)) (𝔸 main_v85) (V (Proc.devRef .tc main_arg3)) (V (Proc.devRef .tc main_arg4)) (V (Proc.devRef .tc main_arg5)) (V (Proc.devRef .tc main_arg6)) := by
  rw [walk1_norm V, walk1_resid V, walk1_agg V, walk1_lin V]
  rfl

end Cert.ReferenceIdeal.ValHand

end
-- ==== Proof.RefWalk2.lean ====
import proofs.«428520_j76347338654282_1_alg».proof.Proof.RefOps
import proofs.«428520_j76347338654282_1_alg».proof.Proof.RefStages
import proofs.«428520_j76347338654282_1_alg».proof.Proof.LibSsa

set_option maxRecDepth 100000

noncomputable section

namespace Cert.ReferenceIdeal.ValHand

open Idealize.ShloMosaic Idealize.SL.Sem Idealize.ShloMosaic.StableHlo
open Cert.ReferenceIdeal
open Cert.ReferenceIdeal.Facts₀ Cert.ReferenceIdeal.Facts

set_option hygiene false in
local notation "𝔸 " x:max => StableHlo.after (Hand.ops (F := Ideal)) V (Proc.devRef .tc x)

private theorem hW : Ssa.WritesOnly (Hand.ops (F := Ideal)) Hand.opsW := Hand.ops_writes

theorem walk2_lin (V : Valuation τ sig (Elt Ideal)) :
    𝔸 main_v172 = linArr (𝔸 main_v167) (wSlice ![2, 0, 0] slices_S4x128x128_S1x128x128_2_0_0 (V (Proc.devRef .tc main_arg3))) := by
  rw [Ssa.ssa_binary hW V 256 rfl, Ssa.ssa_reshape hW V 253 rfl, Ssa.ssa_unary hW V 252 rfl, Ssa.after_arg hW V main_arg3]
  rfl

theorem walk2_agg (V : Valuation τ sig (Elt Ideal)) :
    𝔸 main_v222 = aggArr (edgeSrc (V (Proc.devRef .tc main_arg1))) (edgeDst (V (Proc.devRef .tc main_arg1))) (𝔸 main_v172) := by
  rw [Ssa.ssa_binary hW V 320 rfl, Ssa.ssa_binary hW V 319 rfl, Ssa.ssa_unary hW V 318 rfl, Ssa.ssa_unary hW V 317 rfl, Ssa.ssa_binary hW V 316 rfl, Ssa.ssa_ternary hW V 315 rfl, Ssa.ssa_unary hW V 314 rfl, Ssa.ssa_ternary hW V 313 rfl, Ssa.ssa_binary hW V 312 rfl, Ssa.ssa_unary hW V 311 rfl,
    Ssa.ssa_nullary hW V 310 rfl, Ssa.ssa_binary hW V 309 rfl, Ssa.ssa_unary hW V 308 rfl, Ssa.ssa_nullary hW V 307 rfl, Ssa.ssa_binary hW V 306 rfl, Ssa.ssa_unary hW V 305 rfl, Ssa.ssa_unary hW V 304 rfl, Ssa.ssa_binary hW V 303 rfl, Ssa.ssa_unary hW V 302 rfl, Ssa.ssa_ternary hW V 301 rfl,
    Ssa.ssa_binary hW V 300 rfl, Ssa.ssa_unary hW V 299 rfl, Ssa.ssa_nullary hW V 298 rfl, Ssa.ssa_binary hW V 297 rfl, Ssa.ssa_unary hW V 296 rfl, Ssa.ssa_nullary hW V 295 rfl, Ssa.ssa_unary hW V 294 rfl, Ssa.ssa_nullary hW V 293 rfl, Ssa.ssa_binary hW V 292 rfl, Ssa.ssa_binary hW V 291 rfl,
    Ssa.ssa_unary hW V 290 rfl, Ssa.ssa_ternary hW V 289 rfl, Ssa.ssa_binary hW V 288 rfl, Ssa.ssa_unary hW V 287 rfl, Ssa.ssa_nullary hW V 286 rfl, Ssa.ssa_binary hW V 285 rfl, Ssa.ssa_unary hW V 284 rfl, Ssa.ssa_nullary hW V 283 rfl, Ssa.ssa_binary hW V 282 rfl, Ssa.ssa_unary hW V 281 rfl,
    Ssa.ssa_ternary hW V 280 rfl, Ssa.ssa_binary hW V 279 rfl, Ssa.ssa_unary hW V 278 rfl, Ssa.ssa_nullary hW V 277 rfl, Ssa.ssa_binary hW V 276 rfl, Ssa.ssa_unary hW V 275 rfl, Ssa.ssa_nullary hW V 274 rfl, Ssa.ssa_unary hW V 273 rfl, Ssa.ssa_binary hW V 272 rfl, Ssa.ssa_unary hW V 271 rfl,
    Ssa.ssa_nullary hW V 270 rfl, Ssa.ssa_ternary hW V 269 rfl, Ssa.ssa_unary hW V 268 rfl, Ssa.ssa_nullary hW V 267 rfl, Ssa.ssa_unary hW V 266 rfl, Ssa.ssa_ternary hW V 265 rfl, Ssa.ssa_binary hW V 264 rfl, Ssa.ssa_unary hW V 263 rfl, Ssa.ssa_nullary hW V 262 rfl, Ssa.ssa_binary hW V 261 rfl,
    Ssa.ssa_unary hW V 260 rfl, Ssa.ssa_nullary hW V 259 rfl, Ssa.ssa_unary hW V 258 rfl, Ssa.ssa_nullary hW V 257 rfl, Ssa.ssa_reshape hW V 3 rfl, Ssa.ssa_unary hW V 2 rfl, Ssa.ssa_reshape hW V 1 rfl, Ssa.ssa_unary hW V 0 rfl, Ssa.after_arg hW V main_arg1]
  rfl

theorem walk2_resid (V : Valuation τ sig (Elt Ideal)) :
    𝔸 main_v226 = residArr (𝔸 main_v167) (𝔸 main_v222) (rowSlice ![2, 0] slices_S4x128_S1x128_2_0 (V (Proc.devRef .tc main_arg4))) := by
  rw [Ssa.ssa_binary hW V 324 rfl, Ssa.ssa_binary hW V 323 rfl, Ssa.ssa_unary hW V 322 rfl, Ssa.ssa_unary hW V 321 rfl, Ssa.ssa_reshape hW V 255 rfl, Ssa.ssa_unary hW V 254 rfl, Ssa.after_arg hW V main_arg4]
  rfl

theorem walk2_norm (V : Valuation τ sig (Elt Ideal)) :
    𝔸 main_v249 = normArr (𝔸 main_v226) (rowSlice ![2, 0] slices_S4x128_S1x128_2_0 (V (Proc.devRef .tc main_arg5))) (rowSlice ![2, 0] slices_S4x128_S1x128_2_0 (V (Proc.devRef .tc main_arg6))) := by
  rw [Ssa.ssa_binary hW V 375 rfl, Ssa.ssa_unary hW V 374 rfl, Ssa.ssa_nullary hW V 373 rfl, Ssa.ssa_binary hW V 372 rfl, Ssa.ssa_unary hW V 371 rfl, Ssa.ssa_unary hW V 370 rfl, Ssa.ssa_binary hW V 369 rfl, Ssa.ssa_unary hW V 368 rfl, Ssa.ssa_unary hW V 367 rfl, Ssa.ssa_binary hW V 366 rfl,
    Ssa.ssa_unary hW V 365 rfl, Ssa.ssa_unary hW V 364 rfl, Ssa.ssa_binary hW V 363 rfl, Ssa.ssa_unary hW V 362 rfl, Ssa.ssa_nullary hW V 361 rfl, Ssa.ssa_binary hW V 360 rfl, Ssa.ssa_unary hW V 359 rfl, Ssa.ssa_ternary hW V 358 rfl, Ssa.ssa_unary hW V 357 rfl, Ssa.ssa_unary hW V 356 rfl,
    Ssa.ssa_nullary hW V 355 rfl, Ssa.ssa_binary hW V 354 rfl, Ssa.ssa_nullary hW V 353 rfl, Ssa.ssa_binary hW V 352 rfl, Ssa.ssa_unary hW V 351 rfl, Ssa.ssa_unary hW V 350 rfl, Ssa.ssa_binary hW V 349 rfl, Ssa.ssa_nullary hW V 348 rfl, Ssa.ssa_binary hW V 347 rfl, Ssa.ssa_nullary hW V 346 rfl,
    Ssa.ssa_unary hW V 345 rfl, Ssa.ssa_binary hW V 344 rfl, Ssa.ssa_binary hW V 343 rfl, Ssa.ssa_unary hW V 342 rfl, Ssa.ssa_binary hW V 341 rfl, Ssa.ssa_unary hW V 340 rfl, Ssa.ssa_nullary hW V 339 rfl, Ssa.ssa_unary hW V 338 rfl, Ssa.ssa_binary hW V 337 rfl, Ssa.ssa_nullary hW V 336 rfl,
    Ssa.ssa_nullary hW V 335 rfl, Ssa.ssa_binary hW V 334 rfl, Ssa.ssa_unary hW V 333 rfl, Ssa.ssa_nullary hW V 332 rfl, Ssa.ssa_unary hW V 331 rfl, Ssa.ssa_binary hW V 330 rfl, Ssa.ssa_nullary hW V 329 rfl, Ssa.ssa_reshape hW V 328 rfl, Ssa.ssa_unary hW V 327 rfl, Ssa.ssa_reshape hW V 326 rfl,
    Ssa.ssa_unary hW V 325 rfl, Ssa.after_arg hW V main_arg5, Ssa.after_arg hW V main_arg6]
  rfl

theorem walk_layer2 (V : Valuation τ sig (Elt Ideal)) :
    𝔸 main_v249 = layerArr ![2, 0, 0] slices_S4x128x128_S1x128x128_2_0_0 ![2, 0] slices_S4x128_S1x128_2_0 (V (Proc.devRef .tc main_arg1)) (𝔸 main_v167) (V (Proc.devRef .tc main_arg3)) (V (Proc.devRef .tc main_arg4)) (V (Proc.devRef .tc main_arg5)) (V (Proc.devRef .tc main_arg6)) := by
  rw [walk2_norm V, walk2_resid V, walk2_agg V, walk2_lin V]
  rfl

end Cert.ReferenceIdeal.ValHand

end
-- ==== Proof.RefWalk3.lean ====
import proofs.«428520_j76347338654282_1_alg».proof.Proof.RefOps
import proofs.«428520_j76347338654282_1_alg».proof.Proof.RefStages
import proofs.«428520_j76347338654282_1_alg».proof.Proof.LibSsa

set_option maxRecDepth 100000

noncomputable section

namespace Cert.ReferenceIdeal.ValHand

open Idealize.ShloMosaic Idealize.SL.Sem Idealize.ShloMosaic.StableHlo
open Cert.ReferenceIdeal
open Cert.ReferenceIdeal.Facts₀ Cert.ReferenceIdeal.Facts

set_option hygiene false in
local notation "𝔸 " x:max => StableHlo.after (Hand.ops (F := Ideal)) V (Proc.devRef .tc x)

private theorem hW : Ssa.WritesOnly (Hand.ops (F := Ideal)) Hand.opsW := Hand.ops_writes

theorem walk3_lin (V : Valuation τ sig (Elt Ideal)) :
    𝔸 main_v254 = linArr (𝔸 main_v249) (wSlice ![3, 0, 0] slices_S4x128x128_S1x128x128_3_0_0 (V (Proc.devRef .tc main_arg3))) := by
  rw [Ssa.ssa_binary hW V 380 rfl, Ssa.ssa_reshape hW V 377 rfl, Ssa.ssa_unary hW V 376 rfl, Ssa.after_arg hW V main_arg3]
  rfl

theorem walk3_agg (V : Valuation τ sig (Elt Ideal)) :
    𝔸 main_v304 = aggArr (edgeSrc (V (Proc.devRef .tc main_arg1))) (edgeDst (V (Proc.devRef .tc main_arg1))) (𝔸 main_v254) := by
  rw [Ssa.ssa_binary hW V 444 rfl, Ssa.ssa_binary hW V 443 rfl, Ssa.ssa_unary hW V 442 rfl, Ssa.ssa_unary hW V 441 rfl, Ssa.ssa_binary hW V 440 rfl, Ssa.ssa_ternary hW V 439 rfl, Ssa.ssa_unary hW V 438 rfl, Ssa.ssa_ternary hW V 437 rfl, Ssa.ssa_binary hW V 436 rfl, Ssa.ssa_unary hW V 435 rfl,
    Ssa.ssa_nullary hW V 434 rfl, Ssa.ssa_binary hW V 433 rfl, Ssa.ssa_unary hW V 432 rfl, Ssa.ssa_nullary hW V 431 rfl, Ssa.ssa_binary hW V 430 rfl, Ssa.ssa_unary hW V 429 rfl, Ssa.ssa_unary hW V 428 rfl, Ssa.ssa_binary hW V 427 rfl, Ssa.ssa_unary hW V 426 rfl, Ssa.ssa_ternary hW V 425 rfl,
    Ssa.ssa_binary hW V 424 rfl, Ssa.ssa_unary hW V 423 rfl, Ssa.ssa_nullary hW V 422 rfl, Ssa.ssa_binary hW V 421 rfl, Ssa.ssa_unary hW V 420 rfl, Ssa.ssa_nullary hW V 419 rfl, Ssa.ssa_unary hW V 418 rfl, Ssa.ssa_nullary hW V 417 rfl, Ssa.ssa_binary hW V 416 rfl, Ssa.ssa_binary hW V 415 rfl,
    Ssa.ssa_unary hW V 414 rfl, Ssa.ssa_ternary hW V 413 rfl, Ssa.ssa_binary hW V 412 rfl, Ssa.ssa_unary hW V 411 rfl, Ssa.ssa_nullary hW V 410 rfl, Ssa.ssa_binary hW V 409 rfl, Ssa.ssa_unary hW V 408 rfl, Ssa.ssa_nullary hW V 407 rfl, Ssa.ssa_binary hW V 406 rfl, Ssa.ssa_unary hW V 405 rfl,
    Ssa.ssa_ternary hW V 404 rfl, Ssa.ssa_binary hW V 403 rfl, Ssa.ssa_unary hW V 402 rfl, Ssa.ssa_nullary hW V 401 rfl, Ssa.ssa_binary hW V 400 rfl, Ssa.ssa_unary hW V 399 rfl, Ssa.ssa_nullary hW V 398 rfl, Ssa.ssa_unary hW V 397 rfl, Ssa.ssa_binary hW V 396 rfl, Ssa.ssa_unary hW V 395 rfl,
    Ssa.ssa_nullary hW V 394 rfl, Ssa.ssa_ternary hW V 393 rfl, Ssa.ssa_unary hW V 392 rfl, Ssa.ssa_nullary hW V 391 rfl, Ssa.ssa_unary hW V 390 rfl, Ssa.ssa_ternary hW V 389 rfl, Ssa.ssa_binary hW V 388 rfl, Ssa.ssa_unary hW V 387 rfl, Ssa.ssa_nullary hW V 386 rfl, Ssa.ssa_binary hW V 385 rfl,
    Ssa.ssa_unary hW V 384 rfl, Ssa.ssa_nullary hW V 383 rfl, Ssa.ssa_unary hW V 382 rfl, Ssa.ssa_nullary hW V 381 rfl, Ssa.ssa_reshape hW V 3 rfl, Ssa.ssa_unary hW V 2 rfl, Ssa.ssa_reshape hW V 1 rfl, Ssa.ssa_unary hW V 0 rfl, Ssa.after_arg hW V main_arg1]
  rfl

theorem walk3_resid (V : Valuation τ sig (Elt Ideal)) :
    𝔸 main_v308 = residArr (𝔸 main_v249) (𝔸 main_v304) (rowSlice ![3, 0] slices_S4x128_S1x128_3_0 (V (Proc.devRef .tc main_arg4))) := by
  rw [Ssa.ssa_binary hW V 448 rfl, Ssa.ssa_binary hW V 447 rfl, Ssa.ssa_unary hW V 446 rfl, Ssa.ssa_unary hW V 445 rfl, Ssa.ssa_reshape hW V 379 rfl, Ssa.ssa_unary hW V 378 rfl, Ssa.after_arg hW V main_arg4]
  rfl

theorem walk3_norm (V : Valuation τ sig (Elt Ideal)) :
    𝔸 main_v331 = normArr (𝔸 main_v308) (rowSlice ![3, 0] slices_S4x128_S1x128_3_0 (V (Proc.devRef .tc main_arg5))) (rowSlice ![3, 0] slices_S4x128_S1x128_3_0 (V (Proc.devRef .tc main_arg6))) := by
  rw [Ssa.ssa_binary hW V 499 rfl, Ssa.ssa_unary hW V 498 rfl, Ssa.ssa_nullary hW V 497 rfl, Ssa.ssa_binary hW V 496 rfl, Ssa.ssa_unary hW V 495 rfl, Ssa.ssa_unary hW V 494 rfl, Ssa.ssa_binary hW V 493 rfl, Ssa.ssa_unary hW V 492 rfl, Ssa.ssa_unary hW V 491 rfl, Ssa.ssa_binary hW V 490 rfl,
    Ssa.ssa_unary hW V 489 rfl, Ssa.ssa_unary hW V 488 rfl, Ssa.ssa_binary hW V 487 rfl, Ssa.ssa_unary hW V 486 rfl, Ssa.ssa_nullary hW V 485 rfl, Ssa.ssa_binary hW V 484 rfl, Ssa.ssa_unary hW V 483 rfl, Ssa.ssa_ternary hW V 482 rfl, Ssa.ssa_unary hW V 481 rfl, Ssa.ssa_unary hW V 480 rfl,
    Ssa.ssa_nullary hW V 479 rfl, Ssa.ssa_binary hW V 478 rfl, Ssa.ssa_nullary hW V 477 rfl, Ssa.ssa_binary hW V 476 rfl, Ssa.ssa_unary hW V 475 rfl, Ssa.ssa_unary hW V 474 rfl, Ssa.ssa_binary hW V 473 rfl, Ssa.ssa_nullary hW V 472 rfl, Ssa.ssa_binary hW V 471 rfl, Ssa.ssa_nullary hW V 470 rfl,
    Ssa.ssa_unary hW V 469 rfl, Ssa.ssa_binary hW V 468 rfl, Ssa.ssa_binary hW V 467 rfl, Ssa.ssa_unary hW V 466 rfl, Ssa.ssa_binary hW V 465 rfl, Ssa.ssa_unary hW V 464 rfl, Ssa.ssa_nullary hW V 463 rfl, Ssa.ssa_unary hW V 462 rfl, Ssa.ssa_binary hW V 461 rfl, Ssa.ssa_nullary hW V 460 rfl,
    Ssa.ssa_nullary hW V 459 rfl, Ssa.ssa_binary hW V 458 rfl, Ssa.ssa_unary hW V 457 rfl, Ssa.ssa_nullary hW V 456 rfl, Ssa.ssa_unary hW V 455 rfl, Ssa.ssa_binary hW V 454 rfl, Ssa.ssa_nullary hW V 453 rfl, Ssa.ssa_reshape hW V 452 rfl, Ssa.ssa_unary hW V 451 rfl, Ssa.ssa_reshape hW V 450 rfl,
    Ssa.ssa_unary hW V 449 rfl, Ssa.after_arg hW V main_arg5, Ssa.after_arg hW V main_arg6]
  rfl

theorem walk_layer3 (V : Valuation τ sig (Elt Ideal)) :
    𝔸 main_v331 = layerArr ![3, 0, 0] slices_S4x128x128_S1x128x128_3_0_0 ![3, 0] slices_S4x128_S1x128_3_0 (V (Proc.devRef .tc main_arg1)) (𝔸 main_v249) (V (Proc.devRef .tc main_arg3)) (V (Proc.devRef .tc main_arg4)) (V (Proc.devRef .tc main_arg5)) (V (Proc.devRef .tc main_arg6)) := by
  rw [walk3_norm V, walk3_resid V, walk3_agg V, walk3_lin V]
  rfl

end Cert.ReferenceIdeal.ValHand

end
-- ==== Proof.RefWalkT.lean ====
import proofs.«428520_j76347338654282_1_alg».proof.Proof.RefOps
import proofs.«428520_j76347338654282_1_alg».proof.Proof.RefStages
import proofs.«428520_j76347338654282_1_alg».proof.Proof.LibSsa

set_option maxRecDepth 100000

noncomputable section

namespace Cert.ReferenceIdeal.ValHand

open Idealize.ShloMosaic Idealize.SL.Sem Idealize.ShloMosaic.StableHlo
open Cert.ReferenceIdeal
open Cert.ReferenceIdeal.Facts₀ Cert.ReferenceIdeal.Facts

set_option hygiene false in
local notation "𝔸 " x:max => StableHlo.after (Hand.ops (F := Ideal)) V (Proc.devRef .tc x)

private theorem hW : Ssa.WritesOnly (Hand.ops (F := Ideal)) Hand.opsW := Hand.ops_writes

theorem walk_pool (V : Valuation τ sig (Elt Ideal)) :
    𝔸 main_v334 = poolArr (V (Proc.devRef .tc main_arg2)) (𝔸 main_v331) := by
  rw [Ssa.ssa_ternary hW V 503 rfl, Ssa.ssa_unary hW V 502 rfl, Ssa.ssa_unary hW V 501 rfl, Ssa.ssa_nullary hW V 500 rfl, Ssa.after_arg hW V main_arg2]
  rfl

theorem walk_tail (V : Valuation τ sig (Elt Ideal)) :
    𝔸 main_v342 = tailArr (V (Proc.devRef .tc main_arg2)) (𝔸 main_v334) := by
  rw [Ssa.ssa_binary hW V 516 rfl, Ssa.ssa_unary hW V 515 rfl, Ssa.ssa_unary hW V 514 rfl, Ssa.ssa_binary hW V 513 rfl, Ssa.ssa_unary hW V 512 rfl, Ssa.ssa_unary hW V 511 rfl, Ssa.ssa_nullary hW V 510 rfl, Ssa.ssa_ternary hW V 509 rfl, Ssa.ssa_unary hW V 508 rfl, Ssa.ssa_unary hW V 507 rfl,
    Ssa.ssa_nullary hW V 506 rfl, Ssa.ssa_unary hW V 505 rfl, Ssa.ssa_nullary hW V 504 rfl, Ssa.after_arg hW V main_arg2]
  rfl

end Cert.ReferenceIdeal.ValHand

end
-- ==== Proof.ReadLemmas.lean ====
import Idealize.ShloMosaic.PureOps.Ideal
import Idealize.ShloMosaic.Lib.ValueIdx
import Idealize.ShloMosaic.Lib.Pipeline.Value
import Idealize.ShloMosaic.Lib.ValueLayout
import Idealize.ShloMosaic.Lib.IdealHost
import proofs.«428520_j76347338654282_1_alg».proof.Proof.Spec

noncomputable section

namespace Cert.ReadHand

open Idealize.ShloMosaic Idealize.ShloMosaic.ValueIdx

variable {α : Type}

theorem slab_lt {n a b l : ℕ} (hs : (⟨3, ![n, a, b]⟩ : Shape).Slices ![l, 0, 0] ⟨3, ![1, a, b]⟩) : l < n := hs.2 0

theorem row_lt {n b l : ℕ} (hs : (⟨2, ![n, b]⟩ : Shape).Slices ![l, 0] ⟨2, ![1, b]⟩) : l < n := hs.2 0

theorem slab_apply {n a b : ℕ} (l : ℕ) (W : (⟨3, ![n, a, b]⟩ : Shape).Idx → α)
    (hs : (⟨3, ![n, a, b]⟩ : Shape).Slices ![l, 0, 0] ⟨3, ![1, a, b]⟩) (u : Fin 1) (k : Fin a) (j : Fin b) :
    extractStridedSlice ⟨3, ![1, a, b]⟩ ![l, 0, 0] W hs (ix3 u k j) = W (ix3 ⟨l, slab_lt hs⟩ k j) :=
  extractStridedSlice_apply _ _ _ _ _ fun ax => by
    match ax with
    | ⟨0, _⟩ => show l = l + u.val; omega
    | ⟨1, _⟩ => exact (Nat.zero_add _).symm
    | ⟨2, _⟩ => exact (Nat.zero_add _).symm

theorem weight_apply {n a b : ℕ} (l : ℕ) (W : (⟨3, ![n, a, b]⟩ : Shape).Idx → α)
    (hs : (⟨3, ![n, a, b]⟩ : Shape).Slices ![l, 0, 0] ⟨3, ![1, a, b]⟩)
    (hc : (⟨3, ![1, a, b]⟩ : Shape).ShapeCasts ⟨2, ![a, b]⟩) (k : Fin a) (j : Fin b) :
    shapeCast ⟨2, ![a, b]⟩ (extractStridedSlice ⟨3, ![1, a, b]⟩ ![l, 0, 0] W hs) hc (ix2 k j)
      = W (ix3 ⟨l, slab_lt hs⟩ k j) :=
  (shapeCast_1ab_ab_apply _ hc k j).trans (slab_apply l W hs 0 k j)

theorem rowBlock_apply {n b : ℕ} (l : ℕ) (B : (⟨2, ![n, b]⟩ : Shape).Idx → α)
    (hs : (⟨2, ![n, b]⟩ : Shape).Slices ![l, 0] ⟨2, ![1, b]⟩) (u : Fin 1) (j : Fin b) :
    extractStridedSlice ⟨2, ![1, b]⟩ ![l, 0] B hs (ix2 u j) = B (ix2 ⟨l, row_lt hs⟩ j) :=
  slice2_axis0_apply l B hs u j _ (by show l = l + u.val; omega)

theorem rowVec_apply {n b : ℕ} (l : ℕ) (B : (⟨2, ![n, b]⟩ : Shape).Idx → α)
    (hs : (⟨2, ![n, b]⟩ : Shape).Slices ![l, 0] ⟨2, ![1, b]⟩)
    (hc : (⟨2, ![1, b]⟩ : Shape).ShapeCasts ⟨1, ![b]⟩) (j : Fin b) :
    shapeCast ⟨1, ![b]⟩ (extractStridedSlice ⟨2, ![1, b]⟩ ![l, 0] B hs) hc (ix1 j) = B (ix2 ⟨l, row_lt hs⟩ j) :=
  (shapeCast_1a_a_apply _ hc j).trans (rowBlock_apply l B hs 0 j)

theorem rowMat_apply {n b : ℕ} (l : ℕ) (B : (⟨2, ![n, b]⟩ : Shape).Idx → α)
    (hs : (⟨2, ![n, b]⟩ : Shape).Slices ![l, 0] ⟨2, ![1, b]⟩)
    (hc : (⟨2, ![1, b]⟩ : Shape).ShapeCasts ⟨1, ![b]⟩) (hc' : (⟨1, ![b]⟩ : Shape).ShapeCasts ⟨2, ![1, b]⟩)
    (u : Fin 1) (j : Fin b) :
    shapeCast ⟨2, ![1, b]⟩ (shapeCast ⟨1, ![b]⟩ (extractStridedSlice ⟨2, ![1, b]⟩ ![l, 0] B hs) hc) hc' (ix2 u j)
      = B (ix2 ⟨l, row_lt hs⟩ j) :=
  (shapeCast_a_1a_apply _ hc' u j).trans (rowVec_apply l B hs hc j)

theorem colCast_apply {a : ℕ} (v : (⟨1, ![a]⟩ : Shape).Idx → α) (hc : (⟨1, ![a]⟩ : Shape).ShapeCasts ⟨2, ![a, 1]⟩)
    (n : Fin a) (u : Fin 1) : shapeCast ⟨2, ![a, 1]⟩ v hc (ix2 n u) = v (ix1 n) :=
  shapeCast_apply v hc _ _ (by
    have hu : u.val = 0 := by omega
    rw [Shape.rowMajor_val_two, Shape.rowMajor_val_one]
    show n.val = n.val * 1 + u.val
    rw [hu, Nat.mul_one, Nat.add_zero])

theorem bcastCol_apply {a : ℕ} (v : (⟨1, ![a]⟩ : Shape).Idx → α)
    (h : (⟨1, ![a]⟩ : Shape).BroadcastsInDim ⟨2, ![a, 1]⟩ ![0]) (n : Fin a) (u : Fin 1) :
    broadcastInDim ⟨2, ![a, 1]⟩ ![0] h v (ix2 n u) = v (ix1 n) := by
  refine broadcastInDim_apply _ h v (ix2 n u) (ix1 n) fun ax => ?_
  match ax with
  | ⟨0, _⟩ =>
    show n.val = if a = 1 then 0 else n.val
    split
    · have := n.isLt; omega
    · rfl

theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

theorem bcastRows_apply {a b : ℕ} (v : (⟨1, ![b]⟩ : Shape).Idx → α)
    (h : (⟨1, ![b]⟩ : Shape).BroadcastsInDim ⟨2, ![a, b]⟩ ![1]) (n : Fin a) (j : Fin b) :
    broadcastInDim ⟨2, ![a, b]⟩ ![1] h v (ix2 n j) = v (ix1 j) := by
  refine broadcastInDim_apply _ h v (ix2 n j) (ix1 j) fun ax => ?_
  match ax with
  | ⟨0, _⟩ =>
    show j.val = if b = 1 then 0 else j.val
    split
    · have := j.isLt; omega
    · rfl

theorem stretchRow_apply {a b : ℕ} (x : (⟨2, ![1, b]⟩ : Shape).Idx → α)
    (h : (⟨2, ![1, b]⟩ : Shape).BroadcastsInDim ⟨2, ![a, b]⟩ ![0, 1]) (n : Fin a) (j : Fin b) :
    broadcastInDim ⟨2, ![a, b]⟩ ![0, 1] h x (ix2 n j) = x (ix2 (0 : Fin 1) j) := by
  refine broadcastInDim_apply _ h x (ix2 n j) (ix2 (0 : Fin 1) j) fun ax => ?_
  match ax with
  | ⟨0, _⟩ => rfl
  | ⟨1, _⟩ =>
    show j.val = if b = 1 then 0 else j.val
    split
    · have := j.isLt; omega
    · rfl

theorem stretchCol_apply {a b : ℕ} (x : (⟨2, ![a, 1]⟩ : Shape).Idx → α)
    (h : (⟨2, ![a, 1]⟩ : Shape).BroadcastsInDim ⟨2, ![a, b]⟩ ![0, 1]) (n : Fin a) (j : Fin b) :
    broadcastInDim ⟨2, ![a, b]⟩ ![0, 1] h x (ix2 n j) = x (ix2 n (0 : Fin 1)) := by
  refine broadcastInDim_apply _ h x (ix2 n j) (ix2 n (0 : Fin 1)) fun ax => ?_
  match ax with
  | ⟨0, _⟩ =>
    show n.val = if a = 1 then 0 else n.val
    split
    · have := n.isLt; omega
    · rfl
  | ⟨1, _⟩ => rfl

theorem bcastRow_stretch_apply {a b : ℕ} (v : (⟨1, ![b]⟩ : Shape).Idx → α)
    (h : (⟨1, ![b]⟩ : Shape).BroadcastsInDim ⟨2, ![1, b]⟩ ![1])
    (h' : (⟨2, ![1, b]⟩ : Shape).BroadcastsInDim ⟨2, ![a, b]⟩ ![0, 1]) (n : Fin a) (j : Fin b) :
    broadcastInDim ⟨2, ![a, b]⟩ ![0, 1] h' (broadcastInDim ⟨2, ![1, b]⟩ ![1] h v) (ix2 n j) = v (ix1 j) :=
  (stretchRow_apply _ h' n j).trans (bcastRow_apply v h 0 j)

theorem bcastCol_stretch_apply {a b : ℕ} (v : (⟨1, ![a]⟩ : Shape).Idx → α)
    (h : (⟨1, ![a]⟩ : Shape).BroadcastsInDim ⟨2, ![a, 1]⟩ ![0])
    (h' : (⟨2, ![a, 1]⟩ : Shape).BroadcastsInDim ⟨2, ![a, b]⟩ ![0, 1]) (n : Fin a) (j : Fin b) :
    broadcastInDim ⟨2, ![a, b]⟩ ![0, 1] h' (broadcastInDim ⟨2, ![a, 1]⟩ ![0] h v) (ix2 n j) = v (ix1 n) :=
  (stretchCol_apply _ h' n j).trans (bcastCol_apply v h n 0)

theorem bcastConst_apply {T : Shape} {φ : FTy} (w : BitVec φ.bits) (h : (⟨0, ![]⟩ : Shape).BroadcastsInDim T ![])
    (i : T.Idx) : broadcastInDim T ![] h (constant (F := Ideal) ⟨0, ![]⟩ φ w) i = Ideal.ofBits φ w :=
  broadcastInDim_scalar_apply h _ i

theorem bcastConstI_apply {T : Shape} {w : ℕ} (b : BitVec w) (h : (⟨0, ![]⟩ : Shape).BroadcastsInDim T ![])
    (i : T.Idx) : broadcastInDim T ![] h (constantI ⟨0, ![]⟩ w b) i = b :=
  broadcastInDim_scalar_apply h _ i

theorem ofArr_apply {a b : ℕ} (v : (⟨2, ![a, b]⟩ : Shape).Idx → α) (p : Fin a) (q : Fin b) :
    Cert.Spec.ofArr v p q = v (ix2 p q) := rfl

theorem toArr_ix2 {a b : ℕ} (f : Fin a → Fin b → α) (p : Fin a) (q : Fin b) : Cert.Spec.toArr f (ix2 p q) = f p q := rfl

theorem toArr_apply {a b : ℕ} (f : Fin a → Fin b → α) (i : (⟨2, ![a, b]⟩ : Shape).Idx) :
    Cert.Spec.toArr f i = f (i 0) (i 1) := rfl

theorem ofArr_fun {a b : ℕ} (f : Fin a → Fin b → α) :
    Cert.Spec.ofArr (fun i : (⟨2, ![a, b]⟩ : Shape).Idx => f (i 0) (i 1)) = f := rfl

theorem eq_toArr {a b : ℕ} (v : (⟨2, ![a, b]⟩ : Shape).Idx → α) (f : Fin a → Fin b → α)
    (h : ∀ p q, v (ix2 p q) = f p q) : v = Cert.Spec.toArr f := by
  funext i
  rw [eq_ix2 i]
  exact h (i 0) (i 1)

theorem ofArr_injective {a b : ℕ} {v v' : (⟨2, ![a, b]⟩ : Shape).Idx → α}
    (h : Cert.Spec.ofArr v = Cert.Spec.ofArr v') : v = v' := by
  rw [← Cert.Spec.toArr_ofArr v, h, Cert.Spec.toArr_ofArr]

end Cert.ReadHand

end
-- ==== Proof.RefNorm.lean ====
import proofs.«428520_j76347338654282_1_alg».proof.Proof.RefStages
import proofs.«428520_j76347338654282_1_alg».proof.Proof.Spec
import proofs.«428520_j76347338654282_1_alg».proof.Proof.ReadLemmas
import Idealize.ShloMosaic.PureOps.Ideal.Laws
import Idealize.ShloMosaic.Lib.IdealHost
import Idealize.ShloMosaic.Lib.ValueIdx

noncomputable section

open scoped BigOperators

namespace Cert.ReferenceIdeal.ValHand

open Idealize.ShloMosaic Idealize.ShloMosaic.ValueIdx Idealize.SL.Sem
open Cert.ReferenceIdeal
open Cert.ReferenceIdeal.Facts₀ Cert.ReferenceIdeal.Facts

variable [Facts]

theorem w128_real : Cert.Spec.w128 = ((128 : ℝ) : EReal) := by
  simp [Ideal.ofBits, Ideal.ieee, -EReal.coe_mul]; norm_num

theorem varDen_apply (i : S_.Idx) : varDen i = Cert.Spec.w128 := by
  unfold varDen
  rw [subf_apply, constant_apply, sitofp_apply]
  show Ideal.ofBits .f32 0x43000000#32 - (((0#32 : BitVec 32).toInt : ℝ) : EReal) = Cert.Spec.w128
  simp

theorem varDen_pos (i : S_.Idx) : cmpf .ogt varDen (constant S_ .f32 0x00000000#32) i = 1#1 := by
  rw [cmpf_apply, varDen_apply, constant_apply, Ideal.ofBits_zero_f32, Ideal.cmpf_def, w128_real]
  unfold Ideal.cmp
  simp

theorem colBc_apply (v : FVec Ideal S50000x1 .f32) (n : Fin 50000) (j : Fin 128) : colBc v (ix2 n j) = v (ix2 n (0 : Fin 1)) :=
  Cert.ReadHand.stretchCol_apply v _ n j

theorem rowBc_apply (v : FVec Ideal S128 .f32) (n : Fin 50000) (j : Fin 128) : rowBc v (ix2 n j) = v (ix1 j) :=
  Cert.ReadHand.bcastRow_stretch_apply v _ _ n j

theorem rowSum_apply (x : FVec Ideal S50000x128 .f32) (n : Fin 50000) :
    Host.reduceAdd x (constant S_ .f32 0x00000000#32) reducesTo_S50000x128_S50000_d1 h_S_ (ix1 n)
      = ∑ k : Fin 128, x (ix2 n k) := by
  have h : S50000x128.Reduces [1] S50000 := by decide
  rw [hostReduceAdd_apply, Ideal.hostReduceAdd_single _ h, constant_apply, Ideal.ofBits_zero_f32, zero_add]
  refine Finset.sum_congr rfl fun k _ => congrArg x ?_
  funext a
  match a with
  | ⟨0, _⟩ => exact Fin.ext rfl
  | ⟨1, _⟩ => exact Fin.ext rfl

theorem meanCol_apply (y : FVec Ideal S50000x128 .f32) (n : Fin 50000) (u : Fin 1) :
    meanCol y (ix2 n u) = Ideal.div (∑ k : Fin 128, y (ix2 n k)) Cert.Spec.w128 := by
  unfold meanCol
  rw [hostDivf_apply, Cert.ReadHand.bcastCol_apply, rowSum_apply, Cert.ReadHand.bcastConst_apply]

theorem varCol_apply (y : FVec Ideal S50000x128 .f32) (n : Fin 50000) (u : Fin 1) :
    varCol y (ix2 n u)
      = Ideal.div (∑ k : Fin 128, (y (ix2 n k) - meanCol y (ix2 n (0 : Fin 1))) * (y (ix2 n k) - meanCol y (ix2 n (0 : Fin 1))))
          Cert.Spec.w128 := by
  unfold varCol
  rw [select_apply, broadcastInDim_scalar_apply, varDen_pos, select_one, hostDivf_apply, Cert.ReadHand.bcastCol_apply,
    rowSum_apply, broadcastInDim_scalar_apply, varDen_apply]
  refine congrArg (fun s => Ideal.div s Cert.Spec.w128) (Finset.sum_congr rfl fun k _ => ?_)
  rw [mulf_apply, subf_apply, colBc_apply]

theorem normArr_eq (y : FVec Ideal S50000x128 .f32) (g bt : FVec Ideal S128 .f32) :
    normArr y g bt = Cert.Spec.toArr (Cert.Spec.normRelu (Cert.Spec.ofArr y) (fun j => g (ValueIdx.ix1 j)) (fun j => bt (ValueIdx.ix1 j))) := by
  refine Cert.ReadHand.eq_toArr _ _ fun n j => ?_
  unfold normArr
  rw [maximumf_apply, addf_apply, mulf_apply, mulf_apply, subf_apply, colBc_apply, colBc_apply, rowBc_apply, rowBc_apply,
    Cert.ReadHand.bcastConst_apply]
  show max ((y (ix2 n j) - meanCol y (ix2 n (0 : Fin 1)))
      * Ideal.rsqrt (addf (varCol y) (broadcastInDim S50000x1 ![] bcast_S_S50000x1 (constant S_ .f32 0x3727C5AC#32)) (ix2 n (0 : Fin 1)))
      * g (ix1 j) + bt (ix1 j)) Cert.Spec.wZero = _
  rw [addf_apply, varCol_apply, Cert.ReadHand.bcastConst_apply, meanCol_apply]
  rfl

end Cert.ReferenceIdeal.ValHand

end
-- ==== Proof.RefLin.lean ====
import proofs.«428520_j76347338654282_1_alg».proof.Proof.RefStages
import proofs.«428520_j76347338654282_1_alg».proof.Proof.ReadLemmas
import Idealize.ShloMosaic.PureOps.Ideal.Laws
import Idealize.ShloMosaic.Lib.ValueIdx
import Idealize.ShloMosaic.Lib.Pipeline.Value

noncomputable section

open scoped BigOperators

namespace Cert.ReferenceIdeal.ValHand

open Idealize.ShloMosaic Idealize.SL.Sem
open Cert.ReferenceIdeal
open Cert.ReferenceIdeal.Facts₀ Cert.ReferenceIdeal.Facts

variable [Facts]

theorem wSlice_apply (l : Fin 4) (hs : S4x128x128.Slices ![l.val, 0, 0] S1x128x128) (W : FVec Ideal S4x128x128 .f32)
    (k j : Fin 128) : wSlice ![l.val, 0, 0] hs W (ValueIdx.ix2 k j) = W (ValueIdx.ix3 l k j) :=
  Cert.ReadHand.weight_apply l.val W hs shapeCasts_S1x128x128_S128x128 k j

theorem rowSlice_apply (l : Fin 4) (hs : S4x128.Slices ![l.val, 0] S1x128) (B : FVec Ideal S4x128 .f32) (j : Fin 128) :
    rowSlice ![l.val, 0] hs B (ValueIdx.ix1 j) = B (ValueIdx.ix2 l j) :=
  Cert.ReadHand.rowVec_apply l.val B hs shapeCasts_S1x128_S128 j

theorem lhs_dense_0 (i : S50000x128.Idx) (κ : dot_S50000x128_S128x128_S50000x128_1_0_0_1_n_n.contr.Idx) :
    (dot_S50000x128_S128x128_S50000x128_1_0_0_1_n_n.lhsIdx i κ 0).val = (i 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.mpr rfl)]
  rfl

theorem lhs_dense_1 (i : S50000x128.Idx) (κ : dot_S50000x128_S128x128_S50000x128_1_0_0_1_n_n.contr.Idx)
    (h : 0 < dot_S50000x128_S128x128_S50000x128_1_0_0_1_n_n.contr.rank) :
    (dot_S50000x128_S128x128_S50000x128_1_0_0_1_n_n.lhsIdx i κ 1).val = (κ ⟨0, h⟩).val :=
  dot_S50000x128_S128x128_S50000x128_1_0_0_1_n_n.lhsIdx_val_of_single rfl i κ

theorem rhs_dense_0 (i : S50000x128.Idx) (κ : dot_S50000x128_S128x128_S50000x128_1_0_0_1_n_n.contr.Idx)
    (h : 0 < dot_S50000x128_S128x128_S50000x128_1_0_0_1_n_n.contr.rank) :
    (dot_S50000x128_S128x128_S50000x128_1_0_0_1_n_n.rhsIdx i κ 0).val = (κ ⟨0, h⟩).val :=
  dot_S50000x128_S128x128_S50000x128_1_0_0_1_n_n.rhsIdx_val_of_single rfl i κ

theorem rhs_dense_1 (i : S50000x128.Idx) (κ : dot_S50000x128_S128x128_S50000x128_1_0_0_1_n_n.contr.Idx) :
    (dot_S50000x128_S128x128_S50000x128_1_0_0_1_n_n.rhsIdx i κ 1).val = (i 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.mpr rfl)]
  rfl

theorem linArr_apply (x : FVec Ideal S50000x128 .f32) (w : FVec Ideal S128x128 .f32) (n : Fin 50000) (j : Fin 128) :
    linArr x w (ValueIdx.ix2 n j) = ∑ k : Fin 128, x (ValueIdx.ix2 n k) * w (ValueIdx.ix2 k j) := by
  unfold linArr
  show FloatOps.dotGeneral _ none _ x w (ValueIdx.ix2 n j) = _
  rw [Ideal.dotGeneral_apply,
    ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ValueIdx.ix2 n j)
      ((ValueIdx.contrEquiv1 dot_S50000x128_S128x128_S50000x128_1_0_0_1_n_n 128 rfl rfl).symm k) = ValueIdx.ix2 n k :=
    funext fun ax => Fin.ext (by
      match ax with
      | ⟨0, _⟩ => exact lhs_dense_0 _ _
      | ⟨1, _⟩ => exact (lhs_dense_1 _ _ _).trans hk)
  have er : dot_S50000x128_S128x128_S50000x128_1_0_0_1_n_n.rhsIdx (ValueIdx.ix2 n j)
      ((ValueIdx.contrEquiv1 dot_S50000x128_S128x128_S50000x128_1_0_0_1_n_n 128 rfl rfl).symm k) = ValueIdx.ix2 k j :=
    funext fun ax => Fin.ext (by
      match ax with
      | ⟨0, _⟩ => exact (rhs_dense_0 _ _ _).trans hk
      | ⟨1, _⟩ => exact rhs_dense_1 _ _)
  rw [el, er]

theorem linArr_eq (x : FVec Ideal S50000x128 .f32) (w : FVec Ideal S128x128 .f32) :
    linArr x w = Cert.Spec.toArr (Cert.Spec.linear (Cert.Spec.ofArr x) (Cert.Spec.ofArr w)) :=
  Cert.ReadHand.eq_toArr _ _ fun n j => linArr_apply x w n j

theorem residArr_apply (x agg : FVec Ideal S50000x128 .f32) (b : FVec Ideal S128 .f32) (n : Fin 50000) (j : Fin 128) :
    residArr x agg b (ValueIdx.ix2 n j)
      = x (ValueIdx.ix2 n j) + (agg (ValueIdx.ix2 n j) + b (ValueIdx.ix1 j)) := by
  unfold residArr rowBc
  rw [ValueIdx.addf_apply, ValueIdx.addf_apply, Cert.ReadHand.bcastRow_stretch_apply]

theorem residArr_eq (x agg : FVec Ideal S50000x128 .f32) (b : FVec Ideal S128 .f32) :
    residArr x agg b
      = Cert.Spec.toArr (Cert.Spec.resid (Cert.Spec.ofArr x) (Cert.Spec.ofArr agg) (fun j => b (ValueIdx.ix1 j))) :=
  Cert.ReadHand.eq_toArr _ _ fun n j => (residArr_apply x agg b n j).trans (add_assoc _ _ _).symm

end Cert.ReferenceIdeal.ValHand

end
-- ==== Proof.RefLayer.lean ====
import proofs.«428520_j76347338654282_1_alg».proof.Proof.RefStages
import proofs.«428520_j76347338654282_1_alg».proof.Proof.RefNorm
import proofs.«428520_j76347338654282_1_alg».proof.Proof.RefLin

noncomputable section

namespace Cert.ReferenceIdeal.ValHand

open Idealize.ShloMosaic Idealize.SL.Sem Idealize.ShloMosaic.ValueIdx
open Cert.ReferenceIdeal
open Cert.ReferenceIdeal.Facts₀ Cert.ReferenceIdeal.Facts

variable [Facts]

theorem ofArr_wSlice (l : Fin 4) (hs : S4x128x128.Slices ![l.val, 0, 0] S1x128x128) (W : FVec Ideal S4x128x128 .f32) :
    Cert.Spec.ofArr (wSlice ![l.val, 0, 0] hs W) = fun k j => W (ix3 l k j) := by
  funext k j
  exact wSlice_apply l hs W k j

theorem rowSlice_fun (l : Fin 4) (hs : S4x128.Slices ![l.val, 0] S1x128) (B : FVec Ideal S4x128 .f32) :
    (fun j : Fin 128 => rowSlice ![l.val, 0] hs B (ix1 j)) = fun j => B (ix2 l j) := by
  funext j
  exact rowSlice_apply l hs B j

theorem layer_eq (l : Fin 4) (hs3 : S4x128x128.Slices ![l.val, 0, 0] S1x128x128) (hs2 : S4x128.Slices ![l.val, 0] S1x128)
    (ei : IVec S2x600000 32) (x : FVec Ideal S50000x128 .f32) (W : FVec Ideal S4x128x128 .f32)
    (B G BT : FVec Ideal S4x128 .f32) :
    layerArr ![l.val, 0, 0] hs3 ![l.val, 0] hs2 ei x W B G BT
      = Cert.Spec.toArr (Cert.Spec.layer (RAgg ei) (Cert.Spec.ofArr x) (fun k j => W (ix3 l k j))
          (fun j => B (ix2 l j)) (fun j => G (ix2 l j)) (fun j => BT (ix2 l j))) := by
  unfold layerArr Cert.Spec.layer
  rw [normArr_eq, residArr_eq, linArr_eq, rowSlice_fun l hs2 B, rowSlice_fun l hs2 G, rowSlice_fun l hs2 BT,
    ofArr_wSlice l hs3 W]
  rfl

theorem layer_eq0 (ei : IVec S2x600000 32) (x : FVec Ideal S50000x128 .f32) (W : FVec Ideal S4x128x128 .f32)
    (B G BT : FVec Ideal S4x128 .f32) :
    layerArr ![0, 0, 0] slices_S4x128x128_S1x128x128_0_0_0 ![0, 0] slices_S4x128_S1x128_0_0 ei x W B G BT
      = Cert.Spec.toArr (Cert.Spec.layer (RAgg ei) (Cert.Spec.ofArr x) (fun k j => W (ix3 0 k j))
          (fun j => B (ix2 0 j)) (fun j => G (ix2 0 j)) (fun j => BT (ix2 0 j))) :=
  layer_eq 0 slices_S4x128x128_S1x128x128_0_0_0 slices_S4x128_S1x128_0_0 ei x W B G BT

theorem layer_eq1 (ei : IVec S2x600000 32) (x : FVec Ideal S50000x128 .f32) (W : FVec Ideal S4x128x128 .f32)
    (B G BT : FVec Ideal S4x128 .f32) :
    layerArr ![1, 0, 0] slices_S4x128x128_S1x128x128_1_0_0 ![1, 0] slices_S4x128_S1x128_1_0 ei x W B G BT
      = Cert.Spec.toArr (Cert.Spec.layer (RAgg ei) (Cert.Spec.ofArr x) (fun k j => W (ix3 1 k j))
          (fun j => B (ix2 1 j)) (fun j => G (ix2 1 j)) (fun j => BT (ix2 1 j))) :=
  layer_eq 1 slices_S4x128x128_S1x128x128_1_0_0 slices_S4x128_S1x128_1_0 ei x W B G BT

theorem layer_eq2 (ei : IVec S2x600000 32) (x : FVec Ideal S50000x128 .f32) (W : FVec Ideal S4x128x128 .f32)
    (B G BT : FVec Ideal S4x128 .f32) :
    layerArr ![2, 0, 0] slices_S4x128x128_S1x128x128_2_0_0 ![2, 0] slices_S4x128_S1x128_2_0 ei x W B G BT
      = Cert.Spec.toArr (Cert.Spec.layer (RAgg ei) (Cert.Spec.ofArr x) (fun k j => W (ix3 2 k j))
          (fun j => B (ix2 2 j)) (fun j => G (ix2 2 j)) (fun j => BT (ix2 2 j))) :=
  layer_eq 2 slices_S4x128x128_S1x128x128_2_0_0 slices_S4x128_S1x128_2_0 ei x W B G BT

theorem layer_eq3 (ei : IVec S2x600000 32) (x : FVec Ideal S50000x128 .f32) (W : FVec Ideal S4x128x128 .f32)
    (B G BT : FVec Ideal S4x128 .f32) :
    layerArr ![3, 0, 0] slices_S4x128x128_S1x128x128_3_0_0 ![3, 0] slices_S4x128_S1x128_3_0 ei x W B G BT
      = Cert.Spec.toArr (Cert.Spec.layer (RAgg ei) (Cert.Spec.ofArr x) (fun k j => W (ix3 3 k j))
          (fun j => B (ix2 3 j)) (fun j => G (ix2 3 j)) (fun j => BT (ix2 3 j))) :=
  layer_eq 3 slices_S4x128x128_S1x128x128_3_0_0 slices_S4x128_S1x128_3_0 ei x W B G BT

end Cert.ReferenceIdeal.ValHand

end
-- ==== Proof.RefPool.lean ====
import proofs.«428520_j76347338654282_1_alg».proof.ReferenceIdeal
import proofs.«428520_j76347338654282_1_alg».proof.Proof.Spec
import Idealize.ShloMosaic.PureOps.Ideal.Laws
import Idealize.ShloMosaic.Lib.ValueIdx

noncomputable section

open scoped BigOperators

namespace Cert.ReferenceIdeal.ValHand

open Idealize.ShloMosaic Idealize.SL.Sem Idealize.ShloMosaic.ValueIdx
open Cert.ReferenceIdeal
open Cert.ReferenceIdeal.Facts₀ Cert.ReferenceIdeal.Facts

variable [Facts]

theorem idCol_apply (ids : S50000.Idx → BitVec 32) (q : S50000x1.Idx) :
    broadcastInDim S50000x1 ![0] bcast_S50000_S50000x1_0 ids q = ids (ix1 ⟨(q 0).val, idx2_lt0 q⟩) := by
  unfold broadcastInDim
  congr 1
  funext a
  match a with
  | ⟨0, _⟩ => rfl

theorem pool_start0 (idx : IVec S50000x1 32) (j : S50000x128.Idx) :
    scatter_S128x128_S50000x1_S50000x128_1_0_0_1.start j idx 0 = (idx (ix2 ⟨(j 0).val, idx2_lt0 j⟩ 0)).toInt := by
  unfold ScatterDims.start
  rw [dif_pos (show (0 : Fin 2) ∈ scatter_S128x128_S50000x1_S50000x128_1_0_0_1.scatterDimsToOperandDims from List.mem_singleton.mpr rfl)]
  have hsi : scatter_S128x128_S50000x1_S50000x128_1_0_0_1.siIdx j ⟨List.idxOf (0 : Fin 2) scatter_S128x128_S50000x1_S50000x128_1_0_0_1.scatterDimsToOperandDims,
      List.idxOf_lt_length_iff.2 (List.mem_singleton.mpr rfl)⟩ = ix2 ⟨(j 0).val, idx2_lt0 j⟩ 0 := by
    funext b; refine Fin.ext ?_
    match b with
    | ⟨0, _⟩ => rfl
    | ⟨1, _⟩ => rfl
  rw [hsi]

theorem pool_start1 (idx : IVec S50000x1 32) (j : S50000x128.Idx) : scatter_S128x128_S50000x1_S50000x128_1_0_0_1.start j idx 1 = 0 := by
  unfold ScatterDims.start
  have hn : ¬ (1 : Fin 2) ∈ ([0] : List (Fin 2)) := by decide
  rw [dif_neg (show ¬ (1 : Fin 2) ∈ scatter_S128x128_S50000x1_S50000x128_1_0_0_1.scatterDimsToOperandDims from hn)]

theorem pool_window0 (j : S50000x128.Idx) : scatter_S128x128_S50000x1_S50000x128_1_0_0_1.window j 0 = 0 := by
  unfold ScatterDims.window
  have hn : ¬ (0 : Fin 2) ∈ Shape.kept S128x128 [(0 : Fin 2)] := by decide
  rw [dif_neg (show ¬ (0 : Fin 2) ∈ scatter_S128x128_S50000x1_S50000x128_1_0_0_1.sKept from hn)]

theorem pool_window1 (j : S50000x128.Idx) : scatter_S128x128_S50000x1_S50000x128_1_0_0_1.window j 1 = (j 1).val := by
  unfold ScatterDims.window
  have hp : (1 : Fin 2) ∈ Shape.kept S128x128 [(0 : Fin 2)] := by decide
  rw [dif_pos (show (1 : Fin 2) ∈ scatter_S128x128_S50000x1_S50000x128_1_0_0_1.sKept from hp)]
  rfl

theorem word_eq_iff (w : BitVec 32) (k : Nat) (hk : k < 128) : w.toInt = (k : Int) ↔ w = BitVec.ofNat 32 k := by
  have hw := w.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    split <;> omega

theorem pool_lands (idx : IVec S50000x1 32) (j : S50000x128.Idx) (i : S128x128.Idx) :
    scatter_S128x128_S50000x1_S50000x128_1_0_0_1.resultIdx? j idx = some i ↔
      idx (ix2 ⟨(j 0).val, idx2_lt0 j⟩ 0) = BitVec.ofNat 32 (i 0).val ∧ (j 1).val = (i 1).val := by
  have hi0 : (i 0).val < 128 := idx2_lt0 i
  have hi1 : (i 1).val < 128 := idx2_lt1 i
  have hj1 : (j 1).val < 128 := idx2_lt1 j
  have hs0 : S128x128.size 0 = 128 := rfl
  have hs1 : S128x128.size 1 = 128 := rfl
  rw [← word_eq_iff _ _ hi0]
  unfold ScatterDims.resultIdx?
  split_ifs with h
  · rw [Option.some.injEq]
    constructor
    · intro e
      have e0 : (scatter_S128x128_S50000x1_S50000x128_1_0_0_1.start j idx 0 + scatter_S128x128_S50000x1_S50000x128_1_0_0_1.window j 0).toNat = (i 0).val := congrArg (fun f => (f 0).val) e
      have e1 : (scatter_S128x128_S50000x1_S50000x128_1_0_0_1.start j idx 1 + scatter_S128x128_S50000x1_S50000x128_1_0_0_1.window j 1).toNat = (i 1).val := congrArg (fun f => (f 1).val) e
      have h0 := h 0
      rw [pool_start0, pool_window0] at e0 h0
      rw [pool_start1, pool_window1] at e1
      constructor <;> omega
    · rintro ⟨e0, e1⟩
      funext a
      refine Fin.ext ?_
      match a with
      | ⟨0, _⟩ =>
        show (scatter_S128x128_S50000x1_S50000x128_1_0_0_1.start j idx 0 + scatter_S128x128_S50000x1_S50000x128_1_0_0_1.window j 0).toNat = (i 0).val
        rw [pool_start0, pool_window0]; omega
      | ⟨1, _⟩ =>
        show (scatter_S128x128_S50000x1_S50000x128_1_0_0_1.start j idx 1 + scatter_S128x128_S50000x1_S50000x128_1_0_0_1.window j 1).toNat = (i 1).val
        rw [pool_start1, pool_window1]; omega
  · constructor
    · intro e; exact absurd e (by simp)
    · rintro ⟨e0, e1⟩
      exfalso; apply h
      intro a
      match a with
      | ⟨0, _⟩ =>
        show 0 ≤ scatter_S128x128_S50000x1_S50000x128_1_0_0_1.start j idx 0 + scatter_S128x128_S50000x1_S50000x128_1_0_0_1.window j 0 ∧ scatter_S128x128_S50000x1_S50000x128_1_0_0_1.start j idx 0 + scatter_S128x128_S50000x1_S50000x128_1_0_0_1.window j 0 < (S128x128.size 0 : Nat)
        rw [pool_start0, pool_window0, hs0]; omega
      | ⟨1, _⟩ =>
        show 0 ≤ scatter_S128x128_S50000x1_S50000x128_1_0_0_1.start j idx 1 + scatter_S128x128_S50000x1_S50000x128_1_0_0_1.window j 1 ∧ scatter_S128x128_S50000x1_S50000x128_1_0_0_1.start j idx 1 + scatter_S128x128_S50000x1_S50000x128_1_0_0_1.window j 1 < (S128x128.size 1 : Nat)
        rw [pool_start1, pool_window1, hs1]; omega

theorem ref_pool (x : S50000x128.Idx → EReal) (ids : S50000.Idx → BitVec 32) :
    Host.scatterAdd (F := Ideal) scatter_S128x128_S50000x1_S50000x128_1_0_0_1
        (broadcastInDim S128x128 ![] bcast_S_S128x128 (constant S_ .f32 0x00000000#32))
        (broadcastInDim S50000x1 ![0] bcast_S50000_S50000x1_0 ids) x
      = Cert.Spec.toArr (Cert.Spec.pool (Cert.Spec.ofArr x) (fun n => ids (ix1 n))) := by
  funext i
  obtain ⟨γ, dd, rfl⟩ : ∃ γ dd : Fin 128, i = ix2 γ dd := ⟨i 0, i 1, eq_ix2 i⟩
  show Ideal.hostScatterAdd scatter_S128x128_S50000x1_S50000x128_1_0_0_1 _ _ x (ix2 γ dd) = _
  unfold Ideal.hostScatterAdd
  have hz : broadcastInDim S128x128 ![] bcast_S_S128x128 (constant (F := Ideal) S_ .f32 0x00000000#32) (ix2 γ dd) = 0 :=
    Ideal.ofBits_zero_f32
  rw [hz, zero_add, Finset.sum_filter,
    Finset.sum_congr rfl (fun j _ => if_congr (pool_lands _ j (ix2 γ dd)) rfl rfl), sum_idx2]
  unfold Cert.Spec.toArr Cert.Spec.pool Cert.Spec.ofArr
  refine Finset.sum_congr rfl (fun n _ => ?_)
  have inner : ∀ b : Fin 128,
      (if (broadcastInDim S50000x1 ![0] bcast_S50000_S50000x1_0 ids
              (ix2 ⟨((ix2 n b : S50000x128.Idx) 0).val, idx2_lt0 (ix2 n b)⟩ 0) = BitVec.ofNat 32 γ.val
            ∧ b.val = dd.val) then x (ix2 n b) else 0)
        = if b = dd then (if ids (ix1 n) = BitVec.ofNat 32 γ.val then x (ix2 n b) else 0) else 0 := by
    intro b
    rw [idCol_apply]
    by_cases hb : b = dd
    · subst hb
      rw [if_pos rfl]
      exact if_congr ⟨fun h => h.1, fun h => ⟨h, rfl⟩⟩ rfl rfl
    · rw [if_neg hb, if_neg]
      exact fun h => hb (Fin.ext h.2)
  refine (Finset.sum_congr rfl (fun b _ => inner b)).trans ?_
  rw [Finset.sum_ite_eq', if_pos (Finset.mem_univ _)]

end Cert.ReferenceIdeal.ValHand
-- ==== Proof.RefVal.lean ====
import proofs.«428520_j76347338654282_1_alg».proof.Proof.RefWalk0
import proofs.«428520_j76347338654282_1_alg».proof.Proof.RefWalk1
import proofs.«428520_j76347338654282_1_alg».proof.Proof.RefWalk2
import proofs.«428520_j76347338654282_1_alg».proof.Proof.RefWalk3
import proofs.«428520_j76347338654282_1_alg».proof.Proof.RefWalkT
import proofs.«428520_j76347338654282_1_alg».proof.Proof.RefLayer
import proofs.«428520_j76347338654282_1_alg».proof.Proof.RefPool

noncomputable section

namespace Cert.ReferenceIdeal.ValHand

open Idealize.ShloMosaic Idealize.SL.Sem Idealize.ShloMosaic.StableHlo Idealize.ShloMosaic.TcCoe Idealize.ShloMosaic.ValueIdx
open Cert.ReferenceIdeal Cert.ReferenceIdeal.Gen

theorem poolArr_eq (bt : IVec S50000 32) (x : FVec Ideal S50000x128 .f32) :
    poolArr bt x = Cert.Spec.toArr (Cert.Spec.pool (Cert.Spec.ofArr x) (fun n => bt (ix1 n))) :=
  ref_pool x bt

theorem ref_value (V : Valuation τ sig (Elt Ideal)) :
    (after (Hand.ops (F := Ideal)) V (Proc.devRef .tc main_v342) : S128x128.Idx → EReal)
      = Cert.Spec.toArr (Cert.Spec.result (RAgg (V main_arg1)) (RTail (V main_arg2)) (Cert.Spec.ofArr (V main_arg0))
          (fun l k j => V main_arg3 (ix3 l k j)) (fun l j => V main_arg4 (ix2 l j)) (fun l j => V main_arg5 (ix2 l j))
          (fun l j => V main_arg6 (ix2 l j)) (fun n => V main_arg2 (ix1 n))) := by

  rw [walk_tail, walk_pool, walk_layer3, walk_layer2, walk_layer1, walk_layer0]

  rw [layer_eq0, layer_eq1, layer_eq2, layer_eq3, poolArr_eq]

  simp only [Cert.Spec.result, RTail, Cert.Spec.toArr_ofArr, Cert.Spec.ofArr_toArr]

end Cert.ReferenceIdeal.ValHand

end
-- ==== Proof.KHost.lean ====
import proofs.«428520_j76347338654282_1_alg».proof.Proof.Gen.KernelIdeal.Regions
import proofs.«428520_j76347338654282_1_alg».proof.Proof.KDefs
import Idealize.ShloMosaic.Lib.ValueIdx
import Idealize.ShloMosaic.Lib.Pipeline.Value
import Idealize.ShloMosaic.Lib.ValueLayout

set_option maxRecDepth 1652

noncomputable section

namespace Cert.KernelIdeal.ValHand

open Idealize.ShloMosaic Idealize.ShloMosaic.TcCoe Idealize.ShloMosaic.StableHlo Idealize.ShloMosaic.ValueIdx
open Cert.KernelIdeal Cert.KernelIdeal.Gen

theorem stackW_apply (X : S4x128x128.Idx → EReal) (o : Nat) (l : Fin 4) (ho : l.val = o)
    (hs : S4x128x128.Slices ![o, 0, 0] S1x128x128) (h1 : S1x128x128.ShapeCasts S128x128) (k j : Fin 128) :
    shapeCast S128x128 (extractStridedSlice S1x128x128 ![o, 0, 0] X hs) h1 (ix2 k j) = X (ix3 l k j) := by
  rw [shapeCast_1ab_ab_apply]
  exact extractStridedSlice_apply _ X hs _ _ (fun a => by
    match a with
    | ⟨0, _⟩ => show l.val = o + 0; omega
    | ⟨1, _⟩ => show k.val = 0 + k.val; omega
    | ⟨2, _⟩ => show j.val = 0 + j.val; omega)

theorem stackRow_apply (X : S4x128.Idx → EReal) (o : Nat) (l : Fin 4) (ho : l.val = o)
    (hs : S4x128.Slices ![o, 0] S1x128) (h1 : S1x128.ShapeCasts S128) (h2 : S128.ShapeCasts S1x128) (u : Fin 1) (j : Fin 128) :
    shapeCast S1x128 (shapeCast S128 (extractStridedSlice S1x128 ![o, 0] X hs) h1) h2 (ix2 u j) = X (ix2 l j) := by
  rw [shapeCast_a_1a_apply, shapeCast_1a_a_apply]
  exact extractStridedSlice_apply _ X hs _ _ (fun a => by
    match a with
    | ⟨0, _⟩ => show l.val = o + 0; omega
    | ⟨1, _⟩ => show j.val = 0 + j.val; omega)

theorem column_apply (X : S50000.Idx → BitVec 32) (h : S50000.ShapeCasts S50000x1) (n : Fin 50000) (u : Fin 1) :
    shapeCast S50000x1 X h (ix2 n u) = X (ix1 n) :=
  shapeCast_apply X h _ _ (by
    have hu : u.val = 0 := by omega
    rw [Shape.rowMajor_val_one, Shape.rowMajor_val_two]
    show n.val = n.val * 1 + u.val
    omega)

variable (V : Valuation τ sig (Elt Ideal))
variable (n : Fin 50000) (u : Fin 1) (k j : Fin 128)

theorem s0_src : (after (hostOps0 (F := Ideal)) V main_v1 : S600000.Idx → BitVec 32) = KSrc (V main_arg1) := by
  after_results_simp; rfl

theorem s0_dst : (after (hostOps0 (F := Ideal)) V main_v3 : S600000.Idx → BitVec 32) = KDst (V main_arg1) := by
  after_results_simp; rfl

theorem s0_coef : (after (hostOps0 (F := Ideal)) V main_v30 : S600000.Idx → EReal) = KCoef (V main_arg1) := by
  after_results_simp; rfl

theorem s0_self : (after (hostOps0 (F := Ideal)) V main_v31 : S50000.Idx → EReal) = KSelf (V main_arg1) := by
  after_results_simp; rfl

theorem s0_w : (after (hostOps0 (F := Ideal)) V main_v33 : S128x128.Idx → EReal) (ix2 k j)
    = (V main_arg3 : S4x128x128.Idx → EReal) (ix3 0 k j) := by
  after_results_simp; exact stackW_apply _ 0 0 rfl _ _ k j

theorem s1_b : (after (hostOps1 (F := Ideal)) V main_v63 : S1x128.Idx → EReal) (ix2 u j)
    = (V main_arg4 : S4x128.Idx → EReal) (ix2 0 j) := by
  after_results_simp; exact stackRow_apply _ 0 0 rfl _ _ _ u j

theorem s1_g : (after (hostOps1 (F := Ideal)) V main_v64 : S1x128.Idx → EReal) (ix2 u j)
    = (V main_arg5 : S4x128.Idx → EReal) (ix2 0 j) := by
  after_results_simp; exact stackRow_apply _ 0 0 rfl _ _ _ u j

theorem s1_bt : (after (hostOps1 (F := Ideal)) V main_v65 : S1x128.Idx → EReal) (ix2 u j)
    = (V main_arg6 : S4x128.Idx → EReal) (ix2 0 j) := by
  after_results_simp; exact stackRow_apply _ 0 0 rfl _ _ _ u j

theorem s2_w : (after (hostOps2 (F := Ideal)) V main_v68 : S128x128.Idx → EReal) (ix2 k j)
    = (V main_arg3 : S4x128x128.Idx → EReal) (ix3 1 k j) := by
  after_results_simp; exact stackW_apply _ 1 1 rfl _ _ k j

theorem s3_b : (after (hostOps3 (F := Ideal)) V main_v98 : S1x128.Idx → EReal) (ix2 u j)
    = (V main_arg4 : S4x128.Idx → EReal) (ix2 1 j) := by
  after_results_simp; exact stackRow_apply _ 1 1 rfl _ _ _ u j

theorem s3_g : (after (hostOps3 (F := Ideal)) V main_v99 : S1x128.Idx → EReal) (ix2 u j)
    = (V main_arg5 : S4x128.Idx → EReal) (ix2 1 j) := by
  after_results_simp; exact stackRow_apply _ 1 1 rfl _ _ _ u j

theorem s3_bt : (after (hostOps3 (F := Ideal)) V main_v100 : S1x128.Idx → EReal) (ix2 u j)
    = (V main_arg6 : S4x128.Idx → EReal) (ix2 1 j) := by
  after_results_simp; exact stackRow_apply _ 1 1 rfl _ _ _ u j

theorem s4_w : (after (hostOps4 (F := Ideal)) V main_v103 : S128x128.Idx → EReal) (ix2 k j)
    = (V main_arg3 : S4x128x128.Idx → EReal) (ix3 2 k j) := by
  after_results_simp; exact stackW_apply _ 2 2 rfl _ _ k j

theorem s5_b : (after (hostOps5 (F := Ideal)) V main_v133 : S1x128.Idx → EReal) (ix2 u j)
    = (V main_arg4 : S4x128.Idx → EReal) (ix2 2 j) := by
  after_results_simp; exact stackRow_apply _ 2 2 rfl _ _ _ u j

theorem s5_g : (after (hostOps5 (F := Ideal)) V main_v134 : S1x128.Idx → EReal) (ix2 u j)
    = (V main_arg5 : S4x128.Idx → EReal) (ix2 2 j) := by
  after_results_simp; exact stackRow_apply _ 2 2 rfl _ _ _ u j

theorem s5_bt : (after (hostOps5 (F := Ideal)) V main_v135 : S1x128.Idx → EReal) (ix2 u j)
    = (V main_arg6 : S4x128.Idx → EReal) (ix2 2 j) := by
  after_results_simp; exact stackRow_apply _ 2 2 rfl _ _ _ u j

theorem s6_w : (after (hostOps6 (F := Ideal)) V main_v138 : S128x128.Idx → EReal) (ix2 k j)
    = (V main_arg3 : S4x128x128.Idx → EReal) (ix3 3 k j) := by
  after_results_simp; exact stackW_apply _ 3 3 rfl _ _ k j

theorem s7_b : (after (hostOps7 (F := Ideal)) V main_v168 : S1x128.Idx → EReal) (ix2 u j)
    = (V main_arg4 : S4x128.Idx → EReal) (ix2 3 j) := by
  after_results_simp; exact stackRow_apply _ 3 3 rfl _ _ _ u j

theorem s7_g : (after (hostOps7 (F := Ideal)) V main_v169 : S1x128.Idx → EReal) (ix2 u j)
    = (V main_arg5 : S4x128.Idx → EReal) (ix2 3 j) := by
  after_results_simp; exact stackRow_apply _ 3 3 rfl _ _ _ u j

theorem s7_bt : (after (hostOps7 (F := Ideal)) V main_v170 : S1x128.Idx → EReal) (ix2 u j)
    = (V main_arg6 : S4x128.Idx → EReal) (ix2 3 j) := by
  after_results_simp; exact stackRow_apply _ 3 3 rfl _ _ _ u j

section

variable (ei : S2x600000.Idx → BitVec 32)
    (h1 : (V main_v1 : S600000.Idx → BitVec 32) = KSrc ei) (h3 : (V main_v3 : S600000.Idx → BitVec 32) = KDst ei)
    (h30 : (V main_v30 : S600000.Idx → EReal) = KCoef ei) (h31 : (V main_v31 : S50000.Idx → EReal) = KSelf ei)
include h1 h3 h30 h31

theorem s1_agg : (after (hostOps1 (F := Ideal)) V main_v56 : S50000x128.Idx → EReal) = KAggArr ei (V main_v34) := by
  after_results_simp; rw [h1, h3, h30, h31]; rfl

theorem s3_agg : (after (hostOps3 (F := Ideal)) V main_v91 : S50000x128.Idx → EReal) = KAggArr ei (V main_v69) := by
  after_results_simp; rw [h1, h3, h30, h31]; rfl

theorem s5_agg : (after (hostOps5 (F := Ideal)) V main_v126 : S50000x128.Idx → EReal) = KAggArr ei (V main_v104) := by
  after_results_simp; rw [h1, h3, h30, h31]; rfl

theorem s7_agg : (after (hostOps7 (F := Ideal)) V main_v161 : S50000x128.Idx → EReal) = KAggArr ei (V main_v139) := by
  after_results_simp; rw [h1, h3, h30, h31]; rfl

end

theorem s8_cnt : (after (hostOps8 (F := Ideal)) V main_v175 : S128.Idx → EReal) = KCnt (V main_arg2) := by
  after_results_simp; rfl

theorem s8_gid : (after (hostOps8 (F := Ideal)) V main_v176 : S50000x1.Idx → BitVec 32) (ix2 n u)
    = (V main_arg2 : S50000.Idx → BitVec 32) (ix1 n) := by
  after_results_simp; exact column_apply _ _ n u

theorem s9_one : (after (hostOps9 (F := Ideal)) V main_cst_29 : S_.Idx → EReal) = constant (F := Ideal) S_ .f32 0x3F800000#32 := by
  after_results_simp

theorem s9_1_clip : (after (hostOps9_1 (F := Ideal)) V main_v178 : S128.Idx → EReal)
    = maximumf (F := Ideal) (φ := .f32) (broadcastInDim S128 ![] bcast_S_S128 (id (V main_cst_29 : FVec Ideal S_ .f32)))
        (V main_v175 : FVec Ideal S128 .f32) := by
  after_results_simp; rfl

theorem s9_2_div : (after (hostOps9_2 (F := Ideal)) V main_v181 : S128x128.Idx → EReal)
    = Host.divf (F := Ideal) (φ := .f32) (V main_v177 : FVec Ideal S128x128 .f32)
        (broadcastInDim S128x128 ![0, 1] bcast_S128x1_S128x128_0_1
          (broadcastInDim S128x1 ![0] bcast_S128_S128x1_0 (V main_v178 : FVec Ideal S128 .f32))) := by
  after_results_simp

end Cert.KernelIdeal.ValHand

end
-- ==== Proof.ValLinPay.lean ====
import proofs.«428520_j76347338654282_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.ValHand

open Idealize.ShloMosaic Idealize.ShloMosaic.ValueIdx Cert.KernelIdeal Cert.KernelIdeal.Gen

theorem lhs_linear_0 (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_linear_1 (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ

theorem rhs_linear_0 (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ

theorem rhs_linear_1 (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem blockProduct_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun ax => Fin.ext (by
      match ax with
      | ⟨0, _⟩ => exact lhs_linear_0 _ _
      | ⟨1, _⟩ => exact (lhs_linear_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun ax => Fin.ext (by
      match ax with
      | ⟨0, _⟩ => exact (rhs_linear_0 _ _).trans hk
      | ⟨1, _⟩ => exact rhs_linear_1 _ _)
  rw [el, er]

theorem pay0_apply (x : Vec Ideal S5000x128 .f32) (w : Vec Ideal S128x128 .f32) (p : Fin 5000) (q : Fin 128) :
    Gen.k0_pay1 (F := Ideal) x w (ix2 p q) = ∑ k : Fin 128, x (ix2 p k) * w (ix2 k q) := by
  unfold Gen.k0_pay1
  refine (blockProduct_apply _ _ p q).trans ?_
  refine Finset.sum_congr rfl fun k _ => ?_
  rw [shapeCast_self]
  rfl

theorem pay2_apply (x : Vec Ideal S5000x128 .f32) (w : Vec Ideal S128x128 .f32) (p : Fin 5000) (q : Fin 128) :
    Gen.k2_pay1 (F := Ideal) x w (ix2 p q) = ∑ k : Fin 128, x (ix2 p k) * w (ix2 k q) := by
  unfold Gen.k2_pay1
  refine (blockProduct_apply _ _ p q).trans ?_
  refine Finset.sum_congr rfl fun k _ => ?_
  rw [shapeCast_self, shapeCast_self]
  rfl

theorem pay4_apply (x : Vec Ideal S5000x128 .f32) (w : Vec Ideal S128x128 .f32) (p : Fin 5000) (q : Fin 128) :
    Gen.k4_pay1 (F := Ideal) x w (ix2 p q) = ∑ k : Fin 128, x (ix2 p k) * w (ix2 k q) :=
  pay2_apply x w p q

theorem pay6_apply (x : Vec Ideal S5000x128 .f32) (w : Vec Ideal S128x128 .f32) (p : Fin 5000) (q : Fin 128) :
    Gen.k6_pay1 (F := Ideal) x w (ix2 p q) = ∑ k : Fin 128, x (ix2 p k) * w (ix2 k q) :=
  pay2_apply x w p q

end Cert.KernelIdeal.ValHand

end
-- ==== Proof.ValLin.lean ====
import proofs.«428520_j76347338654282_1_alg».proof.Proof.ValLinPay
import proofs.«428520_j76347338654282_1_alg».proof.Proof.Spec
import proofs.«428520_j76347338654282_1_alg».proof.Proof.Reg0Defs

noncomputable section

open scoped BigOperators

namespace Cert.KernelIdeal.ValHand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

abbrev lin0 (c : Dev nD) : S50000x128.Idx → EReal :=
  Cert.Spec.toArr (Cert.Spec.linear (Cert.Spec.ofArr (V c main_arg0 : S50000x128.Idx → EReal))
    (Cert.Spec.ofArr (V c main_v33 : S128x128.Idx → EReal)))

theorem origin_lin0 : (![0, 0] : Fin 2 → Nat) = fun _ => 0 := funext fun a => by fin_cases a <;> rfl

theorem blockIdx_lin0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem tile_lt_lin0 (t : Fin cfg0.N) : t.val < 10 := lt_of_lt_of_eq t.isLt N_0

theorem xblk_lin0 (c : Dev nD) (t : Fin cfg0.N) (p : Fin 5000) (k : Fin 128) :
    (iblk0 V c 0 t : Vec Ideal S5000x128 .f32) (ix2 p k)
      = (V c main_arg0 : S50000x128.Idx → EReal) (ix2 ⟨5000 * t.val + p.val, by have := tile_lt_lin0 t; omega⟩ k) := by
  obtain ⟨e0, e1, -⟩ := blockIdx_lin0 t
  show (V c main_arg0 : S50000x128.Idx → EReal) (((cfg0.win 0).blk t).view.emb (ix2 p k)) = _
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

theorem wblk_lin0 (c : Dev nD) (t : Fin cfg0.N) (k q : Fin 128) :
    (iblk0 V c 1 t : Vec Ideal S128x128 .f32) (ix2 k q) = (V c main_v33 : S128x128.Idx → EReal) (ix2 k q) := by
  obtain ⟨-, -, e2, e3, -⟩ := blockIdx_lin0 t
  show (V c main_v33 : S128x128.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

theorem stored_lin0 (X : S50000x128.Idx → EReal) (W : S128x128.Idx → EReal)
    (x : Vec Ideal S5000x128 .f32) (w : Vec Ideal S128x128 .f32) (n : Nat) (hn : n < 10)
    (hx : ∀ (p : Fin 5000) (k : Fin 128), x (ix2 p k) = X (ix2 ⟨5000 * n + p.val, by omega⟩ k))
    (hw : ∀ k q : Fin 128, w (ix2 k q) = W (ix2 k q)) (p : Fin 5000) (q : Fin 128) :
    Gen.k0_pay1 (F := Ideal) x w (ix2 p q)
      = Cert.Spec.toArr (Cert.Spec.linear (Cert.Spec.ofArr X) (Cert.Spec.ofArr W)) (ix2 ⟨5000 * n + p.val, by omega⟩ q) := by
  rw [pay0_apply]
  show _ = ∑ k : Fin 128, X (ix2 ⟨5000 * n + p.val, _⟩ k) * W (ix2 k q)
  exact Finset.sum_congr rfl fun k _ => by rw [hx, hw]

theorem flushed_lin0 (c : Dev nD) (t : Fin cfg0.N) :
    (dat0 V c).flushed 2 t = ((cfg0.win 2).blk t).view.read (Elt Ideal) (lin0 V c) := by
  show (cfg0.win 2).cut (grid0.coords t) ((dat0 V c).after 2 t) = _
  rw [after0_2]
  unfold out0_2
  rw [View.canon_unit_zero origin_lin0]
  simp only [View.ld_unit_zero (S := S5000x128) origin_lin0, View.ld_unit_zero (S := S128x128) origin_lin0]
  funext j
  obtain ⟨p, q, rfl⟩ : ∃ (p : Fin 5000) (q : Fin 128), j = ix2 p q := ⟨j 0, j 1, eq_ix2 j⟩
  obtain ⟨-, -, -, -, e4, e5⟩ := blockIdx_lin0 t
  refine (stored_lin0 (V c main_arg0) (V c main_v33) (iblk0 V c 0 t) (iblk0 V c 1 t) t.val (tile_lt_lin0 t)
    (xblk_lin0 V c t) (wblk_lin0 V c t) p q).trans ?_
  show lin0 V c _ = lin0 V c (((cfg0.win 2).blk t).view.emb (ix2 p q))
  refine congrArg _ (funext fun a => Fin.ext ?_)
  match a with
  | ⟨0, _⟩ => show 5000 * t.val + p.val = win0_2.index t (0 : Fin 2) * 5000 + 1 * p.val; omega
  | ⟨1, _⟩ => show q.val = win0_2.index t (1 : Fin 2) * 128 + 1 * q.val; omega

theorem mem_blk_lin0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v34).slice (win0_2.rect t)).set ↔ _
  rw [View.set_slice_whole, Rect.mem_set_unit]
  exact Iff.rfl

theorem cover_lin0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < cfg0.N := lt_of_lt_of_eq (by omega : (i 0).val / 5000 < 10) N_0.symm
  obtain ⟨-, -, -, -, e4, e5⟩ := blockIdx_lin0 ⟨(i 0).val / 5000, ht⟩
  refine ⟨⟨(i 0).val / 5000, ht⟩, flush0_2 _, ?_⟩
  rw [mem_blk_lin0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

theorem value0 (c : Dev nD) :
    (dat0 V c).arrAt 2 cfg0.N
      = Cert.Spec.toArr (Cert.Spec.linear (Cert.Spec.ofArr (V c main_arg0 : S50000x128.Idx → EReal))
          (Cert.Spec.ofArr (V c main_v33 : S128x128.Idx → EReal))) :=
  (dat0 V c).arrAt_eq_of_cover 2 (lin0 V c) (fun t _ => flushed_lin0 V c t) cover_lin0

end Cert.KernelIdeal.ValHand

end
-- ==== Proof.ValLin2.lean ====
import proofs.«428520_j76347338654282_1_alg».proof.Proof.ValLinPay
import proofs.«428520_j76347338654282_1_alg».proof.Proof.Spec
import proofs.«428520_j76347338654282_1_alg».proof.Proof.Reg2Defs

noncomputable section

open scoped BigOperators

namespace Cert.KernelIdeal.ValHand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

abbrev lin2 (c : Dev nD) : S50000x128.Idx → EReal :=
  Cert.Spec.toArr (Cert.Spec.linear (Cert.Spec.ofArr (V c main_v66 : S50000x128.Idx → EReal))
    (Cert.Spec.ofArr (V c main_v68 : S128x128.Idx → EReal)))

theorem origin_lin2 : (![0, 0] : Fin 2 → Nat) = fun _ => 0 := funext fun a => by fin_cases a <;> rfl

theorem blockIdx_lin2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem tile_lt_lin2 (t : Fin cfg2.N) : t.val < 10 := lt_of_lt_of_eq t.isLt N_2

theorem xblk_lin2 (c : Dev nD) (t : Fin cfg2.N) (p : Fin 5000) (k : Fin 128) :
    (iblk2 V c 0 t : Vec Ideal S5000x128 .f32) (ix2 p k)
      = (V c main_v66 : S50000x128.Idx → EReal) (ix2 ⟨5000 * t.val + p.val, by have := tile_lt_lin2 t; omega⟩ k) := by
  obtain ⟨e0, e1, -⟩ := blockIdx_lin2 t
  show (V c main_v66 : S50000x128.Idx → EReal) (((cfg2.win 0).blk t).view.emb (ix2 p k)) = _
  refine congrArg _ (funext fun a => Fin.ext ?_)
  match a with
  | ⟨0, _⟩ => show win2_0.index t (0 : Fin 2) * 5000 + 1 * p.val = 5000 * t.val + p.val; omega
  | ⟨1, _⟩ => show win2_0.index t (1 : Fin 2) * 128 + 1 * k.val = k.val; omega

theorem wblk_lin2 (c : Dev nD) (t : Fin cfg2.N) (k q : Fin 128) :
    (iblk2 V c 1 t : Vec Ideal S128x128 .f32) (ix2 k q) = (V c main_v68 : S128x128.Idx → EReal) (ix2 k q) := by
  obtain ⟨-, -, e2, e3, -⟩ := blockIdx_lin2 t
  show (V c main_v68 : S128x128.Idx → EReal) (((cfg2.win 1).blk t).view.emb (ix2 k q)) = _
  refine congrArg _ (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

theorem stored_lin2 (X : S50000x128.Idx → EReal) (W : S128x128.Idx → EReal)
    (x : Vec Ideal S5000x128 .f32) (w : Vec Ideal S128x128 .f32) (n : Nat) (hn : n < 10)
    (hx : ∀ (p : Fin 5000) (k : Fin 128), x (ix2 p k) = X (ix2 ⟨5000 * n + p.val, by omega⟩ k))
    (hw : ∀ k q : Fin 128, w (ix2 k q) = W (ix2 k q)) (p : Fin 5000) (q : Fin 128) :
    Gen.k2_pay1 (F := Ideal) x w (ix2 p q)
      = Cert.Spec.toArr (Cert.Spec.linear (Cert.Spec.ofArr X) (Cert.Spec.ofArr W)) (ix2 ⟨5000 * n + p.val, by omega⟩ q) := by
  rw [pay2_apply]
  show _ = ∑ k : Fin 128, X (ix2 ⟨5000 * n + p.val, _⟩ k) * W (ix2 k q)
  exact Finset.sum_congr rfl fun k _ => by rw [hx, hw]

theorem flushed_lin2 (c : Dev nD) (t : Fin cfg2.N) :
    (dat2 V c).flushed 2 t = ((cfg2.win 2).blk t).view.read (Elt Ideal) (lin2 V c) := by
  show (cfg2.win 2).cut (grid2.coords t) ((dat2 V c).after 2 t) = _
  rw [after2_2]
  unfold out2_2
  rw [View.canon_unit_zero origin_lin2]
  simp only [View.ld_unit_zero (S := S5000x128) origin_lin2, View.ld_unit_zero (S := S128x128) origin_lin2]
  funext j
  obtain ⟨p, q, rfl⟩ : ∃ (p : Fin 5000) (q : Fin 128), j = ix2 p q := ⟨j 0, j 1, eq_ix2 j⟩
  obtain ⟨-, -, -, -, e4, e5⟩ := blockIdx_lin2 t
  refine (stored_lin2 (V c main_v66) (V c main_v68) (iblk2 V c 0 t) (iblk2 V c 1 t) t.val (tile_lt_lin2 t)
    (xblk_lin2 V c t) (wblk_lin2 V c t) p q).trans ?_
  show lin2 V c _ = lin2 V c (((cfg2.win 2).blk t).view.emb (ix2 p q))
  refine congrArg _ (funext fun a => Fin.ext ?_)
  match a with
  | ⟨0, _⟩ => show 5000 * t.val + p.val = win2_2.index t (0 : Fin 2) * 5000 + 1 * p.val; omega
  | ⟨1, _⟩ => show q.val = win2_2.index t (1 : Fin 2) * 128 + 1 * q.val; omega

theorem mem_blk_lin2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v69).slice (win2_2.rect t)).set ↔ _
  rw [View.set_slice_whole, Rect.mem_set_unit]
  exact Iff.rfl

theorem cover_lin2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have ht : (i 0).val / 5000 < cfg2.N := lt_of_lt_of_eq (by omega : (i 0).val / 5000 < 10) N_2.symm
  obtain ⟨-, -, -, -, e4, e5⟩ := blockIdx_lin2 ⟨(i 0).val / 5000, ht⟩
  refine ⟨⟨(i 0).val / 5000, ht⟩, flush2_2 _, ?_⟩
  rw [mem_blk_lin2]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    rw [e5]; omega

theorem value2 (c : Dev nD) :
    (dat2 V c).arrAt 2 cfg2.N
      = Cert.Spec.toArr (Cert.Spec.linear (Cert.Spec.ofArr (V c main_v66 : S50000x128.Idx → EReal))
          (Cert.Spec.ofArr (V c main_v68 : S128x128.Idx → EReal))) :=
  (dat2 V c).arrAt_eq_of_cover 2 (lin2 V c) (fun t _ => flushed_lin2 V c t) cover_lin2

end Cert.KernelIdeal.ValHand

end
-- ==== Proof.ValLin4.lean ====
import proofs.«428520_j76347338654282_1_alg».proof.Proof.ValLinPay
import proofs.«428520_j76347338654282_1_alg».proof.Proof.Spec
import proofs.«428520_j76347338654282_1_alg».proof.Proof.Reg4Defs

noncomputable section

open scoped BigOperators

namespace Cert.KernelIdeal.ValHand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

abbrev lin4 (c : Dev nD) : S50000x128.Idx → EReal :=
  Cert.Spec.toArr (Cert.Spec.linear (Cert.Spec.ofArr (V c main_v101 : S50000x128.Idx → EReal))
    (Cert.Spec.ofArr (V c main_v103 : S128x128.Idx → EReal)))

theorem origin_lin4 : (![0, 0] : Fin 2 → Nat) = fun _ => 0 := funext fun a => by fin_cases a <;> rfl

theorem blockIdx_lin4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem tile_lt_lin4 (t : Fin cfg4.N) : t.val < 10 := lt_of_lt_of_eq t.isLt N_4

theorem xblk_lin4 (c : Dev nD) (t : Fin cfg4.N) (p : Fin 5000) (k : Fin 128) :
    (iblk4 V c 0 t : Vec Ideal S5000x128 .f32) (ix2 p k)
      = (V c main_v101 : S50000x128.Idx → EReal) (ix2 ⟨5000 * t.val + p.val, by have := tile_lt_lin4 t; omega⟩ k) := by
  obtain ⟨e0, e1, -⟩ := blockIdx_lin4 t
  show (V c main_v101 : S50000x128.Idx → EReal) (((cfg4.win 0).blk t).view.emb (ix2 p k)) = _
  refine congrArg _ (funext fun a => Fin.ext ?_)
  match a with
  | ⟨0, _⟩ => show win4_0.index t (0 : Fin 2) * 5000 + 1 * p.val = 5000 * t.val + p.val; omega
  | ⟨1, _⟩ => show win4_0.index t (1 : Fin 2) * 128 + 1 * k.val = k.val; omega

theorem wblk_lin4 (c : Dev nD) (t : Fin cfg4.N) (k q : Fin 128) :
    (iblk4 V c 1 t : Vec Ideal S128x128 .f32) (ix2 k q) = (V c main_v103 : S128x128.Idx → EReal) (ix2 k q) := by
  obtain ⟨-, -, e2, e3, -⟩ := blockIdx_lin4 t
  show (V c main_v103 : S128x128.Idx → EReal) (((cfg4.win 1).blk t).view.emb (ix2 k q)) = _
  refine congrArg _ (funext fun a => Fin.ext ?_)
  match a with
  | ⟨0, _⟩ => show win4_1.index t (0 : Fin 2) * 128 + 1 * k.val = k.val; omega
  | ⟨1, _⟩ => show win4_1.index t (1 : Fin 2) * 128 + 1 * q.val = q.val; omega

theorem stored_lin4 (X : S50000x128.Idx → EReal) (W : S128x128.Idx → EReal)
    (x : Vec Ideal S5000x128 .f32) (w : Vec Ideal S128x128 .f32) (n : Nat) (hn : n < 10)
    (hx : ∀ (p : Fin 5000) (k : Fin 128), x (ix2 p k) = X (ix2 ⟨5000 * n + p.val, by omega⟩ k))
    (hw : ∀ k q : Fin 128, w (ix2 k q) = W (ix2 k q)) (p : Fin 5000) (q : Fin 128) :
    Gen.k4_pay1 (F := Ideal) x w (ix2 p q)
      = Cert.Spec.toArr (Cert.Spec.linear (Cert.Spec.ofArr X) (Cert.Spec.ofArr W)) (ix2 ⟨5000 * n + p.val, by omega⟩ q) := by
  rw [pay4_apply]
  show _ = ∑ k : Fin 128, X (ix2 ⟨5000 * n + p.val, _⟩ k) * W (ix2 k q)
  exact Finset.sum_congr rfl fun k _ => by rw [hx, hw]

theorem flushed_lin4 (c : Dev nD) (t : Fin cfg4.N) :
    (dat4 V c).flushed 2 t = ((cfg4.win 2).blk t).view.read (Elt Ideal) (lin4 V c) := by
  show (cfg4.win 2).cut (grid4.coords t) ((dat4 V c).after 2 t) = _
  rw [after4_2]
  unfold out4_2
  rw [View.canon_unit_zero origin_lin4]
  simp only [View.ld_unit_zero (S := S5000x128) origin_lin4, View.ld_unit_zero (S := S128x128) origin_lin4]
  funext j
  obtain ⟨p, q, rfl⟩ : ∃ (p : Fin 5000) (q : Fin 128), j = ix2 p q := ⟨j 0, j 1, eq_ix2 j⟩
  obtain ⟨-, -, -, -, e4, e5⟩ := blockIdx_lin4 t
  refine (stored_lin4 (V c main_v101) (V c main_v103) (iblk4 V c 0 t) (iblk4 V c 1 t) t.val (tile_lt_lin4 t)
    (xblk_lin4 V c t) (wblk_lin4 V c t) p q).trans ?_
  show lin4 V c _ = lin4 V c (((cfg4.win 2).blk t).view.emb (ix2 p q))
  refine congrArg _ (funext fun a => Fin.ext ?_)
  match a with
  | ⟨0, _⟩ => show 5000 * t.val + p.val = win4_2.index t (0 : Fin 2) * 5000 + 1 * p.val; omega
  | ⟨1, _⟩ => show q.val = win4_2.index t (1 : Fin 2) * 128 + 1 * q.val; omega

theorem mem_blk_lin4 (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v104).slice (win4_2.rect t)).set ↔ _
  rw [View.set_slice_whole, Rect.mem_set_unit]
  exact Iff.rfl

theorem cover_lin4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have ht : (i 0).val / 5000 < cfg4.N := lt_of_lt_of_eq (by omega : (i 0).val / 5000 < 10) N_4.symm
  obtain ⟨-, -, -, -, e4, e5⟩ := blockIdx_lin4 ⟨(i 0).val / 5000, ht⟩
  refine ⟨⟨(i 0).val / 5000, ht⟩, flush4_2 _, ?_⟩
  rw [mem_blk_lin4]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val
      ∧ (i 1).val < win4_2.index ⟨(i 0).val / 5000, ht⟩ (1 : Fin 2) * 128 + 128
    rw [e5]; omega

theorem value4 (c : Dev nD) :
    (dat4 V c).arrAt 2 cfg4.N
      = Cert.Spec.toArr (Cert.Spec.linear (Cert.Spec.ofArr (V c main_v101 : S50000x128.Idx → EReal))
          (Cert.Spec.ofArr (V c main_v103 : S128x128.Idx → EReal))) :=
  (dat4 V c).arrAt_eq_of_cover 2 (lin4 V c) (fun t _ => flushed_lin4 V c t) cover_lin4

end Cert.KernelIdeal.ValHand

end
-- ==== Proof.ValLin6.lean ====
import proofs.«428520_j76347338654282_1_alg».proof.Proof.ValLinPay
import proofs.«428520_j76347338654282_1_alg».proof.Proof.Spec
import proofs.«428520_j76347338654282_1_alg».proof.Proof.Reg6Defs

noncomputable section

open scoped BigOperators

namespace Cert.KernelIdeal.ValHand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

abbrev lin6 (c : Dev nD) : S50000x128.Idx → EReal :=
  Cert.Spec.toArr (Cert.Spec.linear (Cert.Spec.ofArr (V c main_v136 : S50000x128.Idx → EReal))
    (Cert.Spec.ofArr (V c main_v138 : S128x128.Idx → EReal)))

theorem origin_lin6 : (![0, 0] : Fin 2 → Nat) = fun _ => 0 := funext fun a => by fin_cases a <;> rfl

theorem blockIdx_lin6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem tile_lt_lin6 (t : Fin cfg6.N) : t.val < 10 := lt_of_lt_of_eq t.isLt N_6

theorem xblk_lin6 (c : Dev nD) (t : Fin cfg6.N) (p : Fin 5000) (k : Fin 128) :
    (iblk6 V c 0 t : Vec Ideal S5000x128 .f32) (ix2 p k)
      = (V c main_v136 : S50000x128.Idx → EReal) (ix2 ⟨5000 * t.val + p.val, by have := tile_lt_lin6 t; omega⟩ k) := by
  obtain ⟨e0, e1, -⟩ := blockIdx_lin6 t
  show (V c main_v136 : S50000x128.Idx → EReal) (((cfg6.win 0).blk t).view.emb (ix2 p k)) = _
  refine congrArg _ (funext fun a => Fin.ext ?_)
  match a with
  | ⟨0, _⟩ => show win6_0.index t (0 : Fin 2) * 5000 + 1 * p.val = 5000 * t.val + p.val; omega
  | ⟨1, _⟩ => show win6_0.index t (1 : Fin 2) * 128 + 1 * k.val = k.val; omega

theorem wblk_lin6 (c : Dev nD) (t : Fin cfg6.N) (k q : Fin 128) :
    (iblk6 V c 1 t : Vec Ideal S128x128 .f32) (ix2 k q) = (V c main_v138 : S128x128.Idx → EReal) (ix2 k q) := by
  obtain ⟨-, -, e2, e3, -⟩ := blockIdx_lin6 t
  show (V c main_v138 : S128x128.Idx → EReal) (((cfg6.win 1).blk t).view.emb (ix2 k q)) = _
  refine congrArg _ (funext fun a => Fin.ext ?_)
  match a with
  | ⟨0, _⟩ => show win6_1.index t (0 : Fin 2) * 128 + 1 * k.val = k.val; omega
  | ⟨1, _⟩ => show win6_1.index t (1 : Fin 2) * 128 + 1 * q.val = q.val; omega

theorem stored_lin6 (X : S50000x128.Idx → EReal) (W : S128x128.Idx → EReal)
    (x : Vec Ideal S5000x128 .f32) (w : Vec Ideal S128x128 .f32) (n : Nat) (hn : n < 10)
    (hx : ∀ (p : Fin 5000) (k : Fin 128), x (ix2 p k) = X (ix2 ⟨5000 * n + p.val, by omega⟩ k))
    (hw : ∀ k q : Fin 128, w (ix2 k q) = W (ix2 k q)) (p : Fin 5000) (q : Fin 128) :
    Gen.k6_pay1 (F := Ideal) x w (ix2 p q)
      = Cert.Spec.toArr (Cert.Spec.linear (Cert.Spec.ofArr X) (Cert.Spec.ofArr W)) (ix2 ⟨5000 * n + p.val, by omega⟩ q) := by
  rw [pay6_apply]
  show _ = ∑ k : Fin 128, X (ix2 ⟨5000 * n + p.val, _⟩ k) * W (ix2 k q)
  exact Finset.sum_congr rfl fun k _ => by rw [hx, hw]

theorem flushed_lin6 (c : Dev nD) (t : Fin cfg6.N) :
    (dat6 V c).flushed 2 t = ((cfg6.win 2).blk t).view.read (Elt Ideal) (lin6 V c) := by
  show (cfg6.win 2).cut (grid6.coords t) ((dat6 V c).after 2 t) = _
  rw [after6_2]
  unfold out6_2
  rw [View.canon_unit_zero origin_lin6]
  simp only [View.ld_unit_zero (S := S5000x128) origin_lin6, View.ld_unit_zero (S := S128x128) origin_lin6]
  funext j
  obtain ⟨p, q, rfl⟩ : ∃ (p : Fin 5000) (q : Fin 128), j = ix2 p q := ⟨j 0, j 1, eq_ix2 j⟩
  obtain ⟨-, -, -, -, e4, e5⟩ := blockIdx_lin6 t
  refine (stored_lin6 (V c main_v136) (V c main_v138) (iblk6 V c 0 t) (iblk6 V c 1 t) t.val (tile_lt_lin6 t)
    (xblk_lin6 V c t) (wblk_lin6 V c t) p q).trans ?_
  show lin6 V c _ = lin6 V c (((cfg6.win 2).blk t).view.emb (ix2 p q))
  refine congrArg _ (funext fun a => Fin.ext ?_)
  match a with
  | ⟨0, _⟩ => show 5000 * t.val + p.val = win6_2.index t (0 : Fin 2) * 5000 + 1 * p.val; omega
  | ⟨1, _⟩ => show q.val = win6_2.index t (1 : Fin 2) * 128 + 1 * q.val; omega

theorem mem_blk_lin6 (t : Fin cfg6.N) (i : S50000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v139).slice (win6_2.rect t)).set ↔ _
  rw [View.set_slice_whole, Rect.mem_set_unit]
  exact Iff.rfl

theorem cover_lin6 (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  have ht : (i 0).val / 5000 < cfg6.N := lt_of_lt_of_eq (by omega : (i 0).val / 5000 < 10) N_6.symm
  obtain ⟨-, -, -, -, e4, e5⟩ := blockIdx_lin6 ⟨(i 0).val / 5000, ht⟩
  refine ⟨⟨(i 0).val / 5000, ht⟩, flush6_2 _, ?_⟩
  rw [mem_blk_lin6]
  intro a
  match a with
  | ⟨0, _⟩ =>
    show win6_2.index ⟨(i 0).val / 5000, ht⟩ (0 : Fin 2) * 5000 ≤ (i 0).val
      ∧ (i 0).val < win6_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win6_2.index ⟨(i 0).val / 5000, ht⟩ (1 : Fin 2) * 128 ≤ (i 1).val
      ∧ (i 1).val < win6_2.index ⟨(i 0).val / 5000, ht⟩ (1 : Fin 2) * 128 + 128
    rw [e5]; omega

theorem value6 (c : Dev nD) :
    (dat6 V c).arrAt 2 cfg6.N
      = Cert.Spec.toArr (Cert.Spec.linear (Cert.Spec.ofArr (V c main_v136 : S50000x128.Idx → EReal))
          (Cert.Spec.ofArr (V c main_v138 : S128x128.Idx → EReal))) :=
  (dat6 V c).arrAt_eq_of_cover 2 (lin6 V c) (fun t _ => flushed_lin6 V c t) cover_lin6

end Cert.KernelIdeal.ValHand

end
-- ==== Proof.ValLnPay.lean ====
import proofs.«428520_j76347338654282_1_alg».proof.Proof.Gen.KernelIdeal.Skeleton
import proofs.«428520_j76347338654282_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.ValHand

open Idealize.ShloMosaic Idealize.ShloMosaic.ValueIdx Cert.KernelIdeal

def rowY (xr ar b : Fin 128 → EReal) : Fin 128 → EReal := fun j => (xr j + ar j) + b j

def rowMu (y : Fin 128 → EReal) : EReal := Ideal.div (∑ j : Fin 128, y j) Cert.Spec.w128

def rowSig (y : Fin 128 → EReal) : EReal := Ideal.div (∑ j : Fin 128, (y j - rowMu y) * (y j - rowMu y)) Cert.Spec.w128

def rowForm (xr ar b g bt : Fin 128 → EReal) (q : Fin 128) : EReal :=
  max ((((rowY xr ar b q - rowMu (rowY xr ar b)) * Ideal.rsqrt (rowSig (rowY xr ar b) + Cert.Spec.wEps)) * g q) + bt q) Cert.Spec.wZero

theorem spec_normRelu_eq_rowForm (X A : Fin 50000 → Fin 128 → EReal) (b g bt : Fin 128 → EReal) (n : Fin 50000) (q : Fin 128) :
    Cert.Spec.normRelu (Cert.Spec.resid X A b) g bt n q = rowForm (X n) (A n) b g bt q := rfl

theorem rsqrt_apply {s : Shape} {φ : FTy} (a : FVec Ideal s φ) (i : s.Idx) : rsqrt a i = Ideal.rsqrt (a i) := rfl

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem laneSum_apply (src : FVec Ideal S5000x128 .f32) (h : S5000x128.Reduces [1] S5000) (hφ : FTy.f32 = FTy.f32 ∨ FTy.f32 = FTy.bf16)
    (hacc : (0x00000000#32 : BitVec 32) = 0x00000000#32) (p : Fin 5000) :
    multiReduction (F := Ideal) .add [1] S5000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext ax
  match ax with
  | ⟨0, _⟩ => rfl
  | ⟨1, _⟩ => rfl

theorem pay1_apply (x agg : Vec Ideal S5000x128 .f32) (b g bt : Vec Ideal S1x128 .f32) (p : Fin 5000) (q : Fin 128) :
    Gen.k1_pay1 (F := Ideal) x agg b g bt (ix2 p q)
      = rowForm (fun j => x (ix2 p j)) (fun j => agg (ix2 p j)) (fun j => b (ix2 (0 : Fin 1) j))
          (fun j => g (ix2 (0 : Fin 1) j)) (fun j => bt (ix2 (0 : Fin 1) j)) q := by
  unfold Gen.k1_pay1 rowForm rowSig rowMu rowY
  simp only [maximumf_apply, addf_apply, mulf_apply, subf_apply, divf_apply, rsqrt_apply, broadcast_apply, shapeCast_self,
    broadcastTo_1b_ab_apply, broadcastTo_a1_ab_apply, shapeCast_a_a1_apply]
  rw [laneSum_apply, laneSum_apply]
  simp only [maximumf_apply, addf_apply, mulf_apply, subf_apply, divf_apply, rsqrt_apply, broadcast_apply, shapeCast_self,
    broadcastTo_1b_ab_apply, broadcastTo_a1_ab_apply, shapeCast_a_a1_apply]
  rw [laneSum_apply]
  simp only [addf_apply, shapeCast_self, broadcastTo_1b_ab_apply]
  rfl

theorem pay3_apply (x agg : Vec Ideal S5000x128 .f32) (b g bt : Vec Ideal S1x128 .f32) (p : Fin 5000) (q : Fin 128) :
    Gen.k3_pay1 (F := Ideal) x agg b g bt (ix2 p q)
      = rowForm (fun j => x (ix2 p j)) (fun j => agg (ix2 p j)) (fun j => b (ix2 (0 : Fin 1) j))
          (fun j => g (ix2 (0 : Fin 1) j)) (fun j => bt (ix2 (0 : Fin 1) j)) q := by
  unfold Gen.k3_pay1 rowForm rowSig rowMu rowY
  simp only [maximumf_apply, addf_apply, mulf_apply, subf_apply, divf_apply, rsqrt_apply, broadcast_apply, shapeCast_self,
    broadcastTo_1b_ab_apply, broadcastTo_a1_ab_apply, shapeCast_a_a1_apply]
  rw [laneSum_apply, laneSum_apply]
  simp only [maximumf_apply, addf_apply, mulf_apply, subf_apply, divf_apply, rsqrt_apply, broadcast_apply, shapeCast_self,
    broadcastTo_1b_ab_apply, broadcastTo_a1_ab_apply, shapeCast_a_a1_apply]
  rw [laneSum_apply]
  simp only [addf_apply, shapeCast_self, broadcastTo_1b_ab_apply]
  rfl

theorem pay5_apply (x agg : Vec Ideal S5000x128 .f32) (b g bt : Vec Ideal S1x128 .f32) (p : Fin 5000) (q : Fin 128) :
    Gen.k5_pay1 (F := Ideal) x agg b g bt (ix2 p q)
      = rowForm (fun j => x (ix2 p j)) (fun j => agg (ix2 p j)) (fun j => b (ix2 (0 : Fin 1) j))
          (fun j => g (ix2 (0 : Fin 1) j)) (fun j => bt (ix2 (0 : Fin 1) j)) q := by
  unfold Gen.k5_pay1 rowForm rowSig rowMu rowY
  simp only [maximumf_apply, addf_apply, mulf_apply, subf_apply, divf_apply, rsqrt_apply, broadcast_apply, shapeCast_self,
    broadcastTo_1b_ab_apply, broadcastTo_a1_ab_apply, shapeCast_a_a1_apply]
  rw [laneSum_apply, laneSum_apply]
  simp only [maximumf_apply, addf_apply, mulf_apply, subf_apply, divf_apply, rsqrt_apply, broadcast_apply, shapeCast_self,
    broadcastTo_1b_ab_apply, broadcastTo_a1_ab_apply, shapeCast_a_a1_apply]
  rw [laneSum_apply]
  simp only [addf_apply, shapeCast_self, broadcastTo_1b_ab_apply]
  rfl

theorem pay7_apply (x agg : Vec Ideal S5000x128 .f32) (b g bt : Vec Ideal S1x128 .f32) (p : Fin 5000) (q : Fin 128) :
    Gen.k7_pay1 (F := Ideal) x agg b g bt (ix2 p q)
      = rowForm (fun j => x (ix2 p j)) (fun j => agg (ix2 p j)) (fun j => b (ix2 (0 : Fin 1) j))
          (fun j => g (ix2 (0 : Fin 1) j)) (fun j => bt (ix2 (0 : Fin 1) j)) q := by
  unfold Gen.k7_pay1 rowForm rowSig rowMu rowY
  simp only [maximumf_apply, addf_apply, mulf_apply, subf_apply, divf_apply, rsqrt_apply, broadcast_apply, shapeCast_self,
    broadcastTo_1b_ab_apply, broadcastTo_a1_ab_apply, shapeCast_a_a1_apply]
  rw [laneSum_apply, laneSum_apply]
  simp only [maximumf_apply, addf_apply, mulf_apply, subf_apply, divf_apply, rsqrt_apply, broadcast_apply, shapeCast_self,
    broadcastTo_1b_ab_apply, broadcastTo_a1_ab_apply, shapeCast_a_a1_apply]
  rw [laneSum_apply]
  simp only [addf_apply, shapeCast_self, broadcastTo_1b_ab_apply]
  rfl

end Cert.KernelIdeal.ValHand

end
-- ==== Proof.ValLn.lean ====
import proofs.«428520_j76347338654282_1_alg».proof.Proof.ValLnPay
import proofs.«428520_j76347338654282_1_alg».proof.Proof.Spec
import proofs.«428520_j76347338654282_1_alg».proof.Proof.Reg1Defs

noncomputable section

open scoped BigOperators

namespace Cert.KernelIdeal.ValHand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

abbrev ln1 (c : Dev nD) : S50000x128.Idx → EReal :=
  Cert.Spec.toArr (Cert.Spec.normRelu
    (Cert.Spec.resid (Cert.Spec.ofArr (V c main_arg0 : S50000x128.Idx → EReal))
      (Cert.Spec.ofArr (V c main_v56 : S50000x128.Idx → EReal))
      (fun j => (V c main_v63 : S1x128.Idx → EReal) (ix2 (0 : Fin 1) j)))
    (fun j => (V c main_v64 : S1x128.Idx → EReal) (ix2 (0 : Fin 1) j))
    (fun j => (V c main_v65 : S1x128.Idx → EReal) (ix2 (0 : Fin 1) j)))

theorem origin_ln1 : (![0, 0] : Fin 2 → Nat) = fun _ => 0 := funext fun a => by fin_cases a <;> rfl

theorem blockIdx_ln1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem tile_lt_ln1 (t : Fin cfg1.N) : t.val < 10 := lt_of_lt_of_eq t.isLt N_1

theorem xblk_ln1 (c : Dev nD) (t : Fin cfg1.N) (p : Fin 5000) (k : Fin 128) :
    (iblk1 V c 0 t : Vec Ideal S5000x128 .f32) (ix2 p k)
      = (V c main_arg0 : S50000x128.Idx → EReal) (ix2 ⟨5000 * t.val + p.val, by have := tile_lt_ln1 t; omega⟩ k) := by
  obtain ⟨e0, e1, -⟩ := blockIdx_ln1 t
  show (V c main_arg0 : S50000x128.Idx → EReal) (((cfg1.win 0).blk t).view.emb (ix2 p k)) = _
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * k.val = k.val; omega

theorem ablk_ln1 (c : Dev nD) (t : Fin cfg1.N) (p : Fin 5000) (k : Fin 128) :
    (iblk1 V c 1 t : Vec Ideal S5000x128 .f32) (ix2 p k)
      = (V c main_v56 : S50000x128.Idx → EReal) (ix2 ⟨5000 * t.val + p.val, by have := tile_lt_ln1 t; omega⟩ k) := by
  obtain ⟨-, -, e2, e3, -⟩ := blockIdx_ln1 t
  show (V c main_v56 : S50000x128.Idx → EReal) (((cfg1.win 1).blk t).view.emb (ix2 p k)) = _
  refine congrArg _ (funext fun a => Fin.ext ?_)
  match a with
  | ⟨0, _⟩ => show win1_1.index t (0 : Fin 2) * 5000 + 1 * p.val = 5000 * t.val + p.val; omega
  | ⟨1, _⟩ => show win1_1.index t (1 : Fin 2) * 128 + 1 * k.val = k.val; omega

theorem bblk_ln1 (c : Dev nD) (t : Fin cfg1.N) (k : Fin 128) :
    (iblk1 V c 2 t : Vec Ideal S1x128 .f32) (ix2 (0 : Fin 1) k) = (V c main_v63 : S1x128.Idx → EReal) (ix2 (0 : Fin 1) k) := by
  obtain ⟨-, -, -, -, e4, e5, -⟩ := blockIdx_ln1 t
  show (V c main_v63 : S1x128.Idx → EReal) (((cfg1.win 2).blk t).view.emb (ix2 (0 : Fin 1) k)) = _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

theorem gblk_ln1 (c : Dev nD) (t : Fin cfg1.N) (k : Fin 128) :
    (iblk1 V c 3 t : Vec Ideal S1x128 .f32) (ix2 (0 : Fin 1) k) = (V c main_v64 : S1x128.Idx → EReal) (ix2 (0 : Fin 1) k) := by
  obtain ⟨-, -, -, -, -, -, e6, e7, -⟩ := blockIdx_ln1 t
  show (V c main_v64 : S1x128.Idx → EReal) (((cfg1.win 3).blk t).view.emb (ix2 (0 : Fin 1) k)) = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

theorem tblk_ln1 (c : Dev nD) (t : Fin cfg1.N) (k : Fin 128) :
    (iblk1 V c 4 t : Vec Ideal S1x128 .f32) (ix2 (0 : Fin 1) k) = (V c main_v65 : S1x128.Idx → EReal) (ix2 (0 : Fin 1) k) := by
  obtain ⟨-, -, -, -, -, -, -, -, e8, e9, -⟩ := blockIdx_ln1 t
  show (V c main_v65 : S1x128.Idx → EReal) (((cfg1.win 4).blk t).view.emb (ix2 (0 : Fin 1) k)) = _
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * k.val = k.val; omega

theorem stored_ln1 (X A : S50000x128.Idx → EReal) (B G T : S1x128.Idx → EReal)
    (x a : Vec Ideal S5000x128 .f32) (b g s : Vec Ideal S1x128 .f32) (n : Nat) (hn : n < 10)
    (hx : ∀ (p : Fin 5000) (k : Fin 128), x (ix2 p k) = X (ix2 ⟨5000 * n + p.val, by omega⟩ k))
    (ha : ∀ (p : Fin 5000) (k : Fin 128), a (ix2 p k) = A (ix2 ⟨5000 * n + p.val, by omega⟩ k))
    (hb : ∀ k : Fin 128, b (ix2 (0 : Fin 1) k) = B (ix2 (0 : Fin 1) k))
    (hg : ∀ k : Fin 128, g (ix2 (0 : Fin 1) k) = G (ix2 (0 : Fin 1) k))
    (hs : ∀ k : Fin 128, s (ix2 (0 : Fin 1) k) = T (ix2 (0 : Fin 1) k)) (p : Fin 5000) (q : Fin 128) :
    Gen.k1_pay1 (F := Ideal) x a b g s (ix2 p q)
      = Cert.Spec.toArr (Cert.Spec.normRelu
          (Cert.Spec.resid (Cert.Spec.ofArr X) (Cert.Spec.ofArr A) (fun j => B (ix2 (0 : Fin 1) j)))
          (fun j => G (ix2 (0 : Fin 1) j)) (fun j => T (ix2 (0 : Fin 1) j))) (ix2 ⟨5000 * n + p.val, by omega⟩ q) := by
  rw [pay1_apply]
  show _ = Cert.Spec.normRelu (Cert.Spec.resid (Cert.Spec.ofArr X) (Cert.Spec.ofArr A) (fun j => B (ix2 (0 : Fin 1) j)))
    (fun j => G (ix2 (0 : Fin 1) j)) (fun j => T (ix2 (0 : Fin 1) j)) ⟨5000 * n + p.val, _⟩ q
  rw [spec_normRelu_eq_rowForm]
  have ex : (fun j => x (ix2 p j)) = Cert.Spec.ofArr X ⟨5000 * n + p.val, by omega⟩ := funext fun j => hx p j
  have ea : (fun j => a (ix2 p j)) = Cert.Spec.ofArr A ⟨5000 * n + p.val, by omega⟩ := funext fun j => ha p j
  have eb : (fun j => b (ix2 (0 : Fin 1) j)) = fun j => B (ix2 (0 : Fin 1) j) := funext hb
  have eg : (fun j => g (ix2 (0 : Fin 1) j)) = fun j => G (ix2 (0 : Fin 1) j) := funext hg
  have es : (fun j => s (ix2 (0 : Fin 1) j)) = fun j => T (ix2 (0 : Fin 1) j) := funext hs
  rw [ex, ea, eb, eg, es]

theorem flushed_ln1 (c : Dev nD) (t : Fin cfg1.N) :
    (dat1 V c).flushed 5 t = ((cfg1.win 5).blk t).view.read (Elt Ideal) (ln1 V c) := by
  show (cfg1.win 5).cut (grid1.coords t) ((dat1 V c).after 5 t) = _
  rw [after1_5]
  unfold out1_5
  rw [View.canon_unit_zero origin_ln1]
  simp only [View.ld_unit_zero (S := S5000x128) origin_ln1, View.ld_unit_zero (S := S1x128) origin_ln1]
  funext j
  obtain ⟨p, q, rfl⟩ : ∃ (p : Fin 5000) (q : Fin 128), j = ix2 p q := ⟨j 0, j 1, eq_ix2 j⟩
  obtain ⟨-, -, -, -, -, -, -, -, -, -, e10, e11⟩ := blockIdx_ln1 t
  refine (stored_ln1 (V c main_arg0) (V c main_v56) (V c main_v63) (V c main_v64) (V c main_v65)
    (iblk1 V c 0 t) (iblk1 V c 1 t) (iblk1 V c 2 t) (iblk1 V c 3 t) (iblk1 V c 4 t) t.val (tile_lt_ln1 t)
    (xblk_ln1 V c t) (ablk_ln1 V c t) (bblk_ln1 V c t) (gblk_ln1 V c t) (tblk_ln1 V c t) p q).trans ?_
  show ln1 V c _ = ln1 V c (((cfg1.win 5).blk t).view.emb (ix2 p q))
  refine congrArg _ (funext fun a => Fin.ext ?_)
  match a with
  | ⟨0, _⟩ => show 5000 * t.val + p.val = win1_5.index t (0 : Fin 2) * 5000 + 1 * p.val; omega
  | ⟨1, _⟩ => show q.val = win1_5.index t (1 : Fin 2) * 128 + 1 * q.val; omega

theorem mem_blk_ln1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v66).slice (win1_5.rect t)).set ↔ _
  rw [View.set_slice_whole, Rect.mem_set_unit]
  exact Iff.rfl

theorem cover_ln1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 5000 < cfg1.N := lt_of_lt_of_eq (by omega : (i 0).val / 5000 < 10) N_1.symm
  obtain ⟨-, -, -, -, -, -, -, -, -, -, e10, e11⟩ := blockIdx_ln1 ⟨(i 0).val / 5000, ht⟩
  refine ⟨⟨(i 0).val / 5000, ht⟩, flush1_5 _, ?_⟩
  rw [mem_blk_ln1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e11]; omega

theorem value1 (c : Dev nD) :
    (dat1 V c).arrAt 5 cfg1.N
      = Cert.Spec.toArr (Cert.Spec.normRelu
          (Cert.Spec.resid (Cert.Spec.ofArr (V c main_arg0 : S50000x128.Idx → EReal))
            (Cert.Spec.ofArr (V c main_v56 : S50000x128.Idx → EReal))
            (fun j => (V c main_v63 : S1x128.Idx → EReal) (ix2 (0 : Fin 1) j)))
          (fun j => (V c main_v64 : S1x128.Idx → EReal) (ix2 (0 : Fin 1) j))
          (fun j => (V c main_v65 : S1x128.Idx → EReal) (ix2 (0 : Fin 1) j))) :=
  (dat1 V c).arrAt_eq_of_cover 5 (ln1 V c) (fun t _ => flushed_ln1 V c t) cover_ln1

end Cert.KernelIdeal.ValHand

end
-- ==== Proof.ValLn3.lean ====
import proofs.«428520_j76347338654282_1_alg».proof.Proof.ValLnPay
import proofs.«428520_j76347338654282_1_alg».proof.Proof.Spec
import proofs.«428520_j76347338654282_1_alg».proof.Proof.Reg3Defs

noncomputable section

open scoped BigOperators

namespace Cert.KernelIdeal.ValHand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

abbrev ln3 (c : Dev nD) : S50000x128.Idx → EReal :=
  Cert.Spec.toArr (Cert.Spec.normRelu
    (Cert.Spec.resid (Cert.Spec.ofArr (V c main_v66 : S50000x128.Idx → EReal))
      (Cert.Spec.ofArr (V c main_v91 : S50000x128.Idx → EReal))
      (fun j => (V c main_v98 : S1x128.Idx → EReal) (ix2 (0 : Fin 1) j)))
    (fun j => (V c main_v99 : S1x128.Idx → EReal) (ix2 (0 : Fin 1) j))
    (fun j => (V c main_v100 : S1x128.Idx → EReal) (ix2 (0 : Fin 1) j)))

theorem origin_ln3 : (![0, 0] : Fin 2 → Nat) = fun _ => 0 := funext fun a => by fin_cases a <;> rfl

theorem blockIdx_ln3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem tile_lt_ln3 (t : Fin cfg3.N) : t.val < 10 := lt_of_lt_of_eq t.isLt N_3

theorem xblk_ln3 (c : Dev nD) (t : Fin cfg3.N) (p : Fin 5000) (k : Fin 128) :
    (iblk3 V c 0 t : Vec Ideal S5000x128 .f32) (ix2 p k)
      = (V c main_v66 : S50000x128.Idx → EReal) (ix2 ⟨5000 * t.val + p.val, by have := tile_lt_ln3 t; omega⟩ k) := by
  obtain ⟨e0, e1, -⟩ := blockIdx_ln3 t
  show (V c main_v66 : S50000x128.Idx → EReal) (((cfg3.win 0).blk t).view.emb (ix2 p k)) = _
  refine congrArg _ (funext fun a => Fin.ext ?_)
  match a with
  | ⟨0, _⟩ => show win3_0.index t (0 : Fin 2) * 5000 + 1 * p.val = 5000 * t.val + p.val; omega
  | ⟨1, _⟩ => show win3_0.index t (1 : Fin 2) * 128 + 1 * k.val = k.val; omega

theorem ablk_ln3 (c : Dev nD) (t : Fin cfg3.N) (p : Fin 5000) (k : Fin 128) :
    (iblk3 V c 1 t : Vec Ideal S5000x128 .f32) (ix2 p k)
      = (V c main_v91 : S50000x128.Idx → EReal) (ix2 ⟨5000 * t.val + p.val, by have := tile_lt_ln3 t; omega⟩ k) := by
  obtain ⟨-, -, e2, e3, -⟩ := blockIdx_ln3 t
  show (V c main_v91 : S50000x128.Idx → EReal) (((cfg3.win 1).blk t).view.emb (ix2 p k)) = _
  refine congrArg _ (funext fun a => Fin.ext ?_)
  match a with
  | ⟨0, _⟩ => show win3_1.index t (0 : Fin 2) * 5000 + 1 * p.val = 5000 * t.val + p.val; omega
  | ⟨1, _⟩ => show win3_1.index t (1 : Fin 2) * 128 + 1 * k.val = k.val; omega

theorem bblk_ln3 (c : Dev nD) (t : Fin cfg3.N) (k : Fin 128) :
    (iblk3 V c 2 t : Vec Ideal S1x128 .f32) (ix2 (0 : Fin 1) k) = (V c main_v98 : S1x128.Idx → EReal) (ix2 (0 : Fin 1) k) := by
  obtain ⟨-, -, -, -, e4, e5, -⟩ := blockIdx_ln3 t
  show (V c main_v98 : S1x128.Idx → EReal) (((cfg3.win 2).blk t).view.emb (ix2 (0 : Fin 1) k)) = _
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * k.val = k.val; omega

theorem gblk_ln3 (c : Dev nD) (t : Fin cfg3.N) (k : Fin 128) :
    (iblk3 V c 3 t : Vec Ideal S1x128 .f32) (ix2 (0 : Fin 1) k) = (V c main_v99 : S1x128.Idx → EReal) (ix2 (0 : Fin 1) k) := by
  obtain ⟨-, -, -, -, -, -, e6, e7, -⟩ := blockIdx_ln3 t
  show (V c main_v99 : S1x128.Idx → EReal) (((cfg3.win 3).blk t).view.emb (ix2 (0 : Fin 1) k)) = _
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * k.val = k.val; omega

theorem tblk_ln3 (c : Dev nD) (t : Fin cfg3.N) (k : Fin 128) :
    (iblk3 V c 4 t : Vec Ideal S1x128 .f32) (ix2 (0 : Fin 1) k) = (V c main_v100 : S1x128.Idx → EReal) (ix2 (0 : Fin 1) k) := by
  obtain ⟨-, -, -, -, -, -, -, -, e8, e9, -⟩ := blockIdx_ln3 t
  show (V c main_v100 : S1x128.Idx → EReal) (((cfg3.win 4).blk t).view.emb (ix2 (0 : Fin 1) k)) = _
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * k.val = k.val; omega

theorem stored_ln3 (X A : S50000x128.Idx → EReal) (B G T : S1x128.Idx → EReal)
    (x a : Vec Ideal S5000x128 .f32) (b g s : Vec Ideal S1x128 .f32) (n : Nat) (hn : n < 10)
    (hx : ∀ (p : Fin 5000) (k : Fin 128), x (ix2 p k) = X (ix2 ⟨5000 * n + p.val, by omega⟩ k))
    (ha : ∀ (p : Fin 5000) (k : Fin 128), a (ix2 p k) = A (ix2 ⟨5000 * n + p.val, by omega⟩ k))
    (hb : ∀ k : Fin 128, b (ix2 (0 : Fin 1) k) = B (ix2 (0 : Fin 1) k))
    (hg : ∀ k : Fin 128, g (ix2 (0 : Fin 1) k) = G (ix2 (0 : Fin 1) k))
    (hs : ∀ k : Fin 128, s (ix2 (0 : Fin 1) k) = T (ix2 (0 : Fin 1) k)) (p : Fin 5000) (q : Fin 128) :
    Gen.k3_pay1 (F := Ideal) x a b g s (ix2 p q)
      = Cert.Spec.toArr (Cert.Spec.normRelu
          (Cert.Spec.resid (Cert.Spec.ofArr X) (Cert.Spec.ofArr A) (fun j => B (ix2 (0 : Fin 1) j)))
          (fun j => G (ix2 (0 : Fin 1) j)) (fun j => T (ix2 (0 : Fin 1) j))) (ix2 ⟨5000 * n + p.val, by omega⟩ q) := by
  rw [pay3_apply]
  show _ = Cert.Spec.normRelu (Cert.Spec.resid (Cert.Spec.ofArr X) (Cert.Spec.ofArr A) (fun j => B (ix2 (0 : Fin 1) j)))
    (fun j => G (ix2 (0 : Fin 1) j)) (fun j => T (ix2 (0 : Fin 1) j)) ⟨5000 * n + p.val, _⟩ q
  rw [spec_normRelu_eq_rowForm]
  have ex : (fun j => x (ix2 p j)) = Cert.Spec.ofArr X ⟨5000 * n + p.val, by omega⟩ := funext fun j => hx p j
  have ea : (fun j => a (ix2 p j)) = Cert.Spec.ofArr A ⟨5000 * n + p.val, by omega⟩ := funext fun j => ha p j
  have eb : (fun j => b (ix2 (0 : Fin 1) j)) = fun j => B (ix2 (0 : Fin 1) j) := funext hb
  have eg : (fun j => g (ix2 (0 : Fin 1) j)) = fun j => G (ix2 (0 : Fin 1) j) := funext hg
  have es : (fun j => s (ix2 (0 : Fin 1) j)) = fun j => T (ix2 (0 : Fin 1) j) := funext hs
  rw [ex, ea, eb, eg, es]

theorem flushed_ln3 (c : Dev nD) (t : Fin cfg3.N) :
    (dat3 V c).flushed 5 t = ((cfg3.win 5).blk t).view.read (Elt Ideal) (ln3 V c) := by
  show (cfg3.win 5).cut (grid3.coords t) ((dat3 V c).after 5 t) = _
  rw [after3_5]
  unfold out3_5
  rw [View.canon_unit_zero origin_ln3]
  simp only [View.ld_unit_zero (S := S5000x128) origin_ln3, View.ld_unit_zero (S := S1x128) origin_ln3]
  funext j
  obtain ⟨p, q, rfl⟩ : ∃ (p : Fin 5000) (q : Fin 128), j = ix2 p q := ⟨j 0, j 1, eq_ix2 j⟩
  obtain ⟨-, -, -, -, -, -, -, -, -, -, e10, e11⟩ := blockIdx_ln3 t
  refine (stored_ln3 (V c main_v66) (V c main_v91) (V c main_v98) (V c main_v99) (V c main_v100)
    (iblk3 V c 0 t) (iblk3 V c 1 t) (iblk3 V c 2 t) (iblk3 V c 3 t) (iblk3 V c 4 t) t.val (tile_lt_ln3 t)
    (xblk_ln3 V c t) (ablk_ln3 V c t) (bblk_ln3 V c t) (gblk_ln3 V c t) (tblk_ln3 V c t) p q).trans ?_
  show ln3 V c _ = ln3 V c (((cfg3.win 5).blk t).view.emb (ix2 p q))
  refine congrArg _ (funext fun a => Fin.ext ?_)
  match a with
  | ⟨0, _⟩ => show 5000 * t.val + p.val = win3_5.index t (0 : Fin 2) * 5000 + 1 * p.val; omega
  | ⟨1, _⟩ => show q.val = win3_5.index t (1 : Fin 2) * 128 + 1 * q.val; omega

theorem mem_blk_ln3 (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v101).slice (win3_5.rect t)).set ↔ _
  rw [View.set_slice_whole, Rect.mem_set_unit]
  exact Iff.rfl

theorem cover_ln3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have ht : (i 0).val / 5000 < cfg3.N := lt_of_lt_of_eq (by omega : (i 0).val / 5000 < 10) N_3.symm
  obtain ⟨-, -, -, -, -, -, -, -, -, -, e10, e11⟩ := blockIdx_ln3 ⟨(i 0).val / 5000, ht⟩
  refine ⟨⟨(i 0).val / 5000, ht⟩, flush3_5 _, ?_⟩
  rw [mem_blk_ln3]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    rw [e11]; omega

theorem value3 (c : Dev nD) :
    (dat3 V c).arrAt 5 cfg3.N
      = Cert.Spec.toArr (Cert.Spec.normRelu
          (Cert.Spec.resid (Cert.Spec.ofArr (V c main_v66 : S50000x128.Idx → EReal))
            (Cert.Spec.ofArr (V c main_v91 : S50000x128.Idx → EReal))
            (fun j => (V c main_v98 : S1x128.Idx → EReal) (ix2 (0 : Fin 1) j)))
          (fun j => (V c main_v99 : S1x128.Idx → EReal) (ix2 (0 : Fin 1) j))
          (fun j => (V c main_v100 : S1x128.Idx → EReal) (ix2 (0 : Fin 1) j))) :=
  (dat3 V c).arrAt_eq_of_cover 5 (ln3 V c) (fun t _ => flushed_ln3 V c t) cover_ln3

end Cert.KernelIdeal.ValHand

end
-- ==== Proof.ValLn5.lean ====
import proofs.«428520_j76347338654282_1_alg».proof.Proof.ValLnPay
import proofs.«428520_j76347338654282_1_alg».proof.Proof.Spec
import proofs.«428520_j76347338654282_1_alg».proof.Proof.Reg5Defs

noncomputable section

open scoped BigOperators

namespace Cert.KernelIdeal.ValHand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

abbrev ln5 (c : Dev nD) : S50000x128.Idx → EReal :=
  Cert.Spec.toArr (Cert.Spec.normRelu
    (Cert.Spec.resid (Cert.Spec.ofArr (V c main_v101 : S50000x128.Idx → EReal))
      (Cert.Spec.ofArr (V c main_v126 : S50000x128.Idx → EReal))
      (fun j => (V c main_v133 : S1x128.Idx → EReal) (ix2 (0 : Fin 1) j)))
    (fun j => (V c main_v134 : S1x128.Idx → EReal) (ix2 (0 : Fin 1) j))
    (fun j => (V c main_v135 : S1x128.Idx → EReal) (ix2 (0 : Fin 1) j)))

theorem origin_ln5 : (![0, 0] : Fin 2 → Nat) = fun _ => 0 := funext fun a => by fin_cases a <;> rfl

theorem blockIdx_ln5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem tile_lt_ln5 (t : Fin cfg5.N) : t.val < 10 := lt_of_lt_of_eq t.isLt N_5

theorem xblk_ln5 (c : Dev nD) (t : Fin cfg5.N) (p : Fin 5000) (k : Fin 128) :
    (iblk5 V c 0 t : Vec Ideal S5000x128 .f32) (ix2 p k)
      = (V c main_v101 : S50000x128.Idx → EReal) (ix2 ⟨5000 * t.val + p.val, by have := tile_lt_ln5 t; omega⟩ k) := by
  obtain ⟨e0, e1, -⟩ := blockIdx_ln5 t
  show (V c main_v101 : S50000x128.Idx → EReal) (((cfg5.win 0).blk t).view.emb (ix2 p k)) = _
  refine congrArg _ (funext fun a => Fin.ext ?_)
  match a with
  | ⟨0, _⟩ => show win5_0.index t (0 : Fin 2) * 5000 + 1 * p.val = 5000 * t.val + p.val; omega
  | ⟨1, _⟩ => show win5_0.index t (1 : Fin 2) * 128 + 1 * k.val = k.val; omega

theorem ablk_ln5 (c : Dev nD) (t : Fin cfg5.N) (p : Fin 5000) (k : Fin 128) :
    (iblk5 V c 1 t : Vec Ideal S5000x128 .f32) (ix2 p k)
      = (V c main_v126 : S50000x128.Idx → EReal) (ix2 ⟨5000 * t.val + p.val, by have := tile_lt_ln5 t; omega⟩ k) := by
  obtain ⟨-, -, e2, e3, -⟩ := blockIdx_ln5 t
  show (V c main_v126 : S50000x128.Idx → EReal) (((cfg5.win 1).blk t).view.emb (ix2 p k)) = _
  refine congrArg _ (funext fun a => Fin.ext ?_)
  match a with
  | ⟨0, _⟩ => show win5_1.index t (0 : Fin 2) * 5000 + 1 * p.val = 5000 * t.val + p.val; omega
  | ⟨1, _⟩ => show win5_1.index t (1 : Fin 2) * 128 + 1 * k.val = k.val; omega

theorem bblk_ln5 (c : Dev nD) (t : Fin cfg5.N) (k : Fin 128) :
    (iblk5 V c 2 t : Vec Ideal S1x128 .f32) (ix2 (0 : Fin 1) k) = (V c main_v133 : S1x128.Idx → EReal) (ix2 (0 : Fin 1) k) := by
  obtain ⟨-, -, -, -, e4, e5, -⟩ := blockIdx_ln5 t
  show (V c main_v133 : S1x128.Idx → EReal) (((cfg5.win 2).blk t).view.emb (ix2 (0 : Fin 1) k)) = _
  refine congrArg _ (funext fun a => Fin.ext ?_)
  match a with
  | ⟨0, _⟩ => show win5_2.index t (0 : Fin 2) * 1 + 1 * 0 = 0; omega
  | ⟨1, _⟩ => show win5_2.index t (1 : Fin 2) * 128 + 1 * k.val = k.val; omega

theorem gblk_ln5 (c : Dev nD) (t : Fin cfg5.N) (k : Fin 128) :
    (iblk5 V c 3 t : Vec Ideal S1x128 .f32) (ix2 (0 : Fin 1) k) = (V c main_v134 : S1x128.Idx → EReal) (ix2 (0 : Fin 1) k) := by
  obtain ⟨-, -, -, -, -, -, e6, e7, -⟩ := blockIdx_ln5 t
  show (V c main_v134 : S1x128.Idx → EReal) (((cfg5.win 3).blk t).view.emb (ix2 (0 : Fin 1) k)) = _
  refine congrArg _ (funext fun a => Fin.ext ?_)
  match a with
  | ⟨0, _⟩ => show win5_3.index t (0 : Fin 2) * 1 + 1 * 0 = 0; omega
  | ⟨1, _⟩ => show win5_3.index t (1 : Fin 2) * 128 + 1 * k.val = k.val; omega

theorem tblk_ln5 (c : Dev nD) (t : Fin cfg5.N) (k : Fin 128) :
    (iblk5 V c 4 t : Vec Ideal S1x128 .f32) (ix2 (0 : Fin 1) k) = (V c main_v135 : S1x128.Idx → EReal) (ix2 (0 : Fin 1) k) := by
  obtain ⟨-, -, -, -, -, -, -, -, e8, e9, -⟩ := blockIdx_ln5 t
  show (V c main_v135 : S1x128.Idx → EReal) (((cfg5.win 4).blk t).view.emb (ix2 (0 : Fin 1) k)) = _
  refine congrArg _ (funext fun a => Fin.ext ?_)
  match a with
  | ⟨0, _⟩ => show win5_4.index t (0 : Fin 2) * 1 + 1 * 0 = 0; omega
  | ⟨1, _⟩ => show win5_4.index t (1 : Fin 2) * 128 + 1 * k.val = k.val; omega

theorem stored_ln5 (X A : S50000x128.Idx → EReal) (B G T : S1x128.Idx → EReal)
    (x a : Vec Ideal S5000x128 .f32) (b g s : Vec Ideal S1x128 .f32) (n : Nat) (hn : n < 10)
    (hx : ∀ (p : Fin 5000) (k : Fin 128), x (ix2 p k) = X (ix2 ⟨5000 * n + p.val, by omega⟩ k))
    (ha : ∀ (p : Fin 5000) (k : Fin 128), a (ix2 p k) = A (ix2 ⟨5000 * n + p.val, by omega⟩ k))
    (hb : ∀ k : Fin 128, b (ix2 (0 : Fin 1) k) = B (ix2 (0 : Fin 1) k))
    (hg : ∀ k : Fin 128, g (ix2 (0 : Fin 1) k) = G (ix2 (0 : Fin 1) k))
    (hs : ∀ k : Fin 128, s (ix2 (0 : Fin 1) k) = T (ix2 (0 : Fin 1) k)) (p : Fin 5000) (q : Fin 128) :
    Gen.k5_pay1 (F := Ideal) x a b g s (ix2 p q)
      = Cert.Spec.toArr (Cert.Spec.normRelu
          (Cert.Spec.resid (Cert.Spec.ofArr X) (Cert.Spec.ofArr A) (fun j => B (ix2 (0 : Fin 1) j)))
          (fun j => G (ix2 (0 : Fin 1) j)) (fun j => T (ix2 (0 : Fin 1) j))) (ix2 ⟨5000 * n + p.val, by omega⟩ q) := by
  rw [pay5_apply]
  show _ = Cert.Spec.normRelu (Cert.Spec.resid (Cert.Spec.ofArr X) (Cert.Spec.ofArr A) (fun j => B (ix2 (0 : Fin 1) j)))
    (fun j => G (ix2 (0 : Fin 1) j)) (fun j => T (ix2 (0 : Fin 1) j)) ⟨5000 * n + p.val, _⟩ q
  rw [spec_normRelu_eq_rowForm]
  have ex : (fun j => x (ix2 p j)) = Cert.Spec.ofArr X ⟨5000 * n + p.val, by omega⟩ := funext fun j => hx p j
  have ea : (fun j => a (ix2 p j)) = Cert.Spec.ofArr A ⟨5000 * n + p.val, by omega⟩ := funext fun j => ha p j
  have eb : (fun j => b (ix2 (0 : Fin 1) j)) = fun j => B (ix2 (0 : Fin 1) j) := funext hb
  have eg : (fun j => g (ix2 (0 : Fin 1) j)) = fun j => G (ix2 (0 : Fin 1) j) := funext hg
  have es : (fun j => s (ix2 (0 : Fin 1) j)) = fun j => T (ix2 (0 : Fin 1) j) := funext hs
  rw [ex, ea, eb, eg, es]

theorem flushed_ln5 (c : Dev nD) (t : Fin cfg5.N) :
    (dat5 V c).flushed 5 t = ((cfg5.win 5).blk t).view.read (Elt Ideal) (ln5 V c) := by
  show (cfg5.win 5).cut (grid5.coords t) ((dat5 V c).after 5 t) = _
  rw [after5_5]
  unfold out5_5
  rw [View.canon_unit_zero origin_ln5]
  simp only [View.ld_unit_zero (S := S5000x128) origin_ln5, View.ld_unit_zero (S := S1x128) origin_ln5]
  funext j
  obtain ⟨p, q, rfl⟩ : ∃ (p : Fin 5000) (q : Fin 128), j = ix2 p q := ⟨j 0, j 1, eq_ix2 j⟩
  obtain ⟨-, -, -, -, -, -, -, -, -, -, e10, e11⟩ := blockIdx_ln5 t
  refine (stored_ln5 (V c main_v101) (V c main_v126) (V c main_v133) (V c main_v134) (V c main_v135)
    (iblk5 V c 0 t) (iblk5 V c 1 t) (iblk5 V c 2 t) (iblk5 V c 3 t) (iblk5 V c 4 t) t.val (tile_lt_ln5 t)
    (xblk_ln5 V c t) (ablk_ln5 V c t) (bblk_ln5 V c t) (gblk_ln5 V c t) (tblk_ln5 V c t) p q).trans ?_
  show ln5 V c _ = ln5 V c (((cfg5.win 5).blk t).view.emb (ix2 p q))
  refine congrArg _ (funext fun a => Fin.ext ?_)
  match a with
  | ⟨0, _⟩ => show 5000 * t.val + p.val = win5_5.index t (0 : Fin 2) * 5000 + 1 * p.val; omega
  | ⟨1, _⟩ => show q.val = win5_5.index t (1 : Fin 2) * 128 + 1 * q.val; omega

theorem mem_blk_ln5 (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v136).slice (win5_5.rect t)).set ↔ _
  rw [View.set_slice_whole, Rect.mem_set_unit]
  exact Iff.rfl

theorem cover_ln5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have ht : (i 0).val / 5000 < cfg5.N := lt_of_lt_of_eq (by omega : (i 0).val / 5000 < 10) N_5.symm
  obtain ⟨-, -, -, -, -, -, -, -, -, -, e10, e11⟩ := blockIdx_ln5 ⟨(i 0).val / 5000, ht⟩
  refine ⟨⟨(i 0).val / 5000, ht⟩, flush5_5 _, ?_⟩
  rw [mem_blk_ln5]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win5_5.index ⟨(i 0).val / 5000, ht⟩ (1 : Fin 2) * 128 ≤ (i 1).val
      ∧ (i 1).val < win5_5.index ⟨(i 0).val / 5000, ht⟩ (1 : Fin 2) * 128 + 128
    rw [e11]; omega

theorem value5 (c : Dev nD) :
    (dat5 V c).arrAt 5 cfg5.N
      = Cert.Spec.toArr (Cert.Spec.normRelu
          (Cert.Spec.resid (Cert.Spec.ofArr (V c main_v101 : S50000x128.Idx → EReal))
            (Cert.Spec.ofArr (V c main_v126 : S50000x128.Idx → EReal))
            (fun j => (V c main_v133 : S1x128.Idx → EReal) (ix2 (0 : Fin 1) j)))
          (fun j => (V c main_v134 : S1x128.Idx → EReal) (ix2 (0 : Fin 1) j))
          (fun j => (V c main_v135 : S1x128.Idx → EReal) (ix2 (0 : Fin 1) j))) :=
  (dat5 V c).arrAt_eq_of_cover 5 (ln5 V c) (fun t _ => flushed_ln5 V c t) cover_ln5

end Cert.KernelIdeal.ValHand

end
-- ==== Proof.ValLn7.lean ====
import proofs.«428520_j76347338654282_1_alg».proof.Proof.ValLnPay
import proofs.«428520_j76347338654282_1_alg».proof.Proof.Spec
import proofs.«428520_j76347338654282_1_alg».proof.Proof.Reg7Defs

noncomputable section

open scoped BigOperators

namespace Cert.KernelIdeal.ValHand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

abbrev ln7 (c : Dev nD) : S50000x128.Idx → EReal :=
  Cert.Spec.toArr (Cert.Spec.normRelu
    (Cert.Spec.resid (Cert.Spec.ofArr (V c main_v136 : S50000x128.Idx → EReal))
      (Cert.Spec.ofArr (V c main_v161 : S50000x128.Idx → EReal))
      (fun j => (V c main_v168 : S1x128.Idx → EReal) (ix2 (0 : Fin 1) j)))
    (fun j => (V c main_v169 : S1x128.Idx → EReal) (ix2 (0 : Fin 1) j))
    (fun j => (V c main_v170 : S1x128.Idx → EReal) (ix2 (0 : Fin 1) j)))

theorem origin_ln7 : (![0, 0] : Fin 2 → Nat) = fun _ => 0 := funext fun a => by fin_cases a <;> rfl

theorem blockIdx_ln7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

theorem tile_lt_ln7 (t : Fin cfg7.N) : t.val < 10 := lt_of_lt_of_eq t.isLt N_7

theorem xblk_ln7 (c : Dev nD) (t : Fin cfg7.N) (p : Fin 5000) (k : Fin 128) :
    (iblk7 V c 0 t : Vec Ideal S5000x128 .f32) (ix2 p k)
      = (V c main_v136 : S50000x128.Idx → EReal) (ix2 ⟨5000 * t.val + p.val, by have := tile_lt_ln7 t; omega⟩ k) := by
  obtain ⟨e0, e1, -⟩ := blockIdx_ln7 t
  show (V c main_v136 : S50000x128.Idx → EReal) (((cfg7.win 0).blk t).view.emb (ix2 p k)) = _
  refine congrArg _ (funext fun a => Fin.ext ?_)
  match a with
  | ⟨0, _⟩ => show win7_0.index t (0 : Fin 2) * 5000 + 1 * p.val = 5000 * t.val + p.val; omega
  | ⟨1, _⟩ => show win7_0.index t (1 : Fin 2) * 128 + 1 * k.val = k.val; omega

theorem ablk_ln7 (c : Dev nD) (t : Fin cfg7.N) (p : Fin 5000) (k : Fin 128) :
    (iblk7 V c 1 t : Vec Ideal S5000x128 .f32) (ix2 p k)
      = (V c main_v161 : S50000x128.Idx → EReal) (ix2 ⟨5000 * t.val + p.val, by have := tile_lt_ln7 t; omega⟩ k) := by
  obtain ⟨-, -, e2, e3, -⟩ := blockIdx_ln7 t
  show (V c main_v161 : S50000x128.Idx → EReal) (((cfg7.win 1).blk t).view.emb (ix2 p k)) = _
  refine congrArg _ (funext fun a => Fin.ext ?_)
  match a with
  | ⟨0, _⟩ => show win7_1.index t (0 : Fin 2) * 5000 + 1 * p.val = 5000 * t.val + p.val; omega
  | ⟨1, _⟩ => show win7_1.index t (1 : Fin 2) * 128 + 1 * k.val = k.val; omega

theorem bblk_ln7 (c : Dev nD) (t : Fin cfg7.N) (k : Fin 128) :
    (iblk7 V c 2 t : Vec Ideal S1x128 .f32) (ix2 (0 : Fin 1) k) = (V c main_v168 : S1x128.Idx → EReal) (ix2 (0 : Fin 1) k) := by
  obtain ⟨-, -, -, -, e4, e5, -⟩ := blockIdx_ln7 t
  show (V c main_v168 : S1x128.Idx → EReal) (((cfg7.win 2).blk t).view.emb (ix2 (0 : Fin 1) k)) = _
  refine congrArg _ (funext fun a => Fin.ext ?_)
  match a with
  | ⟨0, _⟩ => show win7_2.index t (0 : Fin 2) * 1 + 1 * 0 = 0; omega
  | ⟨1, _⟩ => show win7_2.index t (1 : Fin 2) * 128 + 1 * k.val = k.val; omega

theorem gblk_ln7 (c : Dev nD) (t : Fin cfg7.N) (k : Fin 128) :
    (iblk7 V c 3 t : Vec Ideal S1x128 .f32) (ix2 (0 : Fin 1) k) = (V c main_v169 : S1x128.Idx → EReal) (ix2 (0 : Fin 1) k) := by
  obtain ⟨-, -, -, -, -, -, e6, e7, -⟩ := blockIdx_ln7 t
  show (V c main_v169 : S1x128.Idx → EReal) (((cfg7.win 3).blk t).view.emb (ix2 (0 : Fin 1) k)) = _
  refine congrArg _ (funext fun a => Fin.ext ?_)
  match a with
  | ⟨0, _⟩ => show win7_3.index t (0 : Fin 2) * 1 + 1 * 0 = 0; omega
  | ⟨1, _⟩ => show win7_3.index t (1 : Fin 2) * 128 + 1 * k.val = k.val; omega

theorem tblk_ln7 (c : Dev nD) (t : Fin cfg7.N) (k : Fin 128) :
    (iblk7 V c 4 t : Vec Ideal S1x128 .f32) (ix2 (0 : Fin 1) k) = (V c main_v170 : S1x128.Idx → EReal) (ix2 (0 : Fin 1) k) := by
  obtain ⟨-, -, -, -, -, -, -, -, e8, e9, -⟩ := blockIdx_ln7 t
  show (V c main_v170 : S1x128.Idx → EReal) (((cfg7.win 4).blk t).view.emb (ix2 (0 : Fin 1) k)) = _
  refine congrArg _ (funext fun a => Fin.ext ?_)
  match a with
  | ⟨0, _⟩ => show win7_4.index t (0 : Fin 2) * 1 + 1 * 0 = 0; omega
  | ⟨1, _⟩ => show win7_4.index t (1 : Fin 2) * 128 + 1 * k.val = k.val; omega

theorem stored_ln7 (X A : S50000x128.Idx → EReal) (B G T : S1x128.Idx → EReal)
    (x a : Vec Ideal S5000x128 .f32) (b g s : Vec Ideal S1x128 .f32) (n : Nat) (hn : n < 10)
    (hx : ∀ (p : Fin 5000) (k : Fin 128), x (ix2 p k) = X (ix2 ⟨5000 * n + p.val, by omega⟩ k))
    (ha : ∀ (p : Fin 5000) (k : Fin 128), a (ix2 p k) = A (ix2 ⟨5000 * n + p.val, by omega⟩ k))
    (hb : ∀ k : Fin 128, b (ix2 (0 : Fin 1) k) = B (ix2 (0 : Fin 1) k))
    (hg : ∀ k : Fin 128, g (ix2 (0 : Fin 1) k) = G (ix2 (0 : Fin 1) k))
    (hs : ∀ k : Fin 128, s (ix2 (0 : Fin 1) k) = T (ix2 (0 : Fin 1) k)) (p : Fin 5000) (q : Fin 128) :
    Gen.k7_pay1 (F := Ideal) x a b g s (ix2 p q)
      = Cert.Spec.toArr (Cert.Spec.normRelu
          (Cert.Spec.resid (Cert.Spec.ofArr X) (Cert.Spec.ofArr A) (fun j => B (ix2 (0 : Fin 1) j)))
          (fun j => G (ix2 (0 : Fin 1) j)) (fun j => T (ix2 (0 : Fin 1) j))) (ix2 ⟨5000 * n + p.val, by omega⟩ q) := by
  rw [pay7_apply]
  show _ = Cert.Spec.normRelu (Cert.Spec.resid (Cert.Spec.ofArr X) (Cert.Spec.ofArr A) (fun j => B (ix2 (0 : Fin 1) j)))
    (fun j => G (ix2 (0 : Fin 1) j)) (fun j => T (ix2 (0 : Fin 1) j)) ⟨5000 * n + p.val, _⟩ q
  rw [spec_normRelu_eq_rowForm]
  have ex : (fun j => x (ix2 p j)) = Cert.Spec.ofArr X ⟨5000 * n + p.val, by omega⟩ := funext fun j => hx p j
  have ea : (fun j => a (ix2 p j)) = Cert.Spec.ofArr A ⟨5000 * n + p.val, by omega⟩ := funext fun j => ha p j
  have eb : (fun j => b (ix2 (0 : Fin 1) j)) = fun j => B (ix2 (0 : Fin 1) j) := funext hb
  have eg : (fun j => g (ix2 (0 : Fin 1) j)) = fun j => G (ix2 (0 : Fin 1) j) := funext hg
  have es : (fun j => s (ix2 (0 : Fin 1) j)) = fun j => T (ix2 (0 : Fin 1) j) := funext hs
  rw [ex, ea, eb, eg, es]

theorem flushed_ln7 (c : Dev nD) (t : Fin cfg7.N) :
    (dat7 V c).flushed 5 t = ((cfg7.win 5).blk t).view.read (Elt Ideal) (ln7 V c) := by
  show (cfg7.win 5).cut (grid7.coords t) ((dat7 V c).after 5 t) = _
  rw [after7_5]
  unfold out7_5
  rw [View.canon_unit_zero origin_ln7]
  simp only [View.ld_unit_zero (S := S5000x128) origin_ln7, View.ld_unit_zero (S := S1x128) origin_ln7]
  funext j
  obtain ⟨p, q, rfl⟩ : ∃ (p : Fin 5000) (q : Fin 128), j = ix2 p q := ⟨j 0, j 1, eq_ix2 j⟩
  obtain ⟨-, -, -, -, -, -, -, -, -, -, e10, e11⟩ := blockIdx_ln7 t
  refine (stored_ln7 (V c main_v136) (V c main_v161) (V c main_v168) (V c main_v169) (V c main_v170)
    (iblk7 V c 0 t) (iblk7 V c 1 t) (iblk7 V c 2 t) (iblk7 V c 3 t) (iblk7 V c 4 t) t.val (tile_lt_ln7 t)
    (xblk_ln7 V c t) (ablk_ln7 V c t) (bblk_ln7 V c t) (gblk_ln7 V c t) (tblk_ln7 V c t) p q).trans ?_
  show ln7 V c _ = ln7 V c (((cfg7.win 5).blk t).view.emb (ix2 p q))
  refine congrArg _ (funext fun a => Fin.ext ?_)
  match a with
  | ⟨0, _⟩ => show 5000 * t.val + p.val = win7_5.index t (0 : Fin 2) * 5000 + 1 * p.val; omega
  | ⟨1, _⟩ => show q.val = win7_5.index t (1 : Fin 2) * 128 + 1 * q.val; omega

theorem mem_blk_ln7 (t : Fin cfg7.N) (i : S50000x128.Idx) :
    i ∈ ((cfg7.win 5).blk t).view.set ↔ ∀ a : Fin 2, win7_5.index t a * S5000x128.size a ≤ (i a).val
      ∧ (i a).val < win7_5.index t a * S5000x128.size a + S5000x128.size a := by
  show i ∈ ((View.whole main_v171).slice (win7_5.rect t)).set ↔ _
  rw [View.set_slice_whole, Rect.mem_set_unit]
  exact Iff.rfl

theorem cover_ln7 (i : S50000x128.Idx) :
    ∃ t : Fin cfg7.N, (cfg7.win 5).flush t = true ∧ i ∈ ((cfg7.win 5).blk t).view.set := by
  have hi0 : (i 0).val < 50000 := (i 0).isLt
  have hi1 : (i 1).val < 128 := (i 1).isLt
  have ht : (i 0).val / 5000 < cfg7.N := lt_of_lt_of_eq (by omega : (i 0).val / 5000 < 10) N_7.symm
  obtain ⟨-, -, -, -, -, -, -, -, -, -, e10, e11⟩ := blockIdx_ln7 ⟨(i 0).val / 5000, ht⟩
  refine ⟨⟨(i 0).val / 5000, ht⟩, flush7_5 _, ?_⟩
  rw [mem_blk_ln7]
  intro a
  match a with
  | ⟨0, _⟩ =>
    show win7_5.index ⟨(i 0).val / 5000, ht⟩ (0 : Fin 2) * 5000 ≤ (i 0).val
      ∧ (i 0).val < win7_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win7_5.index ⟨(i 0).val / 5000, ht⟩ (1 : Fin 2) * 128 ≤ (i 1).val
      ∧ (i 1).val < win7_5.index ⟨(i 0).val / 5000, ht⟩ (1 : Fin 2) * 128 + 128
    rw [e11]; omega

theorem value7 (c : Dev nD) :
    (dat7 V c).arrAt 5 cfg7.N
      = Cert.Spec.toArr (Cert.Spec.normRelu
          (Cert.Spec.resid (Cert.Spec.ofArr (V c main_v136 : S50000x128.Idx → EReal))
            (Cert.Spec.ofArr (V c main_v161 : S50000x128.Idx → EReal))
            (fun j => (V c main_v168 : S1x128.Idx → EReal) (ix2 (0 : Fin 1) j)))
          (fun j => (V c main_v169 : S1x128.Idx → EReal) (ix2 (0 : Fin 1) j))
          (fun j => (V c main_v170 : S1x128.Idx → EReal) (ix2 (0 : Fin 1) j))) :=
  (dat7 V c).arrAt_eq_of_cover 5 (ln7 V c) (fun t _ => flushed_ln7 V c t) cover_ln7

end Cert.KernelIdeal.ValHand

end
-- ==== Proof.ValPoolPay.lean ====
import proofs.«428520_j76347338654282_1_alg».proof.Proof.Gen.KernelIdeal.Skeleton
import proofs.«428520_j76347338654282_1_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Predicate
import Mathlib.Data.Fintype.BigOperators
import Mathlib.Logic.Equiv.Fin.Basic

noncomputable section

open scoped BigOperators

namespace Cert.KernelIdeal.ValHand

open Idealize.ShloMosaic Idealize.SL.Sem Idealize.ShloMosaic.ValueIdx Cert.KernelIdeal

theorem pay8_zero (γ d : Fin 128) : Gen.k8_pay1 (F := Ideal) (ValueIdx.ix2 γ d) = 0 := by
  unfold Gen.k8_pay1
  rw [shapeCast_self]
  show Ideal.ofBits .f32 0x00000000#32 = 0
  exact Ideal.ofBits_zero_f32

theorem lhs_pool_0 (j : S128x128.Idx) (k : dot_S5000x128_S5000x128_S128x128_0_0_1_1_n_n.contr.Idx) :
    ((dot_S5000x128_S5000x128_S128x128_0_0_1_1_n_n.lhsIdx j k 0 : Fin 5000) : ℕ) = (k ⟨0, by decide⟩ : ℕ) :=
  DotDims.lhsIdx_val_of_single dot_S5000x128_S5000x128_S128x128_0_0_1_1_n_n (cl := 0) rfl j k

theorem rhs_pool_0 (j : S128x128.Idx) (k : dot_S5000x128_S5000x128_S128x128_0_0_1_1_n_n.contr.Idx) :
    ((dot_S5000x128_S5000x128_S128x128_0_0_1_1_n_n.rhsIdx j k 0 : Fin 5000) : ℕ) = (k ⟨0, by decide⟩ : ℕ) :=
  DotDims.rhsIdx_val_of_single dot_S5000x128_S5000x128_S128x128_0_0_1_1_n_n (cr := 0) rfl j k

theorem lhs_pool_1 (j : S128x128.Idx) (k : dot_S5000x128_S5000x128_S128x128_0_0_1_1_n_n.contr.Idx) :
    ((dot_S5000x128_S5000x128_S128x128_0_0_1_1_n_n.lhsIdx j k 1 : Fin 128) : ℕ) = (j 0 : ℕ) := by
  unfold DotDims.lhsIdx
  rw [dif_neg (show ¬(1 : Fin S5000x128.rank) ∈ dot_S5000x128_S5000x128_S128x128_0_0_1_1_n_n.lhsBatch by decide),
    dif_pos (show (1 : Fin S5000x128.rank) ∈ dot_S5000x128_S5000x128_S128x128_0_0_1_1_n_n.lhsNonContracting by decide)]
  rfl

theorem rhs_pool_1 (j : S128x128.Idx) (k : dot_S5000x128_S5000x128_S128x128_0_0_1_1_n_n.contr.Idx) :
    ((dot_S5000x128_S5000x128_S128x128_0_0_1_1_n_n.rhsIdx j k 1 : Fin 128) : ℕ) = (j 1 : ℕ) := by
  unfold DotDims.rhsIdx
  rw [dif_neg (show ¬(1 : Fin S5000x128.rank) ∈ dot_S5000x128_S5000x128_S128x128_0_0_1_1_n_n.rhsBatch by decide),
    dif_pos (show (1 : Fin S5000x128.rank) ∈ dot_S5000x128_S5000x128_S128x128_0_0_1_1_n_n.rhsNonContracting by decide)]
  rfl

theorem onehot_word (a b : BitVec 32) :
    (FloatOps.sitofp (F := Ideal) .f32 ((IntOp.cmpi .eq a b).setWidth 32) : EReal) = if a = b then 1 else 0 := by
  by_cases h : a = b
  · rw [if_pos h, StableHlo.Predicate.cmpi_eq_iff.mpr h]
    show ((((1#1 : BitVec 1).setWidth 32).toInt : ℝ) : EReal) = 1
    rw [show ((1#1 : BitVec 1).setWidth 32).toInt = 1 from by decide, Int.cast_one, EReal.coe_one]
  · rw [if_neg h, ValueIdx.eq_zero_of_ne_one (fun hc => h (StableHlo.Predicate.cmpi_eq_iff.mp hc))]
    show ((((0#1 : BitVec 1).setWidth 32).toInt : ℝ) : EReal) = 0
    rw [show ((0#1 : BitVec 1).setWidth 32).toInt = 0 from by decide, Int.cast_zero, EReal.coe_zero]

theorem ids_spread (ids : Vec Ideal S5000x1 .i32) (r : Fin 5000) (γ : Fin 128) :
    broadcastTo S5000x128 ids Gen.broadcasts_S5000x1_S5000x128 (ValueIdx.ix2 r γ) = ids (ValueIdx.ix2 r 0) := by
  refine broadcastTo_apply ids Gen.broadcasts_S5000x1_S5000x128 (ValueIdx.ix2 r γ) (ValueIdx.ix2 r 0) (fun a => ?_)
  match a with
  | ⟨0, _⟩ => rfl
  | ⟨1, _⟩ => rfl

theorem lane_word (r : Fin 5000) (γ : Fin 128) :
    iota .tc S5000x128 32 [1] Gen.iota_S5000x128_d1_w32 (ValueIdx.ix2 r γ) = BitVec.ofNat 32 γ.val :=
  iota_single_apply .tc S5000x128 32 1 Gen.iota_S5000x128_d1_w32 (ValueIdx.ix2 r γ)

theorem cmpi_at {s : Shape} {w : Nat} (p : CmpIPredicate) (a b : IVec s w) (i : s.Idx) :
    cmpi p a b i = IntOp.cmpi p (a i) (b i) := rfl

theorem pay8_apply (ids : Vec Ideal S5000x1 .i32) (x : Vec Ideal S5000x128 .f32) (acc : Vec Ideal S128x128 .f32) (γ d : Fin 128) :
    Gen.k8_pay2 (F := Ideal) ids x acc (ValueIdx.ix2 γ d)
      = acc (ValueIdx.ix2 γ d) + ∑ r : Fin 5000, if ids (ValueIdx.ix2 r 0) = BitVec.ofNat 32 γ.val then x (ValueIdx.ix2 r d) else 0 := by
  unfold Gen.k8_pay2
  simp only [shapeCast_self, matmul]
  rw [addf_apply, Ideal.matmul_constant_zero_apply]
  refine congrArg (acc (ValueIdx.ix2 γ d) + ·) ?_
  rw [← Equiv.sum_comp (contrEquiv1 dot_S5000x128_S5000x128_S128x128_0_0_1_1_n_n 5000 rfl rfl).symm]
  refine Finset.sum_congr rfl fun r _ => ?_
  have hk := contrEquiv1_symm_val dot_S5000x128_S5000x128_S128x128_0_0_1_1_n_n 5000 rfl rfl r
  have hl : dot_S5000x128_S5000x128_S128x128_0_0_1_1_n_n.lhsIdx (ValueIdx.ix2 γ d)
      ((contrEquiv1 dot_S5000x128_S5000x128_S128x128_0_0_1_1_n_n 5000 rfl rfl).symm r) = ValueIdx.ix2 r γ :=
    Shape.idx_ext₂ ((lhs_pool_0 _ _).trans hk) (lhs_pool_1 _ _)
  have hr : dot_S5000x128_S5000x128_S128x128_0_0_1_1_n_n.rhsIdx (ValueIdx.ix2 γ d)
      ((contrEquiv1 dot_S5000x128_S5000x128_S128x128_0_0_1_1_n_n 5000 rfl rfl).symm r) = ValueIdx.ix2 r d :=
    Shape.idx_ext₂ ((rhs_pool_0 _ _).trans hk) (rhs_pool_1 _ _)
  rw [hl, hr, truncf_apply, truncf_apply, sitofp_apply, extui_apply, cmpi_at, ids_spread, lane_word, onehot_word]
  by_cases h : ids (ValueIdx.ix2 r 0) = BitVec.ofNat 32 γ.val
  · rw [if_pos h, if_pos h, one_mul]
  · rw [if_neg h, if_neg h, zero_mul]

theorem sum_tiles {M : Type*} [AddCommMonoid M] (f : Fin 50000 → M) :
    ∑ n : Fin 50000, f n
      = ∑ t : Fin 10, ∑ r : Fin 5000, f ⟨5000 * t.val + r.val, by have := t.isLt; have := r.isLt; omega⟩ := by
  rw [← Equiv.sum_comp (finProdFinEquiv : Fin 10 × Fin 5000 ≃ Fin 50000) f, Fintype.sum_prod_type]
  refine Finset.sum_congr rfl fun t _ => Finset.sum_congr rfl fun r _ => congrArg f (Fin.ext ?_)
  show r.val + 5000 * t.val = 5000 * t.val + r.val
  omega

end Cert.KernelIdeal.ValHand

end
-- ==== Proof.ValPool.lean ====
import proofs.«428520_j76347338654282_1_alg».proof.Proof.ValPoolPay
import proofs.«428520_j76347338654282_1_alg».proof.Proof.Spec
import proofs.«428520_j76347338654282_1_alg».proof.Proof.Reg8Defs
import Idealize.ShloMosaic.Lib.Pipeline.Value
import Idealize.ShloMosaic.Lib.Decide
import Mathlib.Algebra.BigOperators.Fin
import Mathlib.Tactic.FinCases

noncomputable section

open scoped BigOperators

namespace Cert.KernelIdeal.ValHand

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

theorem idx8 : ∀ t : Fin grid8.N, win8_0.index t 0 = t.val ∧ win8_0.index t 1 = 0
    ∧ win8_1.index t 0 = t.val ∧ win8_1.index t 1 = 0 ∧ win8_2.index t 0 = 0 ∧ win8_2.index t 1 = 0 := by decide +kernel

theorem iblk8_x (c : Dev nD) (t : Fin cfg8.N) (r : Fin 5000) (d : Fin 128) :
    Hand.iblk8 (F := Ideal) V c 0 t (ValueIdx.ix2 r d)
      = (V c main_v171 : S50000x128.Idx → EReal) (ValueIdx.ix2 ⟨5000 * t.val + r.val, by have := t.isLt; have hN : cfg8.N = 10 := N_8; have := r.isLt; omega⟩ d) := by
  show (V c main_v171 : S50000x128.Idx → EReal) (((cfg8.win 0).blk t).view.emb (ValueIdx.ix2 r d)) = _
  refine congrArg _ (funext fun a => Fin.ext ?_)
  match a with
  | ⟨0, _⟩ =>
    show win8_0.index t 0 * 5000 + 1 * r.val = 5000 * t.val + r.val
    rw [(idx8 t).1]; omega
  | ⟨1, _⟩ =>
    show win8_0.index t 1 * 128 + 1 * d.val = d.val
    rw [(idx8 t).2.1]; omega

theorem iblk8_ids (c : Dev nD) (t : Fin cfg8.N) (r : Fin 5000) :
    Hand.iblk8 (F := Ideal) V c 1 t (ValueIdx.ix2 r 0)
      = (V c main_v176 : S50000x1.Idx → BitVec 32) (ValueIdx.ix2 ⟨5000 * t.val + r.val, by have := t.isLt; have hN : cfg8.N = 10 := N_8; have := r.isLt; omega⟩ 0) := by
  show (V c main_v176 : S50000x1.Idx → BitVec 32) (((cfg8.win 1).blk t).view.emb (ValueIdx.ix2 r 0)) = _
  refine congrArg _ (funext fun a => Fin.ext ?_)
  match a with
  | ⟨0, _⟩ =>
    show win8_1.index t 0 * 5000 + 1 * r.val = 5000 * t.val + r.val
    rw [(idx8 t).2.2.1]; omega
  | ⟨1, _⟩ =>
    show win8_1.index t 1 * 1 + 1 * (0 : Fin 1).val = (0 : Fin 1).val
    rw [(idx8 t).2.2.2.1]; rfl

def tile (x : Fin 50000 → Fin 128 → EReal) (gid : Fin 50000 → BitVec 32) (t : ℕ) (ht : t < 10) (γ d : Fin 128) : EReal :=
  ∑ r : Fin 5000,
    if gid ⟨5000 * t + r.val, by have := r.isLt; omega⟩ = BitVec.ofNat 32 γ.val
    then x ⟨5000 * t + r.val, by have := r.isLt; omega⟩ d else 0

theorem pool_eq_tiles (x : Fin 50000 → Fin 128 → EReal) (gid : Fin 50000 → BitVec 32) (γ d : Fin 128) :
    Cert.Spec.pool x gid γ d = ∑ t : Fin 10, tile x gid t.val t.isLt γ d :=
  sum_tiles (fun n => if gid n = BitVec.ofNat 32 γ.val then x n d else 0)

abbrev X8 (c : Dev nD) : Fin 50000 → Fin 128 → EReal := Cert.Spec.ofArr (V c main_v171 : S50000x128.Idx → EReal)

abbrev G8 (c : Dev nD) : Fin 50000 → BitVec 32 := fun n => (V c main_v176 : S50000x1.Idx → BitVec 32) (ValueIdx.ix2 n 0)

theorem pay8_tile (c : Dev nD) (t : Fin cfg8.N) (acc : Vec Ideal S128x128 .f32) (γ d : Fin 128) :
    Gen.k8_pay2 (F := Ideal) (Hand.iblk8 (F := Ideal) V c 1 t) (Hand.iblk8 (F := Ideal) V c 0 t) acc (ValueIdx.ix2 γ d)
      = acc (ValueIdx.ix2 γ d) + tile (X8 V c) (G8 V c) t.val (by have := t.isLt; have hN : cfg8.N = 10 := N_8; omega) γ d := by
  rw [pay8_apply]
  refine congrArg (acc (ValueIdx.ix2 γ d) + ·) (Finset.sum_congr rfl fun r _ => ?_)
  rw [iblk8_ids V c t r, iblk8_x V c t r d]
  rfl

theorem acc8_val (c : Dev nD) (γ d : Fin 128) : ∀ (n : ℕ) (hn : n < cfg8.N),
    Hand.acc8 (F := Ideal) V c n hn (ValueIdx.ix2 γ d)
      = ∑ t : Fin (n + 1), tile (X8 V c) (G8 V c) t.val (by have := t.isLt; have hN : cfg8.N = 10 := N_8; omega) γ d
  | 0, hn => by
    show Gen.k8_pay2 (F := Ideal) (Hand.iblk8 (F := Ideal) V c 1 ⟨0, hn⟩) (Hand.iblk8 (F := Ideal) V c 0 ⟨0, hn⟩) (Gen.k8_pay1 (F := Ideal)) (ValueIdx.ix2 γ d) = _
    rw [pay8_tile V c ⟨0, hn⟩, pay8_zero, zero_add, Fin.sum_univ_one]
    rfl
  | n + 1, hn => by
    show Gen.k8_pay2 (F := Ideal) (Hand.iblk8 (F := Ideal) V c 1 ⟨n + 1, hn⟩) (Hand.iblk8 (F := Ideal) V c 0 ⟨n + 1, hn⟩)
      (Hand.acc8 (F := Ideal) V c n (Nat.lt_of_succ_lt hn)) (ValueIdx.ix2 γ d) = _
    rw [pay8_tile V c ⟨n + 1, hn⟩, acc8_val c γ d n (Nat.lt_of_succ_lt hn)]
    exact (Fin.sum_univ_castSucc (fun t : Fin (n + 1 + 1) =>
      tile (X8 V c) (G8 V c) t.val (by have := t.isLt; have hN : cfg8.N = 10 := N_8; omega) γ d)).symm

def result8 (c : Dev nD) : Buf (Elt Ideal) ((c : Thread nD τ).loc main_v177) :=
  Cert.Spec.toArr (Cert.Spec.pool (X8 V c) (G8 V c))

theorem acc8_last (c : Dev nD) (h9 : 9 < cfg8.N) (γ d : Fin 128) :
    Hand.acc8 (F := Ideal) V c 9 h9 (ValueIdx.ix2 γ d) = result8 V c (ValueIdx.ix2 γ d) := by
  rw [acc8_val V c γ d 9 h9]
  exact (pool_eq_tiles (X8 V c) (G8 V c) γ d).symm

theorem flushed8_eq (c : Dev nD) (t : Fin cfg8.N) (hf : (cfg8.win 2).flush t = true) :
    (Hand.dat8 (F := Ideal) V c).flushed 2 t = ((cfg8.win 2).blk t).view.read (Elt Ideal) (result8 V c) := by
  have hN : cfg8.N = 10 := N_8
  have h9 : t.val = 9 := by have := (flush8_2 t).mp hf; have := t.isLt; omega
  obtain rfl : t = t8_9 := Fin.ext h9
  show (cfg8.win 2).cut (grid8.coords t8_9) ((Hand.dat8 (F := Ideal) V c).after 2 t8_9) = _
  rw [Hand.after8_2]
  have hz' : (fun a => win8_2.index t8_9 a * main_v177.ty.shape.size a) = fun _ => 0 :=
    funext fun a => by fin_cases a <;> decide +kernel
  refine Eq.trans ?_ (Memref.read_access_unit_zero (Elt Ideal) main_v177 hz' (fun a => by rw [congrFun hz' a]; simp) (result8 V c)).symm
  funext y
  obtain ⟨γ, d, rfl⟩ : ∃ (γ d : Fin 128), y = ValueIdx.ix2 γ d := ⟨y 0, y 1, ValueIdx.eq_ix2 y⟩
  exact acc8_last V c t8_9.isLt γ d

theorem value8 (c : Dev nD) :
    (Hand.dat8 (F := Ideal) V c).arrAt 2 cfg8.N
      = Cert.Spec.toArr (Cert.Spec.pool (Cert.Spec.ofArr (V c main_v171 : S50000x128.Idx → EReal))
          (fun n => (V c main_v176 : S50000x1.Idx → BitVec 32) (ValueIdx.ix2 n 0))) :=
  (Hand.dat8 (F := Ideal) V c).arrAt_eq_of_cover 2 (result8 V c) (flushed8_eq V c) fun i =>
    ⟨t8_9, (flush8_2 t8_9).mpr rfl, by
      show i ∈ ((View.whole main_v177).slice (win8_2.rect t8_9)).set
      rw [View.set_slice_whole, Rect.mem_set_unit]
      intro a
      have h0 : (i 0 : Nat) < 128 := (i 0).isLt
      have h1 : (i 1 : Nat) < 128 := (i 1).isLt
      match a with
      | ⟨0, _⟩ =>
        show win8_2.index t8_9 0 * win8_2.size 0 ≤ (i 0 : Nat) ∧ (i 0 : Nat) < win8_2.index t8_9 0 * win8_2.size 0 + win8_2.xsize (grid8.coords t8_9) 0
        rw [show win8_2.index t8_9 0 * win8_2.size 0 = 0 from by decide +kernel, show win8_2.xsize (grid8.coords t8_9) 0 = 128 from by decide +kernel]; omega
      | ⟨1, _⟩ =>
        show win8_2.index t8_9 1 * win8_2.size 1 ≤ (i 1 : Nat) ∧ (i 1 : Nat) < win8_2.index t8_9 1 * win8_2.size 1 + win8_2.xsize (grid8.coords t8_9) 1
        rw [show win8_2.index t8_9 1 * win8_2.size 1 = 0 from by decide +kernel, show win8_2.xsize (grid8.coords t8_9) 1 = 128 from by decide +kernel]; omega⟩

end Cert.KernelIdeal.ValHand

end
-- ==== Proof.KVal.lean ====
import proofs.«428520_j76347338654282_1_alg».proof.Proof.Chain
import proofs.«428520_j76347338654282_1_alg».proof.Proof.KHost
import proofs.«428520_j76347338654282_1_alg».proof.Proof.ValLin
import proofs.«428520_j76347338654282_1_alg».proof.Proof.ValLin2
import proofs.«428520_j76347338654282_1_alg».proof.Proof.ValLin4
import proofs.«428520_j76347338654282_1_alg».proof.Proof.ValLin6
import proofs.«428520_j76347338654282_1_alg».proof.Proof.ValLn
import proofs.«428520_j76347338654282_1_alg».proof.Proof.ValLn3
import proofs.«428520_j76347338654282_1_alg».proof.Proof.ValLn5
import proofs.«428520_j76347338654282_1_alg».proof.Proof.ValLn7
import proofs.«428520_j76347338654282_1_alg».proof.Proof.ValPool

set_option maxRecDepth 1652

noncomputable section

namespace Cert.KernelIdeal.ValHand

open Idealize.ShloMosaic Idealize.ShloMosaic.TcCoe Idealize.ShloMosaic.StableHlo Idealize.ShloMosaic.ValueIdx Idealize.SL.Sem
open Cert.KernelIdeal Cert.KernelIdeal.Gen Cert.KernelIdeal.Hand

variable (m : (ℓ : Loc nD τ sig) → Buf (Elt Ideal) ℓ) (c : Dev nD)

theorem U1_of (b : Ref sig .tc) (h : b ∉ hostOps0_W) : U1 m c b = m (c, b) :=
  after_of_writes_sub hostOps0 _ hostOps0_writes h
theorem U3_of (b : Ref sig .tc) (h : b ∉ hostOps1_W) : U3 m c b = U2 m c b :=
  after_of_writes_sub hostOps1 _ hostOps1_writes h
theorem U5_of (b : Ref sig .tc) (h : b ∉ hostOps2_W) : U5 m c b = U4 m c b :=
  after_of_writes_sub hostOps2 _ hostOps2_writes h
theorem U7_of (b : Ref sig .tc) (h : b ∉ hostOps3_W) : U7 m c b = U6 m c b :=
  after_of_writes_sub hostOps3 _ hostOps3_writes h
theorem U9_of (b : Ref sig .tc) (h : b ∉ hostOps4_W) : U9 m c b = U8 m c b :=
  after_of_writes_sub hostOps4 _ hostOps4_writes h
theorem U11_of (b : Ref sig .tc) (h : b ∉ hostOps5_W) : U11 m c b = U10 m c b :=
  after_of_writes_sub hostOps5 _ hostOps5_writes h
theorem U13_of (b : Ref sig .tc) (h : b ∉ hostOps6_W) : U13 m c b = U12 m c b :=
  after_of_writes_sub hostOps6 _ hostOps6_writes h
theorem U15_of (b : Ref sig .tc) (h : b ∉ hostOps7_W) : U15 m c b = U14 m c b :=
  after_of_writes_sub hostOps7 _ hostOps7_writes h
theorem U17_of (b : Ref sig .tc) (h : b ∉ hostOps8_W) : U17 m c b = U16 m c b :=
  after_of_writes_sub hostOps8 _ hostOps8_writes h
theorem U19_of (b : Ref sig .tc) (h : b ∉ hostOps9_W) : U19 m c b = U18 m c b :=
  after_of_writes_sub hostOps9 _ hostOps9_writes h
theorem U20_of (b : Ref sig .tc) (h : b ∉ hostOps9_1_W) : U20 m c b = U19 m c b :=
  after_of_writes_sub hostOps9_1 _ hostOps9_1_writes h
theorem U21_of (b : Ref sig .tc) (h : b ∉ hostOps9_2_W) : U21 m c b = U20 m c b :=
  after_of_writes_sub hostOps9_2 _ hostOps9_2_writes h

abbrev argsL : List (Ref sig .tc) := [main_arg0, main_arg1, main_arg2, main_arg3, main_arg4, main_arg5, main_arg6]

theorem kept1 : ∀ b ∈ argsL, U1 m c b = m (c, b) := fun b hb =>
  U1_of m c b ((by decide : ∀ b ∈ argsL, b ∉ hostOps0_W) b hb)
theorem kept2 : ∀ b ∈ argsL, U2 m c b = m (c, b) := fun b hb =>
  (U2_of_ne m c b ((by decide : ∀ b ∈ argsL, b ≠ main_v34) b hb)).trans (kept1 m c b hb)
theorem kept3 : ∀ b ∈ argsL, U3 m c b = m (c, b) := fun b hb =>
  (U3_of m c b ((by decide : ∀ b ∈ argsL, b ∉ hostOps1_W) b hb)).trans (kept2 m c b hb)
theorem kept4 : ∀ b ∈ argsL, U4 m c b = m (c, b) := fun b hb =>
  (U4_of_ne m c b ((by decide : ∀ b ∈ argsL, b ≠ main_v66) b hb)).trans (kept3 m c b hb)
theorem kept5 : ∀ b ∈ argsL, U5 m c b = m (c, b) := fun b hb =>
  (U5_of m c b ((by decide : ∀ b ∈ argsL, b ∉ hostOps2_W) b hb)).trans (kept4 m c b hb)
theorem kept6 : ∀ b ∈ argsL, U6 m c b = m (c, b) := fun b hb =>
  (U6_of_ne m c b ((by decide : ∀ b ∈ argsL, b ≠ main_v69) b hb)).trans (kept5 m c b hb)
theorem kept7 : ∀ b ∈ argsL, U7 m c b = m (c, b) := fun b hb =>
  (U7_of m c b ((by decide : ∀ b ∈ argsL, b ∉ hostOps3_W) b hb)).trans (kept6 m c b hb)
theorem kept8 : ∀ b ∈ argsL, U8 m c b = m (c, b) := fun b hb =>
  (U8_of_ne m c b ((by decide : ∀ b ∈ argsL, b ≠ main_v101) b hb)).trans (kept7 m c b hb)
theorem kept9 : ∀ b ∈ argsL, U9 m c b = m (c, b) := fun b hb =>
  (U9_of m c b ((by decide : ∀ b ∈ argsL, b ∉ hostOps4_W) b hb)).trans (kept8 m c b hb)
theorem kept10 : ∀ b ∈ argsL, U10 m c b = m (c, b) := fun b hb =>
  (U10_of_ne m c b ((by decide : ∀ b ∈ argsL, b ≠ main_v104) b hb)).trans (kept9 m c b hb)
theorem kept11 : ∀ b ∈ argsL, U11 m c b = m (c, b) := fun b hb =>
  (U11_of m c b ((by decide : ∀ b ∈ argsL, b ∉ hostOps5_W) b hb)).trans (kept10 m c b hb)
theorem kept12 : ∀ b ∈ argsL, U12 m c b = m (c, b) := fun b hb =>
  (U12_of_ne m c b ((by decide : ∀ b ∈ argsL, b ≠ main_v136) b hb)).trans (kept11 m c b hb)
theorem kept13 : ∀ b ∈ argsL, U13 m c b = m (c, b) := fun b hb =>
  (U13_of m c b ((by decide : ∀ b ∈ argsL, b ∉ hostOps6_W) b hb)).trans (kept12 m c b hb)
theorem kept14 : ∀ b ∈ argsL, U14 m c b = m (c, b) := fun b hb =>
  (U14_of_ne m c b ((by decide : ∀ b ∈ argsL, b ≠ main_v139) b hb)).trans (kept13 m c b hb)
theorem kept15 : ∀ b ∈ argsL, U15 m c b = m (c, b) := fun b hb =>
  (U15_of m c b ((by decide : ∀ b ∈ argsL, b ∉ hostOps7_W) b hb)).trans (kept14 m c b hb)
theorem kept16 : ∀ b ∈ argsL, U16 m c b = m (c, b) := fun b hb =>
  (U16_of_ne m c b ((by decide : ∀ b ∈ argsL, b ≠ main_v171) b hb)).trans (kept15 m c b hb)
abbrev edgeL : List (Ref sig .tc) := [main_v1, main_v3, main_v30, main_v31]

theorem same2 : ∀ b ∈ edgeL, U2 m c b = U1 m c b := fun b hb =>
  U2_of_ne m c b ((by decide : ∀ b ∈ edgeL, b ≠ main_v34) b hb)
theorem same3 : ∀ b ∈ edgeL, U3 m c b = U1 m c b := fun b hb =>
  (U3_of m c b ((by decide : ∀ b ∈ edgeL, b ∉ hostOps1_W) b hb)).trans (same2 m c b hb)
theorem same4 : ∀ b ∈ edgeL, U4 m c b = U1 m c b := fun b hb =>
  (U4_of_ne m c b ((by decide : ∀ b ∈ edgeL, b ≠ main_v66) b hb)).trans (same3 m c b hb)
theorem same5 : ∀ b ∈ edgeL, U5 m c b = U1 m c b := fun b hb =>
  (U5_of m c b ((by decide : ∀ b ∈ edgeL, b ∉ hostOps2_W) b hb)).trans (same4 m c b hb)
theorem same6 : ∀ b ∈ edgeL, U6 m c b = U1 m c b := fun b hb =>
  (U6_of_ne m c b ((by decide : ∀ b ∈ edgeL, b ≠ main_v69) b hb)).trans (same5 m c b hb)
theorem same7 : ∀ b ∈ edgeL, U7 m c b = U1 m c b := fun b hb =>
  (U7_of m c b ((by decide : ∀ b ∈ edgeL, b ∉ hostOps3_W) b hb)).trans (same6 m c b hb)
theorem same8 : ∀ b ∈ edgeL, U8 m c b = U1 m c b := fun b hb =>
  (U8_of_ne m c b ((by decide : ∀ b ∈ edgeL, b ≠ main_v101) b hb)).trans (same7 m c b hb)
theorem same9 : ∀ b ∈ edgeL, U9 m c b = U1 m c b := fun b hb =>
  (U9_of m c b ((by decide : ∀ b ∈ edgeL, b ∉ hostOps4_W) b hb)).trans (same8 m c b hb)
theorem same10 : ∀ b ∈ edgeL, U10 m c b = U1 m c b := fun b hb =>
  (U10_of_ne m c b ((by decide : ∀ b ∈ edgeL, b ≠ main_v104) b hb)).trans (same9 m c b hb)
theorem same11 : ∀ b ∈ edgeL, U11 m c b = U1 m c b := fun b hb =>
  (U11_of m c b ((by decide : ∀ b ∈ edgeL, b ∉ hostOps5_W) b hb)).trans (same10 m c b hb)
theorem same12 : ∀ b ∈ edgeL, U12 m c b = U1 m c b := fun b hb =>
  (U12_of_ne m c b ((by decide : ∀ b ∈ edgeL, b ≠ main_v136) b hb)).trans (same11 m c b hb)
theorem same13 : ∀ b ∈ edgeL, U13 m c b = U1 m c b := fun b hb =>
  (U13_of m c b ((by decide : ∀ b ∈ edgeL, b ∉ hostOps6_W) b hb)).trans (same12 m c b hb)
theorem same14 : ∀ b ∈ edgeL, U14 m c b = U1 m c b := fun b hb =>
  (U14_of_ne m c b ((by decide : ∀ b ∈ edgeL, b ≠ main_v139) b hb)).trans (same13 m c b hb)
theorem p5_v66 : U5 m c main_v66 = U4 m c main_v66 :=
  (U5_of m c main_v66 (by decide))
theorem p7_v66 : U7 m c main_v66 = U4 m c main_v66 :=
  (U7_of m c main_v66 (by decide)).trans <| (U6_of_ne m c main_v66 (by decide)).trans <| (U5_of m c main_v66 (by decide))
theorem p9_v101 : U9 m c main_v101 = U8 m c main_v101 :=
  (U9_of m c main_v101 (by decide))
theorem p11_v101 : U11 m c main_v101 = U8 m c main_v101 :=
  (U11_of m c main_v101 (by decide)).trans <| (U10_of_ne m c main_v101 (by decide)).trans <| (U9_of m c main_v101 (by decide))
theorem p13_v136 : U13 m c main_v136 = U12 m c main_v136 :=
  (U13_of m c main_v136 (by decide))
theorem p15_v136 : U15 m c main_v136 = U12 m c main_v136 :=
  (U15_of m c main_v136 (by decide)).trans <| (U14_of_ne m c main_v136 (by decide)).trans <| (U13_of m c main_v136 (by decide))
theorem p17_v171 : U17 m c main_v171 = U16 m c main_v171 :=
  (U17_of m c main_v171 (by decide))
theorem p19_v175 : U19 m c main_v175 = U17 m c main_v175 :=
  (U19_of m c main_v175 (by decide)).trans <| (U18_of_ne m c main_v175 (by decide))
theorem p20_v177 : U20 m c main_v177 = U18 m c main_v177 :=
  (U20_of m c main_v177 (by decide)).trans <| (U19_of m c main_v177 (by decide))

abbrev kEi : S2x600000.Idx → BitVec 32 := m (c, main_arg1)

abbrev kGid : S50000.Idx → BitVec 32 := m (c, main_arg2)

abbrev kX0 : Fin 50000 → Fin 128 → EReal := Cert.Spec.ofArr (m (c, main_arg0))

abbrev kW : Fin 4 → Fin 128 → Fin 128 → EReal := fun l k j => m (c, main_arg3) (ix3 l k j)
abbrev kB : Fin 4 → Fin 128 → EReal := fun l j => m (c, main_arg4) (ix2 l j)
abbrev kG : Fin 4 → Fin 128 → EReal := fun l j => m (c, main_arg5) (ix2 l j)
abbrev kBt : Fin 4 → Fin 128 → EReal := fun l j => m (c, main_arg6) (ix2 l j)

def kX1 : Fin 50000 → Fin 128 → EReal := Cert.Spec.layer (KAgg (kEi m c)) (kX0 m c) (kW m c 0) (kB m c 0) (kG m c 0) (kBt m c 0)
def kX2 : Fin 50000 → Fin 128 → EReal := Cert.Spec.layer (KAgg (kEi m c)) (kX1 m c) (kW m c 1) (kB m c 1) (kG m c 1) (kBt m c 1)
def kX3 : Fin 50000 → Fin 128 → EReal := Cert.Spec.layer (KAgg (kEi m c)) (kX2 m c) (kW m c 2) (kB m c 2) (kG m c 2) (kBt m c 2)
def kX4 : Fin 50000 → Fin 128 → EReal := Cert.Spec.layer (KAgg (kEi m c)) (kX3 m c) (kW m c 3) (kB m c 3) (kG m c 3) (kBt m c 3)

theorem u1_src : (U1 m c main_v1 : S600000.Idx → BitVec 32) = KSrc (kEi m c) := s0_src _
theorem u1_dst : (U1 m c main_v3 : S600000.Idx → BitVec 32) = KDst (kEi m c) := s0_dst _
theorem u1_coef : (U1 m c main_v30 : S600000.Idx → EReal) = KCoef (kEi m c) := s0_coef _
theorem u1_self : (U1 m c main_v31 : S50000.Idx → EReal) = KSelf (kEi m c) := s0_self _

theorem w0_eq : Cert.Spec.ofArr (U1 m c main_v33 : S128x128.Idx → EReal) = kW m c 0 :=
  funext fun k => funext fun j => (s0_w _ k j)

theorem xin0_lin : Cert.Spec.ofArr (U1 m c main_arg0 : S50000x128.Idx → EReal) = kX0 m c := by
  rw [kept1 m c main_arg0 (by decide)]

theorem lin0_out : (U2 m c main_v34 : S50000x128.Idx → EReal) = Cert.Spec.toArr (Cert.Spec.linear (kX0 m c) (kW m c 0)) := by
  rw [U2_out]; unfold o2
  refine (value0 (fun c b => U1 m c b) c).trans ?_
  show Cert.Spec.toArr (Cert.Spec.linear (Cert.Spec.ofArr (U1 m c main_arg0 : S50000x128.Idx → EReal)) (Cert.Spec.ofArr (U1 m c main_v33 : S128x128.Idx → EReal))) = _
  rw [xin0_lin, w0_eq]

theorem agg0_out : Cert.Spec.ofArr (U3 m c main_v56 : S50000x128.Idx → EReal)
    = KAgg (kEi m c) (Cert.Spec.linear (kX0 m c) (kW m c 0)) := by
  have e := s1_agg (U2 m c) (kEi m c) ((same2 m c main_v1 (by decide)).trans (u1_src m c)) ((same2 m c main_v3 (by decide)).trans (u1_dst m c))
    ((same2 m c main_v30 (by decide)).trans (u1_coef m c)) ((same2 m c main_v31 (by decide)).trans (u1_self m c))
  rw [lin0_out] at e
  show Cert.Spec.ofArr (after hostOps1 (U2 m c) main_v56 : S50000x128.Idx → EReal) = _
  rw [e]; rfl

theorem xin0_ln : Cert.Spec.ofArr (U3 m c main_arg0 : S50000x128.Idx → EReal) = kX0 m c := by
  rw [kept3 m c main_arg0 (by decide)]

theorem b0_eq : (fun j => (U3 m c main_v63 : S1x128.Idx → EReal) (ix2 0 j)) = kB m c 0 :=
  funext fun j => (s1_b (U2 m c) 0 j).trans (congrFun (kept2 m c main_arg4 (by decide)) _)
theorem g0_eq : (fun j => (U3 m c main_v64 : S1x128.Idx → EReal) (ix2 0 j)) = kG m c 0 :=
  funext fun j => (s1_g (U2 m c) 0 j).trans (congrFun (kept2 m c main_arg5 (by decide)) _)
theorem bt0_eq : (fun j => (U3 m c main_v65 : S1x128.Idx → EReal) (ix2 0 j)) = kBt m c 0 :=
  funext fun j => (s1_bt (U2 m c) 0 j).trans (congrFun (kept2 m c main_arg6 (by decide)) _)

theorem x1_out : (U4 m c main_v66 : S50000x128.Idx → EReal) = Cert.Spec.toArr (kX1 m c) := by
  rw [U4_out]; unfold o4
  refine (value1 (fun c b => U3 m c b) c).trans ?_
  show Cert.Spec.toArr (Cert.Spec.normRelu (Cert.Spec.resid (Cert.Spec.ofArr (U3 m c main_arg0 : S50000x128.Idx → EReal))
      (Cert.Spec.ofArr (U3 m c main_v56 : S50000x128.Idx → EReal)) (fun j => (U3 m c main_v63 : S1x128.Idx → EReal) (ix2 0 j)))
      (fun j => (U3 m c main_v64 : S1x128.Idx → EReal) (ix2 0 j)) (fun j => (U3 m c main_v65 : S1x128.Idx → EReal) (ix2 0 j))) = _
  rw [xin0_ln, agg0_out, b0_eq, g0_eq, bt0_eq]; rfl

theorem w1_eq : Cert.Spec.ofArr (U5 m c main_v68 : S128x128.Idx → EReal) = kW m c 1 :=
  funext fun k => funext fun j => (s2_w (U4 m c) k j).trans (congrFun (kept4 m c main_arg3 (by decide)) _)

theorem xin1_lin : Cert.Spec.ofArr (U5 m c main_v66 : S50000x128.Idx → EReal) = kX1 m c := by
  rw [p5_v66, x1_out]; rfl

theorem lin1_out : (U6 m c main_v69 : S50000x128.Idx → EReal) = Cert.Spec.toArr (Cert.Spec.linear (kX1 m c) (kW m c 1)) := by
  rw [U6_out]; unfold o6
  refine (value2 (fun c b => U5 m c b) c).trans ?_
  show Cert.Spec.toArr (Cert.Spec.linear (Cert.Spec.ofArr (U5 m c main_v66 : S50000x128.Idx → EReal)) (Cert.Spec.ofArr (U5 m c main_v68 : S128x128.Idx → EReal))) = _
  rw [xin1_lin, w1_eq]

theorem agg1_out : Cert.Spec.ofArr (U7 m c main_v91 : S50000x128.Idx → EReal)
    = KAgg (kEi m c) (Cert.Spec.linear (kX1 m c) (kW m c 1)) := by
  have e := s3_agg (U6 m c) (kEi m c) ((same6 m c main_v1 (by decide)).trans (u1_src m c)) ((same6 m c main_v3 (by decide)).trans (u1_dst m c))
    ((same6 m c main_v30 (by decide)).trans (u1_coef m c)) ((same6 m c main_v31 (by decide)).trans (u1_self m c))
  rw [lin1_out] at e
  show Cert.Spec.ofArr (after hostOps3 (U6 m c) main_v91 : S50000x128.Idx → EReal) = _
  rw [e]; rfl

theorem xin1_ln : Cert.Spec.ofArr (U7 m c main_v66 : S50000x128.Idx → EReal) = kX1 m c := by
  rw [p7_v66, x1_out]; rfl

theorem b1_eq : (fun j => (U7 m c main_v98 : S1x128.Idx → EReal) (ix2 0 j)) = kB m c 1 :=
  funext fun j => (s3_b (U6 m c) 0 j).trans (congrFun (kept6 m c main_arg4 (by decide)) _)
theorem g1_eq : (fun j => (U7 m c main_v99 : S1x128.Idx → EReal) (ix2 0 j)) = kG m c 1 :=
  funext fun j => (s3_g (U6 m c) 0 j).trans (congrFun (kept6 m c main_arg5 (by decide)) _)
theorem bt1_eq : (fun j => (U7 m c main_v100 : S1x128.Idx → EReal) (ix2 0 j)) = kBt m c 1 :=
  funext fun j => (s3_bt (U6 m c) 0 j).trans (congrFun (kept6 m c main_arg6 (by decide)) _)

theorem x2_out : (U8 m c main_v101 : S50000x128.Idx → EReal) = Cert.Spec.toArr (kX2 m c) := by
  rw [U8_out]; unfold o8
  refine (value3 (fun c b => U7 m c b) c).trans ?_
  show Cert.Spec.toArr (Cert.Spec.normRelu (Cert.Spec.resid (Cert.Spec.ofArr (U7 m c main_v66 : S50000x128.Idx → EReal))
      (Cert.Spec.ofArr (U7 m c main_v91 : S50000x128.Idx → EReal)) (fun j => (U7 m c main_v98 : S1x128.Idx → EReal) (ix2 0 j)))
      (fun j => (U7 m c main_v99 : S1x128.Idx → EReal) (ix2 0 j)) (fun j => (U7 m c main_v100 : S1x128.Idx → EReal) (ix2 0 j))) = _
  rw [xin1_ln, agg1_out, b1_eq, g1_eq, bt1_eq]; rfl

theorem w2_eq : Cert.Spec.ofArr (U9 m c main_v103 : S128x128.Idx → EReal) = kW m c 2 :=
  funext fun k => funext fun j => (s4_w (U8 m c) k j).trans (congrFun (kept8 m c main_arg3 (by decide)) _)

theorem xin2_lin : Cert.Spec.ofArr (U9 m c main_v101 : S50000x128.Idx → EReal) = kX2 m c := by
  rw [p9_v101, x2_out]; rfl

theorem lin2_out : (U10 m c main_v104 : S50000x128.Idx → EReal) = Cert.Spec.toArr (Cert.Spec.linear (kX2 m c) (kW m c 2)) := by
  rw [U10_out]; unfold o10
  refine (value4 (fun c b => U9 m c b) c).trans ?_
  show Cert.Spec.toArr (Cert.Spec.linear (Cert.Spec.ofArr (U9 m c main_v101 : S50000x128.Idx → EReal)) (Cert.Spec.ofArr (U9 m c main_v103 : S128x128.Idx → EReal))) = _
  rw [xin2_lin, w2_eq]

theorem agg2_out : Cert.Spec.ofArr (U11 m c main_v126 : S50000x128.Idx → EReal)
    = KAgg (kEi m c) (Cert.Spec.linear (kX2 m c) (kW m c 2)) := by
  have e := s5_agg (U10 m c) (kEi m c) ((same10 m c main_v1 (by decide)).trans (u1_src m c)) ((same10 m c main_v3 (by decide)).trans (u1_dst m c))
    ((same10 m c main_v30 (by decide)).trans (u1_coef m c)) ((same10 m c main_v31 (by decide)).trans (u1_self m c))
  rw [lin2_out] at e
  show Cert.Spec.ofArr (after hostOps5 (U10 m c) main_v126 : S50000x128.Idx → EReal) = _
  rw [e]; rfl

theorem xin2_ln : Cert.Spec.ofArr (U11 m c main_v101 : S50000x128.Idx → EReal) = kX2 m c := by
  rw [p11_v101, x2_out]; rfl

theorem b2_eq : (fun j => (U11 m c main_v133 : S1x128.Idx → EReal) (ix2 0 j)) = kB m c 2 :=
  funext fun j => (s5_b (U10 m c) 0 j).trans (congrFun (kept10 m c main_arg4 (by decide)) _)
theorem g2_eq : (fun j => (U11 m c main_v134 : S1x128.Idx → EReal) (ix2 0 j)) = kG m c 2 :=
  funext fun j => (s5_g (U10 m c) 0 j).trans (congrFun (kept10 m c main_arg5 (by decide)) _)
theorem bt2_eq : (fun j => (U11 m c main_v135 : S1x128.Idx → EReal) (ix2 0 j)) = kBt m c 2 :=
  funext fun j => (s5_bt (U10 m c) 0 j).trans (congrFun (kept10 m c main_arg6 (by decide)) _)

theorem x3_out : (U12 m c main_v136 : S50000x128.Idx → EReal) = Cert.Spec.toArr (kX3 m c) := by
  rw [U12_out]; unfold o12
  refine (value5 (fun c b => U11 m c b) c).trans ?_
  show Cert.Spec.toArr (Cert.Spec.normRelu (Cert.Spec.resid (Cert.Spec.ofArr (U11 m c main_v101 : S50000x128.Idx → EReal))
      (Cert.Spec.ofArr (U11 m c main_v126 : S50000x128.Idx → EReal)) (fun j => (U11 m c main_v133 : S1x128.Idx → EReal) (ix2 0 j)))
      (fun j => (U11 m c main_v134 : S1x128.Idx → EReal) (ix2 0 j)) (fun j => (U11 m c main_v135 : S1x128.Idx → EReal) (ix2 0 j))) = _
  rw [xin2_ln, agg2_out, b2_eq, g2_eq, bt2_eq]; rfl

theorem w3_eq : Cert.Spec.ofArr (U13 m c main_v138 : S128x128.Idx → EReal) = kW m c 3 :=
  funext fun k => funext fun j => (s6_w (U12 m c) k j).trans (congrFun (kept12 m c main_arg3 (by decide)) _)

theorem xin3_lin : Cert.Spec.ofArr (U13 m c main_v136 : S50000x128.Idx → EReal) = kX3 m c := by
  rw [p13_v136, x3_out]; rfl

theorem lin3_out : (U14 m c main_v139 : S50000x128.Idx → EReal) = Cert.Spec.toArr (Cert.Spec.linear (kX3 m c) (kW m c 3)) := by
  rw [U14_out]; unfold o14
  refine (value6 (fun c b => U13 m c b) c).trans ?_
  show Cert.Spec.toArr (Cert.Spec.linear (Cert.Spec.ofArr (U13 m c main_v136 : S50000x128.Idx → EReal)) (Cert.Spec.ofArr (U13 m c main_v138 : S128x128.Idx → EReal))) = _
  rw [xin3_lin, w3_eq]

theorem agg3_out : Cert.Spec.ofArr (U15 m c main_v161 : S50000x128.Idx → EReal)
    = KAgg (kEi m c) (Cert.Spec.linear (kX3 m c) (kW m c 3)) := by
  have e := s7_agg (U14 m c) (kEi m c) ((same14 m c main_v1 (by decide)).trans (u1_src m c)) ((same14 m c main_v3 (by decide)).trans (u1_dst m c))
    ((same14 m c main_v30 (by decide)).trans (u1_coef m c)) ((same14 m c main_v31 (by decide)).trans (u1_self m c))
  rw [lin3_out] at e
  show Cert.Spec.ofArr (after hostOps7 (U14 m c) main_v161 : S50000x128.Idx → EReal) = _
  rw [e]; rfl

theorem xin3_ln : Cert.Spec.ofArr (U15 m c main_v136 : S50000x128.Idx → EReal) = kX3 m c := by
  rw [p15_v136, x3_out]; rfl

theorem b3_eq : (fun j => (U15 m c main_v168 : S1x128.Idx → EReal) (ix2 0 j)) = kB m c 3 :=
  funext fun j => (s7_b (U14 m c) 0 j).trans (congrFun (kept14 m c main_arg4 (by decide)) _)
theorem g3_eq : (fun j => (U15 m c main_v169 : S1x128.Idx → EReal) (ix2 0 j)) = kG m c 3 :=
  funext fun j => (s7_g (U14 m c) 0 j).trans (congrFun (kept14 m c main_arg5 (by decide)) _)
theorem bt3_eq : (fun j => (U15 m c main_v170 : S1x128.Idx → EReal) (ix2 0 j)) = kBt m c 3 :=
  funext fun j => (s7_bt (U14 m c) 0 j).trans (congrFun (kept14 m c main_arg6 (by decide)) _)

theorem x4_out : (U16 m c main_v171 : S50000x128.Idx → EReal) = Cert.Spec.toArr (kX4 m c) := by
  rw [U16_out]; unfold o16
  refine (value7 (fun c b => U15 m c b) c).trans ?_
  show Cert.Spec.toArr (Cert.Spec.normRelu (Cert.Spec.resid (Cert.Spec.ofArr (U15 m c main_v136 : S50000x128.Idx → EReal))
      (Cert.Spec.ofArr (U15 m c main_v161 : S50000x128.Idx → EReal)) (fun j => (U15 m c main_v168 : S1x128.Idx → EReal) (ix2 0 j)))
      (fun j => (U15 m c main_v169 : S1x128.Idx → EReal) (ix2 0 j)) (fun j => (U15 m c main_v170 : S1x128.Idx → EReal) (ix2 0 j))) = _
  rw [xin3_ln, agg3_out, b3_eq, g3_eq, bt3_eq]; rfl

theorem pool_out : (U18 m c main_v177 : S128x128.Idx → EReal)
    = Cert.Spec.toArr (Cert.Spec.pool (kX4 m c) (fun n => kGid m c (ix1 n))) := by
  rw [U18_out]; unfold o18
  refine (value8 (fun c b => U17 m c b) c).trans ?_
  show Cert.Spec.toArr (Cert.Spec.pool (Cert.Spec.ofArr (U17 m c main_v171 : S50000x128.Idx → EReal))
      (fun n => (U17 m c main_v176 : S50000x1.Idx → BitVec 32) (ix2 n 0))) = _
  have hx : Cert.Spec.ofArr (U17 m c main_v171 : S50000x128.Idx → EReal) = kX4 m c := by
    rw [p17_v171, x4_out]; rfl
  have hg : (fun n => (U17 m c main_v176 : S50000x1.Idx → BitVec 32) (ix2 n 0)) = fun n => kGid m c (ix1 n) :=
    funext fun n => (s8_gid (U16 m c) n 0).trans (congrFun (kept16 m c main_arg2 (by decide)) _)
  rw [hx, hg]

theorem clip_out : (U20 m c main_v178 : S128.Idx → EReal) = KClip (kGid m c) := by
  have h9 : (U19 m c main_cst_29 : S_.Idx → EReal) = constant (F := Ideal) S_ .f32 0x3F800000#32 := s9_one (U18 m c)
  have h175 : (U19 m c main_v175 : S128.Idx → EReal) = KCnt (kGid m c) := by
    rw [p19_v175]; exact (s8_cnt (U16 m c)).trans (congrArg KCnt (kept16 m c main_arg2 (by decide)))
  have e := s9_1_clip (U19 m c)
  rw [h9, h175] at e
  exact e

theorem kernel_value :
    (U21 m c main_v181 : S128x128.Idx → EReal)
      = Cert.Spec.toArr (Cert.Spec.result (KAgg (m (c, main_arg1))) (KTail (m (c, main_arg2))) (Cert.Spec.ofArr (m (c, main_arg0)))
          (fun l k j => m (c, main_arg3) (ix3 l k j)) (fun l j => m (c, main_arg4) (ix2 l j)) (fun l j => m (c, main_arg5) (ix2 l j))
          (fun l j => m (c, main_arg6) (ix2 l j)) (fun n => m (c, main_arg2) (ix1 n))) := by
  have e := s9_2_div (U20 m c)
  rw [clip_out, p20_v177, pool_out] at e
  refine e.trans ?_
  show KTailArr (kGid m c) (Cert.Spec.toArr (Cert.Spec.pool (kX4 m c) (fun n => kGid m c (ix1 n)))) = _
  unfold Cert.Spec.result KTail
  rw [Cert.Spec.toArr_ofArr]
  rfl

end Cert.KernelIdeal.ValHand

end
-- ==== Proof.Algebraic.lean ====
import proofs.«428520_j76347338654282_1_alg».proof.Defs
import proofs.«428520_j76347338654282_1_alg».proof.Proof.Gen.Pre_finite_inputs
import proofs.«428520_j76347338654282_1_alg».proof.Proof.Bridge
import proofs.«428520_j76347338654282_1_alg».proof.Proof.RefRun
import proofs.«428520_j76347338654282_1_alg».proof.Proof.RefVal
import proofs.«428520_j76347338654282_1_alg».proof.Proof.Run
import proofs.«428520_j76347338654282_1_alg».proof.Proof.KVal

noncomputable section

namespace Cert.Proof.Algebraic

open Idealize.ShloMosaic Idealize.ShloMosaic.TcCoe Idealize.SL.Sem
open Cert.Proof.Bridge

theorem algebraic : Cert.algebraic_KernelIdeal_ReferenceIdeal := by
  intro m ρ m' ρ' _ hagree
  refine ⟨fun c => Cert.KernelIdeal.Hand.U21 (F := Ideal) m c Cert.KernelIdeal.main_v181,
    Cert.KernelIdeal.Hand.run_value (F := Ideal) m ρ, ?_⟩
  refine (θ_run Cert.ReferenceIdeal.defs _ _).mono (fun r h c => ⟨(h c).1.trans ?_, (h c).2⟩)
    (Cert.ReferenceIdeal.Hand.run_io (F := Ideal) m' ρ')
  have e0 : StableHlo.launchContents m' c (Proc.devRef .tc Cert.ReferenceIdeal.main_arg0)
      = m (c, Proc.devRef .tc Cert.KernelIdeal.main_arg0) := (hagree c).1
  have e1 : StableHlo.launchContents m' c (Proc.devRef .tc Cert.ReferenceIdeal.main_arg1)
      = m (c, Proc.devRef .tc Cert.KernelIdeal.main_arg1) := (hagree c).2.1
  have e2 : StableHlo.launchContents m' c (Proc.devRef .tc Cert.ReferenceIdeal.main_arg2)
      = m (c, Proc.devRef .tc Cert.KernelIdeal.main_arg2) := (hagree c).2.2.1
  have e3 : StableHlo.launchContents m' c (Proc.devRef .tc Cert.ReferenceIdeal.main_arg3)
      = m (c, Proc.devRef .tc Cert.KernelIdeal.main_arg3) := (hagree c).2.2.2.1
  have e4 : StableHlo.launchContents m' c (Proc.devRef .tc Cert.ReferenceIdeal.main_arg4)
      = m (c, Proc.devRef .tc Cert.KernelIdeal.main_arg4) := (hagree c).2.2.2.2.1
  have e5 : StableHlo.launchContents m' c (Proc.devRef .tc Cert.ReferenceIdeal.main_arg5)
      = m (c, Proc.devRef .tc Cert.KernelIdeal.main_arg5) := (hagree c).2.2.2.2.2.1
  have e6 : StableHlo.launchContents m' c (Proc.devRef .tc Cert.ReferenceIdeal.main_arg6)
      = m (c, Proc.devRef .tc Cert.KernelIdeal.main_arg6) := (hagree c).2.2.2.2.2.2
  refine (Cert.ReferenceIdeal.ValHand.ref_value (StableHlo.launchContents m' c)).trans
    (Eq.trans ?_ (Cert.KernelIdeal.ValHand.kernel_value m c).symm)
  rw [e0, e1, e2, e3, e4, e5, e6, agg_eq, tail_eq]

end Cert.Proof.Algebraic

end
-- ==== Proof.lean ====
import proofs.«428520_j76347338654282_1_alg».proof.Defs
import proofs.«428520_j76347338654282_1_alg».proof.Proof.Gen.Kernel
import proofs.«428520_j76347338654282_1_alg».proof.Proof.Gen.KernelIdeal
import proofs.«428520_j76347338654282_1_alg».proof.Proof.Gen.ReferenceIdeal
import proofs.«428520_j76347338654282_1_alg».proof.Proof.Gen.Pre_finite_inputs
import proofs.«428520_j76347338654282_1_alg».proof.Proof.Run
import proofs.«428520_j76347338654282_1_alg».proof.Proof.Bits.Run
import proofs.«428520_j76347338654282_1_alg».proof.Proof.RefRun
import proofs.«428520_j76347338654282_1_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => (θ_run Cert.Kernel.defs _ _).mono (fun _ h c => (h c).2) (Cert.Kernel.Hand.run_value m ρ),
  fun m ρ _ => (θ_run Cert.KernelIdeal.defs _ _).mono (fun _ h c => (h c).2) (Cert.KernelIdeal.Hand.run_value m ρ),
  fun m ρ _ => (θ_run Cert.ReferenceIdeal.defs _ _).mono (fun _ h c => (h c).2) (Cert.ReferenceIdeal.Hand.run_io m ρ),
  trivial,
  Cert.Proof.Algebraic.algebraic⟩

end Cert.Proof

end
